-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v447) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S8x256 : Shape := ⟨2, ![8, 256]⟩
abbrev S30001x100 : Shape := ⟨2, ![30001, 100]⟩
abbrev S50001x100 : Shape := ⟨2, ![50001, 100]⟩
abbrev S100001x100 : Shape := ⟨2, ![100001, 100]⟩
abbrev S5001x100 : Shape := ⟨2, ![5001, 100]⟩
abbrev S1001x100 : Shape := ⟨2, ![1001, 100]⟩
abbrev S8x100 : Shape := ⟨2, ![8, 100]⟩
abbrev S50001 : Shape := ⟨1, ![50001]⟩
abbrev S100001 : Shape := ⟨1, ![100001]⟩
abbrev S5001 : Shape := ⟨1, ![5001]⟩
abbrev S1001 : Shape := ⟨1, ![1001]⟩
abbrev S_ : Shape := ⟨0, ![]⟩
abbrev S4096x1 : Shape := ⟨2, ![4096, 1]⟩
abbrev S4096 : Shape := ⟨1, ![4096]⟩
abbrev S1x256 : Shape := ⟨2, ![1, 256]⟩
abbrev S256 : Shape := ⟨1, ![256]⟩

class Facts : Prop where
  bcast_S_S30001x100 : S_.BroadcastsInDim S30001x100 (![] : Fin 0 → Fin S30001x100.rank)
  reducesTo_S30001x100_S_d0_1 : S30001x100.ReducesTo [0, 1] S_
  h_S_ : 0 < S_.numel
  bcast_S_S50001x100 : S_.BroadcastsInDim S50001x100 (![] : Fin 0 → Fin S50001x100.rank)
  reducesTo_S50001x100_S_d0_1 : S50001x100.ReducesTo [0, 1] S_
  bcast_S_S100001x100 : S_.BroadcastsInDim S100001x100 (![] : Fin 0 → Fin S100001x100.rank)
  reducesTo_S100001x100_S_d0_1 : S100001x100.ReducesTo [0, 1] S_
  bcast_S_S5001x100 : S_.BroadcastsInDim S5001x100 (![] : Fin 0 → Fin S5001x100.rank)
  reducesTo_S5001x100_S_d0_1 : S5001x100.ReducesTo [0, 1] S_
  bcast_S_S1001x100 : S_.BroadcastsInDim S1001x100 (![] : Fin 0 → Fin S1001x100.rank)
  reducesTo_S1001x100_S_d0_1 : S1001x100.ReducesTo [0, 1] S_
  bcast_S_S8x100 : S_.BroadcastsInDim S8x100 (![] : Fin 0 → Fin S8x100.rank)
  reducesTo_S8x100_S_d0_1 : S8x100.ReducesTo [0, 1] S_
  bcast_S_S50001 : S_.BroadcastsInDim S50001 (![] : Fin 0 → Fin S50001.rank)
  reducesTo_S50001_S_d0 : S50001.ReducesTo [0] S_
  bcast_S_S100001 : S_.BroadcastsInDim S100001 (![] : Fin 0 → Fin S100001.rank)
  reducesTo_S100001_S_d0 : S100001.ReducesTo [0] S_
  bcast_S_S5001 : S_.BroadcastsInDim S5001 (![] : Fin 0 → Fin S5001.rank)
  reducesTo_S5001_S_d0 : S5001.ReducesTo [0] S_
  bcast_S_S1001 : S_.BroadcastsInDim S1001 (![] : Fin 0 → Fin S1001.rank)
  reducesTo_S1001_S_d0 : S1001.ReducesTo [0] S_
  slices_S4096x8_S4096x1_0_0 : S4096x8.Slices ![0, 0] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_
  slices_S4096x8_S4096x1_0_1 : S4096x8.Slices ![0, 1] S4096x1
  slices_S4096x8_S4096x1_0_2 : S4096x8.Slices ![0, 2] S4096x1
  slices_S4096x8_S4096x1_0_3 : S4096x8.Slices ![0, 3] S4096x1
  slices_S4096x8_S4096x1_0_4 : S4096x8.Slices ![0, 4] S4096x1
  slices_S4096x8_S4096x1_0_5 : S4096x8.Slices ![0, 5] S4096x1
  slices_S4096x8_S4096x1_0_6 : S4096x8.Slices ![0, 6] S4096x1
  slices_S4096x8_S4096x1_0_7 : S4096x8.Slices ![0, 7] S4096x1
  slices_S8x256_S1x256_0_0 : S8x256.Slices ![0, 0] S1x256
  shapeCasts_S1x256_S256 : S1x256.ShapeCasts S256
  bcast_S_S256 : S_.BroadcastsInDim S256 (![] : Fin 0 → Fin S256.rank)
  reducesTo_S256_S_d0 : S256.ReducesTo [0] S_
  slices_S8x256_S1x256_1_0 : S8x256.Slices ![1, 0] S1x256
  slices_S8x256_S1x256_2_0 : S8x256.Slices ![2, 0] S1x256
  slices_S8x256_S1x256_3_0 : S8x256.Slices ![3, 0] S1x256
  slices_S8x256_S1x256_4_0 : S8x256.Slices ![4, 0] S1x256
  slices_S8x256_S1x256_5_0 : S8x256.Slices ![5, 0] S1x256
  slices_S8x256_S1x256_6_0 : S8x256.Slices ![6, 0] S1x256
  slices_S8x256_S1x256_7_0 : S8x256.Slices ![7, 0] S1x256

variable [Facts]

def fn_part13 {F : FTy → Type} [FloatOps F] (main_arg1 : IVec S8x256 32) (main_v227 : IVec S_ 1) (main_v236 : IVec S256 1) (main_c_72 : IVec S_ 1) : IVec S_ 1 :=
  let main_v237 : IVec S_ 1 := (fun x v => Host.reduce IntOp.andi x v reducesTo_S256_S_d0 h_S_) main_v236 main_c_72
  let main_v238 : IVec S_ 1 := andi main_v227 main_v237
  let main_v239 : IVec S1x256 32 := (extractStridedSlice S1x256 ![7, 0] · slices_S8x256_S1x256_7_0) main_arg1
  let main_v240 : IVec S256 32 := shapeCast S256 main_v239 shapeCasts_S1x256_S256
  let main_c_73 : IVec S_ 32 := constantI S_ 32 0#32
  let main_v241 : IVec S256 32 := broadcastInDim S256 ![] bcast_S_S256 main_c_73
  let main_v242 : IVec S256 1 := cmpi .sge main_v240 main_v241
  let main_v243 : IVec S1x256 32 := (extractStridedSlice S1x256 ![7, 0] · slices_S8x256_S1x256_7_0) main_arg1
  let main_v244 : IVec S256 32 := shapeCast S256 main_v243 shapeCasts_S1x256_S256
  let main_c_74 : IVec S_ 32 := constantI S_ 32 50001#32
  let main_v245 : IVec S256 32 := broadcastInDim S256 ![] bcast_S_S256 main_c_74
  let main_v246 : IVec S256 1 := cmpi .slt main_v244 main_v245
  let main_v247 : IVec S256 1 := andi main_v242 main_v246
  let main_c_75 : IVec S_ 1 := constantI S_ 1 1#1
  let main_v248 : IVec S_ 1 := (fun x v => Host.reduce IntOp.andi x v reducesTo_S256_S_d0 h_S_) main_v247 main_c_75
  let main_v249 : IVec S_ 1 := andi main_v238 main_v248
  main_v249

def fn_part12 {F : FTy → Type} [FloatOps F] (main_arg1 : IVec S8x256 32) (main_v216 : IVec S_ 1) (main_v218 : IVec S256 32) : IVec S_ 1 :=
  let main_c_67 : IVec S_ 32 := constantI S_ 32 0#32
  let main_v219 : IVec S256 32 := broadcastInDim S256 ![] bcast_S_S256 main_c_67
  let main_v220 : IVec S256 1 := cmpi .sge main_v218 main_v219
  let main_v221 : IVec S1x256 32 := (extractStridedSlice S1x256 ![5, 0] · slices_S8x256_S1x256_5_0) main_arg1
  let main_v222 : IVec S256 32 := shapeCast S256 main_v221 shapeCasts_S1x256_S256
  let main_c_68 : IVec S_ 32 := constantI S_ 32 50001#32
  let main_v223 : IVec S256 32 := broadcastInDim S256 ![] bcast_S_S256 main_c_68
  let main_v224 : IVec S256 1 := cmpi .slt main_v222 main_v223
  let main_v225 : IVec S256 1 := andi main_v220 main_v224
  let main_c_69 : IVec S_ 1 := constantI S_ 1 1#1
  let main_v226 : IVec S_ 1 := (fun x v => Host.reduce IntOp.andi x v reducesTo_S256_S_d0 h_S_) main_v225 main_c_69
  let main_v227 : IVec S_ 1 := andi main_v216 main_v226
  let main_v228 : IVec S1x256 32 := (extractStridedSlice S1x256 ![6, 0] · slices_S8x256_S1x256_6_0) main_arg1
  let main_v229 : IVec S256 32 := shapeCast S256 main_v228 shapeCasts_S1x256_S256
  let main_c_70 : IVec S_ 32 := constantI S_ 32 0#32
  let main_v230 : IVec S256 32 := broadcastInDim S256 ![] bcast_S_S256 main_c_70
  let main_v231 : IVec S256 1 := cmpi .sge main_v229 main_v230
  let main_v232 : IVec S1x256 32 := (extractStridedSlice S1x256 ![6, 0] · slices_S8x256_S1x256_6_0) main_arg1
  let main_v233 : IVec S256 32 := shapeCast S256 main_v232 shapeCasts_S1x256_S256
  let main_c_71 : IVec S_ 32 := constantI S_ 32 50001#32
  let main_v234 : IVec S256 32 := broadcastInDim S256 ![] bcast_S_S256 main_c_71
  let main_v235 : IVec S256 1 := cmpi .slt main_v233 main_v234
  let main_v236 : IVec S256 1 := andi main_v231 main_v235
  let main_c_72 : IVec S_ 1 := constantI S_ 1 1#1
  fn_part13 (F := F) main_arg1 main_v227 main_v236 main_c_72

def fn_part11 {F : FTy → Type} [FloatOps F] (main_arg1 : IVec S8x256 32) (main_v194 : IVec S_ 1) (main_v198 : IVec S256 1) (main_v199 : IVec S1x256 32) : IVec S_ 1 :=
  let main_v200 : IVec S256 32 := shapeCast S256 main_v199 shapeCasts_S1x256_S256
  let main_c_62 : IVec S_ 32 := constantI S_ 32 5001#32
  let main_v201 : IVec S256 32 := broadcastInDim S256 ![] bcast_S_S256 main_c_62
  let main_v202 : IVec S256 1 := cmpi .slt main_v200 main_v201
  let main_v203 : IVec S256 1 := andi main_v198 main_v202
  let main_c_63 : IVec S_ 1 := constantI S_ 1 1#1
  let main_v204 : IVec S_ 1 := (fun x v => Host.reduce IntOp.andi x v reducesTo_S256_S_d0 h_S_) main_v203 main_c_63
  let main_v205 : IVec S_ 1 := andi main_v194 main_v204
  let main_v206 : IVec S1x256 32 := (extractStridedSlice S1x256 ![4, 0] · slices_S8x256_S1x256_4_0) main_arg1
  let main_v207 : IVec S256 32 := shapeCast S256 main_v206 shapeCasts_S1x256_S256
  let main_c_64 : IVec S_ 32 := constantI S_ 32 0#32
  let main_v208 : IVec S256 32 := broadcastInDim S256 ![] bcast_S_S256 main_c_64
  let main_v209 : IVec S256 1 := cmpi .sge main_v207 main_v208
  let main_v210 : IVec S1x256 32 := (extractStridedSlice S1x256 ![4, 0] · slices_S8x256_S1x256_4_0) main_arg1
  let main_v211 : IVec S256 32 := shapeCast S256 main_v210 shapeCasts_S1x256_S256
  let main_c_65 : IVec S_ 32 := constantI S_ 32 1001#32
  let main_v212 : IVec S256 32 := broadcastInDim S256 ![] bcast_S_S256 main_c_65
  let main_v213 : IVec S256 1 := cmpi .slt main_v211 main_v212
  let main_v214 : IVec S256 1 := andi main_v209 main_v213
  let main_c_66 : IVec S_ 1 := constantI S_ 1 1#1
  let main_v215 : IVec S_ 1 := (fun x v => Host.reduce IntOp.andi x v reducesTo_S256_S_d0 h_S_) main_v214 main_c_66
  let main_v216 : IVec S_ 1 := andi main_v205 main_v215
  let main_v217 : IVec S1x256 32 := (extractStridedSlice S1x256 ![5, 0] · slices_S8x256_S1x256_5_0) main_arg1
  let main_v218 : IVec S256 32 := shapeCast S256 main_v217 shapeCasts_S1x256_S256
  fn_part12 (F := F) main_arg1 main_v216 main_v218

def fn_part10 {F : FTy → Type} [FloatOps F] (main_arg1 : IVec S8x256 32) (main_v172 : IVec S_ 1) (main_v176 : IVec S256 1) (main_v180 : IVec S256 1) : IVec S_ 1 :=
  let main_v181 : IVec S256 1 := andi main_v176 main_v180
  let main_c_57 : IVec S_ 1 := constantI S_ 1 1#1
  let main_v182 : IVec S_ 1 := (fun x v => Host.reduce IntOp.andi x v reducesTo_S256_S_d0 h_S_) main_v181 main_c_57
  let main_v183 : IVec S_ 1 := andi main_v172 main_v182
  let main_v184 : IVec S1x256 32 := (extractStridedSlice S1x256 ![2, 0] · slices_S8x256_S1x256_2_0) main_arg1
  let main_v185 : IVec S256 32 := shapeCast S256 main_v184 shapeCasts_S1x256_S256
  let main_c_58 : IVec S_ 32 := constantI S_ 32 0#32
  let main_v186 : IVec S256 32 := broadcastInDim S256 ![] bcast_S_S256 main_c_58
  let main_v187 : IVec S256 1 := cmpi .sge main_v185 main_v186
  let main_v188 : IVec S1x256 32 := (extractStridedSlice S1x256 ![2, 0] · slices_S8x256_S1x256_2_0) main_arg1
  let main_v189 : IVec S256 32 := shapeCast S256 main_v188 shapeCasts_S1x256_S256
  let main_c_59 : IVec S_ 32 := constantI S_ 32 100001#32
  let main_v190 : IVec S256 32 := broadcastInDim S256 ![] bcast_S_S256 main_c_59
  let main_v191 : IVec S256 1 := cmpi .slt main_v189 main_v190
  let main_v192 : IVec S256 1 := andi main_v187 main_v191
  let main_c_60 : IVec S_ 1 := constantI S_ 1 1#1
  let main_v193 : IVec S_ 1 := (fun x v => Host.reduce IntOp.andi x v reducesTo_S256_S_d0 h_S_) main_v192 main_c_60
  let main_v194 : IVec S_ 1 := andi main_v183 main_v193
  let main_v195 : IVec S1x256 32 := (extractStridedSlice S1x256 ![3, 0] · slices_S8x256_S1x256_3_0) main_arg1
  let main_v196 : IVec S256 32 := shapeCast S256 main_v195 shapeCasts_S1x256_S256
  let main_c_61 : IVec S_ 32 := constantI S_ 32 0#32
  let main_v197 : IVec S256 32 := broadcastInDim S256 ![] bcast_S_S256 main_c_61
  let main_v198 : IVec S256 1 := cmpi .sge main_v196 main_v197
  let main_v199 : IVec S1x256 32 := (extractStridedSlice S1x256 ![3, 0] · slices_S8x256_S1x256_3_0) main_arg1
  fn_part11 (F := F) main_arg1 main_v194 main_v198 main_v199

def fn_part9 {F : FTy → Type} [FloatOps F] (main_arg1 : IVec S8x256 32) (main_v161 : IVec S_ 1) : IVec S_ 1 :=
  let main_v162 : IVec S1x256 32 := (extractStridedSlice S1x256 ![0, 0] · slices_S8x256_S1x256_0_0) main_arg1
  let main_v163 : IVec S256 32 := shapeCast S256 main_v162 shapeCasts_S1x256_S256
  let main_c_52 : IVec S_ 32 := constantI S_ 32 0#32
  let main_v164 : IVec S256 32 := broadcastInDim S256 ![] bcast_S_S256 main_c_52
  let main_v165 : IVec S256 1 := cmpi .sge main_v163 main_v164
  let main_v166 : IVec S1x256 32 := (extractStridedSlice S1x256 ![0, 0] · slices_S8x256_S1x256_0_0) main_arg1
  let main_v167 : IVec S256 32 := shapeCast S256 main_v166 shapeCasts_S1x256_S256
  let main_c_53 : IVec S_ 32 := constantI S_ 32 50001#32
  let main_v168 : IVec S256 32 := broadcastInDim S256 ![] bcast_S_S256 main_c_53
  let main_v169 : IVec S256 1 := cmpi .slt main_v167 main_v168
  let main_v170 : IVec S256 1 := andi main_v165 main_v169
  let main_c_54 : IVec S_ 1 := constantI S_ 1 1#1
  let main_v171 : IVec S_ 1 := (fun x v => Host.reduce IntOp.andi x v reducesTo_S256_S_d0 h_S_) main_v170 main_c_54
  let main_v172 : IVec S_ 1 := andi main_v161 main_v171
  let main_v173 : IVec S1x256 32 := (extractStridedSlice S1x256 ![1, 0] · slices_S8x256_S1x256_1_0) main_arg1
  let main_v174 : IVec S256 32 := shapeCast S256 main_v173 shapeCasts_S1x256_S256
  let main_c_55 : IVec S_ 32 := constantI S_ 32 0#32
  let main_v175 : IVec S256 32 := broadcastInDim S256 ![] bcast_S_S256 main_c_55
  let main_v176 : IVec S256 1 := cmpi .sge main_v174 main_v175
  let main_v177 : IVec S1x256 32 := (extractStridedSlice S1x256 ![1, 0] · slices_S8x256_S1x256_1_0) main_arg1
  let main_v178 : IVec S256 32 := shapeCast S256 main_v177 shapeCasts_S1x256_S256
  let main_c_56 : IVec S_ 32 := constantI S_ 32 100001#32
  let main_v179 : IVec S256 32 := broadcastInDim S256 ![] bcast_S_S256 main_c_56
  let main_v180 : IVec S256 1 := cmpi .slt main_v178 main_v179
  fn_part10 (F := F) main_arg1 main_v172 main_v176 main_v180

def fn_part8 {F : FTy → Type} [FloatOps F] (main_arg0 : IVec S4096x8 32) (main_arg1 : IVec S8x256 32) (main_v139 : IVec S_ 1) (main_v141 : IVec S4096 32) (main_v142 : IVec S4096 32) : IVec S_ 1 :=
  let main_v143 : IVec S4096 1 := cmpi .sge main_v141 main_v142
  let main_v144 : IVec S4096x1 32 := (extractStridedSlice S4096x1 ![0, 6] · slices_S4096x8_S4096x1_0_6) main_arg0
  let main_v145 : IVec S4096 32 := shapeCast S4096 main_v144 shapeCasts_S4096x1_S4096
  let main_c_47 : IVec S_ 32 := constantI S_ 32 50001#32
  let main_v146 : IVec S4096 32 := broadcastInDim S4096 ![] bcast_S_S4096 main_c_47
  let main_v147 : IVec S4096 1 := cmpi .slt main_v145 main_v146
  let main_v148 : IVec S4096 1 := andi main_v143 main_v147
  let main_c_48 : IVec S_ 1 := constantI S_ 1 1#1
  let main_v149 : IVec S_ 1 := (fun x v => Host.reduce IntOp.andi x v reducesTo_S4096_S_d0 h_S_) main_v148 main_c_48
  let main_v150 : IVec S_ 1 := andi main_v139 main_v149
  let main_v151 : IVec S4096x1 32 := (extractStridedSlice S4096x1 ![0, 7] · slices_S4096x8_S4096x1_0_7) main_arg0
  let main_v152 : IVec S4096 32 := shapeCast S4096 main_v151 shapeCasts_S4096x1_S4096
  let main_c_49 : IVec S_ 32 := constantI S_ 32 0#32
  let main_v153 : IVec S4096 32 := broadcastInDim S4096 ![] bcast_S_S4096 main_c_49
  let main_v154 : IVec S4096 1 := cmpi .sge main_v152 main_v153
  let main_v155 : IVec S4096x1 32 := (extractStridedSlice S4096x1 ![0, 7] · slices_S4096x8_S4096x1_0_7) main_arg0
  let main_v156 : IVec S4096 32 := shapeCast S4096 main_v155 shapeCasts_S4096x1_S4096
  let main_c_50 : IVec S_ 32 := constantI S_ 32 50001#32
  let main_v157 : IVec S4096 32 := broadcastInDim S4096 ![] bcast_S_S4096 main_c_50
  let main_v158 : IVec S4096 1 := cmpi .slt main_v156 main_v157
  let main_v159 : IVec S4096 1 := andi main_v154 main_v158
  let main_c_51 : IVec S_ 1 := constantI S_ 1 1#1
  let main_v160 : IVec S_ 1 := (fun x v => Host.reduce IntOp.andi x v reducesTo_S4096_S_d0 h_S_) main_v159 main_c_51
  let main_v161 : IVec S_ 1 := andi main_v150 main_v160
  fn_part9 (F := F) main_arg1 main_v161

def fn_part7 {F : FTy → Type} [FloatOps F] (main_arg0 : IVec S4096x8 32) (main_arg1 : IVec S8x256 32) (main_v117 : IVec S_ 1) (main_v121 : IVec S4096 1) (main_v123 : IVec S4096 32) (main_c_41 : IVec S_ 32) : IVec S_ 1 :=
  let main_v124 : IVec S4096 32 := broadcastInDim S4096 ![] bcast_S_S4096 main_c_41
  let main_v125 : IVec S4096 1 := cmpi .slt main_v123 main_v124
  let main_v126 : IVec S4096 1 := andi main_v121 main_v125
  let main_c_42 : IVec S_ 1 := constantI S_ 1 1#1
  let main_v127 : IVec S_ 1 := (fun x v => Host.reduce IntOp.andi x v reducesTo_S4096_S_d0 h_S_) main_v126 main_c_42
  let main_v128 : IVec S_ 1 := andi main_v117 main_v127
  let main_v129 : IVec S4096x1 32 := (extractStridedSlice S4096x1 ![0, 5] · slices_S4096x8_S4096x1_0_5) main_arg0
  let main_v130 : IVec S4096 32 := shapeCast S4096 main_v129 shapeCasts_S4096x1_S4096
  let main_c_43 : IVec S_ 32 := constantI S_ 32 0#32
  let main_v131 : IVec S4096 32 := broadcastInDim S4096 ![] bcast_S_S4096 main_c_43
  let main_v132 : IVec S4096 1 := cmpi .sge main_v130 main_v131
  let main_v133 : IVec S4096x1 32 := (extractStridedSlice S4096x1 ![0, 5] · slices_S4096x8_S4096x1_0_5) main_arg0
  let main_v134 : IVec S4096 32 := shapeCast S4096 main_v133 shapeCasts_S4096x1_S4096
  let main_c_44 : IVec S_ 32 := constantI S_ 32 50001#32
  let main_v135 : IVec S4096 32 := broadcastInDim S4096 ![] bcast_S_S4096 main_c_44
  let main_v136 : IVec S4096 1 := cmpi .slt main_v134 main_v135
  let main_v137 : IVec S4096 1 := andi main_v132 main_v136
  let main_c_45 : IVec S_ 1 := constantI S_ 1 1#1
  let main_v138 : IVec S_ 1 := (fun x v => Host.reduce IntOp.andi x v reducesTo_S4096_S_d0 h_S_) main_v137 main_c_45
  let main_v139 : IVec S_ 1 := andi main_v128 main_v138
  let main_v140 : IVec S4096x1 32 := (extractStridedSlice S4096x1 ![0, 6] · slices_S4096x8_S4096x1_0_6) main_arg0
  let main_v141 : IVec S4096 32 := shapeCast S4096 main_v140 shapeCasts_S4096x1_S4096
  let main_c_46 : IVec S_ 32 := constantI S_ 32 0#32
  let main_v142 : IVec S4096 32 := broadcastInDim S4096 ![] bcast_S_S4096 main_c_46
  fn_part8 (F := F) main_arg0 main_arg1 main_v139 main_v141 main_v142

def fn_part6 {F : FTy → Type} [FloatOps F] (main_arg0 : IVec S4096x8 32) (main_arg1 : IVec S8x256 32) (main_v95 : IVec S_ 1) (main_v104 : IVec S4096 1) (main_c_36 : IVec S_ 1) : IVec S_ 1 :=
  let main_v105 : IVec S_ 1 := (fun x v => Host.reduce IntOp.andi x v reducesTo_S4096_S_d0 h_S_) main_v104 main_c_36
  let main_v106 : IVec S_ 1 := andi main_v95 main_v105
  let main_v107 : IVec S4096x1 32 := (extractStridedSlice S4096x1 ![0, 3] · slices_S4096x8_S4096x1_0_3) main_arg0
  let main_v108 : IVec S4096 32 := shapeCast S4096 main_v107 shapeCasts_S4096x1_S4096
  let main_c_37 : IVec S_ 32 := constantI S_ 32 0#32
  let main_v109 : IVec S4096 32 := broadcastInDim S4096 ![] bcast_S_S4096 main_c_37
  let main_v110 : IVec S4096 1 := cmpi .sge main_v108 main_v109
  let main_v111 : IVec S4096x1 32 := (extractStridedSlice S4096x1 ![0, 3] · slices_S4096x8_S4096x1_0_3) main_arg0
  let main_v112 : IVec S4096 32 := shapeCast S4096 main_v111 shapeCasts_S4096x1_S4096
  let main_c_38 : IVec S_ 32 := constantI S_ 32 5001#32
  let main_v113 : IVec S4096 32 := broadcastInDim S4096 ![] bcast_S_S4096 main_c_38
  let main_v114 : IVec S4096 1 := cmpi .slt main_v112 main_v113
  let main_v115 : IVec S4096 1 := andi main_v110 main_v114
  let main_c_39 : IVec S_ 1 := constantI S_ 1 1#1
  let main_v116 : IVec S_ 1 := (fun x v => Host.reduce IntOp.andi x v reducesTo_S4096_S_d0 h_S_) main_v115 main_c_39
  let main_v117 : IVec S_ 1 := andi main_v106 main_v116
  let main_v118 : IVec S4096x1 32 := (extractStridedSlice S4096x1 ![0, 4] · slices_S4096x8_S4096x1_0_4) main_arg0
  let main_v119 : IVec S4096 32 := shapeCast S4096 main_v118 shapeCasts_S4096x1_S4096
  let main_c_40 : IVec S_ 32 := constantI S_ 32 0#32
  let main_v120 : IVec S4096 32 := broadcastInDim S4096 ![] bcast_S_S4096 main_c_40
  let main_v121 : IVec S4096 1 := cmpi .sge main_v119 main_v120
  let main_v122 : IVec S4096x1 32 := (extractStridedSlice S4096x1 ![0, 4] · slices_S4096x8_S4096x1_0_4) main_arg0
  let main_v123 : IVec S4096 32 := shapeCast S4096 main_v122 shapeCasts_S4096x1_S4096
  let main_c_41 : IVec S_ 32 := constantI S_ 32 1001#32
  fn_part7 (F := F) main_arg0 main_arg1 main_v117 main_v121 main_v123 main_c_41

def fn_part5 {F : FTy → Type} [FloatOps F] (main_arg0 : IVec S4096x8 32) (main_arg1 : IVec S8x256 32) (main_v84 : IVec S_ 1) (main_v86 : IVec S4096 32) : IVec S_ 1 :=
  let main_c_31 : IVec S_ 32 := constantI S_ 32 0#32
  let main_v87 : IVec S4096 32 := broadcastInDim S4096 ![] bcast_S_S4096 main_c_31
  let main_v88 : IVec S4096 1 := cmpi .sge main_v86 main_v87
  let main_v89 : IVec S4096x1 32 := (extractStridedSlice S4096x1 ![0, 1] · slices_S4096x8_S4096x1_0_1) main_arg0
  let main_v90 : IVec S4096 32 := shapeCast S4096 main_v89 shapeCasts_S4096x1_S4096
  let main_c_32 : IVec S_ 32 := constantI S_ 32 50001#32
  let main_v91 : IVec S4096 32 := broadcastInDim S4096 ![] bcast_S_S4096 main_c_32
  let main_v92 : IVec S4096 1 := cmpi .slt main_v90 main_v91
  let main_v93 : IVec S4096 1 := andi main_v88 main_v92
  let main_c_33 : IVec S_ 1 := constantI S_ 1 1#1
  let main_v94 : IVec S_ 1 := (fun x v => Host.reduce IntOp.andi x v reducesTo_S4096_S_d0 h_S_) main_v93 main_c_33
  let main_v95 : IVec S_ 1 := andi main_v84 main_v94
  let main_v96 : IVec S4096x1 32 := (extractStridedSlice S4096x1 ![0, 2] · slices_S4096x8_S4096x1_0_2) main_arg0
  let main_v97 : IVec S4096 32 := shapeCast S4096 main_v96 shapeCasts_S4096x1_S4096
  let main_c_34 : IVec S_ 32 := constantI S_ 32 0#32
  let main_v98 : IVec S4096 32 := broadcastInDim S4096 ![] bcast_S_S4096 main_c_34
  let main_v99 : IVec S4096 1 := cmpi .sge main_v97 main_v98
  let main_v100 : IVec S4096x1 32 := (extractStridedSlice S4096x1 ![0, 2] · slices_S4096x8_S4096x1_0_2) main_arg0
  let main_v101 : IVec S4096 32 := shapeCast S4096 main_v100 shapeCasts_S4096x1_S4096
  let main_c_35 : IVec S_ 32 := constantI S_ 32 100001#32
  let main_v102 : IVec S4096 32 := broadcastInDim S4096 ![] bcast_S_S4096 main_c_35
  let main_v103 : IVec S4096 1 := cmpi .slt main_v101 main_v102
  let main_v104 : IVec S4096 1 := andi main_v99 main_v103
  let main_c_36 : IVec S_ 1 := constantI S_ 1 1#1
  fn_part6 (F := F) main_arg0 main_arg1 main_v95 main_v104 main_c_36

def fn_part4 {F : FTy → Type} [FloatOps F] (main_arg0 : IVec S4096x8 32) (main_arg1 : IVec S8x256 32) (main_arg16 : FVec F S50001 .f32) (main_v63 : IVec S_ 1) (main_v67 : IVec S_ 1) : IVec S_ 1 :=
  let main_v68 : IVec S_ 1 := andi main_v63 main_v67
  let main_v69 : FVec F S50001 .f32 := Host.absf main_arg16
  let main_cst_26 : FVec F S_ .f32 := constant S_ .f32 0x7F800000#32
  let main_v70 : FVec F S50001 .f32 := broadcastInDim S50001 ![] bcast_S_S50001 main_cst_26
  let main_v71 : IVec S50001 1 := cmpf .olt main_v69 main_v70
  let main_c_27 : IVec S_ 1 := constantI S_ 1 1#1
  let main_v72 : IVec S_ 1 := (fun x v => Host.reduce IntOp.andi x v reducesTo_S50001_S_d0 h_S_) main_v71 main_c_27
  let main_v73 : IVec S_ 1 := andi main_v68 main_v72
  let main_v74 : IVec S4096x1 32 := (extractStridedSlice S4096x1 ![0, 0] · slices_S4096x8_S4096x1_0_0) main_arg0
  let main_v75 : IVec S4096 32 := shapeCast S4096 main_v74 shapeCasts_S4096x1_S4096
  let main_c_28 : IVec S_ 32 := constantI S_ 32 0#32
  let main_v76 : IVec S4096 32 := broadcastInDim S4096 ![] bcast_S_S4096 main_c_28
  let main_v77 : IVec S4096 1 := cmpi .sge main_v75 main_v76
  let main_v78 : IVec S4096x1 32 := (extractStridedSlice S4096x1 ![0, 0] · slices_S4096x8_S4096x1_0_0) main_arg0
  let main_v79 : IVec S4096 32 := shapeCast S4096 main_v78 shapeCasts_S4096x1_S4096
  let main_c_29 : IVec S_ 32 := constantI S_ 32 30001#32
  let main_v80 : IVec S4096 32 := broadcastInDim S4096 ![] bcast_S_S4096 main_c_29
  let main_v81 : IVec S4096 1 := cmpi .slt main_v79 main_v80
  let main_v82 : IVec S4096 1 := andi main_v77 main_v81
  let main_c_30 : IVec S_ 1 := constantI S_ 1 1#1
  let main_v83 : IVec S_ 1 := (fun x v => Host.reduce IntOp.andi x v reducesTo_S4096_S_d0 h_S_) main_v82 main_c_30
  let main_v84 : IVec S_ 1 := andi main_v73 main_v83
  let main_v85 : IVec S4096x1 32 := (extractStridedSlice S4096x1 ![0, 1] · slices_S4096x8_S4096x1_0_1) main_arg0
  let main_v86 : IVec S4096 32 := shapeCast S4096 main_v85 shapeCasts_S4096x1_S4096
  fn_part5 (F := F) main_arg0 main_arg1 main_v84 main_v86

def fn_part3 {F : FTy → Type} [FloatOps F] (main_arg0 : IVec S4096x8 32) (main_arg1 : IVec S8x256 32) (main_arg13 : FVec F S1001 .f32) (main_arg14 : FVec F S50001 .f32) (main_arg15 : FVec F S50001 .f32) (main_arg16 : FVec F S50001 .f32) (main_v48 : IVec S_ 1) (main_v49 : FVec F S5001 .f32) (main_v50 : FVec F S5001 .f32) : IVec S_ 1 :=
  let main_v51 : IVec S5001 1 := cmpf .olt main_v49 main_v50
  let main_c_19 : IVec S_ 1 := constantI S_ 1 1#1
  let main_v52 : IVec S_ 1 := (fun x v => Host.reduce IntOp.andi x v reducesTo_S5001_S_d0 h_S_) main_v51 main_c_19
  let main_v53 : IVec S_ 1 := andi main_v48 main_v52
  let main_v54 : FVec F S1001 .f32 := Host.absf main_arg13
  let main_cst_20 : FVec F S_ .f32 := constant S_ .f32 0x7F800000#32
  let main_v55 : FVec F S1001 .f32 := broadcastInDim S1001 ![] bcast_S_S1001 main_cst_20
  let main_v56 : IVec S1001 1 := cmpf .olt main_v54 main_v55
  let main_c_21 : IVec S_ 1 := constantI S_ 1 1#1
  let main_v57 : IVec S_ 1 := (fun x v => Host.reduce IntOp.andi x v reducesTo_S1001_S_d0 h_S_) main_v56 main_c_21
  let main_v58 : IVec S_ 1 := andi main_v53 main_v57
  let main_v59 : FVec F S50001 .f32 := Host.absf main_arg14
  let main_cst_22 : FVec F S_ .f32 := constant S_ .f32 0x7F800000#32
  let main_v60 : FVec F S50001 .f32 := broadcastInDim S50001 ![] bcast_S_S50001 main_cst_22
  let main_v61 : IVec S50001 1 := cmpf .olt main_v59 main_v60
  let main_c_23 : IVec S_ 1 := constantI S_ 1 1#1
  let main_v62 : IVec S_ 1 := (fun x v => Host.reduce IntOp.andi x v reducesTo_S50001_S_d0 h_S_) main_v61 main_c_23
  let main_v63 : IVec S_ 1 := andi main_v58 main_v62
  let main_v64 : FVec F S50001 .f32 := Host.absf main_arg15
  let main_cst_24 : FVec F S_ .f32 := constant S_ .f32 0x7F800000#32
  let main_v65 : FVec F S50001 .f32 := broadcastInDim S50001 ![] bcast_S_S50001 main_cst_24
  let main_v66 : IVec S50001 1 := cmpf .olt main_v64 main_v65
  let main_c_25 : IVec S_ 1 := constantI S_ 1 1#1
  let main_v67 : IVec S_ 1 := (fun x v => Host.reduce IntOp.andi x v reducesTo_S50001_S_d0 h_S_) main_v66 main_c_25
  fn_part4 (F := F) main_arg0 main_arg1 main_arg16 main_v63 main_v67

def fn_part2 {F : FTy → Type} [FloatOps F] (main_arg0 : IVec S4096x8 32) (main_arg1 : IVec S8x256 32) (main_arg9 : FVec F S50001 .f32) (main_arg10 : FVec F S100001 .f32) (main_arg11 : FVec F S100001 .f32) (main_arg12 : FVec F S5001 .f32) (main_arg13 : FVec F S1001 .f32) (main_arg14 : FVec F S50001 .f32) (main_arg15 : FVec F S50001 .f32) (main_arg16 : FVec F S50001 .f32) (main_v33 : IVec S_ 1) : IVec S_ 1 :=
  let main_v34 : FVec F S50001 .f32 := Host.absf main_arg9
  let main_cst_12 : FVec F S_ .f32 := constant S_ .f32 0x7F800000#32
  let main_v35 : FVec F S50001 .f32 := broadcastInDim S50001 ![] bcast_S_S50001 main_cst_12
  let main_v36 : IVec S50001 1 := cmpf .olt main_v34 main_v35
  let main_c_13 : IVec S_ 1 := constantI S_ 1 1#1
  let main_v37 : IVec S_ 1 := (fun x v => Host.reduce IntOp.andi x v reducesTo_S50001_S_d0 h_S_) main_v36 main_c_13
  let main_v38 : IVec S_ 1 := andi main_v33 main_v37
  let main_v39 : FVec F S100001 .f32 := Host.absf main_arg10
  let main_cst_14 : FVec F S_ .f32 := constant S_ .f32 0x7F800000#32
  let main_v40 : FVec F S100001 .f32 := broadcastInDim S100001 ![] bcast_S_S100001 main_cst_14
  let main_v41 : IVec S100001 1 := cmpf .olt main_v39 main_v40
  let main_c_15 : IVec S_ 1 := constantI S_ 1 1#1
  let main_v42 : IVec S_ 1 := (fun x v => Host.reduce IntOp.andi x v reducesTo_S100001_S_d0 h_S_) main_v41 main_c_15
  let main_v43 : IVec S_ 1 := andi main_v38 main_v42
  let main_v44 : FVec F S100001 .f32 := Host.absf main_arg11
  let main_cst_16 : FVec F S_ .f32 := constant S_ .f32 0x7F800000#32
  let main_v45 : FVec F S100001 .f32 := broadcastInDim S100001 ![] bcast_S_S100001 main_cst_16
  let main_v46 : IVec S100001 1 := cmpf .olt main_v44 main_v45
  let main_c_17 : IVec S_ 1 := constantI S_ 1 1#1
  let main_v47 : IVec S_ 1 := (fun x v => Host.reduce IntOp.andi x v reducesTo_S100001_S_d0 h_S_) main_v46 main_c_17
  let main_v48 : IVec S_ 1 := andi main_v43 main_v47
  let main_v49 : FVec F S5001 .f32 := Host.absf main_arg12
  let main_cst_18 : FVec F S_ .f32 := constant S_ .f32 0x7F800000#32
  let main_v50 : FVec F S5001 .f32 := broadcastInDim S5001 ![] bcast_S_S5001 main_cst_18
  fn_part3 (F := F) main_arg0 main_arg1 main_arg13 main_arg14 main_arg15 main_arg16 main_v48 main_v49 main_v50

def fn_part1 {F : FTy → Type} [FloatOps F] (main_arg0 : IVec S4096x8 32) (main_arg1 : IVec S8x256 32) (main_arg6 : FVec F S1001x100 .f32) (main_arg7 : FVec F S50001x100 .f32) (main_arg8 : FVec F S8x100 .f32) (main_arg9 : FVec F S50001 .f32) (main_arg10 : FVec F S100001 .f32) (main_arg11 : FVec F S100001 .f32) (main_arg12 : FVec F S5001 .f32) (main_arg13 : FVec F S1001 .f32) (main_arg14 : FVec F S50001 .f32) (main_arg15 : FVec F S50001 .f32) (main_arg16 : FVec F S50001 .f32) (main_v13 : IVec S_ 1) (main_v16 : IVec S5001x100 1) : IVec S_ 1 :=
  let main_c_5 : IVec S_ 1 := constantI S_ 1 1#1
  let main_v17 : IVec S_ 1 := (fun x v => Host.reduce IntOp.andi x v reducesTo_S5001x100_S_d0_1 h_S_) main_v16 main_c_5
  let main_v18 : IVec S_ 1 := andi main_v13 main_v17
  let main_v19 : FVec F S1001x100 .f32 := Host.absf main_arg6
  let main_cst_6 : FVec F S_ .f32 := constant S_ .f32 0x7F800000#32
  let main_v20 : FVec F S1001x100 .f32 := broadcastInDim S1001x100 ![] bcast_S_S1001x100 main_cst_6
  let main_v21 : IVec S1001x100 1 := cmpf .olt main_v19 main_v20
  let main_c_7 : IVec S_ 1 := constantI S_ 1 1#1
  let main_v22 : IVec S_ 1 := (fun x v => Host.reduce IntOp.andi x v reducesTo_S1001x100_S_d0_1 h_S_) main_v21 main_c_7
  let main_v23 : IVec S_ 1 := andi main_v18 main_v22
  let main_v24 : FVec F S50001x100 .f32 := Host.absf main_arg7
  let main_cst_8 : FVec F S_ .f32 := constant S_ .f32 0x7F800000#32
  let main_v25 : FVec F S50001x100 .f32 := broadcastInDim S50001x100 ![] bcast_S_S50001x100 main_cst_8
  let main_v26 : IVec S50001x100 1 := cmpf .olt main_v24 main_v25
  let main_c_9 : IVec S_ 1 := constantI S_ 1 1#1
  let main_v27 : IVec S_ 1 := (fun x v => Host.reduce IntOp.andi x v reducesTo_S50001x100_S_d0_1 h_S_) main_v26 main_c_9
  let main_v28 : IVec S_ 1 := andi main_v23 main_v27
  let main_v29 : FVec F S8x100 .f32 := Host.absf main_arg8
  let main_cst_10 : FVec F S_ .f32 := constant S_ .f32 0x7F800000#32
  let main_v30 : FVec F S8x100 .f32 := broadcastInDim S8x100 ![] bcast_S_S8x100 main_cst_10
  let main_v31 : IVec S8x100 1 := cmpf .olt main_v29 main_v30
  let main_c_11 : IVec S_ 1 := constantI S_ 1 1#1
  let main_v32 : IVec S_ 1 := (fun x v => Host.reduce IntOp.andi x v reducesTo_S8x100_S_d0_1 h_S_) main_v31 main_c_11
  let main_v33 : IVec S_ 1 := andi main_v28 main_v32
  fn_part2 (F := F) main_arg0 main_arg1 main_arg9 main_arg10 main_arg11 main_arg12 main_arg13 main_arg14 main_arg15 main_arg16 main_v33

def fn {F : FTy → Type} [FloatOps F] (main_arg0 : IVec S4096x8 32) (main_arg1 : IVec S8x256 32) (main_arg2 : FVec F S30001x100 .f32) (main_arg3 : FVec F S50001x100 .f32) (main_arg4 : FVec F S100001x100 .f32) (main_arg5 : FVec F S5001x100 .f32) (main_arg6 : FVec F S1001x100 .f32) (main_arg7 : FVec F S50001x100 .f32) (main_arg8 : FVec F S8x100 .f32) (main_arg9 : FVec F S50001 .f32) (main_arg10 : FVec F S100001 .f32) (main_arg11 : FVec F S100001 .f32) (main_arg12 : FVec F S5001 .f32) (main_arg13 : FVec F S1001 .f32) (main_arg14 : FVec F S50001 .f32) (main_arg15 : FVec F S50001 .f32) (main_arg16 : FVec F S50001 .f32) : IVec S_ 1 :=
  let main_v0 : FVec F S30001x100 .f32 := Host.absf main_arg2
  let main_cst : FVec F S_ .f32 := constant S_ .f32 0x7F800000#32
  let main_v1 : FVec F S30001x100 .f32 := broadcastInDim S30001x100 ![] bcast_S_S30001x100 main_cst
  let main_v2 : IVec S30001x100 1 := cmpf .olt main_v0 main_v1
  let main_c : IVec S_ 1 := constantI S_ 1 1#1
  let main_v3 : IVec S_ 1 := (fun x v => Host.reduce IntOp.andi x v reducesTo_S30001x100_S_d0_1 h_S_) main_v2 main_c
  let main_v4 : FVec F S50001x100 .f32 := Host.absf main_arg3
  let main_cst_0 : FVec F S_ .f32 := constant S_ .f32 0x7F800000#32
  let main_v5 : FVec F S50001x100 .f32 := broadcastInDim S50001x100 ![] bcast_S_S50001x100 main_cst_0
  let main_v6 : IVec S50001x100 1 := cmpf .olt main_v4 main_v5
  let main_c_1 : IVec S_ 1 := constantI S_ 1 1#1
  let main_v7 : IVec S_ 1 := (fun x v => Host.reduce IntOp.andi x v reducesTo_S50001x100_S_d0_1 h_S_) main_v6 main_c_1
  let main_v8 : IVec S_ 1 := andi main_v3 main_v7
  let main_v9 : FVec F S100001x100 .f32 := Host.absf main_arg4
  let main_cst_2 : FVec F S_ .f32 := constant S_ .f32 0x7F800000#32
  let main_v10 : FVec F S100001x100 .f32 := broadcastInDim S100001x100 ![] bcast_S_S100001x100 main_cst_2
  let main_v11 : IVec S100001x100 1 := cmpf .olt main_v9 main_v10
  let main_c_3 : IVec S_ 1 := constantI S_ 1 1#1
  let main_v12 : IVec S_ 1 := (fun x v => Host.reduce IntOp.andi x v reducesTo_S100001x100_S_d0_1 h_S_) main_v11 main_c_3
  let main_v13 : IVec S_ 1 := andi main_v8 main_v12
  let main_v14 : FVec F S5001x100 .f32 := Host.absf main_arg5
  let main_cst_4 : FVec F S_ .f32 := constant S_ .f32 0x7F800000#32
  let main_v15 : FVec F S5001x100 .f32 := broadcastInDim S5001x100 ![] bcast_S_S5001x100 main_cst_4
  let main_v16 : IVec S5001x100 1 := cmpf .olt main_v14 main_v15
  fn_part1 (F := F) main_arg0 main_arg1 main_arg6 main_arg7 main_arg8 main_arg9 main_arg10 main_arg11 main_arg12 main_arg13 main_arg14 main_arg15 main_arg16 main_v13 main_v16
-- ==== Kernel.lean ====
abbrev S4096x8 : Shape := ⟨2, ![4096, 8]⟩
abbrev S8x256 : Shape := ⟨2, ![8, 256]⟩
abbrev S30001x100 : Shape := ⟨2, ![30001, 100]⟩
abbrev S50001x100 : Shape := ⟨2, ![50001, 100]⟩
abbrev S100001x100 : Shape := ⟨2, ![100001, 100]⟩
abbrev S5001x100 : Shape := ⟨2, ![5001, 100]⟩
abbrev S1001x100 : Shape := ⟨2, ![1001, 100]⟩
abbrev S8x100 : Shape := ⟨2, ![8, 100]⟩
abbrev S50001 : Shape := ⟨1, ![50001]⟩
abbrev S100001 : Shape := ⟨1, ![100001]⟩
abbrev S5001 : Shape := ⟨1, ![5001]⟩
abbrev S1001 : Shape := ⟨1, ![1001]⟩
abbrev S4096x1 : Shape := ⟨2, ![4096, 1]⟩
abbrev S4096 : Shape := ⟨1, ![4096]⟩
abbrev S1x256 : Shape := ⟨2, ![1, 256]⟩
abbrev S256 : Shape := ⟨1, ![256]⟩
abbrev S_ : Shape := ⟨0, ![]⟩
abbrev S1 : Shape := ⟨1, ![1]⟩
abbrev S1x1 : Shape := ⟨2, ![1, 1]⟩
abbrev S4096x100 : Shape := ⟨2, ![4096, 100]⟩
abbrev S256x1 : Shape := ⟨2, ![256, 1]⟩
abbrev S256x100 : Shape := ⟨2, ![256, 100]⟩
abbrev S1x4096x100 : Shape := ⟨3, ![1, 4096, 100]⟩
abbrev S8x4096x100 : Shape := ⟨3, ![8, 4096, 100]⟩
abbrev S1x4096 : Shape := ⟨2, ![1, 4096]⟩
abbrev S8x4096 : Shape := ⟨2, ![8, 4096]⟩
abbrev S8x1x4096 : Shape := ⟨3, ![8, 1, 4096]⟩
abbrev S1x256x100 : Shape := ⟨3, ![1, 256, 100]⟩
abbrev S8x256x100 : Shape := ⟨3, ![8, 256, 100]⟩
abbrev S8x1x100 : Shape := ⟨3, ![8, 1, 100]⟩
abbrev S8x1x1 : Shape := ⟨3, ![8, 1, 1]⟩
abbrev S1x2048x100 : Shape := ⟨3, ![1, 2048, 100]⟩
abbrev S1x1x2048 : Shape := ⟨3, ![1, 1, 2048]⟩
abbrev S1x1x100 : Shape := ⟨3, ![1, 1, 100]⟩
abbrev S1x1x1 : Shape := ⟨3, ![1, 1, 1]⟩
abbrev S2048x100 : Shape := ⟨2, ![2048, 100]⟩
abbrev S1x2048 : Shape := ⟨2, ![1, 2048]⟩
abbrev S2048x1 : Shape := ⟨2, ![2048, 1]⟩
abbrev S1x100 : Shape := ⟨2, ![1, 100]⟩
abbrev S2048 : Shape := ⟨1, ![2048]⟩
abbrev S2048x256 : Shape := ⟨2, ![2048, 256]⟩

abbrev nBuf : Space → Nat
  | .hbm => 836
  | .vmem => 12
  | .smem => 0
  | _ => 0

abbrev hbmTy0_0 (i : Nat) : BufTy := match i % 128 with
  | 0 => ⟨S4096x8, .i32⟩
  | 1 => ⟨S8x256, .i32⟩
  | 2 => ⟨S30001x100, .f32⟩
  | 3 => ⟨S50001x100, .f32⟩
  | 4 => ⟨S100001x100, .f32⟩
  | 5 => ⟨S5001x100, .f32⟩
  | 6 => ⟨S1001x100, .f32⟩
  | 7 => ⟨S50001x100, .f32⟩
  | 8 => ⟨S8x100, .f32⟩
  | 9 => ⟨S50001, .f32⟩
  | 10 => ⟨S100001, .f32⟩
  | 11 => ⟨S100001, .f32⟩
  | 12 => ⟨S5001, .f32⟩
  | 13 => ⟨S1001, .f32⟩
  | 14 => ⟨S50001, .f32⟩
  | 15 => ⟨S50001, .f32⟩
  | 16 => ⟨S50001, .f32⟩
  | 17 => ⟨S4096x1, .i32⟩
  | 18 => ⟨S4096, .i32⟩
  | 19 => ⟨S4096x1, .i32⟩
  | 20 => ⟨S4096, .i32⟩
  | 21 => ⟨S1x256, .i32⟩
  | 22 => ⟨S256, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S1, .i32⟩
  | 32 => ⟨S_, .i32⟩
  | 33 => ⟨S4096x1, .i32⟩
  | 34 => ⟨S4096x1, .i1⟩
  | 35 => ⟨S1x1, .i32⟩
  | 36 => ⟨S4096x1, .i32⟩
  | 37 => ⟨S4096x1, .i1⟩
  | 38 => ⟨S4096x1, .i1⟩
  | 39 => ⟨S_, .i1⟩
  | 40 => ⟨S4096, .i1⟩
  | 41 => ⟨S4096x100, .f32⟩
  | 42 => ⟨S4096x100, .i1⟩
  | 43 => ⟨S_, .f32⟩
  | 44 => ⟨S4096x100, .f32⟩
  | 45 => ⟨S4096x100, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S1, .i32⟩
  | 55 => ⟨S_, .i32⟩
  | 56 => ⟨S4096x1, .i32⟩
  | 57 => ⟨S4096x1, .i1⟩
  | 58 => ⟨S1x1, .i32⟩
  | 59 => ⟨S4096x1, .i32⟩
  | 60 => ⟨S4096x1, .i1⟩
  | 61 => ⟨S4096x1, .i1⟩
  | 62 => ⟨S_, .i1⟩
  | 63 => ⟨S4096, .i1⟩
  | 64 => ⟨S4096x100, .f32⟩
  | 65 => ⟨S4096x100, .i1⟩
  | 66 => ⟨S_, .f32⟩
  | 67 => ⟨S4096x100, .f32⟩
  | 68 => ⟨S4096x100, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S1, .i32⟩
  | 78 => ⟨S_, .i32⟩
  | 79 => ⟨S4096x1, .i32⟩
  | 80 => ⟨S4096x1, .i1⟩
  | 81 => ⟨S1x1, .i32⟩
  | 82 => ⟨S4096x1, .i32⟩
  | 83 => ⟨S4096x1, .i1⟩
  | 84 => ⟨S4096x1, .i1⟩
  | 85 => ⟨S_, .i1⟩
  | 86 => ⟨S4096, .i1⟩
  | 87 => ⟨S4096, .f32⟩
  | 88 => ⟨S_, .f32⟩
  | 89 => ⟨S4096, .f32⟩
  | 90 => ⟨S4096, .f32⟩
  | 91 => ⟨S_, .i32⟩
  | 92 => ⟨S256, .i32⟩
  | 93 => ⟨S256, .i1⟩
  | 94 => ⟨S_, .i32⟩
  | 95 => ⟨S256, .i32⟩
  | 96 => ⟨S256, .i32⟩
  | 97 => ⟨S256, .i32⟩
  | 98 => ⟨S256x1, .i32⟩
  | 99 => ⟨S1, .i32⟩
  | 100 => ⟨S_, .i32⟩
  | 101 => ⟨S256x1, .i32⟩
  | 102 => ⟨S256x1, .i1⟩
  | 103 => ⟨S1x1, .i32⟩
  | 104 => ⟨S256x1, .i32⟩
  | 105 => ⟨S256x1, .i1⟩
  | 106 => ⟨S256x1, .i1⟩
  | 107 => ⟨S_, .i1⟩
  | 108 => ⟨S256, .i1⟩
  | 109 => ⟨S256x100, .f32⟩
  | 110 => ⟨S256x100, .i1⟩
  | 111 => ⟨S_, .f32⟩
  | 112 => ⟨S256x100, .f32⟩
  | 113 => ⟨S256x100, .f32⟩
  | 114 => ⟨S4096x1, .i32⟩
  | 115 => ⟨S4096, .i32⟩
  | 116 => ⟨S4096x1, .i32⟩
  | 117 => ⟨S4096, .i32⟩
  | 118 => ⟨S1x256, .i32⟩
  | 119 => ⟨S256, .i32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S4096x8, .i32⟩

abbrev hbmTy0_1 (i : Nat) : BufTy := match i % 128 with
  | 0 => ⟨S1, .i32⟩
  | 1 => ⟨S_, .i32⟩
  | 2 => ⟨S4096x1, .i32⟩
  | 3 => ⟨S4096x1, .i1⟩
  | 4 => ⟨S1x1, .i32⟩
  | 5 => ⟨S4096x1, .i32⟩
  | 6 => ⟨S4096x1, .i1⟩
  | 7 => ⟨S4096x1, .i1⟩
  | 8 => ⟨S_, .i1⟩
  | 9 => ⟨S4096, .i1⟩
  | 10 => ⟨S4096x100, .f32⟩
  | 11 => ⟨S4096x100, .i1⟩
  | 12 => ⟨S_, .f32⟩
  | 13 => ⟨S4096x100, .f32⟩
  | 14 => ⟨S4096x100, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S1, .i32⟩
  | 24 => ⟨S_, .i32⟩
  | 25 => ⟨S4096x1, .i32⟩
  | 26 => ⟨S4096x1, .i1⟩
  | 27 => ⟨S1x1, .i32⟩
  | 28 => ⟨S4096x1, .i32⟩
  | 29 => ⟨S4096x1, .i1⟩
  | 30 => ⟨S4096x1, .i1⟩
  | 31 => ⟨S_, .i1⟩
  | 32 => ⟨S4096, .i1⟩
  | 33 => ⟨S4096x100, .f32⟩
  | 34 => ⟨S4096x100, .i1⟩
  | 35 => ⟨S_, .f32⟩
  | 36 => ⟨S4096x100, .f32⟩
  | 37 => ⟨S4096x100, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S1, .i32⟩
  | 47 => ⟨S_, .i32⟩
  | 48 => ⟨S4096x1, .i32⟩
  | 49 => ⟨S4096x1, .i1⟩
  | 50 => ⟨S1x1, .i32⟩
  | 51 => ⟨S4096x1, .i32⟩
  | 52 => ⟨S4096x1, .i1⟩
  | 53 => ⟨S4096x1, .i1⟩
  | 54 => ⟨S_, .i1⟩
  | 55 => ⟨S4096, .i1⟩
  | 56 => ⟨S4096, .f32⟩
  | 57 => ⟨S_, .f32⟩
  | 58 => ⟨S4096, .f32⟩
  | 59 => ⟨S4096, .f32⟩
  | 60 => ⟨S_, .i32⟩
  | 61 => ⟨S256, .i32⟩
  | 62 => ⟨S256, .i1⟩
  | 63 => ⟨S_, .i32⟩
  | 64 => ⟨S256, .i32⟩
  | 65 => ⟨S256, .i32⟩
  | 66 => ⟨S256, .i32⟩
  | 67 => ⟨S256x1, .i32⟩
  | 68 => ⟨S1, .i32⟩
  | 69 => ⟨S_, .i32⟩
  | 70 => ⟨S256x1, .i32⟩
  | 71 => ⟨S256x1, .i1⟩
  | 72 => ⟨S1x1, .i32⟩
  | 73 => ⟨S256x1, .i32⟩
  | 74 => ⟨S256x1, .i1⟩
  | 75 => ⟨S256x1, .i1⟩
  | 76 => ⟨S_, .i1⟩
  | 77 => ⟨S256, .i1⟩
  | 78 => ⟨S256x100, .f32⟩
  | 79 => ⟨S256x100, .i1⟩
  | 80 => ⟨S_, .f32⟩
  | 81 => ⟨S256x100, .f32⟩
  | 82 => ⟨S256x100, .f32⟩
  | 83 => ⟨S4096x1, .i32⟩
  | 84 => ⟨S4096, .i32⟩
  | 85 => ⟨S4096x1, .i32⟩
  | 86 => ⟨S4096, .i32⟩
  | 87 => ⟨S1x256, .i32⟩
  | 88 => ⟨S256, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S1, .i32⟩
  | 98 => ⟨S_, .i32⟩
  | 99 => ⟨S4096x1, .i32⟩
  | 100 => ⟨S4096x1, .i1⟩
  | 101 => ⟨S1x1, .i32⟩
  | 102 => ⟨S4096x1, .i32⟩
  | 103 => ⟨S4096x1, .i1⟩
  | 104 => ⟨S4096x1, .i1⟩
  | 105 => ⟨S_, .i1⟩
  | 106 => ⟨S4096, .i1⟩
  | 107 => ⟨S4096x100, .f32⟩
  | 108 => ⟨S4096x100, .i1⟩
  | 109 => ⟨S_, .f32⟩
  | 110 => ⟨S4096x100, .f32⟩
  | 111 => ⟨S4096x100, .f32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S1, .i32⟩
  | 121 => ⟨S_, .i32⟩
  | 122 => ⟨S4096x1, .i32⟩
  | 123 => ⟨S4096x1, .i1⟩
  | 124 => ⟨S1x1, .i32⟩
  | 125 => ⟨S4096x1, .i32⟩
  | 126 => ⟨S4096x1, .i1⟩
  | 127 => ⟨S4096x1, .i1⟩
  | _ => ⟨S4096x8, .i32⟩

abbrev hbmTy0_2 (i : Nat) : BufTy := match i % 128 with
  | 0 => ⟨S_, .i1⟩
  | 1 => ⟨S4096, .i1⟩
  | 2 => ⟨S4096x100, .f32⟩
  | 3 => ⟨S4096x100, .i1⟩
  | 4 => ⟨S_, .f32⟩
  | 5 => ⟨S4096x100, .f32⟩
  | 6 => ⟨S4096x100, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S1, .i32⟩
  | 16 => ⟨S_, .i32⟩
  | 17 => ⟨S4096x1, .i32⟩
  | 18 => ⟨S4096x1, .i1⟩
  | 19 => ⟨S1x1, .i32⟩
  | 20 => ⟨S4096x1, .i32⟩
  | 21 => ⟨S4096x1, .i1⟩
  | 22 => ⟨S4096x1, .i1⟩
  | 23 => ⟨S_, .i1⟩
  | 24 => ⟨S4096, .i1⟩
  | 25 => ⟨S4096, .f32⟩
  | 26 => ⟨S_, .f32⟩
  | 27 => ⟨S4096, .f32⟩
  | 28 => ⟨S4096, .f32⟩
  | 29 => ⟨S_, .i32⟩
  | 30 => ⟨S256, .i32⟩
  | 31 => ⟨S256, .i1⟩
  | 32 => ⟨S_, .i32⟩
  | 33 => ⟨S256, .i32⟩
  | 34 => ⟨S256, .i32⟩
  | 35 => ⟨S256, .i32⟩
  | 36 => ⟨S256x1, .i32⟩
  | 37 => ⟨S1, .i32⟩
  | 38 => ⟨S_, .i32⟩
  | 39 => ⟨S256x1, .i32⟩
  | 40 => ⟨S256x1, .i1⟩
  | 41 => ⟨S1x1, .i32⟩
  | 42 => ⟨S256x1, .i32⟩
  | 43 => ⟨S256x1, .i1⟩
  | 44 => ⟨S256x1, .i1⟩
  | 45 => ⟨S_, .i1⟩
  | 46 => ⟨S256, .i1⟩
  | 47 => ⟨S256x100, .f32⟩
  | 48 => ⟨S256x100, .i1⟩
  | 49 => ⟨S_, .f32⟩
  | 50 => ⟨S256x100, .f32⟩
  | 51 => ⟨S256x100, .f32⟩
  | 52 => ⟨S4096x1, .i32⟩
  | 53 => ⟨S4096, .i32⟩
  | 54 => ⟨S4096x1, .i32⟩
  | 55 => ⟨S4096, .i32⟩
  | 56 => ⟨S1x256, .i32⟩
  | 57 => ⟨S256, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S1, .i32⟩
  | 67 => ⟨S_, .i32⟩
  | 68 => ⟨S4096x1, .i32⟩
  | 69 => ⟨S4096x1, .i1⟩
  | 70 => ⟨S1x1, .i32⟩
  | 71 => ⟨S4096x1, .i32⟩
  | 72 => ⟨S4096x1, .i1⟩
  | 73 => ⟨S4096x1, .i1⟩
  | 74 => ⟨S_, .i1⟩
  | 75 => ⟨S4096, .i1⟩
  | 76 => ⟨S4096x100, .f32⟩
  | 77 => ⟨S4096x100, .i1⟩
  | 78 => ⟨S_, .f32⟩
  | 79 => ⟨S4096x100, .f32⟩
  | 80 => ⟨S4096x100, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S1, .i32⟩
  | 90 => ⟨S_, .i32⟩
  | 91 => ⟨S4096x1, .i32⟩
  | 92 => ⟨S4096x1, .i1⟩
  | 93 => ⟨S1x1, .i32⟩
  | 94 => ⟨S4096x1, .i32⟩
  | 95 => ⟨S4096x1, .i1⟩
  | 96 => ⟨S4096x1, .i1⟩
  | 97 => ⟨S_, .i1⟩
  | 98 => ⟨S4096, .i1⟩
  | 99 => ⟨S4096x100, .f32⟩
  | 100 => ⟨S4096x100, .i1⟩
  | 101 => ⟨S_, .f32⟩
  | 102 => ⟨S4096x100, .f32⟩
  | 103 => ⟨S4096x100, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S1, .i32⟩
  | 113 => ⟨S_, .i32⟩
  | 114 => ⟨S4096x1, .i32⟩
  | 115 => ⟨S4096x1, .i1⟩
  | 116 => ⟨S1x1, .i32⟩
  | 117 => ⟨S4096x1, .i32⟩
  | 118 => ⟨S4096x1, .i1⟩
  | 119 => ⟨S4096x1, .i1⟩
  | 120 => ⟨S_, .i1⟩
  | 121 => ⟨S4096, .i1⟩
  | 122 => ⟨S4096, .f32⟩
  | 123 => ⟨S_, .f32⟩
  | 124 => ⟨S4096, .f32⟩
  | 125 => ⟨S4096, .f32⟩
  | 126 => ⟨S_, .i32⟩
  | 127 => ⟨S256, .i32⟩
  | _ => ⟨S4096x8, .i32⟩

abbrev hbmTy0_3 (i : Nat) : BufTy := match i % 128 with
  | 0 => ⟨S256, .i1⟩
  | 1 => ⟨S_, .i32⟩
  | 2 => ⟨S256, .i32⟩
  | 3 => ⟨S256, .i32⟩
  | 4 => ⟨S256, .i32⟩
  | 5 => ⟨S256x1, .i32⟩
  | 6 => ⟨S1, .i32⟩
  | 7 => ⟨S_, .i32⟩
  | 8 => ⟨S256x1, .i32⟩
  | 9 => ⟨S256x1, .i1⟩
  | 10 => ⟨S1x1, .i32⟩
  | 11 => ⟨S256x1, .i32⟩
  | 12 => ⟨S256x1, .i1⟩
  | 13 => ⟨S256x1, .i1⟩
  | 14 => ⟨S_, .i1⟩
  | 15 => ⟨S256, .i1⟩
  | 16 => ⟨S256x100, .f32⟩
  | 17 => ⟨S256x100, .i1⟩
  | 18 => ⟨S_, .f32⟩
  | 19 => ⟨S256x100, .f32⟩
  | 20 => ⟨S256x100, .f32⟩
  | 21 => ⟨S4096x1, .i32⟩
  | 22 => ⟨S4096, .i32⟩
  | 23 => ⟨S4096x1, .i32⟩
  | 24 => ⟨S4096, .i32⟩
  | 25 => ⟨S1x256, .i32⟩
  | 26 => ⟨S256, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S1, .i32⟩
  | 36 => ⟨S_, .i32⟩
  | 37 => ⟨S4096x1, .i32⟩
  | 38 => ⟨S4096x1, .i1⟩
  | 39 => ⟨S1x1, .i32⟩
  | 40 => ⟨S4096x1, .i32⟩
  | 41 => ⟨S4096x1, .i1⟩
  | 42 => ⟨S4096x1, .i1⟩
  | 43 => ⟨S_, .i1⟩
  | 44 => ⟨S4096, .i1⟩
  | 45 => ⟨S4096x100, .f32⟩
  | 46 => ⟨S4096x100, .i1⟩
  | 47 => ⟨S_, .f32⟩
  | 48 => ⟨S4096x100, .f32⟩
  | 49 => ⟨S4096x100, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S1, .i32⟩
  | 59 => ⟨S_, .i32⟩
  | 60 => ⟨S4096x1, .i32⟩
  | 61 => ⟨S4096x1, .i1⟩
  | 62 => ⟨S1x1, .i32⟩
  | 63 => ⟨S4096x1, .i32⟩
  | 64 => ⟨S4096x1, .i1⟩
  | 65 => ⟨S4096x1, .i1⟩
  | 66 => ⟨S_, .i1⟩
  | 67 => ⟨S4096, .i1⟩
  | 68 => ⟨S4096x100, .f32⟩
  | 69 => ⟨S4096x100, .i1⟩
  | 70 => ⟨S_, .f32⟩
  | 71 => ⟨S4096x100, .f32⟩
  | 72 => ⟨S4096x100, .f32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S1, .i32⟩
  | 82 => ⟨S_, .i32⟩
  | 83 => ⟨S4096x1, .i32⟩
  | 84 => ⟨S4096x1, .i1⟩
  | 85 => ⟨S1x1, .i32⟩
  | 86 => ⟨S4096x1, .i32⟩
  | 87 => ⟨S4096x1, .i1⟩
  | 88 => ⟨S4096x1, .i1⟩
  | 89 => ⟨S_, .i1⟩
  | 90 => ⟨S4096, .i1⟩
  | 91 => ⟨S4096, .f32⟩
  | 92 => ⟨S_, .f32⟩
  | 93 => ⟨S4096, .f32⟩
  | 94 => ⟨S4096, .f32⟩
  | 95 => ⟨S_, .i32⟩
  | 96 => ⟨S256, .i32⟩
  | 97 => ⟨S256, .i1⟩
  | 98 => ⟨S_, .i32⟩
  | 99 => ⟨S256, .i32⟩
  | 100 => ⟨S256, .i32⟩
  | 101 => ⟨S256, .i32⟩
  | 102 => ⟨S256x1, .i32⟩
  | 103 => ⟨S1, .i32⟩
  | 104 => ⟨S_, .i32⟩
  | 105 => ⟨S256x1, .i32⟩
  | 106 => ⟨S256x1, .i1⟩
  | 107 => ⟨S1x1, .i32⟩
  | 108 => ⟨S256x1, .i32⟩
  | 109 => ⟨S256x1, .i1⟩
  | 110 => ⟨S256x1, .i1⟩
  | 111 => ⟨S_, .i1⟩
  | 112 => ⟨S256, .i1⟩
  | 113 => ⟨S256x100, .f32⟩
  | 114 => ⟨S256x100, .i1⟩
  | 115 => ⟨S_, .f32⟩
  | 116 => ⟨S256x100, .f32⟩
  | 117 => ⟨S256x100, .f32⟩
  | 118 => ⟨S4096x1, .i32⟩
  | 119 => ⟨S4096, .i32⟩
  | 120 => ⟨S4096x1, .i32⟩
  | 121 => ⟨S4096, .i32⟩
  | 122 => ⟨S1x256, .i32⟩
  | 123 => ⟨S256, .i32⟩
  | 124 => ⟨S_, .i32⟩
  | 125 => ⟨S4096, .i32⟩
  | 126 => ⟨S4096, .i1⟩
  | 127 => ⟨S_, .i32⟩
  | _ => ⟨S4096x8, .i32⟩

abbrev hbmTy0_4 (i : Nat) : BufTy := match i % 128 with
  | 0 => ⟨S4096, .i32⟩
  | 1 => ⟨S4096, .i32⟩
  | 2 => ⟨S4096, .i32⟩
  | 3 => ⟨S4096x1, .i32⟩
  | 4 => ⟨S1, .i32⟩
  | 5 => ⟨S_, .i32⟩
  | 6 => ⟨S4096x1, .i32⟩
  | 7 => ⟨S4096x1, .i1⟩
  | 8 => ⟨S1x1, .i32⟩
  | 9 => ⟨S4096x1, .i32⟩
  | 10 => ⟨S4096x1, .i1⟩
  | 11 => ⟨S4096x1, .i1⟩
  | 12 => ⟨S_, .i1⟩
  | 13 => ⟨S4096, .i1⟩
  | 14 => ⟨S4096x100, .f32⟩
  | 15 => ⟨S4096x100, .i1⟩
  | 16 => ⟨S_, .f32⟩
  | 17 => ⟨S4096x100, .f32⟩
  | 18 => ⟨S4096x100, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S1, .i32⟩
  | 28 => ⟨S_, .i32⟩
  | 29 => ⟨S4096x1, .i32⟩
  | 30 => ⟨S4096x1, .i1⟩
  | 31 => ⟨S1x1, .i32⟩
  | 32 => ⟨S4096x1, .i32⟩
  | 33 => ⟨S4096x1, .i1⟩
  | 34 => ⟨S4096x1, .i1⟩
  | 35 => ⟨S_, .i1⟩
  | 36 => ⟨S4096, .i1⟩
  | 37 => ⟨S4096x100, .f32⟩
  | 38 => ⟨S4096x100, .i1⟩
  | 39 => ⟨S_, .f32⟩
  | 40 => ⟨S4096x100, .f32⟩
  | 41 => ⟨S4096x100, .f32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S1, .i32⟩
  | 51 => ⟨S_, .i32⟩
  | 52 => ⟨S4096x1, .i32⟩
  | 53 => ⟨S4096x1, .i1⟩
  | 54 => ⟨S1x1, .i32⟩
  | 55 => ⟨S4096x1, .i32⟩
  | 56 => ⟨S4096x1, .i1⟩
  | 57 => ⟨S4096x1, .i1⟩
  | 58 => ⟨S_, .i1⟩
  | 59 => ⟨S4096, .i1⟩
  | 60 => ⟨S4096, .f32⟩
  | 61 => ⟨S_, .f32⟩
  | 62 => ⟨S4096, .f32⟩
  | 63 => ⟨S4096, .f32⟩
  | 64 => ⟨S_, .i32⟩
  | 65 => ⟨S256, .i32⟩
  | 66 => ⟨S256, .i1⟩
  | 67 => ⟨S_, .i32⟩
  | 68 => ⟨S256, .i32⟩
  | 69 => ⟨S256, .i32⟩
  | 70 => ⟨S256, .i32⟩
  | 71 => ⟨S256x1, .i32⟩
  | 72 => ⟨S1, .i32⟩
  | 73 => ⟨S_, .i32⟩
  | 74 => ⟨S256x1, .i32⟩
  | 75 => ⟨S256x1, .i1⟩
  | 76 => ⟨S1x1, .i32⟩
  | 77 => ⟨S256x1, .i32⟩
  | 78 => ⟨S256x1, .i1⟩
  | 79 => ⟨S256x1, .i1⟩
  | 80 => ⟨S_, .i1⟩
  | 81 => ⟨S256, .i1⟩
  | 82 => ⟨S256x100, .f32⟩
  | 83 => ⟨S256x100, .i1⟩
  | 84 => ⟨S_, .f32⟩
  | 85 => ⟨S256x100, .f32⟩
  | 86 => ⟨S256x100, .f32⟩
  | 87 => ⟨S4096x1, .i32⟩
  | 88 => ⟨S4096, .i32⟩
  | 89 => ⟨S4096x1, .i32⟩
  | 90 => ⟨S4096, .i32⟩
  | 91 => ⟨S1x256, .i32⟩
  | 92 => ⟨S256, .i32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S1, .i32⟩
  | 102 => ⟨S_, .i32⟩
  | 103 => ⟨S4096x1, .i32⟩
  | 104 => ⟨S4096x1, .i1⟩
  | 105 => ⟨S1x1, .i32⟩
  | 106 => ⟨S4096x1, .i32⟩
  | 107 => ⟨S4096x1, .i1⟩
  | 108 => ⟨S4096x1, .i1⟩
  | 109 => ⟨S_, .i1⟩
  | 110 => ⟨S4096, .i1⟩
  | 111 => ⟨S4096x100, .f32⟩
  | 112 => ⟨S4096x100, .i1⟩
  | 113 => ⟨S_, .f32⟩
  | 114 => ⟨S4096x100, .f32⟩
  | 115 => ⟨S4096x100, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S1, .i32⟩
  | 125 => ⟨S_, .i32⟩
  | 126 => ⟨S4096x1, .i32⟩
  | 127 => ⟨S4096x1, .i1⟩
  | _ => ⟨S4096x8, .i32⟩

abbrev hbmTy0_5 (i : Nat) : BufTy := match i % 128 with
  | 0 => ⟨S1x1, .i32⟩
  | 1 => ⟨S4096x1, .i32⟩
  | 2 => ⟨S4096x1, .i1⟩
  | 3 => ⟨S4096x1, .i1⟩
  | 4 => ⟨S_, .i1⟩
  | 5 => ⟨S4096, .i1⟩
  | 6 => ⟨S4096x100, .f32⟩
  | 7 => ⟨S4096x100, .i1⟩
  | 8 => ⟨S_, .f32⟩
  | 9 => ⟨S4096x100, .f32⟩
  | 10 => ⟨S4096x100, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096, .f32⟩
  | 30 => ⟨S_, .f32⟩
  | 31 => ⟨S4096, .f32⟩
  | 32 => ⟨S4096, .f32⟩
  | 33 => ⟨S_, .i32⟩
  | 34 => ⟨S256, .i32⟩
  | 35 => ⟨S256, .i1⟩
  | 36 => ⟨S_, .i32⟩
  | 37 => ⟨S256, .i32⟩
  | 38 => ⟨S256, .i32⟩
  | 39 => ⟨S256, .i32⟩
  | 40 => ⟨S256x1, .i32⟩
  | 41 => ⟨S1, .i32⟩
  | 42 => ⟨S_, .i32⟩
  | 43 => ⟨S256x1, .i32⟩
  | 44 => ⟨S256x1, .i1⟩
  | 45 => ⟨S1x1, .i32⟩
  | 46 => ⟨S256x1, .i32⟩
  | 47 => ⟨S256x1, .i1⟩
  | 48 => ⟨S256x1, .i1⟩
  | 49 => ⟨S_, .i1⟩
  | 50 => ⟨S256, .i1⟩
  | 51 => ⟨S256x100, .f32⟩
  | 52 => ⟨S256x100, .i1⟩
  | 53 => ⟨S_, .f32⟩
  | 54 => ⟨S256x100, .f32⟩
  | 55 => ⟨S256x100, .f32⟩
  | 56 => ⟨S4096x1, .i32⟩
  | 57 => ⟨S4096, .i32⟩
  | 58 => ⟨S4096x1, .i32⟩
  | 59 => ⟨S4096, .i32⟩
  | 60 => ⟨S1x256, .i32⟩
  | 61 => ⟨S256, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4096x100, .f32⟩
  | 81 => ⟨S4096x100, .i1⟩
  | 82 => ⟨S_, .f32⟩
  | 83 => ⟨S4096x100, .f32⟩
  | 84 => ⟨S4096x100, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S1, .i32⟩
  | 94 => ⟨S_, .i32⟩
  | 95 => ⟨S4096x1, .i32⟩
  | 96 => ⟨S4096x1, .i1⟩
  | 97 => ⟨S1x1, .i32⟩
  | 98 => ⟨S4096x1, .i32⟩
  | 99 => ⟨S4096x1, .i1⟩
  | 100 => ⟨S4096x1, .i1⟩
  | 101 => ⟨S_, .i1⟩
  | 102 => ⟨S4096, .i1⟩
  | 103 => ⟨S4096x100, .f32⟩
  | 104 => ⟨S4096x100, .i1⟩
  | 105 => ⟨S_, .f32⟩
  | 106 => ⟨S4096x100, .f32⟩
  | 107 => ⟨S4096x100, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S1, .i32⟩
  | 117 => ⟨S_, .i32⟩
  | 118 => ⟨S4096x1, .i32⟩
  | 119 => ⟨S4096x1, .i1⟩
  | 120 => ⟨S1x1, .i32⟩
  | 121 => ⟨S4096x1, .i32⟩
  | 122 => ⟨S4096x1, .i1⟩
  | 123 => ⟨S4096x1, .i1⟩
  | 124 => ⟨S_, .i1⟩
  | 125 => ⟨S4096, .i1⟩
  | 126 => ⟨S4096, .f32⟩
  | 127 => ⟨S_, .f32⟩
  | _ => ⟨S4096x8, .i32⟩

abbrev hbmTy0_6 (i : Nat) : BufTy := match i % 128 with
  | 0 => ⟨S4096, .f32⟩
  | 1 => ⟨S4096, .f32⟩
  | 2 => ⟨S_, .i32⟩
  | 3 => ⟨S256, .i32⟩
  | 4 => ⟨S256, .i1⟩
  | 5 => ⟨S_, .i32⟩
  | 6 => ⟨S256, .i32⟩
  | 7 => ⟨S256, .i32⟩
  | 8 => ⟨S256, .i32⟩
  | 9 => ⟨S256x1, .i32⟩
  | 10 => ⟨S1, .i32⟩
  | 11 => ⟨S_, .i32⟩
  | 12 => ⟨S256x1, .i32⟩
  | 13 => ⟨S256x1, .i1⟩
  | 14 => ⟨S1x1, .i32⟩
  | 15 => ⟨S256x1, .i32⟩
  | 16 => ⟨S256x1, .i1⟩
  | 17 => ⟨S256x1, .i1⟩
  | 18 => ⟨S_, .i1⟩
  | 19 => ⟨S256, .i1⟩
  | 20 => ⟨S256x100, .f32⟩
  | 21 => ⟨S256x100, .i1⟩
  | 22 => ⟨S_, .f32⟩
  | 23 => ⟨S256x100, .f32⟩
  | 24 => ⟨S256x100, .f32⟩
  | 25 => ⟨S1x4096x100, .f32⟩
  | 26 => ⟨S1x4096x100, .f32⟩
  | 27 => ⟨S1x4096x100, .f32⟩
  | 28 => ⟨S1x4096x100, .f32⟩
  | 29 => ⟨S1x4096x100, .f32⟩
  | 30 => ⟨S1x4096x100, .f32⟩
  | 31 => ⟨S1x4096x100, .f32⟩
  | 32 => ⟨S1x4096x100, .f32⟩
  | 33 => ⟨S8x4096x100, .f32⟩
  | 34 => ⟨S1x4096x100, .f32⟩
  | 35 => ⟨S1x4096x100, .f32⟩
  | 36 => ⟨S1x4096x100, .f32⟩
  | 37 => ⟨S1x4096x100, .f32⟩
  | 38 => ⟨S1x4096x100, .f32⟩
  | 39 => ⟨S1x4096x100, .f32⟩
  | 40 => ⟨S1x4096x100, .f32⟩
  | 41 => ⟨S1x4096x100, .f32⟩
  | 42 => ⟨S8x4096x100, .f32⟩
  | 43 => ⟨S1x4096, .f32⟩
  | 44 => ⟨S1x4096, .f32⟩
  | 45 => ⟨S1x4096, .f32⟩
  | 46 => ⟨S1x4096, .f32⟩
  | 47 => ⟨S1x4096, .f32⟩
  | 48 => ⟨S1x4096, .f32⟩
  | 49 => ⟨S1x4096, .f32⟩
  | 50 => ⟨S1x4096, .f32⟩
  | 51 => ⟨S8x4096, .f32⟩
  | 52 => ⟨S8x1x4096, .f32⟩
  | 53 => ⟨S1x256x100, .f32⟩
  | 54 => ⟨S1x256x100, .f32⟩
  | 55 => ⟨S1x256x100, .f32⟩
  | 56 => ⟨S1x256x100, .f32⟩
  | 57 => ⟨S1x256x100, .f32⟩
  | 58 => ⟨S1x256x100, .f32⟩
  | 59 => ⟨S1x256x100, .f32⟩
  | 60 => ⟨S1x256x100, .f32⟩
  | 61 => ⟨S8x256x100, .f32⟩
  | 62 => ⟨S8x1x100, .f32⟩
  | 63 => ⟨S8x1x1, .f32⟩
  | 64 => ⟨S_, .f32⟩
  | 65 => ⟨S_, .f32⟩
  | 66 => ⟨S_, .f32⟩
  | 67 => ⟨S_, .f32⟩
  | _ => ⟨S4096x8, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x8, .i32⟩

abbrev bufTy : (tb : Table) → Fin (tcTables nBuf tb) → BufTy
  | .hbm, ⟨i, _⟩ => hbmTy i
  | .local _ .vmem, ⟨0, _⟩ => ⟨S1x2048x100, .f32⟩
  | .local _ .vmem, ⟨1, _⟩ => ⟨S1x2048x100, .f32⟩
  | .local _ .vmem, ⟨2, _⟩ => ⟨S1x2048x100, .f32⟩
  | .local _ .vmem, ⟨3, _⟩ => ⟨S1x2048x100, .f32⟩
  | .local _ .vmem, ⟨4, _⟩ => ⟨S1x1x2048, .f32⟩
  | .local _ .vmem, ⟨5, _⟩ => ⟨S1x1x2048, .f32⟩
  | .local _ .vmem, ⟨6, _⟩ => ⟨S1x1x100, .f32⟩
  | .local _ .vmem, ⟨7, _⟩ => ⟨S1x1x100, .f32⟩
  | .local _ .vmem, ⟨8, _⟩ => ⟨S1x256x100, .f32⟩
  | .local _ .vmem, ⟨9, _⟩ => ⟨S1x256x100, .f32⟩
  | .local _ .vmem, ⟨10, _⟩ => ⟨S1x1x1, .f32⟩
  | .local _ .vmem, ⟨11, _⟩ => ⟨S1x1x1, .f32⟩
  | _, _ => ⟨S4096x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v6 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v7 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_cst : Ref sig .tc := ⟨.hbm, 88, rfl⟩
abbrev main_call2_v14 : Ref sig .tc := ⟨.hbm, 89, rfl⟩
abbrev main_v8 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v16 : Ref sig .tc := ⟨.hbm, 142, rfl⟩
abbrev main_call5_c : Ref sig .tc := ⟨.hbm, 143, rfl⟩
abbrev main_call5_v0 : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_c_1 : Ref sig .tc := ⟨.hbm, 151, rfl⟩
abbrev main_call5_c_2 : Ref sig .tc := ⟨.hbm, 152, rfl⟩
abbrev main_call5_v6 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_c_3 : Ref sig .tc := ⟨.hbm, 159, rfl⟩
abbrev main_call5_v12 : Ref sig .tc := ⟨.hbm, 160, rfl⟩
abbrev main_call5_v13 : Ref sig .tc := ⟨.hbm, 161, rfl⟩
abbrev main_call5_v14 : Ref sig .tc := ⟨.hbm, 162, rfl⟩
abbrev main_call5_cst : Ref sig .tc := ⟨.hbm, 163, rfl⟩
abbrev main_call5_v15 : Ref sig .tc := ⟨.hbm, 164, rfl⟩
abbrev main_v17 : Ref sig .tc := ⟨.hbm, 165, rfl⟩
abbrev main_call6_c : Ref sig .tc := ⟨.hbm, 166, rfl⟩
abbrev main_call6_v0 : Ref sig .tc := ⟨.hbm, 167, rfl⟩
abbrev main_call6_v1 : Ref sig .tc := ⟨.hbm, 168, rfl⟩
abbrev main_call6_c_0 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_c_1 : Ref sig .tc := ⟨.hbm, 174, rfl⟩
abbrev main_call6_c_2 : Ref sig .tc := ⟨.hbm, 175, rfl⟩
abbrev main_call6_v6 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_3 : Ref sig .tc := ⟨.hbm, 182, rfl⟩
abbrev main_call6_v12 : Ref sig .tc := ⟨.hbm, 183, rfl⟩
abbrev main_call6_v13 : Ref sig .tc := ⟨.hbm, 184, rfl⟩
abbrev main_call6_cst : Ref sig .tc := ⟨.hbm, 185, rfl⟩
abbrev main_call6_v14 : Ref sig .tc := ⟨.hbm, 186, rfl⟩
abbrev main_v18 : Ref sig .tc := ⟨.hbm, 187, rfl⟩
abbrev main_call7_c : Ref sig .tc := ⟨.hbm, 188, rfl⟩
abbrev main_call7_v0 : Ref sig .tc := ⟨.hbm, 189, rfl⟩
abbrev main_call7_v1 : Ref sig .tc := ⟨.hbm, 190, rfl⟩
abbrev main_call7_c_0 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_call7_v5 : Ref sig .tc := ⟨.hbm, 195, rfl⟩
abbrev main_call7_c_1 : Ref sig .tc := ⟨.hbm, 196, rfl⟩
abbrev main_call7_c_2 : Ref sig .tc := ⟨.hbm, 197, rfl⟩
abbrev main_call7_v6 : Ref sig .tc := ⟨.hbm, 198, rfl⟩
abbrev main_call7_v7 : Ref sig .tc := ⟨.hbm, 199, rfl⟩
abbrev main_call7_v8 : Ref sig .tc := ⟨.hbm, 200, rfl⟩
abbrev main_call7_v9 : Ref sig .tc := ⟨.hbm, 201, rfl⟩
abbrev main_call7_v10 : Ref sig .tc := ⟨.hbm, 202, rfl⟩
abbrev main_call7_v11 : Ref sig .tc := ⟨.hbm, 203, rfl⟩
abbrev main_call7_c_3 : Ref sig .tc := ⟨.hbm, 204, rfl⟩
abbrev main_call7_v12 : Ref sig .tc := ⟨.hbm, 205, rfl⟩
abbrev main_call7_v13 : Ref sig .tc := ⟨.hbm, 206, rfl⟩
abbrev main_call7_v14 : Ref sig .tc := ⟨.hbm, 207, rfl⟩
abbrev main_call7_cst : Ref sig .tc := ⟨.hbm, 208, rfl⟩
abbrev main_call7_v15 : Ref sig .tc := ⟨.hbm, 209, rfl⟩
abbrev main_v19 : Ref sig .tc := ⟨.hbm, 210, rfl⟩
abbrev main_v20 : Ref sig .tc := ⟨.hbm, 211, rfl⟩
abbrev main_v21 : Ref sig .tc := ⟨.hbm, 212, rfl⟩
abbrev main_v22 : Ref sig .tc := ⟨.hbm, 213, rfl⟩
abbrev main_v23 : Ref sig .tc := ⟨.hbm, 214, rfl⟩
abbrev main_v24 : Ref sig .tc := ⟨.hbm, 215, rfl⟩
abbrev main_v25 : Ref sig .tc := ⟨.hbm, 216, rfl⟩
abbrev main_call8_c : Ref sig .tc := ⟨.hbm, 217, rfl⟩
abbrev main_call8_v0 : Ref sig .tc := ⟨.hbm, 218, rfl⟩
abbrev main_call8_v1 : Ref sig .tc := ⟨.hbm, 219, rfl⟩
abbrev main_call8_c_0 : Ref sig .tc := ⟨.hbm, 220, rfl⟩
abbrev main_call8_v2 : Ref sig .tc := ⟨.hbm, 221, rfl⟩
abbrev main_call8_v3 : Ref sig .tc := ⟨.hbm, 222, rfl⟩
abbrev main_call8_v4 : Ref sig .tc := ⟨.hbm, 223, rfl⟩
abbrev main_call8_v5 : Ref sig .tc := ⟨.hbm, 224, rfl⟩
abbrev main_call8_c_1 : Ref sig .tc := ⟨.hbm, 225, rfl⟩
abbrev main_call8_c_2 : Ref sig .tc := ⟨.hbm, 226, rfl⟩
abbrev main_call8_v6 : Ref sig .tc := ⟨.hbm, 227, rfl⟩
abbrev main_call8_v7 : Ref sig .tc := ⟨.hbm, 228, rfl⟩
abbrev main_call8_v8 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_c_3 : Ref sig .tc := ⟨.hbm, 233, rfl⟩
abbrev main_call8_v12 : Ref sig .tc := ⟨.hbm, 234, rfl⟩
abbrev main_call8_v13 : Ref sig .tc := ⟨.hbm, 235, rfl⟩
abbrev main_call8_v14 : Ref sig .tc := ⟨.hbm, 236, rfl⟩
abbrev main_call8_cst : Ref sig .tc := ⟨.hbm, 237, rfl⟩
abbrev main_call8_v15 : Ref sig .tc := ⟨.hbm, 238, rfl⟩
abbrev main_v26 : Ref sig .tc := ⟨.hbm, 239, rfl⟩
abbrev main_call9_c : Ref sig .tc := ⟨.hbm, 240, rfl⟩
abbrev main_call9_v0 : Ref sig .tc := ⟨.hbm, 241, rfl⟩
abbrev main_call9_v1 : Ref sig .tc := ⟨.hbm, 242, rfl⟩
abbrev main_call9_c_0 : Ref sig .tc := ⟨.hbm, 243, rfl⟩
abbrev main_call9_v2 : Ref sig .tc := ⟨.hbm, 244, rfl⟩
abbrev main_call9_v3 : Ref sig .tc := ⟨.hbm, 245, rfl⟩
abbrev main_call9_v4 : Ref sig .tc := ⟨.hbm, 246, rfl⟩
abbrev main_call9_v5 : Ref sig .tc := ⟨.hbm, 247, rfl⟩
abbrev main_call9_c_1 : Ref sig .tc := ⟨.hbm, 248, rfl⟩
abbrev main_call9_c_2 : Ref sig .tc := ⟨.hbm, 249, rfl⟩
abbrev main_call9_v6 : Ref sig .tc := ⟨.hbm, 250, rfl⟩
abbrev main_call9_v7 : Ref sig .tc := ⟨.hbm, 251, rfl⟩
abbrev main_call9_v8 : Ref sig .tc := ⟨.hbm, 252, rfl⟩
abbrev main_call9_v9 : Ref sig .tc := ⟨.hbm, 253, rfl⟩
abbrev main_call9_v10 : Ref sig .tc := ⟨.hbm, 254, rfl⟩
abbrev main_call9_v11 : Ref sig .tc := ⟨.hbm, 255, rfl⟩
abbrev main_call9_c_3 : Ref sig .tc := ⟨.hbm, 256, rfl⟩
abbrev main_call9_v12 : Ref sig .tc := ⟨.hbm, 257, rfl⟩
abbrev main_call9_v13 : Ref sig .tc := ⟨.hbm, 258, rfl⟩
abbrev main_call9_v14 : Ref sig .tc := ⟨.hbm, 259, rfl⟩
abbrev main_call9_cst : Ref sig .tc := ⟨.hbm, 260, rfl⟩
abbrev main_call9_v15 : Ref sig .tc := ⟨.hbm, 261, rfl⟩
abbrev main_v27 : Ref sig .tc := ⟨.hbm, 262, rfl⟩
abbrev main_call10_c : Ref sig .tc := ⟨.hbm, 263, rfl⟩
abbrev main_call10_v0 : Ref sig .tc := ⟨.hbm, 264, rfl⟩
abbrev main_call10_v1 : Ref sig .tc := ⟨.hbm, 265, rfl⟩
abbrev main_call10_c_0 : Ref sig .tc := ⟨.hbm, 266, rfl⟩
abbrev main_call10_v2 : Ref sig .tc := ⟨.hbm, 267, rfl⟩
abbrev main_call10_v3 : Ref sig .tc := ⟨.hbm, 268, rfl⟩
abbrev main_call10_v4 : Ref sig .tc := ⟨.hbm, 269, rfl⟩
abbrev main_call10_v5 : Ref sig .tc := ⟨.hbm, 270, rfl⟩
abbrev main_call10_c_1 : Ref sig .tc := ⟨.hbm, 271, rfl⟩
abbrev main_call10_c_2 : Ref sig .tc := ⟨.hbm, 272, rfl⟩
abbrev main_call10_v6 : Ref sig .tc := ⟨.hbm, 273, rfl⟩
abbrev main_call10_v7 : Ref sig .tc := ⟨.hbm, 274, rfl⟩
abbrev main_call10_v8 : Ref sig .tc := ⟨.hbm, 275, rfl⟩
abbrev main_call10_v9 : Ref sig .tc := ⟨.hbm, 276, rfl⟩
abbrev main_call10_v10 : Ref sig .tc := ⟨.hbm, 277, rfl⟩
abbrev main_call10_v11 : Ref sig .tc := ⟨.hbm, 278, rfl⟩
abbrev main_call10_c_3 : Ref sig .tc := ⟨.hbm, 279, rfl⟩
abbrev main_call10_v12 : Ref sig .tc := ⟨.hbm, 280, rfl⟩
abbrev main_call10_v13 : Ref sig .tc := ⟨.hbm, 281, rfl⟩
abbrev main_call10_cst : Ref sig .tc := ⟨.hbm, 282, rfl⟩
abbrev main_call10_v14 : Ref sig .tc := ⟨.hbm, 283, rfl⟩
abbrev main_v28 : Ref sig .tc := ⟨.hbm, 284, rfl⟩
abbrev main_call11_c : Ref sig .tc := ⟨.hbm, 285, rfl⟩
abbrev main_call11_v0 : Ref sig .tc := ⟨.hbm, 286, rfl⟩
abbrev main_call11_v1 : Ref sig .tc := ⟨.hbm, 287, rfl⟩
abbrev main_call11_c_0 : Ref sig .tc := ⟨.hbm, 288, rfl⟩
abbrev main_call11_v2 : Ref sig .tc := ⟨.hbm, 289, rfl⟩
abbrev main_call11_v3 : Ref sig .tc := ⟨.hbm, 290, rfl⟩
abbrev main_call11_v4 : Ref sig .tc := ⟨.hbm, 291, rfl⟩
abbrev main_call11_v5 : Ref sig .tc := ⟨.hbm, 292, rfl⟩
abbrev main_call11_c_1 : Ref sig .tc := ⟨.hbm, 293, rfl⟩
abbrev main_call11_c_2 : Ref sig .tc := ⟨.hbm, 294, rfl⟩
abbrev main_call11_v6 : Ref sig .tc := ⟨.hbm, 295, rfl⟩
abbrev main_call11_v7 : Ref sig .tc := ⟨.hbm, 296, rfl⟩
abbrev main_call11_v8 : Ref sig .tc := ⟨.hbm, 297, rfl⟩
abbrev main_call11_v9 : Ref sig .tc := ⟨.hbm, 298, rfl⟩
abbrev main_call11_v10 : Ref sig .tc := ⟨.hbm, 299, rfl⟩
abbrev main_call11_v11 : Ref sig .tc := ⟨.hbm, 300, rfl⟩
abbrev main_call11_c_3 : Ref sig .tc := ⟨.hbm, 301, rfl⟩
abbrev main_call11_v12 : Ref sig .tc := ⟨.hbm, 302, rfl⟩
abbrev main_call11_v13 : Ref sig .tc := ⟨.hbm, 303, rfl⟩
abbrev main_call11_v14 : Ref sig .tc := ⟨.hbm, 304, rfl⟩
abbrev main_call11_cst : Ref sig .tc := ⟨.hbm, 305, rfl⟩
abbrev main_call11_v15 : Ref sig .tc := ⟨.hbm, 306, rfl⟩
abbrev main_v29 : Ref sig .tc := ⟨.hbm, 307, rfl⟩
abbrev main_v30 : Ref sig .tc := ⟨.hbm, 308, rfl⟩
abbrev main_v31 : Ref sig .tc := ⟨.hbm, 309, rfl⟩
abbrev main_v32 : Ref sig .tc := ⟨.hbm, 310, rfl⟩
abbrev main_v33 : Ref sig .tc := ⟨.hbm, 311, rfl⟩
abbrev main_v34 : Ref sig .tc := ⟨.hbm, 312, rfl⟩
abbrev main_v35 : Ref sig .tc := ⟨.hbm, 313, rfl⟩
abbrev main_call12_c : Ref sig .tc := ⟨.hbm, 314, rfl⟩
abbrev main_call12_v0 : Ref sig .tc := ⟨.hbm, 315, rfl⟩
abbrev main_call12_v1 : Ref sig .tc := ⟨.hbm, 316, rfl⟩
abbrev main_call12_c_0 : Ref sig .tc := ⟨.hbm, 317, rfl⟩
abbrev main_call12_v2 : Ref sig .tc := ⟨.hbm, 318, rfl⟩
abbrev main_call12_v3 : Ref sig .tc := ⟨.hbm, 319, rfl⟩
abbrev main_call12_v4 : Ref sig .tc := ⟨.hbm, 320, rfl⟩
abbrev main_call12_v5 : Ref sig .tc := ⟨.hbm, 321, rfl⟩
abbrev main_call12_c_1 : Ref sig .tc := ⟨.hbm, 322, rfl⟩
abbrev main_call12_c_2 : Ref sig .tc := ⟨.hbm, 323, rfl⟩
abbrev main_call12_v6 : Ref sig .tc := ⟨.hbm, 324, rfl⟩
abbrev main_call12_v7 : Ref sig .tc := ⟨.hbm, 325, rfl⟩
abbrev main_call12_v8 : Ref sig .tc := ⟨.hbm, 326, rfl⟩
abbrev main_call12_v9 : Ref sig .tc := ⟨.hbm, 327, rfl⟩
abbrev main_call12_v10 : Ref sig .tc := ⟨.hbm, 328, rfl⟩
abbrev main_call12_v11 : Ref sig .tc := ⟨.hbm, 329, rfl⟩
abbrev main_call12_c_3 : Ref sig .tc := ⟨.hbm, 330, rfl⟩
abbrev main_call12_v12 : Ref sig .tc := ⟨.hbm, 331, rfl⟩
abbrev main_call12_v13 : Ref sig .tc := ⟨.hbm, 332, rfl⟩
abbrev main_call12_v14 : Ref sig .tc := ⟨.hbm, 333, rfl⟩
abbrev main_call12_cst : Ref sig .tc := ⟨.hbm, 334, rfl⟩
abbrev main_call12_v15 : Ref sig .tc := ⟨.hbm, 335, rfl⟩
abbrev main_v36 : Ref sig .tc := ⟨.hbm, 336, rfl⟩
abbrev main_call13_c : Ref sig .tc := ⟨.hbm, 337, rfl⟩
abbrev main_call13_v0 : Ref sig .tc := ⟨.hbm, 338, rfl⟩
abbrev main_call13_v1 : Ref sig .tc := ⟨.hbm, 339, rfl⟩
abbrev main_call13_c_0 : Ref sig .tc := ⟨.hbm, 340, rfl⟩
abbrev main_call13_v2 : Ref sig .tc := ⟨.hbm, 341, rfl⟩
abbrev main_call13_v3 : Ref sig .tc := ⟨.hbm, 342, rfl⟩
abbrev main_call13_v4 : Ref sig .tc := ⟨.hbm, 343, rfl⟩
abbrev main_call13_v5 : Ref sig .tc := ⟨.hbm, 344, rfl⟩
abbrev main_call13_c_1 : Ref sig .tc := ⟨.hbm, 345, rfl⟩
abbrev main_call13_c_2 : Ref sig .tc := ⟨.hbm, 346, rfl⟩
abbrev main_call13_v6 : Ref sig .tc := ⟨.hbm, 347, rfl⟩
abbrev main_call13_v7 : Ref sig .tc := ⟨.hbm, 348, rfl⟩
abbrev main_call13_v8 : Ref sig .tc := ⟨.hbm, 349, rfl⟩
abbrev main_call13_v9 : Ref sig .tc := ⟨.hbm, 350, rfl⟩
abbrev main_call13_v10 : Ref sig .tc := ⟨.hbm, 351, rfl⟩
abbrev main_call13_v11 : Ref sig .tc := ⟨.hbm, 352, rfl⟩
abbrev main_call13_c_3 : Ref sig .tc := ⟨.hbm, 353, rfl⟩
abbrev main_call13_v12 : Ref sig .tc := ⟨.hbm, 354, rfl⟩
abbrev main_call13_v13 : Ref sig .tc := ⟨.hbm, 355, rfl⟩
abbrev main_call13_v14 : Ref sig .tc := ⟨.hbm, 356, rfl⟩
abbrev main_call13_cst : Ref sig .tc := ⟨.hbm, 357, rfl⟩
abbrev main_call13_v15 : Ref sig .tc := ⟨.hbm, 358, rfl⟩
abbrev main_v37 : Ref sig .tc := ⟨.hbm, 359, rfl⟩
abbrev main_call14_c : Ref sig .tc := ⟨.hbm, 360, rfl⟩
abbrev main_call14_v0 : Ref sig .tc := ⟨.hbm, 361, rfl⟩
abbrev main_call14_v1 : Ref sig .tc := ⟨.hbm, 362, rfl⟩
abbrev main_call14_c_0 : Ref sig .tc := ⟨.hbm, 363, rfl⟩
abbrev main_call14_v2 : Ref sig .tc := ⟨.hbm, 364, rfl⟩
abbrev main_call14_v3 : Ref sig .tc := ⟨.hbm, 365, rfl⟩
abbrev main_call14_v4 : Ref sig .tc := ⟨.hbm, 366, rfl⟩
abbrev main_call14_v5 : Ref sig .tc := ⟨.hbm, 367, rfl⟩
abbrev main_call14_c_1 : Ref sig .tc := ⟨.hbm, 368, rfl⟩
abbrev main_call14_c_2 : Ref sig .tc := ⟨.hbm, 369, rfl⟩
abbrev main_call14_v6 : Ref sig .tc := ⟨.hbm, 370, rfl⟩
abbrev main_call14_v7 : Ref sig .tc := ⟨.hbm, 371, rfl⟩
abbrev main_call14_v8 : Ref sig .tc := ⟨.hbm, 372, rfl⟩
abbrev main_call14_v9 : Ref sig .tc := ⟨.hbm, 373, rfl⟩
abbrev main_call14_v10 : Ref sig .tc := ⟨.hbm, 374, rfl⟩
abbrev main_call14_v11 : Ref sig .tc := ⟨.hbm, 375, rfl⟩
abbrev main_call14_c_3 : Ref sig .tc := ⟨.hbm, 376, rfl⟩
abbrev main_call14_v12 : Ref sig .tc := ⟨.hbm, 377, rfl⟩
abbrev main_call14_v13 : Ref sig .tc := ⟨.hbm, 378, rfl⟩
abbrev main_call14_cst : Ref sig .tc := ⟨.hbm, 379, rfl⟩
abbrev main_call14_v14 : Ref sig .tc := ⟨.hbm, 380, rfl⟩
abbrev main_v38 : Ref sig .tc := ⟨.hbm, 381, rfl⟩
abbrev main_call15_c : Ref sig .tc := ⟨.hbm, 382, rfl⟩
abbrev main_call15_v0 : Ref sig .tc := ⟨.hbm, 383, rfl⟩
abbrev main_call15_v1 : Ref sig .tc := ⟨.hbm, 384, rfl⟩
abbrev main_call15_c_0 : Ref sig .tc := ⟨.hbm, 385, rfl⟩
abbrev main_call15_v2 : Ref sig .tc := ⟨.hbm, 386, rfl⟩
abbrev main_call15_v3 : Ref sig .tc := ⟨.hbm, 387, rfl⟩
abbrev main_call15_v4 : Ref sig .tc := ⟨.hbm, 388, rfl⟩
abbrev main_call15_v5 : Ref sig .tc := ⟨.hbm, 389, rfl⟩
abbrev main_call15_c_1 : Ref sig .tc := ⟨.hbm, 390, rfl⟩
abbrev main_call15_c_2 : Ref sig .tc := ⟨.hbm, 391, rfl⟩
abbrev main_call15_v6 : Ref sig .tc := ⟨.hbm, 392, rfl⟩
abbrev main_call15_v7 : Ref sig .tc := ⟨.hbm, 393, rfl⟩
abbrev main_call15_v8 : Ref sig .tc := ⟨.hbm, 394, rfl⟩
abbrev main_call15_v9 : Ref sig .tc := ⟨.hbm, 395, rfl⟩
abbrev main_call15_v10 : Ref sig .tc := ⟨.hbm, 396, rfl⟩
abbrev main_call15_v11 : Ref sig .tc := ⟨.hbm, 397, rfl⟩
abbrev main_call15_c_3 : Ref sig .tc := ⟨.hbm, 398, rfl⟩
abbrev main_call15_v12 : Ref sig .tc := ⟨.hbm, 399, rfl⟩
abbrev main_call15_v13 : Ref sig .tc := ⟨.hbm, 400, rfl⟩
abbrev main_call15_v14 : Ref sig .tc := ⟨.hbm, 401, rfl⟩
abbrev main_call15_cst : Ref sig .tc := ⟨.hbm, 402, rfl⟩
abbrev main_call15_v15 : Ref sig .tc := ⟨.hbm, 403, rfl⟩
abbrev main_v39 : Ref sig .tc := ⟨.hbm, 404, rfl⟩
abbrev main_v40 : Ref sig .tc := ⟨.hbm, 405, rfl⟩
abbrev main_v41 : Ref sig .tc := ⟨.hbm, 406, rfl⟩
abbrev main_v42 : Ref sig .tc := ⟨.hbm, 407, rfl⟩
abbrev main_v43 : Ref sig .tc := ⟨.hbm, 408, rfl⟩
abbrev main_v44 : Ref sig .tc := ⟨.hbm, 409, rfl⟩
abbrev main_v45 : Ref sig .tc := ⟨.hbm, 410, rfl⟩
abbrev main_call16_c : Ref sig .tc := ⟨.hbm, 411, rfl⟩
abbrev main_call16_v0 : Ref sig .tc := ⟨.hbm, 412, rfl⟩
abbrev main_call16_v1 : Ref sig .tc := ⟨.hbm, 413, rfl⟩
abbrev main_call16_c_0 : Ref sig .tc := ⟨.hbm, 414, rfl⟩
abbrev main_call16_v2 : Ref sig .tc := ⟨.hbm, 415, rfl⟩
abbrev main_call16_v3 : Ref sig .tc := ⟨.hbm, 416, rfl⟩
abbrev main_call16_v4 : Ref sig .tc := ⟨.hbm, 417, rfl⟩
abbrev main_call16_v5 : Ref sig .tc := ⟨.hbm, 418, rfl⟩
abbrev main_call16_c_1 : Ref sig .tc := ⟨.hbm, 419, rfl⟩
abbrev main_call16_c_2 : Ref sig .tc := ⟨.hbm, 420, rfl⟩
abbrev main_call16_v6 : Ref sig .tc := ⟨.hbm, 421, rfl⟩
abbrev main_call16_v7 : Ref sig .tc := ⟨.hbm, 422, rfl⟩
abbrev main_call16_v8 : Ref sig .tc := ⟨.hbm, 423, rfl⟩
abbrev main_call16_v9 : Ref sig .tc := ⟨.hbm, 424, rfl⟩
abbrev main_call16_v10 : Ref sig .tc := ⟨.hbm, 425, rfl⟩
abbrev main_call16_v11 : Ref sig .tc := ⟨.hbm, 426, rfl⟩
abbrev main_call16_c_3 : Ref sig .tc := ⟨.hbm, 427, rfl⟩
abbrev main_call16_v12 : Ref sig .tc := ⟨.hbm, 428, rfl⟩
abbrev main_call16_v13 : Ref sig .tc := ⟨.hbm, 429, rfl⟩
abbrev main_call16_v14 : Ref sig .tc := ⟨.hbm, 430, rfl⟩
abbrev main_call16_cst : Ref sig .tc := ⟨.hbm, 431, rfl⟩
abbrev main_call16_v15 : Ref sig .tc := ⟨.hbm, 432, rfl⟩
abbrev main_v46 : Ref sig .tc := ⟨.hbm, 433, rfl⟩
abbrev main_call17_c : Ref sig .tc := ⟨.hbm, 434, rfl⟩
abbrev main_call17_v0 : Ref sig .tc := ⟨.hbm, 435, rfl⟩
abbrev main_call17_v1 : Ref sig .tc := ⟨.hbm, 436, rfl⟩
abbrev main_call17_c_0 : Ref sig .tc := ⟨.hbm, 437, rfl⟩
abbrev main_call17_v2 : Ref sig .tc := ⟨.hbm, 438, rfl⟩
abbrev main_call17_v3 : Ref sig .tc := ⟨.hbm, 439, rfl⟩
abbrev main_call17_v4 : Ref sig .tc := ⟨.hbm, 440, rfl⟩
abbrev main_call17_v5 : Ref sig .tc := ⟨.hbm, 441, rfl⟩
abbrev main_call17_c_1 : Ref sig .tc := ⟨.hbm, 442, rfl⟩
abbrev main_call17_c_2 : Ref sig .tc := ⟨.hbm, 443, rfl⟩
abbrev main_call17_v6 : Ref sig .tc := ⟨.hbm, 444, rfl⟩
abbrev main_call17_v7 : Ref sig .tc := ⟨.hbm, 445, rfl⟩
abbrev main_call17_v8 : Ref sig .tc := ⟨.hbm, 446, rfl⟩
abbrev main_call17_v9 : Ref sig .tc := ⟨.hbm, 447, rfl⟩
abbrev main_call17_v10 : Ref sig .tc := ⟨.hbm, 448, rfl⟩
abbrev main_call17_v11 : Ref sig .tc := ⟨.hbm, 449, rfl⟩
abbrev main_call17_c_3 : Ref sig .tc := ⟨.hbm, 450, rfl⟩
abbrev main_call17_v12 : Ref sig .tc := ⟨.hbm, 451, rfl⟩
abbrev main_call17_v13 : Ref sig .tc := ⟨.hbm, 452, rfl⟩
abbrev main_call17_v14 : Ref sig .tc := ⟨.hbm, 453, rfl⟩
abbrev main_call17_cst : Ref sig .tc := ⟨.hbm, 454, rfl⟩
abbrev main_call17_v15 : Ref sig .tc := ⟨.hbm, 455, rfl⟩
abbrev main_v47 : Ref sig .tc := ⟨.hbm, 456, rfl⟩
abbrev main_call18_c : Ref sig .tc := ⟨.hbm, 457, rfl⟩
abbrev main_call18_v0 : Ref sig .tc := ⟨.hbm, 458, rfl⟩
abbrev main_call18_v1 : Ref sig .tc := ⟨.hbm, 459, rfl⟩
abbrev main_call18_c_0 : Ref sig .tc := ⟨.hbm, 460, rfl⟩
abbrev main_call18_v2 : Ref sig .tc := ⟨.hbm, 461, rfl⟩
abbrev main_call18_v3 : Ref sig .tc := ⟨.hbm, 462, rfl⟩
abbrev main_call18_v4 : Ref sig .tc := ⟨.hbm, 463, rfl⟩
abbrev main_call18_v5 : Ref sig .tc := ⟨.hbm, 464, rfl⟩
abbrev main_call18_c_1 : Ref sig .tc := ⟨.hbm, 465, rfl⟩
abbrev main_call18_c_2 : Ref sig .tc := ⟨.hbm, 466, rfl⟩
abbrev main_call18_v6 : Ref sig .tc := ⟨.hbm, 467, rfl⟩
abbrev main_call18_v7 : Ref sig .tc := ⟨.hbm, 468, rfl⟩
abbrev main_call18_v8 : Ref sig .tc := ⟨.hbm, 469, rfl⟩
abbrev main_call18_v9 : Ref sig .tc := ⟨.hbm, 470, rfl⟩
abbrev main_call18_v10 : Ref sig .tc := ⟨.hbm, 471, rfl⟩
abbrev main_call18_v11 : Ref sig .tc := ⟨.hbm, 472, rfl⟩
abbrev main_call18_c_3 : Ref sig .tc := ⟨.hbm, 473, rfl⟩
abbrev main_call18_v12 : Ref sig .tc := ⟨.hbm, 474, rfl⟩
abbrev main_call18_v13 : Ref sig .tc := ⟨.hbm, 475, rfl⟩
abbrev main_call18_cst : Ref sig .tc := ⟨.hbm, 476, rfl⟩
abbrev main_call18_v14 : Ref sig .tc := ⟨.hbm, 477, rfl⟩
abbrev main_v48 : Ref sig .tc := ⟨.hbm, 478, rfl⟩
abbrev main_call19_c : Ref sig .tc := ⟨.hbm, 479, rfl⟩
abbrev main_call19_v0 : Ref sig .tc := ⟨.hbm, 480, rfl⟩
abbrev main_call19_v1 : Ref sig .tc := ⟨.hbm, 481, rfl⟩
abbrev main_call19_c_0 : Ref sig .tc := ⟨.hbm, 482, rfl⟩
abbrev main_call19_v2 : Ref sig .tc := ⟨.hbm, 483, rfl⟩
abbrev main_call19_v3 : Ref sig .tc := ⟨.hbm, 484, rfl⟩
abbrev main_call19_v4 : Ref sig .tc := ⟨.hbm, 485, rfl⟩
abbrev main_call19_v5 : Ref sig .tc := ⟨.hbm, 486, rfl⟩
abbrev main_call19_c_1 : Ref sig .tc := ⟨.hbm, 487, rfl⟩
abbrev main_call19_c_2 : Ref sig .tc := ⟨.hbm, 488, rfl⟩
abbrev main_call19_v6 : Ref sig .tc := ⟨.hbm, 489, rfl⟩
abbrev main_call19_v7 : Ref sig .tc := ⟨.hbm, 490, rfl⟩
abbrev main_call19_v8 : Ref sig .tc := ⟨.hbm, 491, rfl⟩
abbrev main_call19_v9 : Ref sig .tc := ⟨.hbm, 492, rfl⟩
abbrev main_call19_v10 : Ref sig .tc := ⟨.hbm, 493, rfl⟩
abbrev main_call19_v11 : Ref sig .tc := ⟨.hbm, 494, rfl⟩
abbrev main_call19_c_3 : Ref sig .tc := ⟨.hbm, 495, rfl⟩
abbrev main_call19_v12 : Ref sig .tc := ⟨.hbm, 496, rfl⟩
abbrev main_call19_v13 : Ref sig .tc := ⟨.hbm, 497, rfl⟩
abbrev main_call19_v14 : Ref sig .tc := ⟨.hbm, 498, rfl⟩
abbrev main_call19_cst : Ref sig .tc := ⟨.hbm, 499, rfl⟩
abbrev main_call19_v15 : Ref sig .tc := ⟨.hbm, 500, rfl⟩
abbrev main_v49 : Ref sig .tc := ⟨.hbm, 501, rfl⟩
abbrev main_v50 : Ref sig .tc := ⟨.hbm, 502, rfl⟩
abbrev main_v51 : Ref sig .tc := ⟨.hbm, 503, rfl⟩
abbrev main_v52 : Ref sig .tc := ⟨.hbm, 504, rfl⟩
abbrev main_v53 : Ref sig .tc := ⟨.hbm, 505, rfl⟩
abbrev main_v54 : Ref sig .tc := ⟨.hbm, 506, rfl⟩
abbrev main_v55 : Ref sig .tc := ⟨.hbm, 507, rfl⟩
abbrev main_call20_c : Ref sig .tc := ⟨.hbm, 508, rfl⟩
abbrev main_call20_v0 : Ref sig .tc := ⟨.hbm, 509, rfl⟩
abbrev main_call20_v1 : Ref sig .tc := ⟨.hbm, 510, rfl⟩
abbrev main_call20_c_0 : Ref sig .tc := ⟨.hbm, 511, rfl⟩
abbrev main_call20_v2 : Ref sig .tc := ⟨.hbm, 512, rfl⟩
abbrev main_call20_v3 : Ref sig .tc := ⟨.hbm, 513, rfl⟩
abbrev main_call20_v4 : Ref sig .tc := ⟨.hbm, 514, rfl⟩
abbrev main_call20_v5 : Ref sig .tc := ⟨.hbm, 515, rfl⟩
abbrev main_call20_c_1 : Ref sig .tc := ⟨.hbm, 516, rfl⟩
abbrev main_call20_c_2 : Ref sig .tc := ⟨.hbm, 517, rfl⟩
abbrev main_call20_v6 : Ref sig .tc := ⟨.hbm, 518, rfl⟩
abbrev main_call20_v7 : Ref sig .tc := ⟨.hbm, 519, rfl⟩
abbrev main_call20_v8 : Ref sig .tc := ⟨.hbm, 520, rfl⟩
abbrev main_call20_v9 : Ref sig .tc := ⟨.hbm, 521, rfl⟩
abbrev main_call20_v10 : Ref sig .tc := ⟨.hbm, 522, rfl⟩
abbrev main_call20_v11 : Ref sig .tc := ⟨.hbm, 523, rfl⟩
abbrev main_call20_c_3 : Ref sig .tc := ⟨.hbm, 524, rfl⟩
abbrev main_call20_v12 : Ref sig .tc := ⟨.hbm, 525, rfl⟩
abbrev main_call20_v13 : Ref sig .tc := ⟨.hbm, 526, rfl⟩
abbrev main_call20_v14 : Ref sig .tc := ⟨.hbm, 527, rfl⟩
abbrev main_call20_cst : Ref sig .tc := ⟨.hbm, 528, rfl⟩
abbrev main_call20_v15 : Ref sig .tc := ⟨.hbm, 529, rfl⟩
abbrev main_v56 : Ref sig .tc := ⟨.hbm, 530, rfl⟩
abbrev main_call21_c : Ref sig .tc := ⟨.hbm, 531, rfl⟩
abbrev main_call21_v0 : Ref sig .tc := ⟨.hbm, 532, rfl⟩
abbrev main_call21_v1 : Ref sig .tc := ⟨.hbm, 533, rfl⟩
abbrev main_call21_c_0 : Ref sig .tc := ⟨.hbm, 534, rfl⟩
abbrev main_call21_v2 : Ref sig .tc := ⟨.hbm, 535, rfl⟩
abbrev main_call21_v3 : Ref sig .tc := ⟨.hbm, 536, rfl⟩
abbrev main_call21_v4 : Ref sig .tc := ⟨.hbm, 537, rfl⟩
abbrev main_call21_v5 : Ref sig .tc := ⟨.hbm, 538, rfl⟩
abbrev main_call21_c_1 : Ref sig .tc := ⟨.hbm, 539, rfl⟩
abbrev main_call21_c_2 : Ref sig .tc := ⟨.hbm, 540, rfl⟩
abbrev main_call21_v6 : Ref sig .tc := ⟨.hbm, 541, rfl⟩
abbrev main_call21_v7 : Ref sig .tc := ⟨.hbm, 542, rfl⟩
abbrev main_call21_v8 : Ref sig .tc := ⟨.hbm, 543, rfl⟩
abbrev main_call21_v9 : Ref sig .tc := ⟨.hbm, 544, rfl⟩
abbrev main_call21_v10 : Ref sig .tc := ⟨.hbm, 545, rfl⟩
abbrev main_call21_v11 : Ref sig .tc := ⟨.hbm, 546, rfl⟩
abbrev main_call21_c_3 : Ref sig .tc := ⟨.hbm, 547, rfl⟩
abbrev main_call21_v12 : Ref sig .tc := ⟨.hbm, 548, rfl⟩
abbrev main_call21_v13 : Ref sig .tc := ⟨.hbm, 549, rfl⟩
abbrev main_call21_v14 : Ref sig .tc := ⟨.hbm, 550, rfl⟩
abbrev main_call21_cst : Ref sig .tc := ⟨.hbm, 551, rfl⟩
abbrev main_call21_v15 : Ref sig .tc := ⟨.hbm, 552, rfl⟩
abbrev main_v57 : Ref sig .tc := ⟨.hbm, 553, rfl⟩
abbrev main_call22_c : Ref sig .tc := ⟨.hbm, 554, rfl⟩
abbrev main_call22_v0 : Ref sig .tc := ⟨.hbm, 555, rfl⟩
abbrev main_call22_v1 : Ref sig .tc := ⟨.hbm, 556, rfl⟩
abbrev main_call22_c_0 : Ref sig .tc := ⟨.hbm, 557, rfl⟩
abbrev main_call22_v2 : Ref sig .tc := ⟨.hbm, 558, rfl⟩
abbrev main_call22_v3 : Ref sig .tc := ⟨.hbm, 559, rfl⟩
abbrev main_call22_v4 : Ref sig .tc := ⟨.hbm, 560, rfl⟩
abbrev main_call22_v5 : Ref sig .tc := ⟨.hbm, 561, rfl⟩
abbrev main_call22_c_1 : Ref sig .tc := ⟨.hbm, 562, rfl⟩
abbrev main_call22_c_2 : Ref sig .tc := ⟨.hbm, 563, rfl⟩
abbrev main_call22_v6 : Ref sig .tc := ⟨.hbm, 564, rfl⟩
abbrev main_call22_v7 : Ref sig .tc := ⟨.hbm, 565, rfl⟩
abbrev main_call22_v8 : Ref sig .tc := ⟨.hbm, 566, rfl⟩
abbrev main_call22_v9 : Ref sig .tc := ⟨.hbm, 567, rfl⟩
abbrev main_call22_v10 : Ref sig .tc := ⟨.hbm, 568, rfl⟩
abbrev main_call22_v11 : Ref sig .tc := ⟨.hbm, 569, rfl⟩
abbrev main_call22_c_3 : Ref sig .tc := ⟨.hbm, 570, rfl⟩
abbrev main_call22_v12 : Ref sig .tc := ⟨.hbm, 571, rfl⟩
abbrev main_call22_v13 : Ref sig .tc := ⟨.hbm, 572, rfl⟩
abbrev main_call22_cst : Ref sig .tc := ⟨.hbm, 573, rfl⟩
abbrev main_call22_v14 : Ref sig .tc := ⟨.hbm, 574, rfl⟩
abbrev main_v58 : Ref sig .tc := ⟨.hbm, 575, rfl⟩
abbrev main_call23_c : Ref sig .tc := ⟨.hbm, 576, rfl⟩
abbrev main_call23_v0 : Ref sig .tc := ⟨.hbm, 577, rfl⟩
abbrev main_call23_v1 : Ref sig .tc := ⟨.hbm, 578, rfl⟩
abbrev main_call23_c_0 : Ref sig .tc := ⟨.hbm, 579, rfl⟩
abbrev main_call23_v2 : Ref sig .tc := ⟨.hbm, 580, rfl⟩
abbrev main_call23_v3 : Ref sig .tc := ⟨.hbm, 581, rfl⟩
abbrev main_call23_v4 : Ref sig .tc := ⟨.hbm, 582, rfl⟩
abbrev main_call23_v5 : Ref sig .tc := ⟨.hbm, 583, rfl⟩
abbrev main_call23_c_1 : Ref sig .tc := ⟨.hbm, 584, rfl⟩
abbrev main_call23_c_2 : Ref sig .tc := ⟨.hbm, 585, rfl⟩
abbrev main_call23_v6 : Ref sig .tc := ⟨.hbm, 586, rfl⟩
abbrev main_call23_v7 : Ref sig .tc := ⟨.hbm, 587, rfl⟩
abbrev main_call23_v8 : Ref sig .tc := ⟨.hbm, 588, rfl⟩
abbrev main_call23_v9 : Ref sig .tc := ⟨.hbm, 589, rfl⟩
abbrev main_call23_v10 : Ref sig .tc := ⟨.hbm, 590, rfl⟩
abbrev main_call23_v11 : Ref sig .tc := ⟨.hbm, 591, rfl⟩
abbrev main_call23_c_3 : Ref sig .tc := ⟨.hbm, 592, rfl⟩
abbrev main_call23_v12 : Ref sig .tc := ⟨.hbm, 593, rfl⟩
abbrev main_call23_v13 : Ref sig .tc := ⟨.hbm, 594, rfl⟩
abbrev main_call23_v14 : Ref sig .tc := ⟨.hbm, 595, rfl⟩
abbrev main_call23_cst : Ref sig .tc := ⟨.hbm, 596, rfl⟩
abbrev main_call23_v15 : Ref sig .tc := ⟨.hbm, 597, rfl⟩
abbrev main_v59 : Ref sig .tc := ⟨.hbm, 598, rfl⟩
abbrev main_v60 : Ref sig .tc := ⟨.hbm, 599, rfl⟩
abbrev main_v61 : Ref sig .tc := ⟨.hbm, 600, rfl⟩
abbrev main_v62 : Ref sig .tc := ⟨.hbm, 601, rfl⟩
abbrev main_v63 : Ref sig .tc := ⟨.hbm, 602, rfl⟩
abbrev main_v64 : Ref sig .tc := ⟨.hbm, 603, rfl⟩
abbrev main_v65 : Ref sig .tc := ⟨.hbm, 604, rfl⟩
abbrev main_call24_c : Ref sig .tc := ⟨.hbm, 605, rfl⟩
abbrev main_call24_v0 : Ref sig .tc := ⟨.hbm, 606, rfl⟩
abbrev main_call24_v1 : Ref sig .tc := ⟨.hbm, 607, rfl⟩
abbrev main_call24_c_0 : Ref sig .tc := ⟨.hbm, 608, rfl⟩
abbrev main_call24_v2 : Ref sig .tc := ⟨.hbm, 609, rfl⟩
abbrev main_call24_v3 : Ref sig .tc := ⟨.hbm, 610, rfl⟩
abbrev main_call24_v4 : Ref sig .tc := ⟨.hbm, 611, rfl⟩
abbrev main_call24_v5 : Ref sig .tc := ⟨.hbm, 612, rfl⟩
abbrev main_call24_c_1 : Ref sig .tc := ⟨.hbm, 613, rfl⟩
abbrev main_call24_c_2 : Ref sig .tc := ⟨.hbm, 614, rfl⟩
abbrev main_call24_v6 : Ref sig .tc := ⟨.hbm, 615, rfl⟩
abbrev main_call24_v7 : Ref sig .tc := ⟨.hbm, 616, rfl⟩
abbrev main_call24_v8 : Ref sig .tc := ⟨.hbm, 617, rfl⟩
abbrev main_call24_v9 : Ref sig .tc := ⟨.hbm, 618, rfl⟩
abbrev main_call24_v10 : Ref sig .tc := ⟨.hbm, 619, rfl⟩
abbrev main_call24_v11 : Ref sig .tc := ⟨.hbm, 620, rfl⟩
abbrev main_call24_c_3 : Ref sig .tc := ⟨.hbm, 621, rfl⟩
abbrev main_call24_v12 : Ref sig .tc := ⟨.hbm, 622, rfl⟩
abbrev main_call24_v13 : Ref sig .tc := ⟨.hbm, 623, rfl⟩
abbrev main_call24_v14 : Ref sig .tc := ⟨.hbm, 624, rfl⟩
abbrev main_call24_cst : Ref sig .tc := ⟨.hbm, 625, rfl⟩
abbrev main_call24_v15 : Ref sig .tc := ⟨.hbm, 626, rfl⟩
abbrev main_v66 : Ref sig .tc := ⟨.hbm, 627, rfl⟩
abbrev main_call25_c : Ref sig .tc := ⟨.hbm, 628, rfl⟩
abbrev main_call25_v0 : Ref sig .tc := ⟨.hbm, 629, rfl⟩
abbrev main_call25_v1 : Ref sig .tc := ⟨.hbm, 630, rfl⟩
abbrev main_call25_c_0 : Ref sig .tc := ⟨.hbm, 631, rfl⟩
abbrev main_call25_v2 : Ref sig .tc := ⟨.hbm, 632, rfl⟩
abbrev main_call25_v3 : Ref sig .tc := ⟨.hbm, 633, rfl⟩
abbrev main_call25_v4 : Ref sig .tc := ⟨.hbm, 634, rfl⟩
abbrev main_call25_v5 : Ref sig .tc := ⟨.hbm, 635, rfl⟩
abbrev main_call25_c_1 : Ref sig .tc := ⟨.hbm, 636, rfl⟩
abbrev main_call25_c_2 : Ref sig .tc := ⟨.hbm, 637, rfl⟩
abbrev main_call25_v6 : Ref sig .tc := ⟨.hbm, 638, rfl⟩
abbrev main_call25_v7 : Ref sig .tc := ⟨.hbm, 639, rfl⟩
abbrev main_call25_v8 : Ref sig .tc := ⟨.hbm, 640, rfl⟩
abbrev main_call25_v9 : Ref sig .tc := ⟨.hbm, 641, rfl⟩
abbrev main_call25_v10 : Ref sig .tc := ⟨.hbm, 642, rfl⟩
abbrev main_call25_v11 : Ref sig .tc := ⟨.hbm, 643, rfl⟩
abbrev main_call25_c_3 : Ref sig .tc := ⟨.hbm, 644, rfl⟩
abbrev main_call25_v12 : Ref sig .tc := ⟨.hbm, 645, rfl⟩
abbrev main_call25_v13 : Ref sig .tc := ⟨.hbm, 646, rfl⟩
abbrev main_call25_v14 : Ref sig .tc := ⟨.hbm, 647, rfl⟩
abbrev main_call25_cst : Ref sig .tc := ⟨.hbm, 648, rfl⟩
abbrev main_call25_v15 : Ref sig .tc := ⟨.hbm, 649, rfl⟩
abbrev main_v67 : Ref sig .tc := ⟨.hbm, 650, rfl⟩
abbrev main_call26_c : Ref sig .tc := ⟨.hbm, 651, rfl⟩
abbrev main_call26_v0 : Ref sig .tc := ⟨.hbm, 652, rfl⟩
abbrev main_call26_v1 : Ref sig .tc := ⟨.hbm, 653, rfl⟩
abbrev main_call26_c_0 : Ref sig .tc := ⟨.hbm, 654, rfl⟩
abbrev main_call26_v2 : Ref sig .tc := ⟨.hbm, 655, rfl⟩
abbrev main_call26_v3 : Ref sig .tc := ⟨.hbm, 656, rfl⟩
abbrev main_call26_v4 : Ref sig .tc := ⟨.hbm, 657, rfl⟩
abbrev main_call26_v5 : Ref sig .tc := ⟨.hbm, 658, rfl⟩
abbrev main_call26_c_1 : Ref sig .tc := ⟨.hbm, 659, rfl⟩
abbrev main_call26_c_2 : Ref sig .tc := ⟨.hbm, 660, rfl⟩
abbrev main_call26_v6 : Ref sig .tc := ⟨.hbm, 661, rfl⟩
abbrev main_call26_v7 : Ref sig .tc := ⟨.hbm, 662, rfl⟩
abbrev main_call26_v8 : Ref sig .tc := ⟨.hbm, 663, rfl⟩
abbrev main_call26_v9 : Ref sig .tc := ⟨.hbm, 664, rfl⟩
abbrev main_call26_v10 : Ref sig .tc := ⟨.hbm, 665, rfl⟩
abbrev main_call26_v11 : Ref sig .tc := ⟨.hbm, 666, rfl⟩
abbrev main_call26_c_3 : Ref sig .tc := ⟨.hbm, 667, rfl⟩
abbrev main_call26_v12 : Ref sig .tc := ⟨.hbm, 668, rfl⟩
abbrev main_call26_v13 : Ref sig .tc := ⟨.hbm, 669, rfl⟩
abbrev main_call26_cst : Ref sig .tc := ⟨.hbm, 670, rfl⟩
abbrev main_call26_v14 : Ref sig .tc := ⟨.hbm, 671, rfl⟩
abbrev main_v68 : Ref sig .tc := ⟨.hbm, 672, rfl⟩
abbrev main_call27_c : Ref sig .tc := ⟨.hbm, 673, rfl⟩
abbrev main_call27_v0 : Ref sig .tc := ⟨.hbm, 674, rfl⟩
abbrev main_call27_v1 : Ref sig .tc := ⟨.hbm, 675, rfl⟩
abbrev main_call27_c_0 : Ref sig .tc := ⟨.hbm, 676, rfl⟩
abbrev main_call27_v2 : Ref sig .tc := ⟨.hbm, 677, rfl⟩
abbrev main_call27_v3 : Ref sig .tc := ⟨.hbm, 678, rfl⟩
abbrev main_call27_v4 : Ref sig .tc := ⟨.hbm, 679, rfl⟩
abbrev main_call27_v5 : Ref sig .tc := ⟨.hbm, 680, rfl⟩
abbrev main_call27_c_1 : Ref sig .tc := ⟨.hbm, 681, rfl⟩
abbrev main_call27_c_2 : Ref sig .tc := ⟨.hbm, 682, rfl⟩
abbrev main_call27_v6 : Ref sig .tc := ⟨.hbm, 683, rfl⟩
abbrev main_call27_v7 : Ref sig .tc := ⟨.hbm, 684, rfl⟩
abbrev main_call27_v8 : Ref sig .tc := ⟨.hbm, 685, rfl⟩
abbrev main_call27_v9 : Ref sig .tc := ⟨.hbm, 686, rfl⟩
abbrev main_call27_v10 : Ref sig .tc := ⟨.hbm, 687, rfl⟩
abbrev main_call27_v11 : Ref sig .tc := ⟨.hbm, 688, rfl⟩
abbrev main_call27_c_3 : Ref sig .tc := ⟨.hbm, 689, rfl⟩
abbrev main_call27_v12 : Ref sig .tc := ⟨.hbm, 690, rfl⟩
abbrev main_call27_v13 : Ref sig .tc := ⟨.hbm, 691, rfl⟩
abbrev main_call27_v14 : Ref sig .tc := ⟨.hbm, 692, rfl⟩
abbrev main_call27_cst : Ref sig .tc := ⟨.hbm, 693, rfl⟩
abbrev main_call27_v15 : Ref sig .tc := ⟨.hbm, 694, rfl⟩
abbrev main_v69 : Ref sig .tc := ⟨.hbm, 695, rfl⟩
abbrev main_v70 : Ref sig .tc := ⟨.hbm, 696, rfl⟩
abbrev main_v71 : Ref sig .tc := ⟨.hbm, 697, rfl⟩
abbrev main_v72 : Ref sig .tc := ⟨.hbm, 698, rfl⟩
abbrev main_v73 : Ref sig .tc := ⟨.hbm, 699, rfl⟩
abbrev main_v74 : Ref sig .tc := ⟨.hbm, 700, rfl⟩
abbrev main_v75 : Ref sig .tc := ⟨.hbm, 701, rfl⟩
abbrev main_call28_c : Ref sig .tc := ⟨.hbm, 702, rfl⟩
abbrev main_call28_v0 : Ref sig .tc := ⟨.hbm, 703, rfl⟩
abbrev main_call28_v1 : Ref sig .tc := ⟨.hbm, 704, rfl⟩
abbrev main_call28_c_0 : Ref sig .tc := ⟨.hbm, 705, rfl⟩
abbrev main_call28_v2 : Ref sig .tc := ⟨.hbm, 706, rfl⟩
abbrev main_call28_v3 : Ref sig .tc := ⟨.hbm, 707, rfl⟩
abbrev main_call28_v4 : Ref sig .tc := ⟨.hbm, 708, rfl⟩
abbrev main_call28_v5 : Ref sig .tc := ⟨.hbm, 709, rfl⟩
abbrev main_call28_c_1 : Ref sig .tc := ⟨.hbm, 710, rfl⟩
abbrev main_call28_c_2 : Ref sig .tc := ⟨.hbm, 711, rfl⟩
abbrev main_call28_v6 : Ref sig .tc := ⟨.hbm, 712, rfl⟩
abbrev main_call28_v7 : Ref sig .tc := ⟨.hbm, 713, rfl⟩
abbrev main_call28_v8 : Ref sig .tc := ⟨.hbm, 714, rfl⟩
abbrev main_call28_v9 : Ref sig .tc := ⟨.hbm, 715, rfl⟩
abbrev main_call28_v10 : Ref sig .tc := ⟨.hbm, 716, rfl⟩
abbrev main_call28_v11 : Ref sig .tc := ⟨.hbm, 717, rfl⟩
abbrev main_call28_c_3 : Ref sig .tc := ⟨.hbm, 718, rfl⟩
abbrev main_call28_v12 : Ref sig .tc := ⟨.hbm, 719, rfl⟩
abbrev main_call28_v13 : Ref sig .tc := ⟨.hbm, 720, rfl⟩
abbrev main_call28_v14 : Ref sig .tc := ⟨.hbm, 721, rfl⟩
abbrev main_call28_cst : Ref sig .tc := ⟨.hbm, 722, rfl⟩
abbrev main_call28_v15 : Ref sig .tc := ⟨.hbm, 723, rfl⟩
abbrev main_v76 : Ref sig .tc := ⟨.hbm, 724, rfl⟩
abbrev main_call29_c : Ref sig .tc := ⟨.hbm, 725, rfl⟩
abbrev main_call29_v0 : Ref sig .tc := ⟨.hbm, 726, rfl⟩
abbrev main_call29_v1 : Ref sig .tc := ⟨.hbm, 727, rfl⟩
abbrev main_call29_c_0 : Ref sig .tc := ⟨.hbm, 728, rfl⟩
abbrev main_call29_v2 : Ref sig .tc := ⟨.hbm, 729, rfl⟩
abbrev main_call29_v3 : Ref sig .tc := ⟨.hbm, 730, rfl⟩
abbrev main_call29_v4 : Ref sig .tc := ⟨.hbm, 731, rfl⟩
abbrev main_call29_v5 : Ref sig .tc := ⟨.hbm, 732, rfl⟩
abbrev main_call29_c_1 : Ref sig .tc := ⟨.hbm, 733, rfl⟩
abbrev main_call29_c_2 : Ref sig .tc := ⟨.hbm, 734, rfl⟩
abbrev main_call29_v6 : Ref sig .tc := ⟨.hbm, 735, rfl⟩
abbrev main_call29_v7 : Ref sig .tc := ⟨.hbm, 736, rfl⟩
abbrev main_call29_v8 : Ref sig .tc := ⟨.hbm, 737, rfl⟩
abbrev main_call29_v9 : Ref sig .tc := ⟨.hbm, 738, rfl⟩
abbrev main_call29_v10 : Ref sig .tc := ⟨.hbm, 739, rfl⟩
abbrev main_call29_v11 : Ref sig .tc := ⟨.hbm, 740, rfl⟩
abbrev main_call29_c_3 : Ref sig .tc := ⟨.hbm, 741, rfl⟩
abbrev main_call29_v12 : Ref sig .tc := ⟨.hbm, 742, rfl⟩
abbrev main_call29_v13 : Ref sig .tc := ⟨.hbm, 743, rfl⟩
abbrev main_call29_v14 : Ref sig .tc := ⟨.hbm, 744, rfl⟩
abbrev main_call29_cst : Ref sig .tc := ⟨.hbm, 745, rfl⟩
abbrev main_call29_v15 : Ref sig .tc := ⟨.hbm, 746, rfl⟩
abbrev main_v77 : Ref sig .tc := ⟨.hbm, 747, rfl⟩
abbrev main_call30_c : Ref sig .tc := ⟨.hbm, 748, rfl⟩
abbrev main_call30_v0 : Ref sig .tc := ⟨.hbm, 749, rfl⟩
abbrev main_call30_v1 : Ref sig .tc := ⟨.hbm, 750, rfl⟩
abbrev main_call30_c_0 : Ref sig .tc := ⟨.hbm, 751, rfl⟩
abbrev main_call30_v2 : Ref sig .tc := ⟨.hbm, 752, rfl⟩
abbrev main_call30_v3 : Ref sig .tc := ⟨.hbm, 753, rfl⟩
abbrev main_call30_v4 : Ref sig .tc := ⟨.hbm, 754, rfl⟩
abbrev main_call30_v5 : Ref sig .tc := ⟨.hbm, 755, rfl⟩
abbrev main_call30_c_1 : Ref sig .tc := ⟨.hbm, 756, rfl⟩
abbrev main_call30_c_2 : Ref sig .tc := ⟨.hbm, 757, rfl⟩
abbrev main_call30_v6 : Ref sig .tc := ⟨.hbm, 758, rfl⟩
abbrev main_call30_v7 : Ref sig .tc := ⟨.hbm, 759, rfl⟩
abbrev main_call30_v8 : Ref sig .tc := ⟨.hbm, 760, rfl⟩
abbrev main_call30_v9 : Ref sig .tc := ⟨.hbm, 761, rfl⟩
abbrev main_call30_v10 : Ref sig .tc := ⟨.hbm, 762, rfl⟩
abbrev main_call30_v11 : Ref sig .tc := ⟨.hbm, 763, rfl⟩
abbrev main_call30_c_3 : Ref sig .tc := ⟨.hbm, 764, rfl⟩
abbrev main_call30_v12 : Ref sig .tc := ⟨.hbm, 765, rfl⟩
abbrev main_call30_v13 : Ref sig .tc := ⟨.hbm, 766, rfl⟩
abbrev main_call30_cst : Ref sig .tc := ⟨.hbm, 767, rfl⟩
abbrev main_call30_v14 : Ref sig .tc := ⟨.hbm, 768, rfl⟩
abbrev main_v78 : Ref sig .tc := ⟨.hbm, 769, rfl⟩
abbrev main_call31_c : Ref sig .tc := ⟨.hbm, 770, rfl⟩
abbrev main_call31_v0 : Ref sig .tc := ⟨.hbm, 771, rfl⟩
abbrev main_call31_v1 : Ref sig .tc := ⟨.hbm, 772, rfl⟩
abbrev main_call31_c_0 : Ref sig .tc := ⟨.hbm, 773, rfl⟩
abbrev main_call31_v2 : Ref sig .tc := ⟨.hbm, 774, rfl⟩
abbrev main_call31_v3 : Ref sig .tc := ⟨.hbm, 775, rfl⟩
abbrev main_call31_v4 : Ref sig .tc := ⟨.hbm, 776, rfl⟩
abbrev main_call31_v5 : Ref sig .tc := ⟨.hbm, 777, rfl⟩
abbrev main_call31_c_1 : Ref sig .tc := ⟨.hbm, 778, rfl⟩
abbrev main_call31_c_2 : Ref sig .tc := ⟨.hbm, 779, rfl⟩
abbrev main_call31_v6 : Ref sig .tc := ⟨.hbm, 780, rfl⟩
abbrev main_call31_v7 : Ref sig .tc := ⟨.hbm, 781, rfl⟩
abbrev main_call31_v8 : Ref sig .tc := ⟨.hbm, 782, rfl⟩
abbrev main_call31_v9 : Ref sig .tc := ⟨.hbm, 783, rfl⟩
abbrev main_call31_v10 : Ref sig .tc := ⟨.hbm, 784, rfl⟩
abbrev main_call31_v11 : Ref sig .tc := ⟨.hbm, 785, rfl⟩
abbrev main_call31_c_3 : Ref sig .tc := ⟨.hbm, 786, rfl⟩
abbrev main_call31_v12 : Ref sig .tc := ⟨.hbm, 787, rfl⟩
abbrev main_call31_v13 : Ref sig .tc := ⟨.hbm, 788, rfl⟩
abbrev main_call31_v14 : Ref sig .tc := ⟨.hbm, 789, rfl⟩
abbrev main_call31_cst : Ref sig .tc := ⟨.hbm, 790, rfl⟩
abbrev main_call31_v15 : Ref sig .tc := ⟨.hbm, 791, rfl⟩
abbrev main_v79 : Ref sig .tc := ⟨.hbm, 792, rfl⟩
abbrev main_v80 : Ref sig .tc := ⟨.hbm, 793, rfl⟩
abbrev main_v81 : Ref sig .tc := ⟨.hbm, 794, rfl⟩
abbrev main_v82 : Ref sig .tc := ⟨.hbm, 795, rfl⟩
abbrev main_v83 : Ref sig .tc := ⟨.hbm, 796, rfl⟩
abbrev main_v84 : Ref sig .tc := ⟨.hbm, 797, rfl⟩
abbrev main_v85 : Ref sig .tc := ⟨.hbm, 798, rfl⟩
abbrev main_v86 : Ref sig .tc := ⟨.hbm, 799, rfl⟩
abbrev main_v87 : Ref sig .tc := ⟨.hbm, 800, rfl⟩
abbrev main_v88 : Ref sig .tc := ⟨.hbm, 801, rfl⟩
abbrev main_v89 : Ref sig .tc := ⟨.hbm, 802, rfl⟩
abbrev main_v90 : Ref sig .tc := ⟨.hbm, 803, rfl⟩
abbrev main_v91 : Ref sig .tc := ⟨.hbm, 804, rfl⟩
abbrev main_v92 : Ref sig .tc := ⟨.hbm, 805, rfl⟩
abbrev main_v93 : Ref sig .tc := ⟨.hbm, 806, rfl⟩
abbrev main_v94 : Ref sig .tc := ⟨.hbm, 807, rfl⟩
abbrev main_v95 : Ref sig .tc := ⟨.hbm, 808, rfl⟩
abbrev main_v96 : Ref sig .tc := ⟨.hbm, 809, rfl⟩
abbrev main_v97 : Ref sig .tc := ⟨.hbm, 810, rfl⟩
abbrev main_v98 : Ref sig .tc := ⟨.hbm, 811, rfl⟩
abbrev main_v99 : Ref sig .tc := ⟨.hbm, 812, rfl⟩
abbrev main_v100 : Ref sig .tc := ⟨.hbm, 813, rfl⟩
abbrev main_v101 : Ref sig .tc := ⟨.hbm, 814, rfl⟩
abbrev main_v102 : Ref sig .tc := ⟨.hbm, 815, rfl⟩
abbrev main_v103 : Ref sig .tc := ⟨.hbm, 816, rfl⟩
abbrev main_v104 : Ref sig .tc := ⟨.hbm, 817, rfl⟩
abbrev main_v105 : Ref sig .tc := ⟨.hbm, 818, rfl⟩
abbrev main_v106 : Ref sig .tc := ⟨.hbm, 819, rfl⟩
abbrev main_v107 : Ref sig .tc := ⟨.hbm, 820, rfl⟩
abbrev main_v108 : Ref sig .tc := ⟨.hbm, 821, rfl⟩
abbrev main_v109 : Ref sig .tc := ⟨.hbm, 822, rfl⟩
abbrev main_v110 : Ref sig .tc := ⟨.hbm, 823, rfl⟩
abbrev main_v111 : Ref sig .tc := ⟨.hbm, 824, rfl⟩
abbrev main_v112 : Ref sig .tc := ⟨.hbm, 825, rfl⟩
abbrev main_v113 : Ref sig .tc := ⟨.hbm, 826, rfl⟩
abbrev main_v114 : Ref sig .tc := ⟨.hbm, 827, rfl⟩
abbrev main_v115 : Ref sig .tc := ⟨.hbm, 828, rfl⟩
abbrev main_v116 : Ref sig .tc := ⟨.hbm, 829, rfl⟩
abbrev main_v117 : Ref sig .tc := ⟨.hbm, 830, rfl⟩
abbrev main_v118 : Ref sig .tc := ⟨.hbm, 831, rfl⟩
abbrev main_cst : Ref sig .tc := ⟨.hbm, 832, rfl⟩
abbrev main_v119 : Ref sig .tc := ⟨.hbm, 833, rfl⟩
abbrev main_cst_0 : Ref sig .tc := ⟨.hbm, 834, rfl⟩
abbrev main_v120 : Ref sig .tc := ⟨.hbm, 835, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S4096x8_S4096x1_0_0 : S4096x8.Slices ![0, 0] S4096x1
  shapeCasts_S4096x1_S4096 : S4096x1.ShapeCasts S4096
  slices_S4096x8_S4096x1_0_1 : S4096x8.Slices ![0, 1] S4096x1
  slices_S8x256_S1x256_0_0 : S8x256.Slices ![0, 0] S1x256
  shapeCasts_S1x256_S256 : S1x256.ShapeCasts S256
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x100_0 : S4096.BroadcastsInDim S4096x100 (![0] : Fin 1 → Fin S4096x100.rank)
  bcast_S_S4096x100 : S_.BroadcastsInDim S4096x100 (![] : Fin 0 → Fin S4096x100.rank)
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x100_0 : S256.BroadcastsInDim S256x100 (![0] : Fin 1 → Fin S256x100.rank)
  bcast_S_S256x100 : S_.BroadcastsInDim S256x100 (![] : Fin 0 → Fin S256x100.rank)
  slices_S4096x8_S4096x1_0_2 : S4096x8.Slices ![0, 2] S4096x1
  slices_S8x256_S1x256_1_0 : S8x256.Slices ![1, 0] S1x256
  slices_S8x256_S1x256_2_0 : S8x256.Slices ![2, 0] S1x256
  slices_S4096x8_S4096x1_0_3 : S4096x8.Slices ![0, 3] S4096x1
  slices_S8x256_S1x256_3_0 : S8x256.Slices ![3, 0] S1x256
  slices_S4096x8_S4096x1_0_4 : S4096x8.Slices ![0, 4] S4096x1
  slices_S8x256_S1x256_4_0 : S8x256.Slices ![4, 0] S1x256
  slices_S4096x8_S4096x1_0_5 : S4096x8.Slices ![0, 5] S4096x1
  slices_S8x256_S1x256_5_0 : S8x256.Slices ![5, 0] S1x256
  slices_S4096x8_S4096x1_0_6 : S4096x8.Slices ![0, 6] S4096x1
  slices_S8x256_S1x256_6_0 : S8x256.Slices ![6, 0] S1x256
  slices_S4096x8_S4096x1_0_7 : S4096x8.Slices ![0, 7] S4096x1
  slices_S8x256_S1x256_7_0 : S8x256.Slices ![7, 0] S1x256
  bcast_S4096x100_S1x4096x100_1_2 : S4096x100.BroadcastsInDim S1x4096x100 (![1, 2] : Fin 2 → Fin S1x4096x100.rank)
  concatenates_S1x4096x100_S1x4096x100_S1x4096x100_S1x4096x100_S1x4096x100_S1x4096x100_S1x4096x100_S1x4096x100_S8x4096x100_d0 : Shape.Concatenates [S1x4096x100, S1x4096x100, S1x4096x100, S1x4096x100, S1x4096x100, S1x4096x100, S1x4096x100, S1x4096x100] S8x4096x100 0
  bcast_S4096_S1x4096_1 : S4096.BroadcastsInDim S1x4096 (![1] : Fin 1 → Fin S1x4096.rank)
  concatenates_S1x4096_S1x4096_S1x4096_S1x4096_S1x4096_S1x4096_S1x4096_S1x4096_S8x4096_d0 : Shape.Concatenates [S1x4096, S1x4096, S1x4096, S1x4096, S1x4096, S1x4096, S1x4096, S1x4096] S8x4096 0
  bcast_S8x4096_S8x1x4096_0_2 : S8x4096.BroadcastsInDim S8x1x4096 (![0, 2] : Fin 2 → Fin S8x1x4096.rank)
  bcast_S256x100_S1x256x100_1_2 : S256x100.BroadcastsInDim S1x256x100 (![1, 2] : Fin 2 → Fin S1x256x100.rank)
  concatenates_S1x256x100_S1x256x100_S1x256x100_S1x256x100_S1x256x100_S1x256x100_S1x256x100_S1x256x100_S8x256x100_d0 : Shape.Concatenates [S1x256x100, S1x256x100, S1x256x100, S1x256x100, S1x256x100, S1x256x100, S1x256x100, S1x256x100] S8x256x100 0
  bcast_S8x100_S8x1x100_0_2 : S8x100.BroadcastsInDim S8x1x100 (![0, 2] : Fin 2 → Fin S8x1x100.rank)
  inb_S1x2048x100_S1x2048x100_0_0_0 : ∀ a, (![0, 0, 0] : Fin 3 → Nat) a + S1x2048x100.size a ≤ S1x2048x100.size a
  h_S1x2048x100 : 0 < S1x2048x100.numel
  shapeCasts_S1x2048x100_S2048x100 : S1x2048x100.ShapeCasts S2048x100
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  transposes_S1x2048_p1_0_S2048x1 : S1x2048.Transposes [1, 0] S2048x1
  inb_S1x1x100_S1x1x100_0_0_0 : ∀ a, (![0, 0, 0] : Fin 3 → Nat) a + S1x1x100.size a ≤ S1x1x100.size a
  h_S1x1x100 : 0 < S1x1x100.numel
  shapeCasts_S1x1x100_S1x100 : S1x1x100.ShapeCasts S1x100
  inb_S1x256x100_S1x256x100_0_0_0 : ∀ a, (![0, 0, 0] : Fin 3 → Nat) a + S1x256x100.size a ≤ S1x256x100.size a
  h_S1x256x100 : 0 < S1x256x100.numel
  shapeCasts_S1x256x100_S256x100 : S1x256x100.ShapeCasts S256x100
  broadcasts_S1x100_S2048x100 : S1x100.Broadcasts S2048x100
  reduces_S2048x100_S2048 : S2048x100.Reduces [1] S2048
  shapeCasts_S2048_S2048x1 : S2048.ShapeCasts S2048x1
  bitsLt_bf16_f32 : FTy.bits .bf16 < FTy.bits .f32
  broadcasts_S2048x1_S2048x256 : S2048x1.Broadcasts S2048x256
  reduces_S2048x256_S2048 : S2048x256.Reduces [1] S2048
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  gather_S30001x100_S4096x1_S4096x100_1_0_n_n_0_1_1100_wf : GatherDims.WF S30001x100 S4096x1 S4096x100 [1] [0] [] [0] [] 1 ![1, 100]
  gather_S50001x100_S4096x1_S4096x100_1_0_n_n_0_1_1100_wf : GatherDims.WF S50001x100 S4096x1 S4096x100 [1] [0] [] [0] [] 1 ![1, 100]
  gather_S50001_S4096x1_S4096_n_0_n_n_0_1_1_wf : GatherDims.WF S50001 S4096x1 S4096 [] [0] [] [0] [] 1 ![1]
  gather_S50001x100_S256x1_S256x100_1_0_n_n_0_1_1100_wf : GatherDims.WF S50001x100 S256x1 S256x100 [1] [0] [] [0] [] 1 ![1, 100]
  gather_S100001x100_S4096x1_S4096x100_1_0_n_n_0_1_1100_wf : GatherDims.WF S100001x100 S4096x1 S4096x100 [1] [0] [] [0] [] 1 ![1, 100]
  gather_S100001_S4096x1_S4096_n_0_n_n_0_1_1_wf : GatherDims.WF S100001 S4096x1 S4096 [] [0] [] [0] [] 1 ![1]
  gather_S100001x100_S256x1_S256x100_1_0_n_n_0_1_1100_wf : GatherDims.WF S100001x100 S256x1 S256x100 [1] [0] [] [0] [] 1 ![1, 100]
  gather_S5001x100_S4096x1_S4096x100_1_0_n_n_0_1_1100_wf : GatherDims.WF S5001x100 S4096x1 S4096x100 [1] [0] [] [0] [] 1 ![1, 100]
  gather_S5001_S4096x1_S4096_n_0_n_n_0_1_1_wf : GatherDims.WF S5001 S4096x1 S4096 [] [0] [] [0] [] 1 ![1]
  gather_S5001x100_S256x1_S256x100_1_0_n_n_0_1_1100_wf : GatherDims.WF S5001x100 S256x1 S256x100 [1] [0] [] [0] [] 1 ![1, 100]
  gather_S1001x100_S4096x1_S4096x100_1_0_n_n_0_1_1100_wf : GatherDims.WF S1001x100 S4096x1 S4096x100 [1] [0] [] [0] [] 1 ![1, 100]
  gather_S1001_S4096x1_S4096_n_0_n_n_0_1_1_wf : GatherDims.WF S1001 S4096x1 S4096 [] [0] [] [0] [] 1 ![1]
  gather_S1001x100_S256x1_S256x100_1_0_n_n_0_1_1100_wf : GatherDims.WF S1001x100 S256x1 S256x100 [1] [0] [] [0] [] 1 ![1, 100]
  dot_S2048x100_S256x100_S2048x256_1_1_0_0_n_n_wf : DotDims.WF S2048x100 S256x100 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x100.size a ≤ S8x4096x100.size a
  hwx0_0 : ∀ i : grid0.Coords, EltTy.bits .f32 = 32 ∨ (Rect.block (s := S8x4096x100) S1x2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x100.size a ≤ S8x4096x100.size a
  hwx0_1 : ∀ i : grid0.Coords, EltTy.bits .f32 = 32 ∨ (Rect.block (s := S8x4096x100) S1x2048x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x4096.size a
  hwx0_2 : ∀ i : grid0.Coords, EltTy.bits .f32 = 32 ∨ (Rect.block (s := S8x1x4096) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x100.size a ≤ S8x1x100.size a
  hwx0_3 : ∀ i : grid0.Coords, EltTy.bits .f32 = 32 ∨ (Rect.block (s := S8x1x100) S1x1x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x100.size a ≤ S8x256x100.size a
  hwx0_4 : ∀ i : grid0.Coords, EltTy.bits .f32 = 32 ∨ (Rect.block (s := S8x256x100) S1x256x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S8x1x1.size a
  hwx0_5 : ∀ i : grid0.Coords, EltTy.bits .f32 = 32 ∨ (Rect.block (s := S8x1x1) S1x1x1.size (cc0_transform_5 i) (hinb0_5 i)).WholeWords (EltTy.packing .f32)

variable [Facts₀]

def gather_S30001x100_S4096x1_S4096x100_1_0_n_n_0_1_1100 : GatherDims S30001x100 S4096x1 S4096x100 where
  offsetDims := [1]
  collapsedSliceDims := [0]
  operandBatchingDims := []
  startIndicesBatchingDims := []
  startIndexMap := [0]
  indexVectorDim := 1
  sliceSizes := ![1, 100]
  wf := gather_S30001x100_S4096x1_S4096x100_1_0_n_n_0_1_1100_wf
def gather_S50001x100_S4096x1_S4096x100_1_0_n_n_0_1_1100 : GatherDims S50001x100 S4096x1 S4096x100 where
  offsetDims := [1]
  collapsedSliceDims := [0]
  operandBatchingDims := []
  startIndicesBatchingDims := []
  startIndexMap := [0]
  indexVectorDim := 1
  sliceSizes := ![1, 100]
  wf := gather_S50001x100_S4096x1_S4096x100_1_0_n_n_0_1_1100_wf
def gather_S50001_S4096x1_S4096_n_0_n_n_0_1_1 : GatherDims S50001 S4096x1 S4096 where
  offsetDims := []
  collapsedSliceDims := [0]
  operandBatchingDims := []
  startIndicesBatchingDims := []
  startIndexMap := [0]
  indexVectorDim := 1
  sliceSizes := ![1]
  wf := gather_S50001_S4096x1_S4096_n_0_n_n_0_1_1_wf
def gather_S50001x100_S256x1_S256x100_1_0_n_n_0_1_1100 : GatherDims S50001x100 S256x1 S256x100 where
  offsetDims := [1]
  collapsedSliceDims := [0]
  operandBatchingDims := []
  startIndicesBatchingDims := []
  startIndexMap := [0]
  indexVectorDim := 1
  sliceSizes := ![1, 100]
  wf := gather_S50001x100_S256x1_S256x100_1_0_n_n_0_1_1100_wf
def gather_S100001x100_S4096x1_S4096x100_1_0_n_n_0_1_1100 : GatherDims S100001x100 S4096x1 S4096x100 where
  offsetDims := [1]
  collapsedSliceDims := [0]
  operandBatchingDims := []
  startIndicesBatchingDims := []
  startIndexMap := [0]
  indexVectorDim := 1
  sliceSizes := ![1, 100]
  wf := gather_S100001x100_S4096x1_S4096x100_1_0_n_n_0_1_1100_wf
def gather_S100001_S4096x1_S4096_n_0_n_n_0_1_1 : GatherDims S100001 S4096x1 S4096 where
  offsetDims := []
  collapsedSliceDims := [0]
  operandBatchingDims := []
  startIndicesBatchingDims := []
  startIndexMap := [0]
  indexVectorDim := 1
  sliceSizes := ![1]
  wf := gather_S100001_S4096x1_S4096_n_0_n_n_0_1_1_wf
def gather_S100001x100_S256x1_S256x100_1_0_n_n_0_1_1100 : GatherDims S100001x100 S256x1 S256x100 where
  offsetDims := [1]
  collapsedSliceDims := [0]
  operandBatchingDims := []
  startIndicesBatchingDims := []
  startIndexMap := [0]
  indexVectorDim := 1
  sliceSizes := ![1, 100]
  wf := gather_S100001x100_S256x1_S256x100_1_0_n_n_0_1_1100_wf
def gather_S5001x100_S4096x1_S4096x100_1_0_n_n_0_1_1100 : GatherDims S5001x100 S4096x1 S4096x100 where
  offsetDims := [1]
  collapsedSliceDims := [0]
  operandBatchingDims := []
  startIndicesBatchingDims := []
  startIndexMap := [0]
  indexVectorDim := 1
  sliceSizes := ![1, 100]
  wf := gather_S5001x100_S4096x1_S4096x100_1_0_n_n_0_1_1100_wf
def gather_S5001_S4096x1_S4096_n_0_n_n_0_1_1 : GatherDims S5001 S4096x1 S4096 where
  offsetDims := []
  collapsedSliceDims := [0]
  operandBatchingDims := []
  startIndicesBatchingDims := []
  startIndexMap := [0]
  indexVectorDim := 1
  sliceSizes := ![1]
  wf := gather_S5001_S4096x1_S4096_n_0_n_n_0_1_1_wf
def gather_S5001x100_S256x1_S256x100_1_0_n_n_0_1_1100 : GatherDims S5001x100 S256x1 S256x100 where
  offsetDims := [1]
  collapsedSliceDims := [0]
  operandBatchingDims := []
  startIndicesBatchingDims := []
  startIndexMap := [0]
  indexVectorDim := 1
  sliceSizes := ![1, 100]
  wf := gather_S5001x100_S256x1_S256x100_1_0_n_n_0_1_1100_wf
def gather_S1001x100_S4096x1_S4096x100_1_0_n_n_0_1_1100 : GatherDims S1001x100 S4096x1 S4096x100 where
  offsetDims := [1]
  collapsedSliceDims := [0]
  operandBatchingDims := []
  startIndicesBatchingDims := []
  startIndexMap := [0]
  indexVectorDim := 1
  sliceSizes := ![1, 100]
  wf := gather_S1001x100_S4096x1_S4096x100_1_0_n_n_0_1_1100_wf
def gather_S1001_S4096x1_S4096_n_0_n_n_0_1_1 : GatherDims S1001 S4096x1 S4096 where
  offsetDims := []
  collapsedSliceDims := [0]
  operandBatchingDims := []
  startIndicesBatchingDims := []
  startIndexMap := [0]
  indexVectorDim := 1
  sliceSizes := ![1]
  wf := gather_S1001_S4096x1_S4096_n_0_n_n_0_1_1_wf
def gather_S1001x100_S256x1_S256x100_1_0_n_n_0_1_1100 : GatherDims S1001x100 S256x1 S256x100 where
  offsetDims := [1]
  collapsedSliceDims := [0]
  operandBatchingDims := []
  startIndicesBatchingDims := []
  startIndexMap := [0]
  indexVectorDim := 1
  sliceSizes := ![1, 100]
  wf := gather_S1001x100_S256x1_S256x100_1_0_n_n_0_1_1100_wf
def dot_S2048x100_S256x100_S2048x256_1_1_0_0_n_n : DotDims S2048x100 S256x100 S2048x256 where
  lhsContracting := [1]
  rhsContracting := [1]
  lhsNonContracting := [0]
  rhsNonContracting := [0]
  lhsBatch := []
  rhsBatch := []
  wf := dot_S2048x100_S256x100_S2048x256_1_1_0_0_n_n_wf

abbrev win0_0 : Pipeline.Window sig grid0 :=
  Pipeline.Window.ofSpec (Memref.whole main_v88) S1x2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S1x2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v107) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v117) S1x1x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v116) S1x256x100.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v118) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x8 : Shape := ⟨2, ![4096, 8]⟩
abbrev S8x256 : Shape := ⟨2, ![8, 256]⟩
abbrev S30001x100 : Shape := ⟨2, ![30001, 100]⟩
abbrev S50001x100 : Shape := ⟨2, ![50001, 100]⟩
abbrev S100001x100 : Shape := ⟨2, ![100001, 100]⟩
abbrev S5001x100 : Shape := ⟨2, ![5001, 100]⟩
abbrev S1001x100 : Shape := ⟨2, ![1001, 100]⟩
abbrev S8x100 : Shape := ⟨2, ![8, 100]⟩
abbrev S50001 : Shape := ⟨1, ![50001]⟩
abbrev S100001 : Shape := ⟨1, ![100001]⟩
abbrev S5001 : Shape := ⟨1, ![5001]⟩
abbrev S1001 : Shape := ⟨1, ![1001]⟩
abbrev S1x100 : Shape := ⟨2, ![1, 100]⟩
abbrev S100 : Shape := ⟨1, ![100]⟩
abbrev S4096x1 : Shape := ⟨2, ![4096, 1]⟩
abbrev S4096 : Shape := ⟨1, ![4096]⟩
abbrev S1x256 : Shape := ⟨2, ![1, 256]⟩
abbrev S256 : Shape := ⟨1, ![256]⟩
abbrev S_ : Shape := ⟨0, ![]⟩
abbrev S4096x100 : Shape := ⟨2, ![4096, 100]⟩
abbrev S256x1 : Shape := ⟨2, ![256, 1]⟩
abbrev S256x100 : Shape := ⟨2, ![256, 100]⟩
abbrev S4096x256 : Shape := ⟨2, ![4096, 256]⟩

abbrev nBuf : Space → Nat
  | .hbm => 802
  | .vmem => 0
  | .smem => 0
  | _ => 0

abbrev hbmTy0_0 (i : Nat) : BufTy := match i % 128 with
  | 0 => ⟨S4096x8, .i32⟩
  | 1 => ⟨S8x256, .i32⟩
  | 2 => ⟨S30001x100, .f32⟩
  | 3 => ⟨S50001x100, .f32⟩
  | 4 => ⟨S100001x100, .f32⟩
  | 5 => ⟨S5001x100, .f32⟩
  | 6 => ⟨S1001x100, .f32⟩
  | 7 => ⟨S50001x100, .f32⟩
  | 8 => ⟨S8x100, .f32⟩
  | 9 => ⟨S50001, .f32⟩
  | 10 => ⟨S100001, .f32⟩
  | 11 => ⟨S100001, .f32⟩
  | 12 => ⟨S5001, .f32⟩
  | 13 => ⟨S1001, .f32⟩
  | 14 => ⟨S50001, .f32⟩
  | 15 => ⟨S50001, .f32⟩
  | 16 => ⟨S50001, .f32⟩
  | 17 => ⟨S1x100, .f32⟩
  | 18 => ⟨S100, .f32⟩
  | 19 => ⟨S4096x1, .i32⟩
  | 20 => ⟨S4096, .i32⟩
  | 21 => ⟨S4096x1, .i32⟩
  | 22 => ⟨S4096, .i32⟩
  | 23 => ⟨S1x256, .i32⟩
  | 24 => ⟨S256, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x100, .f32⟩
  | 34 => ⟨S1x100, .f32⟩
  | 35 => ⟨S4096x100, .f32⟩
  | 36 => ⟨S4096x100, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x100, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096, .f32⟩
  | 55 => ⟨S4096x100, .f32⟩
  | 56 => ⟨S_, .f32⟩
  | 57 => ⟨S4096, .f32⟩
  | 58 => ⟨S4096, .f32⟩
  | 59 => ⟨S_, .i32⟩
  | 60 => ⟨S256, .i32⟩
  | 61 => ⟨S256, .i1⟩
  | 62 => ⟨S_, .i32⟩
  | 63 => ⟨S256, .i32⟩
  | 64 => ⟨S256, .i32⟩
  | 65 => ⟨S256, .i32⟩
  | 66 => ⟨S256x1, .i32⟩
  | 67 => ⟨S256x100, .f32⟩
  | 68 => ⟨S4096x256, .f32⟩
  | 69 => ⟨S4096x1, .f32⟩
  | 70 => ⟨S4096x256, .f32⟩
  | 71 => ⟨S4096x256, .f32⟩
  | 72 => ⟨S4096, .f32⟩
  | 73 => ⟨S_, .f32⟩
  | 74 => ⟨S4096, .f32⟩
  | 75 => ⟨S4096, .f32⟩
  | 76 => ⟨S4096, .f32⟩
  | 77 => ⟨S4096, .f32⟩
  | 78 => ⟨S4096, .i1⟩
  | 79 => ⟨S4096, .f32⟩
  | 80 => ⟨S4096, .f32⟩
  | 81 => ⟨S4096, .f32⟩
  | 82 => ⟨S4096, .f32⟩
  | 83 => ⟨S4096, .f32⟩
  | 84 => ⟨S4096, .f32⟩
  | 85 => ⟨S4096, .f32⟩
  | 86 => ⟨S4096, .f32⟩
  | 87 => ⟨S4096, .f32⟩
  | 88 => ⟨S4096, .f32⟩
  | 89 => ⟨S4096x256, .f32⟩
  | 90 => ⟨S4096x256, .f32⟩
  | 91 => ⟨S_, .f32⟩
  | 92 => ⟨S4096x256, .f32⟩
  | 93 => ⟨S4096x256, .f32⟩
  | 94 => ⟨S4096x256, .f32⟩
  | 95 => ⟨S4096x256, .f32⟩
  | 96 => ⟨S4096x256, .i1⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S_, .f32⟩
  | 107 => ⟨S4096, .f32⟩
  | 108 => ⟨S4096, .f32⟩
  | 109 => ⟨S4096, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x100, .f32⟩
  | 117 => ⟨S100, .f32⟩
  | 118 => ⟨S4096x1, .i32⟩
  | 119 => ⟨S4096, .i32⟩
  | 120 => ⟨S4096x1, .i32⟩
  | 121 => ⟨S4096, .i32⟩
  | 122 => ⟨S1x256, .i32⟩
  | 123 => ⟨S256, .i32⟩
  | 124 => ⟨S_, .i32⟩
  | 125 => ⟨S4096, .i32⟩
  | 126 => ⟨S4096, .i1⟩
  | 127 => ⟨S_, .i32⟩
  | _ => ⟨S4096x8, .i32⟩

abbrev hbmTy0_1 (i : Nat) : BufTy := match i % 128 with
  | 0 => ⟨S4096, .i32⟩
  | 1 => ⟨S4096, .i32⟩
  | 2 => ⟨S4096, .i32⟩
  | 3 => ⟨S4096x1, .i32⟩
  | 4 => ⟨S4096x100, .f32⟩
  | 5 => ⟨S1x100, .f32⟩
  | 6 => ⟨S4096x100, .f32⟩
  | 7 => ⟨S4096x100, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x100, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096, .f32⟩
  | 26 => ⟨S4096x100, .f32⟩
  | 27 => ⟨S_, .f32⟩
  | 28 => ⟨S4096, .f32⟩
  | 29 => ⟨S4096, .f32⟩
  | 30 => ⟨S_, .i32⟩
  | 31 => ⟨S256, .i32⟩
  | 32 => ⟨S256, .i1⟩
  | 33 => ⟨S_, .i32⟩
  | 34 => ⟨S256, .i32⟩
  | 35 => ⟨S256, .i32⟩
  | 36 => ⟨S256, .i32⟩
  | 37 => ⟨S256x1, .i32⟩
  | 38 => ⟨S256x100, .f32⟩
  | 39 => ⟨S4096x256, .f32⟩
  | 40 => ⟨S4096x1, .f32⟩
  | 41 => ⟨S4096x256, .f32⟩
  | 42 => ⟨S4096x256, .f32⟩
  | 43 => ⟨S4096, .f32⟩
  | 44 => ⟨S_, .f32⟩
  | 45 => ⟨S4096, .f32⟩
  | 46 => ⟨S4096, .f32⟩
  | 47 => ⟨S4096, .f32⟩
  | 48 => ⟨S4096, .f32⟩
  | 49 => ⟨S4096, .i1⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096x256, .f32⟩
  | 61 => ⟨S4096x256, .f32⟩
  | 62 => ⟨S_, .f32⟩
  | 63 => ⟨S4096x256, .f32⟩
  | 64 => ⟨S4096x256, .f32⟩
  | 65 => ⟨S4096x256, .f32⟩
  | 66 => ⟨S4096x256, .f32⟩
  | 67 => ⟨S4096x256, .i1⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S4096x256, .f32⟩
  | 75 => ⟨S4096x256, .f32⟩
  | 76 => ⟨S4096x256, .f32⟩
  | 77 => ⟨S_, .f32⟩
  | 78 => ⟨S4096, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S1x100, .f32⟩
  | 87 => ⟨S100, .f32⟩
  | 88 => ⟨S4096x1, .i32⟩
  | 89 => ⟨S4096, .i32⟩
  | 90 => ⟨S4096x1, .i32⟩
  | 91 => ⟨S4096, .i32⟩
  | 92 => ⟨S1x256, .i32⟩
  | 93 => ⟨S256, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x100, .f32⟩
  | 103 => ⟨S1x100, .f32⟩
  | 104 => ⟨S4096x100, .f32⟩
  | 105 => ⟨S4096x100, .f32⟩
  | 106 => ⟨S_, .i32⟩
  | 107 => ⟨S4096, .i32⟩
  | 108 => ⟨S4096, .i1⟩
  | 109 => ⟨S_, .i32⟩
  | 110 => ⟨S4096, .i32⟩
  | 111 => ⟨S4096, .i32⟩
  | 112 => ⟨S4096, .i32⟩
  | 113 => ⟨S4096x1, .i32⟩
  | 114 => ⟨S4096x100, .f32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S4096, .f32⟩
  | 124 => ⟨S4096x100, .f32⟩
  | 125 => ⟨S_, .f32⟩
  | 126 => ⟨S4096, .f32⟩
  | 127 => ⟨S4096, .f32⟩
  | _ => ⟨S4096x8, .i32⟩

abbrev hbmTy0_2 (i : Nat) : BufTy := match i % 128 with
  | 0 => ⟨S_, .i32⟩
  | 1 => ⟨S256, .i32⟩
  | 2 => ⟨S256, .i1⟩
  | 3 => ⟨S_, .i32⟩
  | 4 => ⟨S256, .i32⟩
  | 5 => ⟨S256, .i32⟩
  | 6 => ⟨S256, .i32⟩
  | 7 => ⟨S256x1, .i32⟩
  | 8 => ⟨S256x100, .f32⟩
  | 9 => ⟨S4096x256, .f32⟩
  | 10 => ⟨S4096x1, .f32⟩
  | 11 => ⟨S4096x256, .f32⟩
  | 12 => ⟨S4096x256, .f32⟩
  | 13 => ⟨S4096, .f32⟩
  | 14 => ⟨S_, .f32⟩
  | 15 => ⟨S4096, .f32⟩
  | 16 => ⟨S4096, .f32⟩
  | 17 => ⟨S4096, .f32⟩
  | 18 => ⟨S4096, .f32⟩
  | 19 => ⟨S4096, .i1⟩
  | 20 => ⟨S4096, .f32⟩
  | 21 => ⟨S4096, .f32⟩
  | 22 => ⟨S4096, .f32⟩
  | 23 => ⟨S4096, .f32⟩
  | 24 => ⟨S4096, .f32⟩
  | 25 => ⟨S4096, .f32⟩
  | 26 => ⟨S4096, .f32⟩
  | 27 => ⟨S4096, .f32⟩
  | 28 => ⟨S4096, .f32⟩
  | 29 => ⟨S4096, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S4096x256, .f32⟩
  | 37 => ⟨S4096x256, .i1⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S4096x256, .f32⟩
  | 44 => ⟨S4096x256, .f32⟩
  | 45 => ⟨S4096x256, .f32⟩
  | 46 => ⟨S4096x256, .f32⟩
  | 47 => ⟨S_, .f32⟩
  | 48 => ⟨S4096, .f32⟩
  | 49 => ⟨S4096, .f32⟩
  | 50 => ⟨S4096, .f32⟩
  | 51 => ⟨S_, .f32⟩
  | 52 => ⟨S_, .f32⟩
  | 53 => ⟨S_, .f32⟩
  | 54 => ⟨S_, .f32⟩
  | 55 => ⟨S_, .f32⟩
  | 56 => ⟨S1x100, .f32⟩
  | 57 => ⟨S100, .f32⟩
  | 58 => ⟨S4096x1, .i32⟩
  | 59 => ⟨S4096, .i32⟩
  | 60 => ⟨S4096x1, .i32⟩
  | 61 => ⟨S4096, .i32⟩
  | 62 => ⟨S1x256, .i32⟩
  | 63 => ⟨S256, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096x100, .f32⟩
  | 73 => ⟨S1x100, .f32⟩
  | 74 => ⟨S4096x100, .f32⟩
  | 75 => ⟨S4096x100, .f32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x100, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096, .f32⟩
  | 94 => ⟨S4096x100, .f32⟩
  | 95 => ⟨S_, .f32⟩
  | 96 => ⟨S4096, .f32⟩
  | 97 => ⟨S4096, .f32⟩
  | 98 => ⟨S_, .i32⟩
  | 99 => ⟨S256, .i32⟩
  | 100 => ⟨S256, .i1⟩
  | 101 => ⟨S_, .i32⟩
  | 102 => ⟨S256, .i32⟩
  | 103 => ⟨S256, .i32⟩
  | 104 => ⟨S256, .i32⟩
  | 105 => ⟨S256x1, .i32⟩
  | 106 => ⟨S256x100, .f32⟩
  | 107 => ⟨S4096x256, .f32⟩
  | 108 => ⟨S4096x1, .f32⟩
  | 109 => ⟨S4096x256, .f32⟩
  | 110 => ⟨S4096x256, .f32⟩
  | 111 => ⟨S4096, .f32⟩
  | 112 => ⟨S_, .f32⟩
  | 113 => ⟨S4096, .f32⟩
  | 114 => ⟨S4096, .f32⟩
  | 115 => ⟨S4096, .f32⟩
  | 116 => ⟨S4096, .f32⟩
  | 117 => ⟨S4096, .i1⟩
  | 118 => ⟨S4096, .f32⟩
  | 119 => ⟨S4096, .f32⟩
  | 120 => ⟨S4096, .f32⟩
  | 121 => ⟨S4096, .f32⟩
  | 122 => ⟨S4096, .f32⟩
  | 123 => ⟨S4096, .f32⟩
  | 124 => ⟨S4096, .f32⟩
  | 125 => ⟨S4096, .f32⟩
  | 126 => ⟨S4096, .f32⟩
  | 127 => ⟨S4096, .f32⟩
  | _ => ⟨S4096x8, .i32⟩

abbrev hbmTy0_3 (i : Nat) : BufTy := match i % 128 with
  | 0 => ⟨S4096x256, .f32⟩
  | 1 => ⟨S4096x256, .f32⟩
  | 2 => ⟨S_, .f32⟩
  | 3 => ⟨S4096x256, .f32⟩
  | 4 => ⟨S4096x256, .f32⟩
  | 5 => ⟨S4096x256, .f32⟩
  | 6 => ⟨S4096x256, .f32⟩
  | 7 => ⟨S4096x256, .i1⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S4096x256, .f32⟩
  | 16 => ⟨S4096x256, .f32⟩
  | 17 => ⟨S_, .f32⟩
  | 18 => ⟨S4096, .f32⟩
  | 19 => ⟨S4096, .f32⟩
  | 20 => ⟨S4096, .f32⟩
  | 21 => ⟨S_, .f32⟩
  | 22 => ⟨S_, .f32⟩
  | 23 => ⟨S_, .f32⟩
  | 24 => ⟨S_, .f32⟩
  | 25 => ⟨S_, .f32⟩
  | 26 => ⟨S1x100, .f32⟩
  | 27 => ⟨S100, .f32⟩
  | 28 => ⟨S4096x1, .i32⟩
  | 29 => ⟨S4096, .i32⟩
  | 30 => ⟨S4096x1, .i32⟩
  | 31 => ⟨S4096, .i32⟩
  | 32 => ⟨S1x256, .i32⟩
  | 33 => ⟨S256, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S4096x100, .f32⟩
  | 43 => ⟨S1x100, .f32⟩
  | 44 => ⟨S4096x100, .f32⟩
  | 45 => ⟨S4096x100, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096x100, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S4096, .f32⟩
  | 64 => ⟨S4096x100, .f32⟩
  | 65 => ⟨S_, .f32⟩
  | 66 => ⟨S4096, .f32⟩
  | 67 => ⟨S4096, .f32⟩
  | 68 => ⟨S_, .i32⟩
  | 69 => ⟨S256, .i32⟩
  | 70 => ⟨S256, .i1⟩
  | 71 => ⟨S_, .i32⟩
  | 72 => ⟨S256, .i32⟩
  | 73 => ⟨S256, .i32⟩
  | 74 => ⟨S256, .i32⟩
  | 75 => ⟨S256x1, .i32⟩
  | 76 => ⟨S256x100, .f32⟩
  | 77 => ⟨S4096x256, .f32⟩
  | 78 => ⟨S4096x1, .f32⟩
  | 79 => ⟨S4096x256, .f32⟩
  | 80 => ⟨S4096x256, .f32⟩
  | 81 => ⟨S4096, .f32⟩
  | 82 => ⟨S_, .f32⟩
  | 83 => ⟨S4096, .f32⟩
  | 84 => ⟨S4096, .f32⟩
  | 85 => ⟨S4096, .f32⟩
  | 86 => ⟨S4096, .f32⟩
  | 87 => ⟨S4096, .i1⟩
  | 88 => ⟨S4096, .f32⟩
  | 89 => ⟨S4096, .f32⟩
  | 90 => ⟨S4096, .f32⟩
  | 91 => ⟨S4096, .f32⟩
  | 92 => ⟨S4096, .f32⟩
  | 93 => ⟨S4096, .f32⟩
  | 94 => ⟨S4096, .f32⟩
  | 95 => ⟨S4096, .f32⟩
  | 96 => ⟨S4096, .f32⟩
  | 97 => ⟨S4096, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S4096x256, .f32⟩
  | 104 => ⟨S4096x256, .f32⟩
  | 105 => ⟨S4096x256, .i1⟩
  | 106 => ⟨S4096x256, .f32⟩
  | 107 => ⟨S4096x256, .f32⟩
  | 108 => ⟨S4096x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096, .f32⟩
  | 117 => ⟨S4096, .f32⟩
  | 118 => ⟨S4096, .f32⟩
  | 119 => ⟨S_, .f32⟩
  | 120 => ⟨S_, .f32⟩
  | 121 => ⟨S_, .f32⟩
  | 122 => ⟨S_, .f32⟩
  | 123 => ⟨S_, .f32⟩
  | 124 => ⟨S1x100, .f32⟩
  | 125 => ⟨S100, .f32⟩
  | 126 => ⟨S4096x1, .i32⟩
  | 127 => ⟨S4096, .i32⟩
  | _ => ⟨S4096x8, .i32⟩

abbrev hbmTy0_4 (i : Nat) : BufTy := match i % 128 with
  | 0 => ⟨S4096x1, .i32⟩
  | 1 => ⟨S4096, .i32⟩
  | 2 => ⟨S1x256, .i32⟩
  | 3 => ⟨S256, .i32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S4096x100, .f32⟩
  | 13 => ⟨S1x100, .f32⟩
  | 14 => ⟨S4096x100, .f32⟩
  | 15 => ⟨S4096x100, .f32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x100, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096, .f32⟩
  | 34 => ⟨S4096x100, .f32⟩
  | 35 => ⟨S_, .f32⟩
  | 36 => ⟨S4096, .f32⟩
  | 37 => ⟨S4096, .f32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S256x1, .i32⟩
  | 46 => ⟨S256x100, .f32⟩
  | 47 => ⟨S4096x256, .f32⟩
  | 48 => ⟨S4096x1, .f32⟩
  | 49 => ⟨S4096x256, .f32⟩
  | 50 => ⟨S4096x256, .f32⟩
  | 51 => ⟨S4096, .f32⟩
  | 52 => ⟨S_, .f32⟩
  | 53 => ⟨S4096, .f32⟩
  | 54 => ⟨S4096, .f32⟩
  | 55 => ⟨S4096, .f32⟩
  | 56 => ⟨S4096, .f32⟩
  | 57 => ⟨S4096, .i1⟩
  | 58 => ⟨S4096, .f32⟩
  | 59 => ⟨S4096, .f32⟩
  | 60 => ⟨S4096, .f32⟩
  | 61 => ⟨S4096, .f32⟩
  | 62 => ⟨S4096, .f32⟩
  | 63 => ⟨S4096, .f32⟩
  | 64 => ⟨S4096, .f32⟩
  | 65 => ⟨S4096, .f32⟩
  | 66 => ⟨S4096, .f32⟩
  | 67 => ⟨S4096, .f32⟩
  | 68 => ⟨S4096x256, .f32⟩
  | 69 => ⟨S4096x256, .f32⟩
  | 70 => ⟨S_, .f32⟩
  | 71 => ⟨S4096x256, .f32⟩
  | 72 => ⟨S4096x256, .f32⟩
  | 73 => ⟨S4096x256, .f32⟩
  | 74 => ⟨S4096x256, .f32⟩
  | 75 => ⟨S4096x256, .i1⟩
  | 76 => ⟨S4096x256, .f32⟩
  | 77 => ⟨S4096x256, .f32⟩
  | 78 => ⟨S4096x256, .f32⟩
  | 79 => ⟨S4096x256, .f32⟩
  | 80 => ⟨S4096x256, .f32⟩
  | 81 => ⟨S4096x256, .f32⟩
  | 82 => ⟨S4096x256, .f32⟩
  | 83 => ⟨S4096x256, .f32⟩
  | 84 => ⟨S4096x256, .f32⟩
  | 85 => ⟨S_, .f32⟩
  | 86 => ⟨S4096, .f32⟩
  | 87 => ⟨S4096, .f32⟩
  | 88 => ⟨S4096, .f32⟩
  | 89 => ⟨S_, .f32⟩
  | 90 => ⟨S_, .f32⟩
  | 91 => ⟨S_, .f32⟩
  | 92 => ⟨S_, .f32⟩
  | 93 => ⟨S_, .f32⟩
  | 94 => ⟨S1x100, .f32⟩
  | 95 => ⟨S100, .f32⟩
  | 96 => ⟨S4096x1, .i32⟩
  | 97 => ⟨S4096, .i32⟩
  | 98 => ⟨S4096x1, .i32⟩
  | 99 => ⟨S4096, .i32⟩
  | 100 => ⟨S1x256, .i32⟩
  | 101 => ⟨S256, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x100, .f32⟩
  | 111 => ⟨S1x100, .f32⟩
  | 112 => ⟨S4096x100, .f32⟩
  | 113 => ⟨S4096x100, .f32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x100, .f32⟩
  | 123 => ⟨S_, .i32⟩
  | 124 => ⟨S4096, .i32⟩
  | 125 => ⟨S4096, .i1⟩
  | 126 => ⟨S_, .i32⟩
  | 127 => ⟨S4096, .i32⟩
  | _ => ⟨S4096x8, .i32⟩

abbrev hbmTy0_5 (i : Nat) : BufTy := match i % 128 with
  | 0 => ⟨S4096, .i32⟩
  | 1 => ⟨S4096, .i32⟩
  | 2 => ⟨S4096x1, .i32⟩
  | 3 => ⟨S4096, .f32⟩
  | 4 => ⟨S4096x100, .f32⟩
  | 5 => ⟨S_, .f32⟩
  | 6 => ⟨S4096, .f32⟩
  | 7 => ⟨S4096, .f32⟩
  | 8 => ⟨S_, .i32⟩
  | 9 => ⟨S256, .i32⟩
  | 10 => ⟨S256, .i1⟩
  | 11 => ⟨S_, .i32⟩
  | 12 => ⟨S256, .i32⟩
  | 13 => ⟨S256, .i32⟩
  | 14 => ⟨S256, .i32⟩
  | 15 => ⟨S256x1, .i32⟩
  | 16 => ⟨S256x100, .f32⟩
  | 17 => ⟨S4096x256, .f32⟩
  | 18 => ⟨S4096x1, .f32⟩
  | 19 => ⟨S4096x256, .f32⟩
  | 20 => ⟨S4096x256, .f32⟩
  | 21 => ⟨S4096, .f32⟩
  | 22 => ⟨S_, .f32⟩
  | 23 => ⟨S4096, .f32⟩
  | 24 => ⟨S4096, .f32⟩
  | 25 => ⟨S4096, .f32⟩
  | 26 => ⟨S4096, .f32⟩
  | 27 => ⟨S4096, .i1⟩
  | 28 => ⟨S4096, .f32⟩
  | 29 => ⟨S4096, .f32⟩
  | 30 => ⟨S4096, .f32⟩
  | 31 => ⟨S4096, .f32⟩
  | 32 => ⟨S4096, .f32⟩
  | 33 => ⟨S4096, .f32⟩
  | 34 => ⟨S4096, .f32⟩
  | 35 => ⟨S4096, .f32⟩
  | 36 => ⟨S4096, .f32⟩
  | 37 => ⟨S4096, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S4096x256, .f32⟩
  | 44 => ⟨S4096x256, .f32⟩
  | 45 => ⟨S4096x256, .i1⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S4096x256, .f32⟩
  | 55 => ⟨S_, .f32⟩
  | 56 => ⟨S4096, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | 63 => ⟨S_, .f32⟩
  | 64 => ⟨S1x100, .f32⟩
  | 65 => ⟨S100, .f32⟩
  | 66 => ⟨S4096x1, .i32⟩
  | 67 => ⟨S4096, .i32⟩
  | 68 => ⟨S4096x1, .i32⟩
  | 69 => ⟨S4096, .i32⟩
  | 70 => ⟨S1x256, .i32⟩
  | 71 => ⟨S256, .i32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S4096x100, .f32⟩
  | 81 => ⟨S1x100, .f32⟩
  | 82 => ⟨S4096x100, .f32⟩
  | 83 => ⟨S4096x100, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S4096x100, .f32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S4096, .f32⟩
  | 102 => ⟨S4096x100, .f32⟩
  | 103 => ⟨S_, .f32⟩
  | 104 => ⟨S4096, .f32⟩
  | 105 => ⟨S4096, .f32⟩
  | 106 => ⟨S_, .i32⟩
  | 107 => ⟨S256, .i32⟩
  | 108 => ⟨S256, .i1⟩
  | 109 => ⟨S_, .i32⟩
  | 110 => ⟨S256, .i32⟩
  | 111 => ⟨S256, .i32⟩
  | 112 => ⟨S256, .i32⟩
  | 113 => ⟨S256x1, .i32⟩
  | 114 => ⟨S256x100, .f32⟩
  | 115 => ⟨S4096x256, .f32⟩
  | 116 => ⟨S4096x1, .f32⟩
  | 117 => ⟨S4096x256, .f32⟩
  | 118 => ⟨S4096x256, .f32⟩
  | 119 => ⟨S4096, .f32⟩
  | 120 => ⟨S_, .f32⟩
  | 121 => ⟨S4096, .f32⟩
  | 122 => ⟨S4096, .f32⟩
  | 123 => ⟨S4096, .f32⟩
  | 124 => ⟨S4096, .f32⟩
  | 125 => ⟨S4096, .i1⟩
  | 126 => ⟨S4096, .f32⟩
  | 127 => ⟨S4096, .f32⟩
  | _ => ⟨S4096x8, .i32⟩

abbrev hbmTy0_6 (i : Nat) : BufTy := match i % 128 with
  | 0 => ⟨S4096, .f32⟩
  | 1 => ⟨S4096, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S4096x256, .f32⟩
  | 14 => ⟨S4096x256, .f32⟩
  | 15 => ⟨S4096x256, .i1⟩
  | 16 => ⟨S4096x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S_, .f32⟩
  | 26 => ⟨S4096, .f32⟩
  | 27 => ⟨S4096, .f32⟩
  | 28 => ⟨S4096, .f32⟩
  | 29 => ⟨S_, .f32⟩
  | 30 => ⟨S_, .f32⟩
  | 31 => ⟨S_, .f32⟩
  | 32 => ⟨S_, .f32⟩
  | 33 => ⟨S_, .f32⟩
  | _ => ⟨S4096x8, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x8, .i32⟩

abbrev bufTy : (tb : Table) → Fin (tcTables nBuf tb) → BufTy
  | .hbm, ⟨i, _⟩ => hbmTy i
  | _, _ => ⟨S4096x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call0_v0 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_v1 : Ref sig .tc := ⟨.hbm, 75, rfl⟩
abbrev main_call0_call0_v2 : Ref sig .tc := ⟨.hbm, 76, rfl⟩
abbrev main_call0_call0_v3 : Ref sig .tc := ⟨.hbm, 77, rfl⟩
abbrev main_call0_call0_v4 : Ref sig .tc := ⟨.hbm, 78, rfl⟩
abbrev main_call0_call0_v5 : Ref sig .tc := ⟨.hbm, 79, rfl⟩
abbrev main_call0_call0_v6 : Ref sig .tc := ⟨.hbm, 80, rfl⟩
abbrev main_call0_call0_v7 : Ref sig .tc := ⟨.hbm, 81, rfl⟩
abbrev main_call0_call0_v8 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_v1 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_call1_v0 : Ref sig .tc := ⟨.hbm, 90, rfl⟩
abbrev main_call1_call0_cst : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_call0_v2 : Ref sig .tc := ⟨.hbm, 94, rfl⟩
abbrev main_call1_call0_v3 : Ref sig .tc := ⟨.hbm, 95, rfl⟩
abbrev main_call1_call0_v4 : Ref sig .tc := ⟨.hbm, 96, rfl⟩
abbrev main_call1_call0_v5 : Ref sig .tc := ⟨.hbm, 97, rfl⟩
abbrev main_call1_call0_v6 : Ref sig .tc := ⟨.hbm, 98, rfl⟩
abbrev main_call1_call0_v7 : Ref sig .tc := ⟨.hbm, 99, rfl⟩
abbrev main_call1_call0_v8 : Ref sig .tc := ⟨.hbm, 100, rfl⟩
abbrev main_call1_call0_v9 : Ref sig .tc := ⟨.hbm, 101, rfl⟩
abbrev main_call1_call0_v10 : Ref sig .tc := ⟨.hbm, 102, rfl⟩
abbrev main_call1_call0_v11 : Ref sig .tc := ⟨.hbm, 103, rfl⟩
abbrev main_call1_v1 : Ref sig .tc := ⟨.hbm, 104, rfl⟩
abbrev main_v49 : Ref sig .tc := ⟨.hbm, 105, rfl⟩
abbrev main_cst_7 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_8 : Ref sig .tc := ⟨.hbm, 110, rfl⟩
abbrev main_v53 : Ref sig .tc := ⟨.hbm, 111, rfl⟩
abbrev main_cst_9 : Ref sig .tc := ⟨.hbm, 112, rfl⟩
abbrev main_v54 : Ref sig .tc := ⟨.hbm, 113, rfl⟩
abbrev main_cst_10 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_11 : Ref sig .tc := ⟨.hbm, 124, rfl⟩
abbrev main_v64 : Ref sig .tc := ⟨.hbm, 125, rfl⟩
abbrev main_v65 : Ref sig .tc := ⟨.hbm, 126, rfl⟩
abbrev main_c_12 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_c_13 : Ref sig .tc := ⟨.hbm, 136, rfl⟩
abbrev main_v74 : Ref sig .tc := ⟨.hbm, 137, rfl⟩
abbrev main_v75 : Ref sig .tc := ⟨.hbm, 138, rfl⟩
abbrev main_c_14 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_c_15 : Ref sig .tc := ⟨.hbm, 145, rfl⟩
abbrev main_v81 : Ref sig .tc := ⟨.hbm, 146, rfl⟩
abbrev main_v82 : Ref sig .tc := ⟨.hbm, 147, rfl⟩
abbrev main_c_16 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_cst_17 : Ref sig .tc := ⟨.hbm, 155, rfl⟩
abbrev main_v89 : Ref sig .tc := ⟨.hbm, 156, rfl⟩
abbrev main_v90 : Ref sig .tc := ⟨.hbm, 157, rfl⟩
abbrev main_c_18 : Ref sig .tc := ⟨.hbm, 158, rfl⟩
abbrev main_v91 : Ref sig .tc := ⟨.hbm, 159, rfl⟩
abbrev main_v92 : Ref sig .tc := ⟨.hbm, 160, rfl⟩
abbrev main_c_19 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_call2_v0 : Ref sig .tc := ⟨.hbm, 171, rfl⟩
abbrev main_call2_call0_cst : Ref sig .tc := ⟨.hbm, 172, rfl⟩
abbrev main_call2_call0_v0 : Ref sig .tc := ⟨.hbm, 173, rfl⟩
abbrev main_call2_call0_v1 : Ref sig .tc := ⟨.hbm, 174, rfl⟩
abbrev main_call2_call0_v2 : Ref sig .tc := ⟨.hbm, 175, rfl⟩
abbrev main_call2_call0_v3 : Ref sig .tc := ⟨.hbm, 176, rfl⟩
abbrev main_call2_call0_v4 : Ref sig .tc := ⟨.hbm, 177, rfl⟩
abbrev main_call2_call0_v5 : Ref sig .tc := ⟨.hbm, 178, rfl⟩
abbrev main_call2_call0_v6 : Ref sig .tc := ⟨.hbm, 179, rfl⟩
abbrev main_call2_call0_v7 : Ref sig .tc := ⟨.hbm, 180, rfl⟩
abbrev main_call2_call0_v8 : Ref sig .tc := ⟨.hbm, 181, rfl⟩
abbrev main_call2_call0_v9 : Ref sig .tc := ⟨.hbm, 182, rfl⟩
abbrev main_call2_call0_v10 : Ref sig .tc := ⟨.hbm, 183, rfl⟩
abbrev main_call2_call0_v11 : Ref sig .tc := ⟨.hbm, 184, rfl⟩
abbrev main_call2_v1 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_call3_v0 : Ref sig .tc := ⟨.hbm, 189, rfl⟩
abbrev main_call3_call0_cst : Ref sig .tc := ⟨.hbm, 190, rfl⟩
abbrev main_call3_call0_v0 : Ref sig .tc := ⟨.hbm, 191, rfl⟩
abbrev main_call3_call0_v1 : Ref sig .tc := ⟨.hbm, 192, rfl⟩
abbrev main_call3_call0_v2 : Ref sig .tc := ⟨.hbm, 193, rfl⟩
abbrev main_call3_call0_v3 : Ref sig .tc := ⟨.hbm, 194, rfl⟩
abbrev main_call3_call0_v4 : Ref sig .tc := ⟨.hbm, 195, rfl⟩
abbrev main_call3_call0_v5 : Ref sig .tc := ⟨.hbm, 196, rfl⟩
abbrev main_call3_call0_v6 : Ref sig .tc := ⟨.hbm, 197, rfl⟩
abbrev main_call3_call0_v7 : Ref sig .tc := ⟨.hbm, 198, rfl⟩
abbrev main_call3_call0_v8 : Ref sig .tc := ⟨.hbm, 199, rfl⟩
abbrev main_call3_call0_v9 : Ref sig .tc := ⟨.hbm, 200, rfl⟩
abbrev main_call3_call0_v10 : Ref sig .tc := ⟨.hbm, 201, rfl⟩
abbrev main_call3_call0_v11 : Ref sig .tc := ⟨.hbm, 202, rfl⟩
abbrev main_call3_v1 : Ref sig .tc := ⟨.hbm, 203, rfl⟩
abbrev main_v105 : Ref sig .tc := ⟨.hbm, 204, rfl⟩
abbrev main_cst_20 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_cst_21 : Ref sig .tc := ⟨.hbm, 209, rfl⟩
abbrev main_v109 : Ref sig .tc := ⟨.hbm, 210, rfl⟩
abbrev main_cst_22 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_c_23 : Ref sig .tc := ⟨.hbm, 222, rfl⟩
abbrev main_v120 : Ref sig .tc := ⟨.hbm, 223, rfl⟩
abbrev main_v121 : Ref sig .tc := ⟨.hbm, 224, rfl⟩
abbrev main_c_24 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_c_25 : Ref sig .tc := ⟨.hbm, 234, rfl⟩
abbrev main_v130 : Ref sig .tc := ⟨.hbm, 235, rfl⟩
abbrev main_v131 : Ref sig .tc := ⟨.hbm, 236, rfl⟩
abbrev main_c_26 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_c_27 : Ref sig .tc := ⟨.hbm, 243, rfl⟩
abbrev main_v137 : Ref sig .tc := ⟨.hbm, 244, rfl⟩
abbrev main_v138 : Ref sig .tc := ⟨.hbm, 245, rfl⟩
abbrev main_c_28 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_cst_29 : Ref sig .tc := ⟨.hbm, 253, rfl⟩
abbrev main_v145 : Ref sig .tc := ⟨.hbm, 254, rfl⟩
abbrev main_v146 : Ref sig .tc := ⟨.hbm, 255, rfl⟩
abbrev main_c_30 : Ref sig .tc := ⟨.hbm, 256, rfl⟩
abbrev main_v147 : Ref sig .tc := ⟨.hbm, 257, rfl⟩
abbrev main_v148 : Ref sig .tc := ⟨.hbm, 258, rfl⟩
abbrev main_c_31 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_call4_v0 : Ref sig .tc := ⟨.hbm, 269, rfl⟩
abbrev main_call4_call0_cst : Ref sig .tc := ⟨.hbm, 270, rfl⟩
abbrev main_call4_call0_v0 : Ref sig .tc := ⟨.hbm, 271, rfl⟩
abbrev main_call4_call0_v1 : Ref sig .tc := ⟨.hbm, 272, rfl⟩
abbrev main_call4_call0_v2 : Ref sig .tc := ⟨.hbm, 273, rfl⟩
abbrev main_call4_call0_v3 : Ref sig .tc := ⟨.hbm, 274, rfl⟩
abbrev main_call4_call0_v4 : Ref sig .tc := ⟨.hbm, 275, rfl⟩
abbrev main_call4_call0_v5 : Ref sig .tc := ⟨.hbm, 276, rfl⟩
abbrev main_call4_call0_v6 : Ref sig .tc := ⟨.hbm, 277, rfl⟩
abbrev main_call4_call0_v7 : Ref sig .tc := ⟨.hbm, 278, rfl⟩
abbrev main_call4_call0_v8 : Ref sig .tc := ⟨.hbm, 279, rfl⟩
abbrev main_call4_call0_v9 : Ref sig .tc := ⟨.hbm, 280, rfl⟩
abbrev main_call4_call0_v10 : Ref sig .tc := ⟨.hbm, 281, rfl⟩
abbrev main_call4_call0_v11 : Ref sig .tc := ⟨.hbm, 282, rfl⟩
abbrev main_call4_v1 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_call5_v0 : Ref sig .tc := ⟨.hbm, 287, rfl⟩
abbrev main_call5_call0_cst : Ref sig .tc := ⟨.hbm, 288, rfl⟩
abbrev main_call5_call0_v0 : Ref sig .tc := ⟨.hbm, 289, rfl⟩
abbrev main_call5_call0_v1 : Ref sig .tc := ⟨.hbm, 290, rfl⟩
abbrev main_call5_call0_v2 : Ref sig .tc := ⟨.hbm, 291, rfl⟩
abbrev main_call5_call0_v3 : Ref sig .tc := ⟨.hbm, 292, rfl⟩
abbrev main_call5_call0_v4 : Ref sig .tc := ⟨.hbm, 293, rfl⟩
abbrev main_call5_call0_v5 : Ref sig .tc := ⟨.hbm, 294, rfl⟩
abbrev main_call5_call0_v6 : Ref sig .tc := ⟨.hbm, 295, rfl⟩
abbrev main_call5_call0_v7 : Ref sig .tc := ⟨.hbm, 296, rfl⟩
abbrev main_call5_call0_v8 : Ref sig .tc := ⟨.hbm, 297, rfl⟩
abbrev main_call5_call0_v9 : Ref sig .tc := ⟨.hbm, 298, rfl⟩
abbrev main_call5_call0_v10 : Ref sig .tc := ⟨.hbm, 299, rfl⟩
abbrev main_call5_call0_v11 : Ref sig .tc := ⟨.hbm, 300, rfl⟩
abbrev main_call5_v1 : Ref sig .tc := ⟨.hbm, 301, rfl⟩
abbrev main_v161 : Ref sig .tc := ⟨.hbm, 302, rfl⟩
abbrev main_cst_32 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_cst_33 : Ref sig .tc := ⟨.hbm, 307, rfl⟩
abbrev main_v165 : Ref sig .tc := ⟨.hbm, 308, rfl⟩
abbrev main_cst_34 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_c_35 : Ref sig .tc := ⟨.hbm, 320, rfl⟩
abbrev main_v176 : Ref sig .tc := ⟨.hbm, 321, rfl⟩
abbrev main_v177 : Ref sig .tc := ⟨.hbm, 322, rfl⟩
abbrev main_c_36 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_c_37 : Ref sig .tc := ⟨.hbm, 332, rfl⟩
abbrev main_v186 : Ref sig .tc := ⟨.hbm, 333, rfl⟩
abbrev main_v187 : Ref sig .tc := ⟨.hbm, 334, rfl⟩
abbrev main_c_38 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_c_39 : Ref sig .tc := ⟨.hbm, 341, rfl⟩
abbrev main_v193 : Ref sig .tc := ⟨.hbm, 342, rfl⟩
abbrev main_v194 : Ref sig .tc := ⟨.hbm, 343, rfl⟩
abbrev main_c_40 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_v200 : Ref sig .tc := ⟨.hbm, 350, rfl⟩
abbrev main_cst_41 : Ref sig .tc := ⟨.hbm, 351, rfl⟩
abbrev main_v201 : Ref sig .tc := ⟨.hbm, 352, rfl⟩
abbrev main_v202 : Ref sig .tc := ⟨.hbm, 353, rfl⟩
abbrev main_c_42 : Ref sig .tc := ⟨.hbm, 354, rfl⟩
abbrev main_v203 : Ref sig .tc := ⟨.hbm, 355, rfl⟩
abbrev main_v204 : Ref sig .tc := ⟨.hbm, 356, rfl⟩
abbrev main_c_43 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩
abbrev main_v211 : Ref sig .tc := ⟨.hbm, 364, rfl⟩
abbrev main_v212 : Ref sig .tc := ⟨.hbm, 365, rfl⟩
abbrev main_v213 : Ref sig .tc := ⟨.hbm, 366, rfl⟩
abbrev main_call6_v0 : Ref sig .tc := ⟨.hbm, 367, rfl⟩
abbrev main_call6_call0_cst : Ref sig .tc := ⟨.hbm, 368, rfl⟩
abbrev main_call6_call0_v0 : Ref sig .tc := ⟨.hbm, 369, rfl⟩
abbrev main_call6_call0_v1 : Ref sig .tc := ⟨.hbm, 370, rfl⟩
abbrev main_call6_call0_v2 : Ref sig .tc := ⟨.hbm, 371, rfl⟩
abbrev main_call6_call0_v3 : Ref sig .tc := ⟨.hbm, 372, rfl⟩
abbrev main_call6_call0_v4 : Ref sig .tc := ⟨.hbm, 373, rfl⟩
abbrev main_call6_call0_v5 : Ref sig .tc := ⟨.hbm, 374, rfl⟩
abbrev main_call6_call0_v6 : Ref sig .tc := ⟨.hbm, 375, rfl⟩
abbrev main_call6_call0_v7 : Ref sig .tc := ⟨.hbm, 376, rfl⟩
abbrev main_call6_call0_v8 : Ref sig .tc := ⟨.hbm, 377, rfl⟩
abbrev main_call6_call0_v9 : Ref sig .tc := ⟨.hbm, 378, rfl⟩
abbrev main_call6_call0_v10 : Ref sig .tc := ⟨.hbm, 379, rfl⟩
abbrev main_call6_call0_v11 : Ref sig .tc := ⟨.hbm, 380, rfl⟩
abbrev main_call6_v1 : Ref sig .tc := ⟨.hbm, 381, rfl⟩
abbrev main_v214 : Ref sig .tc := ⟨.hbm, 382, rfl⟩
abbrev main_v215 : Ref sig .tc := ⟨.hbm, 383, rfl⟩
abbrev main_v216 : Ref sig .tc := ⟨.hbm, 384, rfl⟩
abbrev main_call7_v0 : Ref sig .tc := ⟨.hbm, 385, rfl⟩
abbrev main_call7_call0_cst : Ref sig .tc := ⟨.hbm, 386, rfl⟩
abbrev main_call7_call0_v0 : Ref sig .tc := ⟨.hbm, 387, rfl⟩
abbrev main_call7_call0_v1 : Ref sig .tc := ⟨.hbm, 388, rfl⟩
abbrev main_call7_call0_v2 : Ref sig .tc := ⟨.hbm, 389, rfl⟩
abbrev main_call7_call0_v3 : Ref sig .tc := ⟨.hbm, 390, rfl⟩
abbrev main_call7_call0_v4 : Ref sig .tc := ⟨.hbm, 391, rfl⟩
abbrev main_call7_call0_v5 : Ref sig .tc := ⟨.hbm, 392, rfl⟩
abbrev main_call7_call0_v6 : Ref sig .tc := ⟨.hbm, 393, rfl⟩
abbrev main_call7_call0_v7 : Ref sig .tc := ⟨.hbm, 394, rfl⟩
abbrev main_call7_call0_v8 : Ref sig .tc := ⟨.hbm, 395, rfl⟩
abbrev main_call7_call0_v9 : Ref sig .tc := ⟨.hbm, 396, rfl⟩
abbrev main_call7_call0_v10 : Ref sig .tc := ⟨.hbm, 397, rfl⟩
abbrev main_call7_call0_v11 : Ref sig .tc := ⟨.hbm, 398, rfl⟩
abbrev main_call7_v1 : Ref sig .tc := ⟨.hbm, 399, rfl⟩
abbrev main_v217 : Ref sig .tc := ⟨.hbm, 400, rfl⟩
abbrev main_cst_44 : Ref sig .tc := ⟨.hbm, 401, rfl⟩
abbrev main_v218 : Ref sig .tc := ⟨.hbm, 402, rfl⟩
abbrev main_v219 : Ref sig .tc := ⟨.hbm, 403, rfl⟩
abbrev main_v220 : Ref sig .tc := ⟨.hbm, 404, rfl⟩
abbrev main_cst_45 : Ref sig .tc := ⟨.hbm, 405, rfl⟩
abbrev main_v221 : Ref sig .tc := ⟨.hbm, 406, rfl⟩
abbrev main_cst_46 : Ref sig .tc := ⟨.hbm, 407, rfl⟩
abbrev main_v222 : Ref sig .tc := ⟨.hbm, 408, rfl⟩
abbrev main_v223 : Ref sig .tc := ⟨.hbm, 409, rfl⟩
abbrev main_v224 : Ref sig .tc := ⟨.hbm, 410, rfl⟩
abbrev main_v225 : Ref sig .tc := ⟨.hbm, 411, rfl⟩
abbrev main_v226 : Ref sig .tc := ⟨.hbm, 412, rfl⟩
abbrev main_v227 : Ref sig .tc := ⟨.hbm, 413, rfl⟩
abbrev main_v228 : Ref sig .tc := ⟨.hbm, 414, rfl⟩
abbrev main_v229 : Ref sig .tc := ⟨.hbm, 415, rfl⟩
abbrev main_v230 : Ref sig .tc := ⟨.hbm, 416, rfl⟩
abbrev main_v231 : Ref sig .tc := ⟨.hbm, 417, rfl⟩
abbrev main_c_47 : Ref sig .tc := ⟨.hbm, 418, rfl⟩
abbrev main_v232 : Ref sig .tc := ⟨.hbm, 419, rfl⟩
abbrev main_v233 : Ref sig .tc := ⟨.hbm, 420, rfl⟩
abbrev main_c_48 : Ref sig .tc := ⟨.hbm, 421, rfl⟩
abbrev main_v234 : Ref sig .tc := ⟨.hbm, 422, rfl⟩
abbrev main_v235 : Ref sig .tc := ⟨.hbm, 423, rfl⟩
abbrev main_v236 : Ref sig .tc := ⟨.hbm, 424, rfl⟩
abbrev main_v237 : Ref sig .tc := ⟨.hbm, 425, rfl⟩
abbrev main_v238 : Ref sig .tc := ⟨.hbm, 426, rfl⟩
abbrev main_v239 : Ref sig .tc := ⟨.hbm, 427, rfl⟩
abbrev main_v240 : Ref sig .tc := ⟨.hbm, 428, rfl⟩
abbrev main_v241 : Ref sig .tc := ⟨.hbm, 429, rfl⟩
abbrev main_c_49 : Ref sig .tc := ⟨.hbm, 430, rfl⟩
abbrev main_v242 : Ref sig .tc := ⟨.hbm, 431, rfl⟩
abbrev main_v243 : Ref sig .tc := ⟨.hbm, 432, rfl⟩
abbrev main_c_50 : Ref sig .tc := ⟨.hbm, 433, rfl⟩
abbrev main_v244 : Ref sig .tc := ⟨.hbm, 434, rfl⟩
abbrev main_v245 : Ref sig .tc := ⟨.hbm, 435, rfl⟩
abbrev main_v246 : Ref sig .tc := ⟨.hbm, 436, rfl⟩
abbrev main_v247 : Ref sig .tc := ⟨.hbm, 437, rfl⟩
abbrev main_v248 : Ref sig .tc := ⟨.hbm, 438, rfl⟩
abbrev main_c_51 : Ref sig .tc := ⟨.hbm, 439, rfl⟩
abbrev main_v249 : Ref sig .tc := ⟨.hbm, 440, rfl⟩
abbrev main_v250 : Ref sig .tc := ⟨.hbm, 441, rfl⟩
abbrev main_c_52 : Ref sig .tc := ⟨.hbm, 442, rfl⟩
abbrev main_v251 : Ref sig .tc := ⟨.hbm, 443, rfl⟩
abbrev main_v252 : Ref sig .tc := ⟨.hbm, 444, rfl⟩
abbrev main_v253 : Ref sig .tc := ⟨.hbm, 445, rfl⟩
abbrev main_v254 : Ref sig .tc := ⟨.hbm, 446, rfl⟩
abbrev main_v255 : Ref sig .tc := ⟨.hbm, 447, rfl⟩
abbrev main_v256 : Ref sig .tc := ⟨.hbm, 448, rfl⟩
abbrev main_cst_53 : Ref sig .tc := ⟨.hbm, 449, rfl⟩
abbrev main_v257 : Ref sig .tc := ⟨.hbm, 450, rfl⟩
abbrev main_v258 : Ref sig .tc := ⟨.hbm, 451, rfl⟩
abbrev main_c_54 : Ref sig .tc := ⟨.hbm, 452, rfl⟩
abbrev main_v259 : Ref sig .tc := ⟨.hbm, 453, rfl⟩
abbrev main_v260 : Ref sig .tc := ⟨.hbm, 454, rfl⟩
abbrev main_c_55 : Ref sig .tc := ⟨.hbm, 455, rfl⟩
abbrev main_v261 : Ref sig .tc := ⟨.hbm, 456, rfl⟩
abbrev main_v262 : Ref sig .tc := ⟨.hbm, 457, rfl⟩
abbrev main_v263 : Ref sig .tc := ⟨.hbm, 458, rfl⟩
abbrev main_v264 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_call8_v0 : Ref sig .tc := ⟨.hbm, 465, rfl⟩
abbrev main_call8_call0_cst : Ref sig .tc := ⟨.hbm, 466, rfl⟩
abbrev main_call8_call0_v0 : Ref sig .tc := ⟨.hbm, 467, rfl⟩
abbrev main_call8_call0_v1 : Ref sig .tc := ⟨.hbm, 468, rfl⟩
abbrev main_call8_call0_v2 : Ref sig .tc := ⟨.hbm, 469, rfl⟩
abbrev main_call8_call0_v3 : Ref sig .tc := ⟨.hbm, 470, rfl⟩
abbrev main_call8_call0_v4 : Ref sig .tc := ⟨.hbm, 471, rfl⟩
abbrev main_call8_call0_v5 : Ref sig .tc := ⟨.hbm, 472, rfl⟩
abbrev main_call8_call0_v6 : Ref sig .tc := ⟨.hbm, 473, rfl⟩
abbrev main_call8_call0_v7 : Ref sig .tc := ⟨.hbm, 474, rfl⟩
abbrev main_call8_call0_v8 : Ref sig .tc := ⟨.hbm, 475, rfl⟩
abbrev main_call8_call0_v9 : Ref sig .tc := ⟨.hbm, 476, rfl⟩
abbrev main_call8_call0_v10 : Ref sig .tc := ⟨.hbm, 477, rfl⟩
abbrev main_call8_call0_v11 : Ref sig .tc := ⟨.hbm, 478, rfl⟩
abbrev main_call8_v1 : Ref sig .tc := ⟨.hbm, 479, rfl⟩
abbrev main_v270 : Ref sig .tc := ⟨.hbm, 480, rfl⟩
abbrev main_v271 : Ref sig .tc := ⟨.hbm, 481, rfl⟩
abbrev main_v272 : Ref sig .tc := ⟨.hbm, 482, rfl⟩
abbrev main_call9_v0 : Ref sig .tc := ⟨.hbm, 483, rfl⟩
abbrev main_call9_call0_cst : Ref sig .tc := ⟨.hbm, 484, rfl⟩
abbrev main_call9_call0_v0 : Ref sig .tc := ⟨.hbm, 485, rfl⟩
abbrev main_call9_call0_v1 : Ref sig .tc := ⟨.hbm, 486, rfl⟩
abbrev main_call9_call0_v2 : Ref sig .tc := ⟨.hbm, 487, rfl⟩
abbrev main_call9_call0_v3 : Ref sig .tc := ⟨.hbm, 488, rfl⟩
abbrev main_call9_call0_v4 : Ref sig .tc := ⟨.hbm, 489, rfl⟩
abbrev main_call9_call0_v5 : Ref sig .tc := ⟨.hbm, 490, rfl⟩
abbrev main_call9_call0_v6 : Ref sig .tc := ⟨.hbm, 491, rfl⟩
abbrev main_call9_call0_v7 : Ref sig .tc := ⟨.hbm, 492, rfl⟩
abbrev main_call9_call0_v8 : Ref sig .tc := ⟨.hbm, 493, rfl⟩
abbrev main_call9_call0_v9 : Ref sig .tc := ⟨.hbm, 494, rfl⟩
abbrev main_call9_call0_v10 : Ref sig .tc := ⟨.hbm, 495, rfl⟩
abbrev main_call9_call0_v11 : Ref sig .tc := ⟨.hbm, 496, rfl⟩
abbrev main_call9_v1 : Ref sig .tc := ⟨.hbm, 497, rfl⟩
abbrev main_v273 : Ref sig .tc := ⟨.hbm, 498, rfl⟩
abbrev main_cst_56 : Ref sig .tc := ⟨.hbm, 499, rfl⟩
abbrev main_v274 : Ref sig .tc := ⟨.hbm, 500, rfl⟩
abbrev main_v275 : Ref sig .tc := ⟨.hbm, 501, rfl⟩
abbrev main_v276 : Ref sig .tc := ⟨.hbm, 502, rfl⟩
abbrev main_cst_57 : Ref sig .tc := ⟨.hbm, 503, rfl⟩
abbrev main_v277 : Ref sig .tc := ⟨.hbm, 504, rfl⟩
abbrev main_cst_58 : Ref sig .tc := ⟨.hbm, 505, rfl⟩
abbrev main_v278 : Ref sig .tc := ⟨.hbm, 506, rfl⟩
abbrev main_v279 : Ref sig .tc := ⟨.hbm, 507, rfl⟩
abbrev main_v280 : Ref sig .tc := ⟨.hbm, 508, rfl⟩
abbrev main_v281 : Ref sig .tc := ⟨.hbm, 509, rfl⟩
abbrev main_v282 : Ref sig .tc := ⟨.hbm, 510, rfl⟩
abbrev main_v283 : Ref sig .tc := ⟨.hbm, 511, rfl⟩
abbrev main_v284 : Ref sig .tc := ⟨.hbm, 512, rfl⟩
abbrev main_v285 : Ref sig .tc := ⟨.hbm, 513, rfl⟩
abbrev main_v286 : Ref sig .tc := ⟨.hbm, 514, rfl⟩
abbrev main_v287 : Ref sig .tc := ⟨.hbm, 515, rfl⟩
abbrev main_c_59 : Ref sig .tc := ⟨.hbm, 516, rfl⟩
abbrev main_v288 : Ref sig .tc := ⟨.hbm, 517, rfl⟩
abbrev main_v289 : Ref sig .tc := ⟨.hbm, 518, rfl⟩
abbrev main_c_60 : Ref sig .tc := ⟨.hbm, 519, rfl⟩
abbrev main_v290 : Ref sig .tc := ⟨.hbm, 520, rfl⟩
abbrev main_v291 : Ref sig .tc := ⟨.hbm, 521, rfl⟩
abbrev main_v292 : Ref sig .tc := ⟨.hbm, 522, rfl⟩
abbrev main_v293 : Ref sig .tc := ⟨.hbm, 523, rfl⟩
abbrev main_v294 : Ref sig .tc := ⟨.hbm, 524, rfl⟩
abbrev main_v295 : Ref sig .tc := ⟨.hbm, 525, rfl⟩
abbrev main_v296 : Ref sig .tc := ⟨.hbm, 526, rfl⟩
abbrev main_v297 : Ref sig .tc := ⟨.hbm, 527, rfl⟩
abbrev main_c_61 : Ref sig .tc := ⟨.hbm, 528, rfl⟩
abbrev main_v298 : Ref sig .tc := ⟨.hbm, 529, rfl⟩
abbrev main_v299 : Ref sig .tc := ⟨.hbm, 530, rfl⟩
abbrev main_c_62 : Ref sig .tc := ⟨.hbm, 531, rfl⟩
abbrev main_v300 : Ref sig .tc := ⟨.hbm, 532, rfl⟩
abbrev main_v301 : Ref sig .tc := ⟨.hbm, 533, rfl⟩
abbrev main_v302 : Ref sig .tc := ⟨.hbm, 534, rfl⟩
abbrev main_v303 : Ref sig .tc := ⟨.hbm, 535, rfl⟩
abbrev main_v304 : Ref sig .tc := ⟨.hbm, 536, rfl⟩
abbrev main_c_63 : Ref sig .tc := ⟨.hbm, 537, rfl⟩
abbrev main_v305 : Ref sig .tc := ⟨.hbm, 538, rfl⟩
abbrev main_v306 : Ref sig .tc := ⟨.hbm, 539, rfl⟩
abbrev main_c_64 : Ref sig .tc := ⟨.hbm, 540, rfl⟩
abbrev main_v307 : Ref sig .tc := ⟨.hbm, 541, rfl⟩
abbrev main_v308 : Ref sig .tc := ⟨.hbm, 542, rfl⟩
abbrev main_v309 : Ref sig .tc := ⟨.hbm, 543, rfl⟩
abbrev main_v310 : Ref sig .tc := ⟨.hbm, 544, rfl⟩
abbrev main_v311 : Ref sig .tc := ⟨.hbm, 545, rfl⟩
abbrev main_v312 : Ref sig .tc := ⟨.hbm, 546, rfl⟩
abbrev main_cst_65 : Ref sig .tc := ⟨.hbm, 547, rfl⟩
abbrev main_v313 : Ref sig .tc := ⟨.hbm, 548, rfl⟩
abbrev main_v314 : Ref sig .tc := ⟨.hbm, 549, rfl⟩
abbrev main_c_66 : Ref sig .tc := ⟨.hbm, 550, rfl⟩
abbrev main_v315 : Ref sig .tc := ⟨.hbm, 551, rfl⟩
abbrev main_v316 : Ref sig .tc := ⟨.hbm, 552, rfl⟩
abbrev main_c_67 : Ref sig .tc := ⟨.hbm, 553, rfl⟩
abbrev main_v317 : Ref sig .tc := ⟨.hbm, 554, rfl⟩
abbrev main_v318 : Ref sig .tc := ⟨.hbm, 555, rfl⟩
abbrev main_v319 : Ref sig .tc := ⟨.hbm, 556, rfl⟩
abbrev main_v320 : Ref sig .tc := ⟨.hbm, 557, rfl⟩
abbrev main_v321 : Ref sig .tc := ⟨.hbm, 558, rfl⟩
abbrev main_v322 : Ref sig .tc := ⟨.hbm, 559, rfl⟩
abbrev main_v323 : Ref sig .tc := ⟨.hbm, 560, rfl⟩
abbrev main_v324 : Ref sig .tc := ⟨.hbm, 561, rfl⟩
abbrev main_v325 : Ref sig .tc := ⟨.hbm, 562, rfl⟩
abbrev main_call10_v0 : Ref sig .tc := ⟨.hbm, 563, rfl⟩
abbrev main_call10_call0_cst : Ref sig .tc := ⟨.hbm, 564, rfl⟩
abbrev main_call10_call0_v0 : Ref sig .tc := ⟨.hbm, 565, rfl⟩
abbrev main_call10_call0_v1 : Ref sig .tc := ⟨.hbm, 566, rfl⟩
abbrev main_call10_call0_v2 : Ref sig .tc := ⟨.hbm, 567, rfl⟩
abbrev main_call10_call0_v3 : Ref sig .tc := ⟨.hbm, 568, rfl⟩
abbrev main_call10_call0_v4 : Ref sig .tc := ⟨.hbm, 569, rfl⟩
abbrev main_call10_call0_v5 : Ref sig .tc := ⟨.hbm, 570, rfl⟩
abbrev main_call10_call0_v6 : Ref sig .tc := ⟨.hbm, 571, rfl⟩
abbrev main_call10_call0_v7 : Ref sig .tc := ⟨.hbm, 572, rfl⟩
abbrev main_call10_call0_v8 : Ref sig .tc := ⟨.hbm, 573, rfl⟩
abbrev main_call10_call0_v9 : Ref sig .tc := ⟨.hbm, 574, rfl⟩
abbrev main_call10_call0_v10 : Ref sig .tc := ⟨.hbm, 575, rfl⟩
abbrev main_call10_call0_v11 : Ref sig .tc := ⟨.hbm, 576, rfl⟩
abbrev main_call10_v1 : Ref sig .tc := ⟨.hbm, 577, rfl⟩
abbrev main_v326 : Ref sig .tc := ⟨.hbm, 578, rfl⟩
abbrev main_v327 : Ref sig .tc := ⟨.hbm, 579, rfl⟩
abbrev main_v328 : Ref sig .tc := ⟨.hbm, 580, rfl⟩
abbrev main_call11_v0 : Ref sig .tc := ⟨.hbm, 581, rfl⟩
abbrev main_call11_call0_cst : Ref sig .tc := ⟨.hbm, 582, rfl⟩
abbrev main_call11_call0_v0 : Ref sig .tc := ⟨.hbm, 583, rfl⟩
abbrev main_call11_call0_v1 : Ref sig .tc := ⟨.hbm, 584, rfl⟩
abbrev main_call11_call0_v2 : Ref sig .tc := ⟨.hbm, 585, rfl⟩
abbrev main_call11_call0_v3 : Ref sig .tc := ⟨.hbm, 586, rfl⟩
abbrev main_call11_call0_v4 : Ref sig .tc := ⟨.hbm, 587, rfl⟩
abbrev main_call11_call0_v5 : Ref sig .tc := ⟨.hbm, 588, rfl⟩
abbrev main_call11_call0_v6 : Ref sig .tc := ⟨.hbm, 589, rfl⟩
abbrev main_call11_call0_v7 : Ref sig .tc := ⟨.hbm, 590, rfl⟩
abbrev main_call11_call0_v8 : Ref sig .tc := ⟨.hbm, 591, rfl⟩
abbrev main_call11_call0_v9 : Ref sig .tc := ⟨.hbm, 592, rfl⟩
abbrev main_call11_call0_v10 : Ref sig .tc := ⟨.hbm, 593, rfl⟩
abbrev main_call11_call0_v11 : Ref sig .tc := ⟨.hbm, 594, rfl⟩
abbrev main_call11_v1 : Ref sig .tc := ⟨.hbm, 595, rfl⟩
abbrev main_v329 : Ref sig .tc := ⟨.hbm, 596, rfl⟩
abbrev main_cst_68 : Ref sig .tc := ⟨.hbm, 597, rfl⟩
abbrev main_v330 : Ref sig .tc := ⟨.hbm, 598, rfl⟩
abbrev main_v331 : Ref sig .tc := ⟨.hbm, 599, rfl⟩
abbrev main_v332 : Ref sig .tc := ⟨.hbm, 600, rfl⟩
abbrev main_cst_69 : Ref sig .tc := ⟨.hbm, 601, rfl⟩
abbrev main_v333 : Ref sig .tc := ⟨.hbm, 602, rfl⟩
abbrev main_cst_70 : Ref sig .tc := ⟨.hbm, 603, rfl⟩
abbrev main_v334 : Ref sig .tc := ⟨.hbm, 604, rfl⟩
abbrev main_v335 : Ref sig .tc := ⟨.hbm, 605, rfl⟩
abbrev main_v336 : Ref sig .tc := ⟨.hbm, 606, rfl⟩
abbrev main_v337 : Ref sig .tc := ⟨.hbm, 607, rfl⟩
abbrev main_v338 : Ref sig .tc := ⟨.hbm, 608, rfl⟩
abbrev main_v339 : Ref sig .tc := ⟨.hbm, 609, rfl⟩
abbrev main_v340 : Ref sig .tc := ⟨.hbm, 610, rfl⟩
abbrev main_v341 : Ref sig .tc := ⟨.hbm, 611, rfl⟩
abbrev main_v342 : Ref sig .tc := ⟨.hbm, 612, rfl⟩
abbrev main_v343 : Ref sig .tc := ⟨.hbm, 613, rfl⟩
abbrev main_c_71 : Ref sig .tc := ⟨.hbm, 614, rfl⟩
abbrev main_v344 : Ref sig .tc := ⟨.hbm, 615, rfl⟩
abbrev main_v345 : Ref sig .tc := ⟨.hbm, 616, rfl⟩
abbrev main_c_72 : Ref sig .tc := ⟨.hbm, 617, rfl⟩
abbrev main_v346 : Ref sig .tc := ⟨.hbm, 618, rfl⟩
abbrev main_v347 : Ref sig .tc := ⟨.hbm, 619, rfl⟩
abbrev main_v348 : Ref sig .tc := ⟨.hbm, 620, rfl⟩
abbrev main_v349 : Ref sig .tc := ⟨.hbm, 621, rfl⟩
abbrev main_v350 : Ref sig .tc := ⟨.hbm, 622, rfl⟩
abbrev main_v351 : Ref sig .tc := ⟨.hbm, 623, rfl⟩
abbrev main_v352 : Ref sig .tc := ⟨.hbm, 624, rfl⟩
abbrev main_v353 : Ref sig .tc := ⟨.hbm, 625, rfl⟩
abbrev main_c_73 : Ref sig .tc := ⟨.hbm, 626, rfl⟩
abbrev main_v354 : Ref sig .tc := ⟨.hbm, 627, rfl⟩
abbrev main_v355 : Ref sig .tc := ⟨.hbm, 628, rfl⟩
abbrev main_c_74 : Ref sig .tc := ⟨.hbm, 629, rfl⟩
abbrev main_v356 : Ref sig .tc := ⟨.hbm, 630, rfl⟩
abbrev main_v357 : Ref sig .tc := ⟨.hbm, 631, rfl⟩
abbrev main_v358 : Ref sig .tc := ⟨.hbm, 632, rfl⟩
abbrev main_v359 : Ref sig .tc := ⟨.hbm, 633, rfl⟩
abbrev main_v360 : Ref sig .tc := ⟨.hbm, 634, rfl⟩
abbrev main_c_75 : Ref sig .tc := ⟨.hbm, 635, rfl⟩
abbrev main_v361 : Ref sig .tc := ⟨.hbm, 636, rfl⟩
abbrev main_v362 : Ref sig .tc := ⟨.hbm, 637, rfl⟩
abbrev main_c_76 : Ref sig .tc := ⟨.hbm, 638, rfl⟩
abbrev main_v363 : Ref sig .tc := ⟨.hbm, 639, rfl⟩
abbrev main_v364 : Ref sig .tc := ⟨.hbm, 640, rfl⟩
abbrev main_v365 : Ref sig .tc := ⟨.hbm, 641, rfl⟩
abbrev main_v366 : Ref sig .tc := ⟨.hbm, 642, rfl⟩
abbrev main_v367 : Ref sig .tc := ⟨.hbm, 643, rfl⟩
abbrev main_v368 : Ref sig .tc := ⟨.hbm, 644, rfl⟩
abbrev main_cst_77 : Ref sig .tc := ⟨.hbm, 645, rfl⟩
abbrev main_v369 : Ref sig .tc := ⟨.hbm, 646, rfl⟩
abbrev main_v370 : Ref sig .tc := ⟨.hbm, 647, rfl⟩
abbrev main_c_78 : Ref sig .tc := ⟨.hbm, 648, rfl⟩
abbrev main_v371 : Ref sig .tc := ⟨.hbm, 649, rfl⟩
abbrev main_v372 : Ref sig .tc := ⟨.hbm, 650, rfl⟩
abbrev main_c_79 : Ref sig .tc := ⟨.hbm, 651, rfl⟩
abbrev main_v373 : Ref sig .tc := ⟨.hbm, 652, rfl⟩
abbrev main_v374 : Ref sig .tc := ⟨.hbm, 653, rfl⟩
abbrev main_v375 : Ref sig .tc := ⟨.hbm, 654, rfl⟩
abbrev main_v376 : Ref sig .tc := ⟨.hbm, 655, rfl⟩
abbrev main_v377 : Ref sig .tc := ⟨.hbm, 656, rfl⟩
abbrev main_v378 : Ref sig .tc := ⟨.hbm, 657, rfl⟩
abbrev main_v379 : Ref sig .tc := ⟨.hbm, 658, rfl⟩
abbrev main_v380 : Ref sig .tc := ⟨.hbm, 659, rfl⟩
abbrev main_v381 : Ref sig .tc := ⟨.hbm, 660, rfl⟩
abbrev main_call12_v0 : Ref sig .tc := ⟨.hbm, 661, rfl⟩
abbrev main_call12_call0_cst : Ref sig .tc := ⟨.hbm, 662, rfl⟩
abbrev main_call12_call0_v0 : Ref sig .tc := ⟨.hbm, 663, rfl⟩
abbrev main_call12_call0_v1 : Ref sig .tc := ⟨.hbm, 664, rfl⟩
abbrev main_call12_call0_v2 : Ref sig .tc := ⟨.hbm, 665, rfl⟩
abbrev main_call12_call0_v3 : Ref sig .tc := ⟨.hbm, 666, rfl⟩
abbrev main_call12_call0_v4 : Ref sig .tc := ⟨.hbm, 667, rfl⟩
abbrev main_call12_call0_v5 : Ref sig .tc := ⟨.hbm, 668, rfl⟩
abbrev main_call12_call0_v6 : Ref sig .tc := ⟨.hbm, 669, rfl⟩
abbrev main_call12_call0_v7 : Ref sig .tc := ⟨.hbm, 670, rfl⟩
abbrev main_call12_call0_v8 : Ref sig .tc := ⟨.hbm, 671, rfl⟩
abbrev main_call12_call0_v9 : Ref sig .tc := ⟨.hbm, 672, rfl⟩
abbrev main_call12_call0_v10 : Ref sig .tc := ⟨.hbm, 673, rfl⟩
abbrev main_call12_call0_v11 : Ref sig .tc := ⟨.hbm, 674, rfl⟩
abbrev main_call12_v1 : Ref sig .tc := ⟨.hbm, 675, rfl⟩
abbrev main_v382 : Ref sig .tc := ⟨.hbm, 676, rfl⟩
abbrev main_v383 : Ref sig .tc := ⟨.hbm, 677, rfl⟩
abbrev main_v384 : Ref sig .tc := ⟨.hbm, 678, rfl⟩
abbrev main_call13_v0 : Ref sig .tc := ⟨.hbm, 679, rfl⟩
abbrev main_call13_call0_cst : Ref sig .tc := ⟨.hbm, 680, rfl⟩
abbrev main_call13_call0_v0 : Ref sig .tc := ⟨.hbm, 681, rfl⟩
abbrev main_call13_call0_v1 : Ref sig .tc := ⟨.hbm, 682, rfl⟩
abbrev main_call13_call0_v2 : Ref sig .tc := ⟨.hbm, 683, rfl⟩
abbrev main_call13_call0_v3 : Ref sig .tc := ⟨.hbm, 684, rfl⟩
abbrev main_call13_call0_v4 : Ref sig .tc := ⟨.hbm, 685, rfl⟩
abbrev main_call13_call0_v5 : Ref sig .tc := ⟨.hbm, 686, rfl⟩
abbrev main_call13_call0_v6 : Ref sig .tc := ⟨.hbm, 687, rfl⟩
abbrev main_call13_call0_v7 : Ref sig .tc := ⟨.hbm, 688, rfl⟩
abbrev main_call13_call0_v8 : Ref sig .tc := ⟨.hbm, 689, rfl⟩
abbrev main_call13_call0_v9 : Ref sig .tc := ⟨.hbm, 690, rfl⟩
abbrev main_call13_call0_v10 : Ref sig .tc := ⟨.hbm, 691, rfl⟩
abbrev main_call13_call0_v11 : Ref sig .tc := ⟨.hbm, 692, rfl⟩
abbrev main_call13_v1 : Ref sig .tc := ⟨.hbm, 693, rfl⟩
abbrev main_v385 : Ref sig .tc := ⟨.hbm, 694, rfl⟩
abbrev main_cst_80 : Ref sig .tc := ⟨.hbm, 695, rfl⟩
abbrev main_v386 : Ref sig .tc := ⟨.hbm, 696, rfl⟩
abbrev main_v387 : Ref sig .tc := ⟨.hbm, 697, rfl⟩
abbrev main_v388 : Ref sig .tc := ⟨.hbm, 698, rfl⟩
abbrev main_cst_81 : Ref sig .tc := ⟨.hbm, 699, rfl⟩
abbrev main_v389 : Ref sig .tc := ⟨.hbm, 700, rfl⟩
abbrev main_cst_82 : Ref sig .tc := ⟨.hbm, 701, rfl⟩
abbrev main_v390 : Ref sig .tc := ⟨.hbm, 702, rfl⟩
abbrev main_v391 : Ref sig .tc := ⟨.hbm, 703, rfl⟩
abbrev main_v392 : Ref sig .tc := ⟨.hbm, 704, rfl⟩
abbrev main_v393 : Ref sig .tc := ⟨.hbm, 705, rfl⟩
abbrev main_v394 : Ref sig .tc := ⟨.hbm, 706, rfl⟩
abbrev main_v395 : Ref sig .tc := ⟨.hbm, 707, rfl⟩
abbrev main_v396 : Ref sig .tc := ⟨.hbm, 708, rfl⟩
abbrev main_v397 : Ref sig .tc := ⟨.hbm, 709, rfl⟩
abbrev main_v398 : Ref sig .tc := ⟨.hbm, 710, rfl⟩
abbrev main_v399 : Ref sig .tc := ⟨.hbm, 711, rfl⟩
abbrev main_c_83 : Ref sig .tc := ⟨.hbm, 712, rfl⟩
abbrev main_v400 : Ref sig .tc := ⟨.hbm, 713, rfl⟩
abbrev main_v401 : Ref sig .tc := ⟨.hbm, 714, rfl⟩
abbrev main_c_84 : Ref sig .tc := ⟨.hbm, 715, rfl⟩
abbrev main_v402 : Ref sig .tc := ⟨.hbm, 716, rfl⟩
abbrev main_v403 : Ref sig .tc := ⟨.hbm, 717, rfl⟩
abbrev main_v404 : Ref sig .tc := ⟨.hbm, 718, rfl⟩
abbrev main_v405 : Ref sig .tc := ⟨.hbm, 719, rfl⟩
abbrev main_v406 : Ref sig .tc := ⟨.hbm, 720, rfl⟩
abbrev main_v407 : Ref sig .tc := ⟨.hbm, 721, rfl⟩
abbrev main_v408 : Ref sig .tc := ⟨.hbm, 722, rfl⟩
abbrev main_v409 : Ref sig .tc := ⟨.hbm, 723, rfl⟩
abbrev main_c_85 : Ref sig .tc := ⟨.hbm, 724, rfl⟩
abbrev main_v410 : Ref sig .tc := ⟨.hbm, 725, rfl⟩
abbrev main_v411 : Ref sig .tc := ⟨.hbm, 726, rfl⟩
abbrev main_c_86 : Ref sig .tc := ⟨.hbm, 727, rfl⟩
abbrev main_v412 : Ref sig .tc := ⟨.hbm, 728, rfl⟩
abbrev main_v413 : Ref sig .tc := ⟨.hbm, 729, rfl⟩
abbrev main_v414 : Ref sig .tc := ⟨.hbm, 730, rfl⟩
abbrev main_v415 : Ref sig .tc := ⟨.hbm, 731, rfl⟩
abbrev main_v416 : Ref sig .tc := ⟨.hbm, 732, rfl⟩
abbrev main_c_87 : Ref sig .tc := ⟨.hbm, 733, rfl⟩
abbrev main_v417 : Ref sig .tc := ⟨.hbm, 734, rfl⟩
abbrev main_v418 : Ref sig .tc := ⟨.hbm, 735, rfl⟩
abbrev main_c_88 : Ref sig .tc := ⟨.hbm, 736, rfl⟩
abbrev main_v419 : Ref sig .tc := ⟨.hbm, 737, rfl⟩
abbrev main_v420 : Ref sig .tc := ⟨.hbm, 738, rfl⟩
abbrev main_v421 : Ref sig .tc := ⟨.hbm, 739, rfl⟩
abbrev main_v422 : Ref sig .tc := ⟨.hbm, 740, rfl⟩
abbrev main_v423 : Ref sig .tc := ⟨.hbm, 741, rfl⟩
abbrev main_v424 : Ref sig .tc := ⟨.hbm, 742, rfl⟩
abbrev main_cst_89 : Ref sig .tc := ⟨.hbm, 743, rfl⟩
abbrev main_v425 : Ref sig .tc := ⟨.hbm, 744, rfl⟩
abbrev main_v426 : Ref sig .tc := ⟨.hbm, 745, rfl⟩
abbrev main_c_90 : Ref sig .tc := ⟨.hbm, 746, rfl⟩
abbrev main_v427 : Ref sig .tc := ⟨.hbm, 747, rfl⟩
abbrev main_v428 : Ref sig .tc := ⟨.hbm, 748, rfl⟩
abbrev main_c_91 : Ref sig .tc := ⟨.hbm, 749, rfl⟩
abbrev main_v429 : Ref sig .tc := ⟨.hbm, 750, rfl⟩
abbrev main_v430 : Ref sig .tc := ⟨.hbm, 751, rfl⟩
abbrev main_v431 : Ref sig .tc := ⟨.hbm, 752, rfl⟩
abbrev main_v432 : Ref sig .tc := ⟨.hbm, 753, rfl⟩
abbrev main_v433 : Ref sig .tc := ⟨.hbm, 754, rfl⟩
abbrev main_v434 : Ref sig .tc := ⟨.hbm, 755, rfl⟩
abbrev main_v435 : Ref sig .tc := ⟨.hbm, 756, rfl⟩
abbrev main_v436 : Ref sig .tc := ⟨.hbm, 757, rfl⟩
abbrev main_v437 : Ref sig .tc := ⟨.hbm, 758, rfl⟩
abbrev main_call14_v0 : Ref sig .tc := ⟨.hbm, 759, rfl⟩
abbrev main_call14_call0_cst : Ref sig .tc := ⟨.hbm, 760, rfl⟩
abbrev main_call14_call0_v0 : Ref sig .tc := ⟨.hbm, 761, rfl⟩
abbrev main_call14_call0_v1 : Ref sig .tc := ⟨.hbm, 762, rfl⟩
abbrev main_call14_call0_v2 : Ref sig .tc := ⟨.hbm, 763, rfl⟩
abbrev main_call14_call0_v3 : Ref sig .tc := ⟨.hbm, 764, rfl⟩
abbrev main_call14_call0_v4 : Ref sig .tc := ⟨.hbm, 765, rfl⟩
abbrev main_call14_call0_v5 : Ref sig .tc := ⟨.hbm, 766, rfl⟩
abbrev main_call14_call0_v6 : Ref sig .tc := ⟨.hbm, 767, rfl⟩
abbrev main_call14_call0_v7 : Ref sig .tc := ⟨.hbm, 768, rfl⟩
abbrev main_call14_call0_v8 : Ref sig .tc := ⟨.hbm, 769, rfl⟩
abbrev main_call14_call0_v9 : Ref sig .tc := ⟨.hbm, 770, rfl⟩
abbrev main_call14_call0_v10 : Ref sig .tc := ⟨.hbm, 771, rfl⟩
abbrev main_call14_call0_v11 : Ref sig .tc := ⟨.hbm, 772, rfl⟩
abbrev main_call14_v1 : Ref sig .tc := ⟨.hbm, 773, rfl⟩
abbrev main_v438 : Ref sig .tc := ⟨.hbm, 774, rfl⟩
abbrev main_v439 : Ref sig .tc := ⟨.hbm, 775, rfl⟩
abbrev main_v440 : Ref sig .tc := ⟨.hbm, 776, rfl⟩
abbrev main_call15_v0 : Ref sig .tc := ⟨.hbm, 777, rfl⟩
abbrev main_call15_call0_cst : Ref sig .tc := ⟨.hbm, 778, rfl⟩
abbrev main_call15_call0_v0 : Ref sig .tc := ⟨.hbm, 779, rfl⟩
abbrev main_call15_call0_v1 : Ref sig .tc := ⟨.hbm, 780, rfl⟩
abbrev main_call15_call0_v2 : Ref sig .tc := ⟨.hbm, 781, rfl⟩
abbrev main_call15_call0_v3 : Ref sig .tc := ⟨.hbm, 782, rfl⟩
abbrev main_call15_call0_v4 : Ref sig .tc := ⟨.hbm, 783, rfl⟩
abbrev main_call15_call0_v5 : Ref sig .tc := ⟨.hbm, 784, rfl⟩
abbrev main_call15_call0_v6 : Ref sig .tc := ⟨.hbm, 785, rfl⟩
abbrev main_call15_call0_v7 : Ref sig .tc := ⟨.hbm, 786, rfl⟩
abbrev main_call15_call0_v8 : Ref sig .tc := ⟨.hbm, 787, rfl⟩
abbrev main_call15_call0_v9 : Ref sig .tc := ⟨.hbm, 788, rfl⟩
abbrev main_call15_call0_v10 : Ref sig .tc := ⟨.hbm, 789, rfl⟩
abbrev main_call15_call0_v11 : Ref sig .tc := ⟨.hbm, 790, rfl⟩
abbrev main_call15_v1 : Ref sig .tc := ⟨.hbm, 791, rfl⟩
abbrev main_v441 : Ref sig .tc := ⟨.hbm, 792, rfl⟩
abbrev main_cst_92 : Ref sig .tc := ⟨.hbm, 793, rfl⟩
abbrev main_v442 : Ref sig .tc := ⟨.hbm, 794, rfl⟩
abbrev main_v443 : Ref sig .tc := ⟨.hbm, 795, rfl⟩
abbrev main_v444 : Ref sig .tc := ⟨.hbm, 796, rfl⟩
abbrev main_cst_93 : Ref sig .tc := ⟨.hbm, 797, rfl⟩
abbrev main_v445 : Ref sig .tc := ⟨.hbm, 798, rfl⟩
abbrev main_cst_94 : Ref sig .tc := ⟨.hbm, 799, rfl⟩
abbrev main_v446 : Ref sig .tc := ⟨.hbm, 800, rfl⟩
abbrev main_v447 : Ref sig .tc := ⟨.hbm, 801, rfl⟩

abbrev nD : Nat := 1
abbrev τ : Topo := Topo.v7x

variable {F : FTy → Type} [FloatOps F]

class Facts₀ : Prop where
  slices_S8x100_S1x100_0_0 : S8x100.Slices ![0, 0] S1x100
  shapeCasts_S1x100_S100 : S1x100.ShapeCasts S100
  slices_S4096x8_S4096x1_0_0 : S4096x8.Slices ![0, 0] S4096x1
  shapeCasts_S4096x1_S4096 : S4096x1.ShapeCasts S4096
  slices_S4096x8_S4096x1_0_1 : S4096x8.Slices ![0, 1] S4096x1
  slices_S8x256_S1x256_0_0 : S8x256.Slices ![0, 0] S1x256
  shapeCasts_S1x256_S256 : S1x256.ShapeCasts S256
  bcast_S_S4096 : S_.BroadcastsInDim S4096 (![] : Fin 0 → Fin S4096.rank)
  bcast_S4096_S4096x1_0 : S4096.BroadcastsInDim S4096x1 (![0] : Fin 1 → Fin S4096x1.rank)
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  reducesTo_S4096x100_S4096_d1 : S4096x100.ReducesTo [1] S4096
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  reducesTo_S4096x256_S4096_d1 : S4096x256.ReducesTo [1] S4096
  reducesTo_S4096_S_d0 : S4096.ReducesTo [0] S_
  slices_S8x100_S1x100_1_0 : S8x100.Slices ![1, 0] S1x100
  slices_S4096x8_S4096x1_0_2 : S4096x8.Slices ![0, 2] S4096x1
  slices_S8x256_S1x256_1_0 : S8x256.Slices ![1, 0] S1x256
  slices_S8x100_S1x100_2_0 : S8x100.Slices ![2, 0] S1x100
  slices_S8x256_S1x256_2_0 : S8x256.Slices ![2, 0] S1x256
  slices_S8x100_S1x100_3_0 : S8x100.Slices ![3, 0] S1x100
  slices_S4096x8_S4096x1_0_3 : S4096x8.Slices ![0, 3] S4096x1
  slices_S8x256_S1x256_3_0 : S8x256.Slices ![3, 0] S1x256
  slices_S8x100_S1x100_4_0 : S8x100.Slices ![4, 0] S1x100
  slices_S4096x8_S4096x1_0_4 : S4096x8.Slices ![0, 4] S4096x1
  slices_S8x256_S1x256_4_0 : S8x256.Slices ![4, 0] S1x256
  slices_S8x100_S1x100_5_0 : S8x100.Slices ![5, 0] S1x100
  slices_S4096x8_S4096x1_0_5 : S4096x8.Slices ![0, 5] S4096x1
  slices_S8x256_S1x256_5_0 : S8x256.Slices ![5, 0] S1x256
  slices_S8x100_S1x100_6_0 : S8x100.Slices ![6, 0] S1x100
  slices_S4096x8_S4096x1_0_6 : S4096x8.Slices ![0, 6] S4096x1
  slices_S8x256_S1x256_6_0 : S8x256.Slices ![6, 0] S1x256
  slices_S8x100_S1x100_7_0 : S8x100.Slices ![7, 0] S1x100
  slices_S4096x8_S4096x1_0_7 : S4096x8.Slices ![0, 7] S4096x1
  slices_S8x256_S1x256_7_0 : S8x256.Slices ![7, 0] S1x256
  gather_S30001x100_S4096x1_S4096x100_1_0_n_n_0_1_1100_wf : GatherDims.WF S30001x100 S4096x1 S4096x100 [1] [0] [] [0] [] 1 ![1, 100]
  gather_S50001x100_S4096x1_S4096x100_1_0_n_n_0_1_1100_wf : GatherDims.WF S50001x100 S4096x1 S4096x100 [1] [0] [] [0] [] 1 ![1, 100]
  gather_S50001_S4096x1_S4096_n_0_n_n_0_1_1_wf : GatherDims.WF S50001 S4096x1 S4096 [] [0] [] [0] [] 1 ![1]
  gather_S50001x100_S256x1_S256x100_1_0_n_n_0_1_1100_wf : GatherDims.WF S50001x100 S256x1 S256x100 [1] [0] [] [0] [] 1 ![1, 100]
  dot_S4096x100_S256x100_S4096x256_1_1_0_0_n_n_wf : DotDims.WF S4096x100 S256x100 S4096x256 [1] [1] [0] [0] [] []
  gather_S100001x100_S4096x1_S4096x100_1_0_n_n_0_1_1100_wf : GatherDims.WF S100001x100 S4096x1 S4096x100 [1] [0] [] [0] [] 1 ![1, 100]
  gather_S100001_S4096x1_S4096_n_0_n_n_0_1_1_wf : GatherDims.WF S100001 S4096x1 S4096 [] [0] [] [0] [] 1 ![1]
  gather_S100001x100_S256x1_S256x100_1_0_n_n_0_1_1100_wf : GatherDims.WF S100001x100 S256x1 S256x100 [1] [0] [] [0] [] 1 ![1, 100]
  gather_S5001x100_S4096x1_S4096x100_1_0_n_n_0_1_1100_wf : GatherDims.WF S5001x100 S4096x1 S4096x100 [1] [0] [] [0] [] 1 ![1, 100]
  gather_S5001_S4096x1_S4096_n_0_n_n_0_1_1_wf : GatherDims.WF S5001 S4096x1 S4096 [] [0] [] [0] [] 1 ![1]
  gather_S5001x100_S256x1_S256x100_1_0_n_n_0_1_1100_wf : GatherDims.WF S5001x100 S256x1 S256x100 [1] [0] [] [0] [] 1 ![1, 100]
  gather_S1001x100_S4096x1_S4096x100_1_0_n_n_0_1_1100_wf : GatherDims.WF S1001x100 S4096x1 S4096x100 [1] [0] [] [0] [] 1 ![1, 100]
  gather_S1001_S4096x1_S4096_n_0_n_n_0_1_1_wf : GatherDims.WF S1001 S4096x1 S4096 [] [0] [] [0] [] 1 ![1]
  gather_S1001x100_S256x1_S256x100_1_0_n_n_0_1_1100_wf : GatherDims.WF S1001x100 S256x1 S256x100 [1] [0] [] [0] [] 1 ![1, 100]

variable [Facts₀]

def gather_S30001x100_S4096x1_S4096x100_1_0_n_n_0_1_1100 : GatherDims S30001x100 S4096x1 S4096x100 where
  offsetDims := [1]
  collapsedSliceDims := [0]
  operandBatchingDims := []
  startIndicesBatchingDims := []
  startIndexMap := [0]
  indexVectorDim := 1
  sliceSizes := ![1, 100]
  wf := gather_S30001x100_S4096x1_S4096x100_1_0_n_n_0_1_1100_wf
def gather_S50001x100_S4096x1_S4096x100_1_0_n_n_0_1_1100 : GatherDims S50001x100 S4096x1 S4096x100 where
  offsetDims := [1]
  collapsedSliceDims := [0]
  operandBatchingDims := []
  startIndicesBatchingDims := []
  startIndexMap := [0]
  indexVectorDim := 1
  sliceSizes := ![1, 100]
  wf := gather_S50001x100_S4096x1_S4096x100_1_0_n_n_0_1_1100_wf
def gather_S50001_S4096x1_S4096_n_0_n_n_0_1_1 : GatherDims S50001 S4096x1 S4096 where
  offsetDims := []
  collapsedSliceDims := [0]
  operandBatchingDims := []
  startIndicesBatchingDims := []
  startIndexMap := [0]
  indexVectorDim := 1
  sliceSizes := ![1]
  wf := gather_S50001_S4096x1_S4096_n_0_n_n_0_1_1_wf
def gather_S50001x100_S256x1_S256x100_1_0_n_n_0_1_1100 : GatherDims S50001x100 S256x1 S256x100 where
  offsetDims := [1]
  collapsedSliceDims := [0]
  operandBatchingDims := []
  startIndicesBatchingDims := []
  startIndexMap := [0]
  indexVectorDim := 1
  sliceSizes := ![1, 100]
  wf := gather_S50001x100_S256x1_S256x100_1_0_n_n_0_1_1100_wf
def dot_S4096x100_S256x100_S4096x256_1_1_0_0_n_n : DotDims S4096x100 S256x100 S4096x256 where
  lhsContracting := [1]
  rhsContracting := [1]
  lhsNonContracting := [0]
  rhsNonContracting := [0]
  lhsBatch := []
  rhsBatch := []
  wf := dot_S4096x100_S256x100_S4096x256_1_1_0_0_n_n_wf
def gather_S100001x100_S4096x1_S4096x100_1_0_n_n_0_1_1100 : GatherDims S100001x100 S4096x1 S4096x100 where
  offsetDims := [1]
  collapsedSliceDims := [0]
  operandBatchingDims := []
  startIndicesBatchingDims := []
  startIndexMap := [0]
  indexVectorDim := 1
  sliceSizes := ![1, 100]
  wf := gather_S100001x100_S4096x1_S4096x100_1_0_n_n_0_1_1100_wf
def gather_S100001_S4096x1_S4096_n_0_n_n_0_1_1 : GatherDims S100001 S4096x1 S4096 where
  offsetDims := []
  collapsedSliceDims := [0]
  operandBatchingDims := []
  startIndicesBatchingDims := []
  startIndexMap := [0]
  indexVectorDim := 1
  sliceSizes := ![1]
  wf := gather_S100001_S4096x1_S4096_n_0_n_n_0_1_1_wf
def gather_S100001x100_S256x1_S256x100_1_0_n_n_0_1_1100 : GatherDims S100001x100 S256x1 S256x100 where
  offsetDims := [1]
  collapsedSliceDims := [0]
  operandBatchingDims := []
  startIndicesBatchingDims := []
  startIndexMap := [0]
  indexVectorDim := 1
  sliceSizes := ![1, 100]
  wf := gather_S100001x100_S256x1_S256x100_1_0_n_n_0_1_1100_wf
def gather_S5001x100_S4096x1_S4096x100_1_0_n_n_0_1_1100 : GatherDims S5001x100 S4096x1 S4096x100 where
  offsetDims := [1]
  collapsedSliceDims := [0]
  operandBatchingDims := []
  startIndicesBatchingDims := []
  startIndexMap := [0]
  indexVectorDim := 1
  sliceSizes := ![1, 100]
  wf := gather_S5001x100_S4096x1_S4096x100_1_0_n_n_0_1_1100_wf
def gather_S5001_S4096x1_S4096_n_0_n_n_0_1_1 : GatherDims S5001 S4096x1 S4096 where
  offsetDims := []
  collapsedSliceDims := [0]
  operandBatchingDims := []
  startIndicesBatchingDims := []
  startIndexMap := [0]
  indexVectorDim := 1
  sliceSizes := ![1]
  wf := gather_S5001_S4096x1_S4096_n_0_n_n_0_1_1_wf
def gather_S5001x100_S256x1_S256x100_1_0_n_n_0_1_1100 : GatherDims S5001x100 S256x1 S256x100 where
  offsetDims := [1]
  collapsedSliceDims := [0]
  operandBatchingDims := []
  startIndicesBatchingDims := []
  startIndexMap := [0]
  indexVectorDim := 1
  sliceSizes := ![1, 100]
  wf := gather_S5001x100_S256x1_S256x100_1_0_n_n_0_1_1100_wf
def gather_S1001x100_S4096x1_S4096x100_1_0_n_n_0_1_1100 : GatherDims S1001x100 S4096x1 S4096x100 where
  offsetDims := [1]
  collapsedSliceDims := [0]
  operandBatchingDims := []
  startIndicesBatchingDims := []
  startIndexMap := [0]
  indexVectorDim := 1
  sliceSizes := ![1, 100]
  wf := gather_S1001x100_S4096x1_S4096x100_1_0_n_n_0_1_1100_wf
def gather_S1001_S4096x1_S4096_n_0_n_n_0_1_1 : GatherDims S1001 S4096x1 S4096 where
  offsetDims := []
  collapsedSliceDims := [0]
  operandBatchingDims := []
  startIndicesBatchingDims := []
  startIndexMap := [0]
  indexVectorDim := 1
  sliceSizes := ![1]
  wf := gather_S1001_S4096x1_S4096_n_0_n_n_0_1_1_wf
def gather_S1001x100_S256x1_S256x100_1_0_n_n_0_1_1100 : GatherDims S1001x100 S256x1 S256x100 where
  offsetDims := [1]
  collapsedSliceDims := [0]
  operandBatchingDims := []
  startIndicesBatchingDims := []
  startIndexMap := [0]
  indexVectorDim := 1
  sliceSizes := ![1, 100]
  wf := gather_S1001x100_S256x1_S256x100_1_0_n_n_0_1_1100_wf

class Facts : Prop extends Facts₀ where

variable [Facts]
-- ==== Proof.KFrame.Runs.lean ====
import proofs.«400362_j8907762172017_2_alg».proof.Proof.Gen.Kernel.Launch
import proofs.«400362_j8907762172017_2_alg».proof.Proof.Gen.Kernel.Skeleton
import proofs.«400362_j8907762172017_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40]

abbrev V0 (c : Dev nD) : Valuation τ sig (Elt F) :=
  StableHlo.after (List.flatten pre) (fun b => m (c, b))
abbrev V (c : Dev nD) (b : Ref sig .tc) : Buf (Elt F) ((c : Thread nD τ).loc b) := V0 m c (Proc.devRef .tc b)

theorem pre_fresh : (pre : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub⟩)
    pre_fresh main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

def IsArg (r : Ref sig .tc) : Prop :=
  r = main_arg0 ∨ r = main_arg1 ∨ r = main_arg2 ∨ r = main_arg3 ∨ r = main_arg4 ∨ r = main_arg5 ∨ r = main_arg6 ∨ r = main_arg7 ∨ r = main_arg8 ∨ r = main_arg9 ∨ r = main_arg10 ∨ r = main_arg11 ∨ r = main_arg12 ∨ r = main_arg13 ∨ r = main_arg14 ∨ r = main_arg15 ∨ r = main_arg16

/-- The argument arrays are the first seventeen references. -/
theorem isArg_idx {r : Ref sig .tc} (h : IsArg r) : r.idx.val < 17 := by
  rcases h with rfl | rfl | rfl | rfl | rfl | rfl | rfl | rfl | rfl | rfl | rfl | rfl | rfl | rfl | rfl | rfl | rfl <;> decide

abbrev KeepsArgs (op : HloOp τ sig (Elt F)) : Prop := ∀ r, IsArg r → Proc.devRef (τ := τ) .tc r ∉ op.writes

/-- An operation whose one written reference comes after the arguments writes no argument. -/
theorem keeps_of {op : HloOp τ sig (Elt F)} {y : Ref sig .tc} (hw : op.writes = {Proc.devRef .tc y})
    (hy : 17 ≤ y.idx.val) : KeepsArgs op := fun r hr => by
  rw [hw, Finset.mem_singleton]
  exact StableHlo.devRef_ne_of_ne fun e => absurd (e ▸ isArg_idx hr) (Nat.not_lt.mpr hy)

theorem hostOps1_keeps : (hostOps1 : List (HloOp τ sig (Elt F))).Forall KeepsArgs := by
  simp only [List.Forall]; repeat' apply And.intro
  all_goals exact keeps_of rfl (by decide)

theorem prefix_keeps : (pre : List (List (HloOp τ sig (Elt F)))).Forall fun ops => ops.Forall KeepsArgs := by
  simp only [List.Forall]; repeat' apply And.intro
  all_goals exact keeps_of rfl (by decide)

theorem V_arg (c : Dev nD) {r : Ref sig .tc} (hr : IsArg r) : V m c r = m ((c : Thread nD τ).loc r) :=
  StableHlo.after_of_forall_not_mem (b := Proc.devRef .tc r) _ _ fun op hop => by
    obtain ⟨ops, hops, hop'⟩ := List.mem_flatten.mp hop
    exact (List.forall_iff_forall_mem.mp ((List.forall_iff_forall_mem.mp prefix_keeps) ops hops) op hop') r hr

theorem W_arg (dats : (p : Fin _) → (c : Dev nD) → Dat τ (Elt F) Unit ℕ (UR sig nD τ) ℕ (cfgs p) c) (c : Dev nD) {r : Ref sig .tc}
    (hr : IsArg r) (hne : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => by
      simp only [List.flatten_cons, List.flatten_nil, List.append_nil] at hop
      exact (List.forall_iff_forall_mem.mp hostOps1_keeps) op hop r hr),
    Pipeline.withArrays_of_ne _ c (V0 m c) _ r hne]
  exact V_arg m c hr

theorem V_main_arg0 (c : Dev nD) : V m c main_arg0 = m ((c : Thread nD τ).loc main_arg0) :=
  V_arg m c (.inl rfl)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  exact W_arg m dats c (.inl rfl) (by decide +kernel)
theorem V_main_arg1 (c : Dev nD) : V m c main_arg1 = m ((c : Thread nD τ).loc main_arg1) :=
  V_arg m c (.inr (.inl rfl))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  exact W_arg m dats c (.inr (.inl rfl)) (by decide +kernel)
theorem V_main_arg2 (c : Dev nD) : V m c main_arg2 = m ((c : Thread nD τ).loc main_arg2) :=
  V_arg m c (.inr (.inr (.inl rfl)))
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  exact W_arg m dats c (.inr (.inr (.inl rfl))) (by decide +kernel)
theorem V_main_arg3 (c : Dev nD) : V m c main_arg3 = m ((c : Thread nD τ).loc main_arg3) :=
  V_arg m c (.inr (.inr (.inr (.inl rfl))))
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  exact W_arg m dats c (.inr (.inr (.inr (.inl rfl)))) (by decide +kernel)
theorem V_main_arg4 (c : Dev nD) : V m c main_arg4 = m ((c : Thread nD τ).loc main_arg4) :=
  V_arg m c (.inr (.inr (.inr (.inr (.inl rfl)))))
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  exact W_arg m dats c (.inr (.inr (.inr (.inr (.inl rfl))))) (by decide +kernel)
theorem V_main_arg5 (c : Dev nD) : V m c main_arg5 = m ((c : Thread nD τ).loc main_arg5) :=
  V_arg m c (.inr (.inr (.inr (.inr (.inr (.inl rfl))))))
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  exact W_arg m dats c (.inr (.inr (.inr (.inr (.inr (.inl rfl)))))) (by decide +kernel)
theorem V_main_arg6 (c : Dev nD) : V m c main_arg6 = m ((c : Thread nD τ).loc main_arg6) :=
  V_arg m c (.inr (.inr (.inr (.inr (.inr (.inr (.inl rfl)))))))
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  exact W_arg m dats c (.inr (.inr (.inr (.inr (.inr (.inr (.inl rfl))))))) (by decide +kernel)
theorem V_main_arg7 (c : Dev nD) : V m c main_arg7 = m ((c : Thread nD τ).loc main_arg7) :=
  V_arg m c (.inr (.inr (.inr (.inr (.inr (.inr (.inr (.inl rfl))))))))
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  exact W_arg m dats c (.inr (.inr (.inr (.inr (.inr (.inr (.inr (.inl rfl)))))))) (by decide +kernel)
theorem V_main_arg8 (c : Dev nD) : V m c main_arg8 = m ((c : Thread nD τ).loc main_arg8) :=
  V_arg m c (.inr (.inr (.inr (.inr (.inr (.inr (.inr (.inr (.inl rfl)))))))))
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  exact W_arg m dats c (.inr (.inr (.inr (.inr (.inr (.inr (.inr (.inr (.inl rfl))))))))) (by decide +kernel)
theorem V_main_arg9 (c : Dev nD) : V m c main_arg9 = m ((c : Thread nD τ).loc main_arg9) :=
  V_arg m c (.inr (.inr (.inr (.inr (.inr (.inr (.inr (.inr (.inr (.inl rfl))))))))))
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  exact W_arg m dats c (.inr (.inr (.inr (.inr (.inr (.inr (.inr (.inr (.inr (.inl rfl)))))))))) (by decide +kernel)
theorem V_main_arg10 (c : Dev nD) : V m c main_arg10 = m ((c : Thread nD τ).loc main_arg10) :=
  V_arg m c (.inr (.inr (.inr (.inr (.inr (.inr (.inr (.inr (.inr (.inr (.inl rfl)))))))))))
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  exact W_arg m dats c (.inr (.inr (.inr (.inr (.inr (.inr (.inr (.inr (.inr (.inr (.inl rfl))))))))))) (by decide +kernel)
theorem V_main_arg11 (c : Dev nD) : V m c main_arg11 = m ((c : Thread nD τ).loc main_arg11) :=
  V_arg m c (.inr (.inr (.inr (.inr (.inr (.inr (.inr (.inr (.inr (.inr (.inr (.inl rfl))))))))))))
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  exact W_arg m dats c (.inr (.inr (.inr (.inr (.inr (.inr (.inr (.inr (.inr (.inr (.inr (.inl rfl)))))))))))) (by decide +kernel)
theorem V_main_arg12 (c : Dev nD) : V m c main_arg12 = m ((c : Thread nD τ).loc main_arg12) :=
  V_arg m c (.inr (.inr (.inr (.inr (.inr (.inr (.inr (.inr (.inr (.inr (.inr (.inr (.inl rfl)))))))))))))
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  exact W_arg m dats c (.inr (.inr (.inr (.inr (.inr (.inr (.inr (.inr (.inr (.inr (.inr (.inr (.inl rfl))))))))))))) (by decide +kernel)
theorem V_main_arg13 (c : Dev nD) : V m c main_arg13 = m ((c : Thread nD τ).loc main_arg13) :=
  V_arg m c (.inr (.inr (.inr (.inr (.inr (.inr (.inr (.inr (.inr (.inr (.inr (.inr (.inr (.inl rfl))))))))))))))
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  exact W_arg m dats c (.inr (.inr (.inr (.inr (.inr (.inr (.inr (.inr (.inr (.inr (.inr (.inr (.inr (.inl rfl)))))))))))))) (by decide +kernel)
theorem V_main_arg14 (c : Dev nD) : V m c main_arg14 = m ((c : Thread nD τ).loc main_arg14) :=
  V_arg m c (.inr (.inr (.inr (.inr (.inr (.inr (.inr (.inr (.inr (.inr (.inr (.inr (.inr (.inr (.inl rfl)))))))))))))))
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  exact W_arg m dats c (.inr (.inr (.inr (.inr (.inr (.inr (.inr (.inr (.inr (.inr (.inr (.inr (.inr (.inr (.inl rfl))))))))))))))) (by decide +kernel)
theorem V_main_arg15 (c : Dev nD) : V m c main_arg15 = m ((c : Thread nD τ).loc main_arg15) :=
  V_arg m c (.inr (.inr (.inr (.inr (.inr (.inr (.inr (.inr (.inr (.inr (.inr (.inr (.inr (.inr (.inr (.inl rfl))))))))))))))))
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  exact W_arg m dats c (.inr (.inr (.inr (.inr (.inr (.inr (.inr (.inr (.inr (.inr (.inr (.inr (.inr (.inr (.inr (.inl rfl)))))))))))))))) (by decide +kernel)
theorem V_main_arg16 (c : Dev nD) : V m c main_arg16 = m ((c : Thread nD τ).loc main_arg16) :=
  V_arg m c (.inr (.inr (.inr (.inr (.inr (.inr (.inr (.inr (.inr (.inr (.inr (.inr (.inr (.inr (.inr (.inr rfl))))))))))))))))
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  exact W_arg m dats c (.inr (.inr (.inr (.inr (.inr (.inr (.inr (.inr (.inr (.inr (.inr (.inr (.inr (.inr (.inr (.inr rfl)))))))))))))))) (by decide +kernel)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c)),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c))⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

abbrev VO0_5 : View sig .tc .vmem S1x1x1 .f32 := (Memref.whole cc0_stg5_0 : Memref sig .tc .vmem S1x1x1 .f32).view
abbrev ms0_0 (t : Fin cfg0.N) : Memref sig .tc .vmem S1x2048x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x100 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x100 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)

end Cert.Kernel.Fr

end
-- ==== Proof.KFrame.RunA.lean ====
import proofs.«400362_j8907762172017_2_alg».proof.Proof.KFrame.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) :
    { L5 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__loss_kernel i arg2 harg2 arg3 harg3 arg4 harg4 arg5 harg5 arg6 harg6 arg7 harg7) K } := by
  refine ⟨?_, fun E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Fr

end
-- ==== Proof.KFrame.RunB.lean ====
import proofs.«400362_j8907762172017_2_alg».proof.Proof.KFrame.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) :
    { L5 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__loss_kernel i arg2 harg2 arg3 harg3 arg4 harg4 arg5 harg5 arg6 harg6 arg7 harg7) K } := by
  refine ⟨?_, fun E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Fr

end
-- ==== Proof.KFrame.Frame.lean ====
import proofs.«400362_j8907762172017_2_alg».proof.Proof.KFrame.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) (y : S1x1x1.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S1x1x1.size (by sl_kernel_rfl) y

def out0_A_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) : Vec F S1x1x1 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

theorem cover0_B_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) (y : S1x1x1.Idx) :
    ∃ pc ∈ (kernelRun0_B c i arg2 harg2 arg3 harg3 arg4 harg4 arg5 harg5 arg6 harg6 arg7 harg7 hc0 x0 x1 x2 x3 x4 xo5).1, y ∈ pc.1.set :=
  View.cover_of_tiledL (kernelRun0_B c i arg2 harg2 arg3 harg3 arg4 harg4 arg5 harg5 arg6 harg6 arg7 harg7 hc0 x0 x1 x2 x3 x4 xo5).1 S1x1x1.size (by sl_kernel_rfl) y

def out0_B_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) : Vec F S1x1x1 .f32 :=
  VO0_5.read (Elt F) (VO0_5.writes (Elt F) VO0_5.junk (kernelRun0_B c i arg2 harg2 arg3 harg3 arg4 harg4 arg5 harg5 arg6 harg6 arg7 harg7 hc0 x0 x1 x2 x3 x4 xo5).1)

def outsAt0 (c : Dev nD) : (n : ℕ) → n < cfg0.N → Vec F S1x1x1 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 2 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

theorem outsAt0_A (c : Dev nD) (t : Fin cfg0.N) (h0 : t.val % 2 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5_B (c : Dev nD) (t : Fin cfg0.N) (h0 : ¬t.val % 2 = 0) (d) :
    (dats m 0 c).before 5 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 2 = 0
  · rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B m c t h0]
    simp only [before0_5_B m c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Fr

end
-- ==== Proof.KIFrame.Runs.lean ====
import proofs.«400362_j8907762172017_2_alg».proof.Proof.Gen.KernelIdeal.Launch
import proofs.«400362_j8907762172017_2_alg».proof.Proof.Gen.KernelIdeal.Skeleton
import proofs.«400362_j8907762172017_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40]

abbrev V0 (c : Dev nD) : Valuation τ sig (Elt F) :=
  StableHlo.after (List.flatten pre) (fun b => m (c, b))
abbrev V (c : Dev nD) (b : Ref sig .tc) : Buf (Elt F) ((c : Thread nD τ).loc b) := V0 m c (Proc.devRef .tc b)

theorem pre_fresh : (pre : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub⟩)
    pre_fresh main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

def IsArg (r : Ref sig .tc) : Prop :=
  r = main_arg0 ∨ r = main_arg1 ∨ r = main_arg2 ∨ r = main_arg3 ∨ r = main_arg4 ∨ r = main_arg5 ∨ r = main_arg6 ∨ r = main_arg7 ∨ r = main_arg8 ∨ r = main_arg9 ∨ r = main_arg10 ∨ r = main_arg11 ∨ r = main_arg12 ∨ r = main_arg13 ∨ r = main_arg14 ∨ r = main_arg15 ∨ r = main_arg16

/-- The argument arrays are the first seventeen references. -/
theorem isArg_idx {r : Ref sig .tc} (h : IsArg r) : r.idx.val < 17 := by
  rcases h with rfl | rfl | rfl | rfl | rfl | rfl | rfl | rfl | rfl | rfl | rfl | rfl | rfl | rfl | rfl | rfl | rfl <;> decide

abbrev KeepsArgs (op : HloOp τ sig (Elt F)) : Prop := ∀ r, IsArg r → Proc.devRef (τ := τ) .tc r ∉ op.writes

/-- An operation whose one written reference comes after the arguments writes no argument. -/
theorem keeps_of {op : HloOp τ sig (Elt F)} {y : Ref sig .tc} (hw : op.writes = {Proc.devRef .tc y})
    (hy : 17 ≤ y.idx.val) : KeepsArgs op := fun r hr => by
  rw [hw, Finset.mem_singleton]
  exact StableHlo.devRef_ne_of_ne fun e => absurd (e ▸ isArg_idx hr) (Nat.not_lt.mpr hy)

theorem hostOps1_keeps : (hostOps1 : List (HloOp τ sig (Elt F))).Forall KeepsArgs := by
  simp only [List.Forall]; repeat' apply And.intro
  all_goals exact keeps_of rfl (by decide)

theorem prefix_keeps : (pre : List (List (HloOp τ sig (Elt F)))).Forall fun ops => ops.Forall KeepsArgs := by
  simp only [List.Forall]; repeat' apply And.intro
  all_goals exact keeps_of rfl (by decide)

theorem V_arg (c : Dev nD) {r : Ref sig .tc} (hr : IsArg r) : V m c r = m ((c : Thread nD τ).loc r) :=
  StableHlo.after_of_forall_not_mem (b := Proc.devRef .tc r) _ _ fun op hop => by
    obtain ⟨ops, hops, hop'⟩ := List.mem_flatten.mp hop
    exact (List.forall_iff_forall_mem.mp ((List.forall_iff_forall_mem.mp prefix_keeps) ops hops) op hop') r hr

theorem W_arg (dats : (p : Fin _) → (c : Dev nD) → Dat τ (Elt F) Unit ℕ (UR sig nD τ) ℕ (cfgs p) c) (c : Dev nD) {r : Ref sig .tc}
    (hr : IsArg r) (hne : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => by
      simp only [List.flatten_cons, List.flatten_nil, List.append_nil] at hop
      exact (List.forall_iff_forall_mem.mp hostOps1_keeps) op hop r hr),
    Pipeline.withArrays_of_ne _ c (V0 m c) _ r hne]
  exact V_arg m c hr

theorem V_main_arg0 (c : Dev nD) : V m c main_arg0 = m ((c : Thread nD τ).loc main_arg0) :=
  V_arg m c (.inl rfl)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  exact W_arg m dats c (.inl rfl) (by decide +kernel)
theorem V_main_arg1 (c : Dev nD) : V m c main_arg1 = m ((c : Thread nD τ).loc main_arg1) :=
  V_arg m c (.inr (.inl rfl))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  exact W_arg m dats c (.inr (.inl rfl)) (by decide +kernel)
theorem V_main_arg2 (c : Dev nD) : V m c main_arg2 = m ((c : Thread nD τ).loc main_arg2) :=
  V_arg m c (.inr (.inr (.inl rfl)))
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  exact W_arg m dats c (.inr (.inr (.inl rfl))) (by decide +kernel)
theorem V_main_arg3 (c : Dev nD) : V m c main_arg3 = m ((c : Thread nD τ).loc main_arg3) :=
  V_arg m c (.inr (.inr (.inr (.inl rfl))))
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  exact W_arg m dats c (.inr (.inr (.inr (.inl rfl)))) (by decide +kernel)
theorem V_main_arg4 (c : Dev nD) : V m c main_arg4 = m ((c : Thread nD τ).loc main_arg4) :=
  V_arg m c (.inr (.inr (.inr (.inr (.inl rfl)))))
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  exact W_arg m dats c (.inr (.inr (.inr (.inr (.inl rfl))))) (by decide +kernel)
theorem V_main_arg5 (c : Dev nD) : V m c main_arg5 = m ((c : Thread nD τ).loc main_arg5) :=
  V_arg m c (.inr (.inr (.inr (.inr (.inr (.inl rfl))))))
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  exact W_arg m dats c (.inr (.inr (.inr (.inr (.inr (.inl rfl)))))) (by decide +kernel)
theorem V_main_arg6 (c : Dev nD) : V m c main_arg6 = m ((c : Thread nD τ).loc main_arg6) :=
  V_arg m c (.inr (.inr (.inr (.inr (.inr (.inr (.inl rfl)))))))
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  exact W_arg m dats c (.inr (.inr (.inr (.inr (.inr (.inr (.inl rfl))))))) (by decide +kernel)
theorem V_main_arg7 (c : Dev nD) : V m c main_arg7 = m ((c : Thread nD τ).loc main_arg7) :=
  V_arg m c (.inr (.inr (.inr (.inr (.inr (.inr (.inr (.inl rfl))))))))
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  exact W_arg m dats c (.inr (.inr (.inr (.inr (.inr (.inr (.inr (.inl rfl)))))))) (by decide +kernel)
theorem V_main_arg8 (c : Dev nD) : V m c main_arg8 = m ((c : Thread nD τ).loc main_arg8) :=
  V_arg m c (.inr (.inr (.inr (.inr (.inr (.inr (.inr (.inr (.inl rfl)))))))))
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  exact W_arg m dats c (.inr (.inr (.inr (.inr (.inr (.inr (.inr (.inr (.inl rfl))))))))) (by decide +kernel)
theorem V_main_arg9 (c : Dev nD) : V m c main_arg9 = m ((c : Thread nD τ).loc main_arg9) :=
  V_arg m c (.inr (.inr (.inr (.inr (.inr (.inr (.inr (.inr (.inr (.inl rfl))))))))))
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  exact W_arg m dats c (.inr (.inr (.inr (.inr (.inr (.inr (.inr (.inr (.inr (.inl rfl)))))))))) (by decide +kernel)
theorem V_main_arg10 (c : Dev nD) : V m c main_arg10 = m ((c : Thread nD τ).loc main_arg10) :=
  V_arg m c (.inr (.inr (.inr (.inr (.inr (.inr (.inr (.inr (.inr (.inr (.inl rfl)))))))))))
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  exact W_arg m dats c (.inr (.inr (.inr (.inr (.inr (.inr (.inr (.inr (.inr (.inr (.inl rfl))))))))))) (by decide +kernel)
theorem V_main_arg11 (c : Dev nD) : V m c main_arg11 = m ((c : Thread nD τ).loc main_arg11) :=
  V_arg m c (.inr (.inr (.inr (.inr (.inr (.inr (.inr (.inr (.inr (.inr (.inr (.inl rfl))))))))))))
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  exact W_arg m dats c (.inr (.inr (.inr (.inr (.inr (.inr (.inr (.inr (.inr (.inr (.inr (.inl rfl)))))))))))) (by decide +kernel)
theorem V_main_arg12 (c : Dev nD) : V m c main_arg12 = m ((c : Thread nD τ).loc main_arg12) :=
  V_arg m c (.inr (.inr (.inr (.inr (.inr (.inr (.inr (.inr (.inr (.inr (.inr (.inr (.inl rfl)))))))))))))
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  exact W_arg m dats c (.inr (.inr (.inr (.inr (.inr (.inr (.inr (.inr (.inr (.inr (.inr (.inr (.inl rfl))))))))))))) (by decide +kernel)
theorem V_main_arg13 (c : Dev nD) : V m c main_arg13 = m ((c : Thread nD τ).loc main_arg13) :=
  V_arg m c (.inr (.inr (.inr (.inr (.inr (.inr (.inr (.inr (.inr (.inr (.inr (.inr (.inr (.inl rfl))))))))))))))
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  exact W_arg m dats c (.inr (.inr (.inr (.inr (.inr (.inr (.inr (.inr (.inr (.inr (.inr (.inr (.inr (.inl rfl)))))))))))))) (by decide +kernel)
theorem V_main_arg14 (c : Dev nD) : V m c main_arg14 = m ((c : Thread nD τ).loc main_arg14) :=
  V_arg m c (.inr (.inr (.inr (.inr (.inr (.inr (.inr (.inr (.inr (.inr (.inr (.inr (.inr (.inr (.inl rfl)))))))))))))))
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  exact W_arg m dats c (.inr (.inr (.inr (.inr (.inr (.inr (.inr (.inr (.inr (.inr (.inr (.inr (.inr (.inr (.inl rfl))))))))))))))) (by decide +kernel)
theorem V_main_arg15 (c : Dev nD) : V m c main_arg15 = m ((c : Thread nD τ).loc main_arg15) :=
  V_arg m c (.inr (.inr (.inr (.inr (.inr (.inr (.inr (.inr (.inr (.inr (.inr (.inr (.inr (.inr (.inr (.inl rfl))))))))))))))))
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  exact W_arg m dats c (.inr (.inr (.inr (.inr (.inr (.inr (.inr (.inr (.inr (.inr (.inr (.inr (.inr (.inr (.inr (.inl rfl)))))))))))))))) (by decide +kernel)
theorem V_main_arg16 (c : Dev nD) : V m c main_arg16 = m ((c : Thread nD τ).loc main_arg16) :=
  V_arg m c (.inr (.inr (.inr (.inr (.inr (.inr (.inr (.inr (.inr (.inr (.inr (.inr (.inr (.inr (.inr (.inr rfl))))))))))))))))
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  exact W_arg m dats c (.inr (.inr (.inr (.inr (.inr (.inr (.inr (.inr (.inr (.inr (.inr (.inr (.inr (.inr (.inr (.inr rfl)))))))))))))))) (by decide +kernel)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c)),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c))⟩) h

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

abbrev VO0_5 : View sig .tc .vmem S1x1x1 .f32 := (Memref.whole cc0_stg5_0 : Memref sig .tc .vmem S1x1x1 .f32).view
abbrev ms0_0 (t : Fin cfg0.N) : Memref sig .tc .vmem S1x2048x100 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x100 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x100 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)

end Cert.KernelIdeal.Fr

end
-- ==== Proof.KIFrame.RunA.lean ====
import proofs.«400362_j8907762172017_2_alg».proof.Proof.KIFrame.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) :
    { L5 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__loss_kernel i arg2 harg2 arg3 harg3 arg4 harg4 arg5 harg5 arg6 harg6 arg7 harg7) K } := by
  refine ⟨?_, fun E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Fr

end
-- ==== Proof.KIFrame.RunB.lean ====
import proofs.«400362_j8907762172017_2_alg».proof.Proof.KIFrame.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) :
    { L5 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__loss_kernel i arg2 harg2 arg3 harg3 arg4 harg4 arg5 harg5 arg6 harg6 arg7 harg7) K } := by
  refine ⟨?_, fun E K => ?run⟩
  case run =>
    simp only [cc0__loss_kernel_eq_skeleton]; unfold cc0__loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Fr

end
-- ==== Proof.KIFrame.Frame.lean ====
import proofs.«400362_j8907762172017_2_alg».proof.Proof.KIFrame.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) (y : S1x1x1.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S1x1x1.size (by sl_kernel_rfl) y

def out0_A_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) : Vec F S1x1x1 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

theorem cover0_B_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) (y : S1x1x1.Idx) :
    ∃ pc ∈ (kernelRun0_B c i arg2 harg2 arg3 harg3 arg4 harg4 arg5 harg5 arg6 harg6 arg7 harg7 hc0 x0 x1 x2 x3 x4 xo5).1, y ∈ pc.1.set :=
  View.cover_of_tiledL (kernelRun0_B c i arg2 harg2 arg3 harg3 arg4 harg4 arg5 harg5 arg6 harg6 arg7 harg7 hc0 x0 x1 x2 x3 x4 xo5).1 S1x1x1.size (by sl_kernel_rfl) y

def out0_B_5 (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) : Vec F S1x1x1 .f32 :=
  VO0_5.read (Elt F) (VO0_5.writes (Elt F) VO0_5.junk (kernelRun0_B c i arg2 harg2 arg3 harg3 arg4 harg4 arg5 harg5 arg6 harg6 arg7 harg7 hc0 x0 x1 x2 x3 x4 xo5).1)

def outsAt0 (c : Dev nD) : (n : ℕ) → n < cfg0.N → Vec F S1x1x1 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 2 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

theorem outsAt0_A (c : Dev nD) (t : Fin cfg0.N) (h0 : t.val % 2 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5_B (c : Dev nD) (t : Fin cfg0.N) (h0 : ¬t.val % 2 = 0) (d) :
    (dats m 0 c).before 5 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 2 = 0
  · rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B m c t h0]
    simp only [before0_5_B m c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Fr

end
-- ==== Proof.RI.Ops.lean ====
import proofs.«400362_j8907762172017_2_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Relation 0's operations in order, each call's body in place; the last adds the relation's mean to the running sum. -/
abbrev opsRel_0 : List (HloOp τ sig (Elt F)) :=
  [ StableHlo.unary main_arg8 main_v0 ((extractStridedSlice S1x100 ![0, 0] · slices_S8x100_S1x100_0_0)),
    StableHlo.reshape main_v0 main_v1 rfl shapeCasts_S1x100_S100,
    StableHlo.unary main_arg0 main_v2 ((extractStridedSlice S4096x1 ![0, 0] · slices_S4096x8_S4096x1_0_0)),
    StableHlo.reshape main_v2 main_v3 rfl shapeCasts_S4096x1_S4096,
    StableHlo.unary main_arg0 main_v4 ((extractStridedSlice S4096x1 ![0, 1] · slices_S4096x8_S4096x1_0_1)),
    StableHlo.reshape main_v4 main_v5 rfl shapeCasts_S4096x1_S4096,
    StableHlo.unary main_arg1 main_v6 ((extractStridedSlice S1x256 ![0, 0] · slices_S8x256_S1x256_0_0)),
    StableHlo.reshape main_v6 main_v7 rfl shapeCasts_S1x256_S256,
    StableHlo.nullary main_c (constantI S_ 32 0#32),
    StableHlo.unary main_c main_v8 (broadcastInDim S4096 ![] bcast_S_S4096),
    StableHlo.binary main_v3 main_v8 main_v9 (cmpi .slt),
    StableHlo.nullary main_c_0 (constantI S_ 32 30001#32),
    StableHlo.unary main_c_0 main_v10 (broadcastInDim S4096 ![] bcast_S_S4096),
    StableHlo.binary main_v3 main_v10 main_v11 (addi),
    StableHlo.ternary main_v9 main_v11 main_v3 main_v12 (select),
    StableHlo.unary main_v12 main_v13 (broadcastInDim S4096x1 ![0] bcast_S4096_S4096x1_0),
    StableHlo.binary main_arg2 main_v13 main_v14 ((fun x i => Host.gather gather_S30001x100_S4096x1_S4096x100_1_0_n_n_0_1_1100 x i)),
    StableHlo.unary main_v1 main_v15 (broadcastInDim S1x100 ![1] bcast_S100_S1x100_1),
    StableHlo.unary main_v15 main_v16 (broadcastInDim S4096x100 ![0, 1] bcast_S1x100_S4096x100_0_1),
    StableHlo.binary main_v14 main_v16 main_v17 (addf),
    StableHlo.nullary main_c_1 (constantI S_ 32 0#32),
    StableHlo.unary main_c_1 main_v18 (broadcastInDim S4096 ![] bcast_S_S4096),
    StableHlo.binary main_v5 main_v18 main_v19 (cmpi .slt),
    StableHlo.nullary main_c_2 (constantI S_ 32 50001#32),
    StableHlo.unary main_c_2 main_v20 (broadcastInDim S4096 ![] bcast_S_S4096),
    StableHlo.binary main_v5 main_v20 main_v21 (addi),
    StableHlo.ternary main_v19 main_v21 main_v5 main_v22 (select),
    StableHlo.unary main_v22 main_v23 (broadcastInDim S4096x1 ![0] bcast_S4096_S4096x1_0),
    StableHlo.binary main_arg3 main_v23 main_v24 ((fun x i => Host.gather gather_S50001x100_S4096x1_S4096x100_1_0_n_n_0_1_1100 x i)),
    StableHlo.nullary main_c_3 (constantI S_ 32 0#32),
    StableHlo.unary main_c_3 main_v25 (broadcastInDim S4096 ![] bcast_S_S4096),
    StableHlo.binary main_v5 main_v25 main_v26 (cmpi .slt),
    StableHlo.nullary main_c_4 (constantI S_ 32 50001#32),
    StableHlo.unary main_c_4 main_v27 (broadcastInDim S4096 ![] bcast_S_S4096),
    StableHlo.binary main_v5 main_v27 main_v28 (addi),
    StableHlo.ternary main_v26 main_v28 main_v5 main_v29 (select),
    StableHlo.unary main_v29 main_v30 (broadcastInDim S4096x1 ![0] bcast_S4096_S4096x1_0),
    StableHlo.binary main_arg9 main_v30 main_v31 ((fun x i => Host.gather gather_S50001_S4096x1_S4096_n_0_n_n_0_1_1 x i)),
    StableHlo.binary main_v17 main_v24 main_v32 (mulf),
    StableHlo.nullary main_cst (constant S_ .f32 0x00000000#32),
    StableHlo.binary main_v32 main_cst main_v33 ((fun x v => Host.reduceAdd x v reducesTo_S4096x100_S4096_d1 h_S_)),
    StableHlo.binary main_v33 main_v31 main_v34 (addf),
    StableHlo.nullary main_c_5 (constantI S_ 32 0#32),
    StableHlo.unary main_c_5 main_v35 (broadcastInDim S256 ![] bcast_S_S256),
    StableHlo.binary main_v7 main_v35 main_v36 (cmpi .slt),
    StableHlo.nullary main_c_6 (constantI S_ 32 50001#32),
    StableHlo.unary main_c_6 main_v37 (broadcastInDim S256 ![] bcast_S_S256),
    StableHlo.binary main_v7 main_v37 main_v38 (addi),
    StableHlo.ternary main_v36 main_v38 main_v7 main_v39 (select),
    StableHlo.unary main_v39 main_v40 (broadcastInDim S256x1 ![0] bcast_S256_S256x1_0),
    StableHlo.binary main_arg3 main_v40 main_v41 ((fun x i => Host.gather gather_S50001x100_S256x1_S256x100_1_0_n_n_0_1_1100 x i)),
    StableHlo.binary main_v17 main_v41 main_v42 ((fun l r => Host.dotGeneral dot_S4096x100_S256x100_S4096x256_1_1_0_0_n_n none l r)),
    StableHlo.unary main_v31 main_v43 (broadcastInDim S4096x1 ![0] bcast_S4096_S4096x1_0),
    StableHlo.unary main_v43 main_v44 (broadcastInDim S4096x256 ![0, 1] bcast_S4096x1_S4096x256_0_1),
    StableHlo.binary main_v42 main_v44 main_v45 (addf),
    StableHlo.TRef.unary (.of main_v34 : StableHlo.TRef sig ⟨S4096, .f32⟩) (.of main_call0_v0 : StableHlo.TRef sig ⟨S4096, .f32⟩) Host.negf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S4096, .f32⟩) (broadcastInDim S4096 ![] bcast_S_S4096),
    StableHlo.TRef.binary (.of main_call0_v0 : StableHlo.TRef sig ⟨S4096, .f32⟩) (.of main_call0_call0_v0 : StableHlo.TRef sig ⟨S4096, .f32⟩) (.of main_call0_call0_v1 : StableHlo.TRef sig ⟨S4096, .f32⟩) maximumf,
    StableHlo.TRef.unary (.of main_call0_call0_cst : StableHlo.TRef sig ⟨S_, .f32⟩) (.of main_call0_call0_v2 : StableHlo.TRef sig ⟨S4096, .f32⟩) (broadcastInDim S4096 ![] bcast_S_S4096),
    StableHlo.TRef.binary (.of main_call0_v0 : StableHlo.TRef sig ⟨S4096, .f32⟩) (.of main_call0_call0_v2 : StableHlo.TRef sig ⟨S4096, .f32⟩) (.of main_call0_call0_v3 : StableHlo.TRef sig ⟨S4096, .f32⟩) subf,
    StableHlo.TRef.binary (.of main_call0_call0_v3 : StableHlo.TRef sig ⟨S4096, .f32⟩) (.of main_call0_call0_v3 : StableHlo.TRef sig ⟨S4096, .f32⟩) (.of main_call0_call0_v4 : StableHlo.TRef sig ⟨S4096, .i1⟩) (cmpf .une),
    StableHlo.TRef.unary (.of main_call0_call0_cst : StableHlo.TRef sig ⟨S_, .f32⟩) (.of main_call0_call0_v5 : StableHlo.TRef sig ⟨S4096, .f32⟩) (broadcastInDim S4096 ![] bcast_S_S4096),
    StableHlo.TRef.binary (.of main_call0_v0 : StableHlo.TRef sig ⟨S4096, .f32⟩) (.of main_call0_call0_v5 : StableHlo.TRef sig ⟨S4096, .f32⟩) (.of main_call0_call0_v6 : StableHlo.TRef sig ⟨S4096, .f32⟩) addf,
    StableHlo.TRef.unary (.of main_call0_call0_v3 : StableHlo.TRef sig ⟨S4096, .f32⟩) (.of main_call0_call0_v7 : StableHlo.TRef sig ⟨S4096, .f32⟩) Host.absf,
    StableHlo.TRef.unary (.of main_call0_call0_v7 : StableHlo.TRef sig ⟨S4096, .f32⟩) (.of main_call0_call0_v8 : StableHlo.TRef sig ⟨S4096, .f32⟩) Host.negf,
    StableHlo.TRef.unary (.of main_call0_call0_v8 : StableHlo.TRef sig ⟨S4096, .f32⟩) (.of main_call0_call0_v9 : StableHlo.TRef sig ⟨S4096, .f32⟩) Host.exp,
    StableHlo.TRef.unary (.of main_call0_call0_v9 : StableHlo.TRef sig ⟨S4096, .f32⟩) (.of main_call0_call0_v10 : StableHlo.TRef sig ⟨S4096, .f32⟩) Host.log1p,
    StableHlo.TRef.binary (.of main_call0_call0_v1 : StableHlo.TRef sig ⟨S4096, .f32⟩) (.of main_call0_call0_v10 : StableHlo.TRef sig ⟨S4096, .f32⟩) (.of main_call0_call0_v11 : StableHlo.TRef sig ⟨S4096, .f32⟩) addf,
    StableHlo.TRef.ternary (.of main_call0_call0_v4 : StableHlo.TRef sig ⟨S4096, .i1⟩) (.of main_call0_call0_v6 : StableHlo.TRef sig ⟨S4096, .f32⟩) (.of main_call0_call0_v11 : StableHlo.TRef sig ⟨S4096, .f32⟩) (.of main_call0_v1 : StableHlo.TRef sig ⟨S4096, .f32⟩) select,
    StableHlo.TRef.unary (.of main_call0_v1 : StableHlo.TRef sig ⟨S4096, .f32⟩) (.of main_v46 : StableHlo.TRef sig ⟨S4096, .f32⟩) Host.negf,
    StableHlo.unary main_v46 main_v47 (Host.negf),
    StableHlo.unary main_v45 main_v48 (Host.negf),
    StableHlo.TRef.unary (.of main_v48 : StableHlo.TRef sig ⟨S4096x256, .f32⟩) (.of main_call1_v0 : StableHlo.TRef sig ⟨S4096x256, .f32⟩) Host.negf,
    StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_v0 : StableHlo.TRef sig ⟨S4096x256, .f32⟩) (broadcastInDim S4096x256 ![] bcast_S_S4096x256),
    StableHlo.TRef.binary (.of main_call1_v0 : StableHlo.TRef sig ⟨S4096x256, .f32⟩) (.of main_call1_call0_v0 : StableHlo.TRef sig ⟨S4096x256, .f32⟩) (.of main_call1_call0_v1 : StableHlo.TRef sig ⟨S4096x256, .f32⟩) maximumf,
    StableHlo.TRef.unary (.of main_call1_call0_cst : StableHlo.TRef sig ⟨S_, .f32⟩) (.of main_call1_call0_v2 : StableHlo.TRef sig ⟨S4096x256, .f32⟩) (broadcastInDim S4096x256 ![] bcast_S_S4096x256),
    StableHlo.TRef.binary (.of main_call1_v0 : StableHlo.TRef sig ⟨S4096x256, .f32⟩) (.of main_call1_call0_v2 : StableHlo.TRef sig ⟨S4096x256, .f32⟩) (.of main_call1_call0_v3 : StableHlo.TRef sig ⟨S4096x256, .f32⟩) subf,
    StableHlo.TRef.binary (.of main_call1_call0_v3 : StableHlo.TRef sig ⟨S4096x256, .f32⟩) (.of main_call1_call0_v3 : StableHlo.TRef sig ⟨S4096x256, .f32⟩) (.of main_call1_call0_v4 : StableHlo.TRef sig ⟨S4096x256, .i1⟩) (cmpf .une),
    StableHlo.TRef.unary (.of main_call1_call0_cst : StableHlo.TRef sig ⟨S_, .f32⟩) (.of main_call1_call0_v5 : StableHlo.TRef sig ⟨S4096x256, .f32⟩) (broadcastInDim S4096x256 ![] bcast_S_S4096x256),
    StableHlo.TRef.binary (.of main_call1_v0 : StableHlo.TRef sig ⟨S4096x256, .f32⟩) (.of main_call1_call0_v5 : StableHlo.TRef sig ⟨S4096x256, .f32⟩) (.of main_call1_call0_v6 : StableHlo.TRef sig ⟨S4096x256, .f32⟩) addf,
    StableHlo.TRef.unary (.of main_call1_call0_v3 : StableHlo.TRef sig ⟨S4096x256, .f32⟩) (.of main_call1_call0_v7 : StableHlo.TRef sig ⟨S4096x256, .f32⟩) Host.absf,
    StableHlo.TRef.unary (.of main_call1_call0_v7 : StableHlo.TRef sig ⟨S4096x256, .f32⟩) (.of main_call1_call0_v8 : StableHlo.TRef sig ⟨S4096x256, .f32⟩) Host.negf,
    StableHlo.TRef.unary (.of main_call1_call0_v8 : StableHlo.TRef sig ⟨S4096x256, .f32⟩) (.of main_call1_call0_v9 : StableHlo.TRef sig ⟨S4096x256, .f32⟩) Host.exp,
    StableHlo.TRef.unary (.of main_call1_call0_v9 : StableHlo.TRef sig ⟨S4096x256, .f32⟩) (.of main_call1_call0_v10 : StableHlo.TRef sig ⟨S4096x256, .f32⟩) Host.log1p,
    StableHlo.TRef.binary (.of main_call1_call0_v1 : StableHlo.TRef sig ⟨S4096x256, .f32⟩) (.of main_call1_call0_v10 : StableHlo.TRef sig ⟨S4096x256, .f32⟩) (.of main_call1_call0_v11 : StableHlo.TRef sig ⟨S4096x256, .f32⟩) addf,
    StableHlo.TRef.ternary (.of main_call1_call0_v4 : StableHlo.TRef sig ⟨S4096x256, .i1⟩) (.of main_call1_call0_v6 : StableHlo.TRef sig ⟨S4096x256, .f32⟩) (.of main_call1_call0_v11 : StableHlo.TRef sig ⟨S4096x256, .f32⟩) (.of main_call1_v1 : StableHlo.TRef sig ⟨S4096x256, .f32⟩) select,
    StableHlo.TRef.unary (.of main_call1_v1 : StableHlo.TRef sig ⟨S4096x256, .f32⟩) (.of main_v49 : StableHlo.TRef sig ⟨S4096x256, .f32⟩) Host.negf,
    StableHlo.nullary main_cst_7 (constant S_ .f32 0x00000000#32),
    StableHlo.binary main_v49 main_cst_7 main_v50 ((fun x v => Host.reduceAdd x v reducesTo_S4096x256_S4096_d1 h_S_)),
    StableHlo.unary main_v50 main_v51 (Host.negf),
    StableHlo.binary main_v47 main_v51 main_v52 (addf),
    StableHlo.nullary main_cst_8 (constant S_ .f32 0x00000000#32),
    StableHlo.binary main_v52 main_cst_8 main_v53 ((fun x v => Host.reduceAdd x v reducesTo_S4096_S_d0 h_S_)),
    StableHlo.nullary main_cst_9 (constant S_ .f32 0x45800000#32),
    StableHlo.binary main_v53 main_cst_9 main_v54 (Host.divf),
    StableHlo.nullary main_cst_10 (constant S_ .f32 0x00000000#32),
    StableHlo.binary main_cst_10 main_v54 main_v55 (addf) ]

/-- The references relation 0 writes, one per operation. -/
abbrev W_0 : List (Ref sig .tc) :=
  [main_v0, main_v1, main_v2, main_v3, main_v4, main_v5, main_v6, main_v7, main_c, main_v8, main_v9, main_c_0, main_v10, main_v11, main_v12, main_v13, main_v14, main_v15, main_v16, main_v17, main_c_1, main_v18, main_v19, main_c_2, main_v20, main_v21, main_v22, main_v23, main_v24, main_c_3, main_v25, main_v26, main_c_4, main_v27, main_v28, main_v29, main_v30, main_v31, main_v32, main_cst, main_v33, main_v34, main_c_5, main_v35, main_v36, main_c_6, main_v37, main_v38, main_v39, main_v40, main_v41, main_v42, main_v43, main_v44, main_v45, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v46, main_v47, main_v48, main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v49, main_cst_7, main_v50, main_v51, main_v52, main_cst_8, main_v53, main_cst_9, main_v54, main_cst_10, main_v55]

theorem opsRel_0_sub : (opsRel_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩

abbrev opsRel_1 : List (HloOp τ sig (Elt F)) :=
  [ StableHlo.unary main_arg8 main_v56 ((extractStridedSlice S1x100 ![1, 0] · slices_S8x100_S1x100_1_0)),
    StableHlo.reshape main_v56 main_v57 rfl shapeCasts_S1x100_S100,
    StableHlo.unary main_arg0 main_v58 ((extractStridedSlice S4096x1 ![0, 0] · slices_S4096x8_S4096x1_0_0)),
    StableHlo.reshape main_v58 main_v59 rfl shapeCasts_S4096x1_S4096,
    StableHlo.unary main_arg0 main_v60 ((extractStridedSlice S4096x1 ![0, 2] · slices_S4096x8_S4096x1_0_2)),
    StableHlo.reshape main_v60 main_v61 rfl shapeCasts_S4096x1_S4096,
    StableHlo.unary main_arg1 main_v62 ((extractStridedSlice S1x256 ![1, 0] · slices_S8x256_S1x256_1_0)),
    StableHlo.reshape main_v62 main_v63 rfl shapeCasts_S1x256_S256,
    StableHlo.nullary main_c_11 (constantI S_ 32 0#32),
    StableHlo.unary main_c_11 main_v64 (broadcastInDim S4096 ![] bcast_S_S4096),
    StableHlo.binary main_v59 main_v64 main_v65 (cmpi .slt),
    StableHlo.nullary main_c_12 (constantI S_ 32 30001#32),
    StableHlo.unary main_c_12 main_v66 (broadcastInDim S4096 ![] bcast_S_S4096),
    StableHlo.binary main_v59 main_v66 main_v67 (addi),
    StableHlo.ternary main_v65 main_v67 main_v59 main_v68 (select),
    StableHlo.unary main_v68 main_v69 (broadcastInDim S4096x1 ![0] bcast_S4096_S4096x1_0),
    StableHlo.binary main_arg2 main_v69 main_v70 ((fun x i => Host.gather gather_S30001x100_S4096x1_S4096x100_1_0_n_n_0_1_1100 x i)),
    StableHlo.unary main_v57 main_v71 (broadcastInDim S1x100 ![1] bcast_S100_S1x100_1),
    StableHlo.unary main_v71 main_v72 (broadcastInDim S4096x100 ![0, 1] bcast_S1x100_S4096x100_0_1),
    StableHlo.binary main_v70 main_v72 main_v73 (addf),
    StableHlo.nullary main_c_13 (constantI S_ 32 0#32),
    StableHlo.unary main_c_13 main_v74 (broadcastInDim S4096 ![] bcast_S_S4096),
    StableHlo.binary main_v61 main_v74 main_v75 (cmpi .slt),
    StableHlo.nullary main_c_14 (constantI S_ 32 100001#32),
    StableHlo.unary main_c_14 main_v76 (broadcastInDim S4096 ![] bcast_S_S4096),
    StableHlo.binary main_v61 main_v76 main_v77 (addi),
    StableHlo.ternary main_v75 main_v77 main_v61 main_v78 (select),
    StableHlo.unary main_v78 main_v79 (broadcastInDim S4096x1 ![0] bcast_S4096_S4096x1_0),
    StableHlo.binary main_arg4 main_v79 main_v80 ((fun x i => Host.gather gather_S100001x100_S4096x1_S4096x100_1_0_n_n_0_1_1100 x i)),
    StableHlo.nullary main_c_15 (constantI S_ 32 0#32),
    StableHlo.unary main_c_15 main_v81 (broadcastInDim S4096 ![] bcast_S_S4096),
    StableHlo.binary main_v61 main_v81 main_v82 (cmpi .slt),
    StableHlo.nullary main_c_16 (constantI S_ 32 100001#32),
    StableHlo.unary main_c_16 main_v83 (broadcastInDim S4096 ![] bcast_S_S4096),
    StableHlo.binary main_v61 main_v83 main_v84 (addi),
    StableHlo.ternary main_v82 main_v84 main_v61 main_v85 (select),
    StableHlo.unary main_v85 main_v86 (broadcastInDim S4096x1 ![0] bcast_S4096_S4096x1_0),
    StableHlo.binary main_arg10 main_v86 main_v87 ((fun x i => Host.gather gather_S100001_S4096x1_S4096_n_0_n_n_0_1_1 x i)),
    StableHlo.binary main_v73 main_v80 main_v88 (mulf),
    StableHlo.nullary main_cst_17 (constant S_ .f32 0x00000000#32),
    StableHlo.binary main_v88 main_cst_17 main_v89 ((fun x v => Host.reduceAdd x v reducesTo_S4096x100_S4096_d1 h_S_)),
    StableHlo.binary main_v89 main_v87 main_v90 (addf),
    StableHlo.nullary main_c_18 (constantI S_ 32 0#32),
    StableHlo.unary main_c_18 main_v91 (broadcastInDim S256 ![] bcast_S_S256),
    StableHlo.binary main_v63 main_v91 main_v92 (cmpi .slt),
    StableHlo.nullary main_c_19 (constantI S_ 32 100001#32),
    StableHlo.unary main_c_19 main_v93 (broadcastInDim S256 ![] bcast_S_S256),
    StableHlo.binary main_v63 main_v93 main_v94 (addi),
    StableHlo.ternary main_v92 main_v94 main_v63 main_v95 (select),
    StableHlo.unary main_v95 main_v96 (broadcastInDim S256x1 ![0] bcast_S256_S256x1_0),
    StableHlo.binary main_arg4 main_v96 main_v97 ((fun x i => Host.gather gather_S100001x100_S256x1_S256x100_1_0_n_n_0_1_1100 x i)),
    StableHlo.binary main_v73 main_v97 main_v98 ((fun l r => Host.dotGeneral dot_S4096x100_S256x100_S4096x256_1_1_0_0_n_n none l r)),
    StableHlo.unary main_v87 main_v99 (broadcastInDim S4096x1 ![0] bcast_S4096_S4096x1_0),
    StableHlo.unary main_v99 main_v100 (broadcastInDim S4096x256 ![0, 1] bcast_S4096x1_S4096x256_0_1),
    StableHlo.binary main_v98 main_v100 main_v101 (addf),
    StableHlo.TRef.unary (.of main_v90 : StableHlo.TRef sig ⟨S4096, .f32⟩) (.of main_call2_v0 : StableHlo.TRef sig ⟨S4096, .f32⟩) Host.negf,
    StableHlo.TRef.nullary (.of main_call2_call0_cst : StableHlo.TRef sig ⟨S_, .f32⟩) (constant S_ .f32 0x00000000#32),
    StableHlo.TRef.unary (.of main_call2_call0_cst : StableHlo.TRef sig ⟨S_, .f32⟩) (.of main_call2_call0_v0 : StableHlo.TRef sig ⟨S4096, .f32⟩) (broadcastInDim S4096 ![] bcast_S_S4096),
    StableHlo.TRef.binary (.of main_call2_v0 : StableHlo.TRef sig ⟨S4096, .f32⟩) (.of main_call2_call0_v0 : StableHlo.TRef sig ⟨S4096, .f32⟩) (.of main_call2_call0_v1 : StableHlo.TRef sig ⟨S4096, .f32⟩) maximumf,
    StableHlo.TRef.unary (.of main_call2_call0_cst : StableHlo.TRef sig ⟨S_, .f32⟩) (.of main_call2_call0_v2 : StableHlo.TRef sig ⟨S4096, .f32⟩) (broadcastInDim S4096 ![] bcast_S_S4096),
    StableHlo.TRef.binary (.of main_call2_v0 : StableHlo.TRef sig ⟨S4096, .f32⟩) (.of main_call2_call0_v2 : StableHlo.TRef sig ⟨S4096, .f32⟩) (.of main_call2_call0_v3 : StableHlo.TRef sig ⟨S4096, .f32⟩) subf,
    StableHlo.TRef.binary (.of main_call2_call0_v3 : StableHlo.TRef sig ⟨S4096, .f32⟩) (.of main_call2_call0_v3 : StableHlo.TRef sig ⟨S4096, .f32⟩) (.of main_call2_call0_v4 : StableHlo.TRef sig ⟨S4096, .i1⟩) (cmpf .une),
    StableHlo.TRef.unary (.of main_call2_call0_cst : StableHlo.TRef sig ⟨S_, .f32⟩) (.of main_call2_call0_v5 : StableHlo.TRef sig ⟨S4096, .f32⟩) (broadcastInDim S4096 ![] bcast_S_S4096),
    StableHlo.TRef.binary (.of main_call2_v0 : StableHlo.TRef sig ⟨S4096, .f32⟩) (.of main_call2_call0_v5 : StableHlo.TRef sig ⟨S4096, .f32⟩) (.of main_call2_call0_v6 : StableHlo.TRef sig ⟨S4096, .f32⟩) addf,
    StableHlo.TRef.unary (.of main_call2_call0_v3 : StableHlo.TRef sig ⟨S4096, .f32⟩) (.of main_call2_call0_v7 : StableHlo.TRef sig ⟨S4096, .f32⟩) Host.absf,
    StableHlo.TRef.unary (.of main_call2_call0_v7 : StableHlo.TRef sig ⟨S4096, .f32⟩) (.of main_call2_call0_v8 : StableHlo.TRef sig ⟨S4096, .f32⟩) Host.negf,
    StableHlo.TRef.unary (.of main_call2_call0_v8 : StableHlo.TRef sig ⟨S4096, .f32⟩) (.of main_call2_call0_v9 : StableHlo.TRef sig ⟨S4096, .f32⟩) Host.exp,
    StableHlo.TRef.unary (.of main_call2_call0_v9 : StableHlo.TRef sig ⟨S4096, .f32⟩) (.of main_call2_call0_v10 : StableHlo.TRef sig ⟨S4096, .f32⟩) Host.log1p,
    StableHlo.TRef.binary (.of main_call2_call0_v1 : StableHlo.TRef sig ⟨S4096, .f32⟩) (.of main_call2_call0_v10 : StableHlo.TRef sig ⟨S4096, .f32⟩) (.of main_call2_call0_v11 : StableHlo.TRef sig ⟨S4096, .f32⟩) addf,
    StableHlo.TRef.ternary (.of main_call2_call0_v4 : StableHlo.TRef sig ⟨S4096, .i1⟩) (.of main_call2_call0_v6 : StableHlo.TRef sig ⟨S4096, .f32⟩) (.of main_call2_call0_v11 : StableHlo.TRef sig ⟨S4096, .f32⟩) (.of main_call2_v1 : StableHlo.TRef sig ⟨S4096, .f32⟩) select,
    StableHlo.TRef.unary (.of main_call2_v1 : StableHlo.TRef sig ⟨S4096, .f32⟩) (.of main_v102 : StableHlo.TRef sig ⟨S4096, .f32⟩) Host.negf,
    StableHlo.unary main_v102 main_v103 (Host.negf),
    StableHlo.unary main_v101 main_v104 (Host.negf),
    StableHlo.TRef.unary (.of main_v104 : StableHlo.TRef sig ⟨S4096x256, .f32⟩) (.of main_call3_v0 : StableHlo.TRef sig ⟨S4096x256, .f32⟩) Host.negf,
    StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S4096x256, .f32⟩) (broadcastInDim S4096x256 ![] bcast_S_S4096x256),
    StableHlo.TRef.binary (.of main_call3_v0 : StableHlo.TRef sig ⟨S4096x256, .f32⟩) (.of main_call3_call0_v0 : StableHlo.TRef sig ⟨S4096x256, .f32⟩) (.of main_call3_call0_v1 : StableHlo.TRef sig ⟨S4096x256, .f32⟩) maximumf,
    StableHlo.TRef.unary (.of main_call3_call0_cst : StableHlo.TRef sig ⟨S_, .f32⟩) (.of main_call3_call0_v2 : StableHlo.TRef sig ⟨S4096x256, .f32⟩) (broadcastInDim S4096x256 ![] bcast_S_S4096x256),
    StableHlo.TRef.binary (.of main_call3_v0 : StableHlo.TRef sig ⟨S4096x256, .f32⟩) (.of main_call3_call0_v2 : StableHlo.TRef sig ⟨S4096x256, .f32⟩) (.of main_call3_call0_v3 : StableHlo.TRef sig ⟨S4096x256, .f32⟩) subf,
    StableHlo.TRef.binary (.of main_call3_call0_v3 : StableHlo.TRef sig ⟨S4096x256, .f32⟩) (.of main_call3_call0_v3 : StableHlo.TRef sig ⟨S4096x256, .f32⟩) (.of main_call3_call0_v4 : StableHlo.TRef sig ⟨S4096x256, .i1⟩) (cmpf .une),
    StableHlo.TRef.unary (.of main_call3_call0_cst : StableHlo.TRef sig ⟨S_, .f32⟩) (.of main_call3_call0_v5 : StableHlo.TRef sig ⟨S4096x256, .f32⟩) (broadcastInDim S4096x256 ![] bcast_S_S4096x256),
    StableHlo.TRef.binary (.of main_call3_v0 : StableHlo.TRef sig ⟨S4096x256, .f32⟩) (.of main_call3_call0_v5 : StableHlo.TRef sig ⟨S4096x256, .f32⟩) (.of main_call3_call0_v6 : StableHlo.TRef sig ⟨S4096x256, .f32⟩) addf,
    StableHlo.TRef.unary (.of main_call3_call0_v3 : StableHlo.TRef sig ⟨S4096x256, .f32⟩) (.of main_call3_call0_v7 : StableHlo.TRef sig ⟨S4096x256, .f32⟩) Host.absf,
    StableHlo.TRef.unary (.of main_call3_call0_v7 : StableHlo.TRef sig ⟨S4096x256, .f32⟩) (.of main_call3_call0_v8 : StableHlo.TRef sig ⟨S4096x256, .f32⟩) Host.negf,
    StableHlo.TRef.unary (.of main_call3_call0_v8 : StableHlo.TRef sig ⟨S4096x256, .f32⟩) (.of main_call3_call0_v9 : StableHlo.TRef sig ⟨S4096x256, .f32⟩) Host.exp,
    StableHlo.TRef.unary (.of main_call3_call0_v9 : StableHlo.TRef sig ⟨S4096x256, .f32⟩) (.of main_call3_call0_v10 : StableHlo.TRef sig ⟨S4096x256, .f32⟩) Host.log1p,
    StableHlo.TRef.binary (.of main_call3_call0_v1 : StableHlo.TRef sig ⟨S4096x256, .f32⟩) (.of main_call3_call0_v10 : StableHlo.TRef sig ⟨S4096x256, .f32⟩) (.of main_call3_call0_v11 : StableHlo.TRef sig ⟨S4096x256, .f32⟩) addf,
    StableHlo.TRef.ternary (.of main_call3_call0_v4 : StableHlo.TRef sig ⟨S4096x256, .i1⟩) (.of main_call3_call0_v6 : StableHlo.TRef sig ⟨S4096x256, .f32⟩) (.of main_call3_call0_v11 : StableHlo.TRef sig ⟨S4096x256, .f32⟩) (.of main_call3_v1 : StableHlo.TRef sig ⟨S4096x256, .f32⟩) select,
    StableHlo.TRef.unary (.of main_call3_v1 : StableHlo.TRef sig ⟨S4096x256, .f32⟩) (.of main_v105 : StableHlo.TRef sig ⟨S4096x256, .f32⟩) Host.negf,
    StableHlo.nullary main_cst_20 (constant S_ .f32 0x00000000#32),
    StableHlo.binary main_v105 main_cst_20 main_v106 ((fun x v => Host.reduceAdd x v reducesTo_S4096x256_S4096_d1 h_S_)),
    StableHlo.unary main_v106 main_v107 (Host.negf),
    StableHlo.binary main_v103 main_v107 main_v108 (addf),
    StableHlo.nullary main_cst_21 (constant S_ .f32 0x00000000#32),
    StableHlo.binary main_v108 main_cst_21 main_v109 ((fun x v => Host.reduceAdd x v reducesTo_S4096_S_d0 h_S_)),
    StableHlo.nullary main_cst_22 (constant S_ .f32 0x45800000#32),
    StableHlo.binary main_v109 main_cst_22 main_v110 (Host.divf),
    StableHlo.binary main_v55 main_v110 main_v111 (addf) ]

abbrev W_1 : List (Ref sig .tc) :=
  [main_v56, main_v57, main_v58, main_v59, main_v60, main_v61, main_v62, main_v63, main_c_11, main_v64, main_v65, main_c_12, main_v66, main_v67, main_v68, main_v69, main_v70, main_v71, main_v72, main_v73, main_c_13, main_v74, main_v75, main_c_14, main_v76, main_v77, main_v78, main_v79, main_v80, main_c_15, main_v81, main_v82, main_c_16, main_v83, main_v84, main_v85, main_v86, main_v87, main_v88, main_cst_17, main_v89, main_v90, main_c_18, main_v91, main_v92, main_c_19, main_v93, main_v94, main_v95, main_v96, main_v97, main_v98, main_v99, main_v100, main_v101, main_call2_v0, main_call2_call0_cst, main_call2_call0_v0, main_call2_call0_v1, main_call2_call0_v2, main_call2_call0_v3, main_call2_call0_v4, main_call2_call0_v5, main_call2_call0_v6, main_call2_call0_v7, main_call2_call0_v8, main_call2_call0_v9, main_call2_call0_v10, main_call2_call0_v11, main_call2_v1, main_v102, main_v103, main_v104, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v105, main_cst_20, main_v106, main_v107, main_v108, main_cst_21, main_v109, main_cst_22, main_v110, main_v111]

theorem opsRel_1_sub : (opsRel_1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

abbrev opsRel_2 : List (HloOp τ sig (Elt F)) :=
  [ StableHlo.unary main_arg8 main_v112 ((extractStridedSlice S1x100 ![2, 0] · slices_S8x100_S1x100_2_0)),
    StableHlo.reshape main_v112 main_v113 rfl shapeCasts_S1x100_S100,
    StableHlo.unary main_arg0 main_v114 ((extractStridedSlice S4096x1 ![0, 1] · slices_S4096x8_S4096x1_0_1)),
    StableHlo.reshape main_v114 main_v115 rfl shapeCasts_S4096x1_S4096,
    StableHlo.unary main_arg0 main_v116 ((extractStridedSlice S4096x1 ![0, 2] · slices_S4096x8_S4096x1_0_2)),
    StableHlo.reshape main_v116 main_v117 rfl shapeCasts_S4096x1_S4096,
    StableHlo.unary main_arg1 main_v118 ((extractStridedSlice S1x256 ![2, 0] · slices_S8x256_S1x256_2_0)),
    StableHlo.reshape main_v118 main_v119 rfl shapeCasts_S1x256_S256,
    StableHlo.nullary main_c_23 (constantI S_ 32 0#32),
    StableHlo.unary main_c_23 main_v120 (broadcastInDim S4096 ![] bcast_S_S4096),
    StableHlo.binary main_v115 main_v120 main_v121 (cmpi .slt),
    StableHlo.nullary main_c_24 (constantI S_ 32 50001#32),
    StableHlo.unary main_c_24 main_v122 (broadcastInDim S4096 ![] bcast_S_S4096),
    StableHlo.binary main_v115 main_v122 main_v123 (addi),
    StableHlo.ternary main_v121 main_v123 main_v115 main_v124 (select),
    StableHlo.unary main_v124 main_v125 (broadcastInDim S4096x1 ![0] bcast_S4096_S4096x1_0),
    StableHlo.binary main_arg3 main_v125 main_v126 ((fun x i => Host.gather gather_S50001x100_S4096x1_S4096x100_1_0_n_n_0_1_1100 x i)),
    StableHlo.unary main_v113 main_v127 (broadcastInDim S1x100 ![1] bcast_S100_S1x100_1),
    StableHlo.unary main_v127 main_v128 (broadcastInDim S4096x100 ![0, 1] bcast_S1x100_S4096x100_0_1),
    StableHlo.binary main_v126 main_v128 main_v129 (addf),
    StableHlo.nullary main_c_25 (constantI S_ 32 0#32),
    StableHlo.unary main_c_25 main_v130 (broadcastInDim S4096 ![] bcast_S_S4096),
    StableHlo.binary main_v117 main_v130 main_v131 (cmpi .slt),
    StableHlo.nullary main_c_26 (constantI S_ 32 100001#32),
    StableHlo.unary main_c_26 main_v132 (broadcastInDim S4096 ![] bcast_S_S4096),
    StableHlo.binary main_v117 main_v132 main_v133 (addi),
    StableHlo.ternary main_v131 main_v133 main_v117 main_v134 (select),
    StableHlo.unary main_v134 main_v135 (broadcastInDim S4096x1 ![0] bcast_S4096_S4096x1_0),
    StableHlo.binary main_arg4 main_v135 main_v136 ((fun x i => Host.gather gather_S100001x100_S4096x1_S4096x100_1_0_n_n_0_1_1100 x i)),
    StableHlo.nullary main_c_27 (constantI S_ 32 0#32),
    StableHlo.unary main_c_27 main_v137 (broadcastInDim S4096 ![] bcast_S_S4096),
    StableHlo.binary main_v117 main_v137 main_v138 (cmpi .slt),
    StableHlo.nullary main_c_28 (constantI S_ 32 100001#32),
    StableHlo.unary main_c_28 main_v139 (broadcastInDim S4096 ![] bcast_S_S4096),
    StableHlo.binary main_v117 main_v139 main_v140 (addi),
    StableHlo.ternary main_v138 main_v140 main_v117 main_v141 (select),
    StableHlo.unary main_v141 main_v142 (broadcastInDim S4096x1 ![0] bcast_S4096_S4096x1_0),
    StableHlo.binary main_arg11 main_v142 main_v143 ((fun x i => Host.gather gather_S100001_S4096x1_S4096_n_0_n_n_0_1_1 x i)),
    StableHlo.binary main_v129 main_v136 main_v144 (mulf),
    StableHlo.nullary main_cst_29 (constant S_ .f32 0x00000000#32),
    StableHlo.binary main_v144 main_cst_29 main_v145 ((fun x v => Host.reduceAdd x v reducesTo_S4096x100_S4096_d1 h_S_)),
    StableHlo.binary main_v145 main_v143 main_v146 (addf),
    StableHlo.nullary main_c_30 (constantI S_ 32 0#32),
    StableHlo.unary main_c_30 main_v147 (broadcastInDim S256 ![] bcast_S_S256),
    StableHlo.binary main_v119 main_v147 main_v148 (cmpi .slt),
    StableHlo.nullary main_c_31 (constantI S_ 32 100001#32),
    StableHlo.unary main_c_31 main_v149 (broadcastInDim S256 ![] bcast_S_S256),
    StableHlo.binary main_v119 main_v149 main_v150 (addi),
    StableHlo.ternary main_v148 main_v150 main_v119 main_v151 (select),
    StableHlo.unary main_v151 main_v152 (broadcastInDim S256x1 ![0] bcast_S256_S256x1_0),
    StableHlo.binary main_arg4 main_v152 main_v153 ((fun x i => Host.gather gather_S100001x100_S256x1_S256x100_1_0_n_n_0_1_1100 x i)),
    StableHlo.binary main_v129 main_v153 main_v154 ((fun l r => Host.dotGeneral dot_S4096x100_S256x100_S4096x256_1_1_0_0_n_n none l r)),
    StableHlo.unary main_v143 main_v155 (broadcastInDim S4096x1 ![0] bcast_S4096_S4096x1_0),
    StableHlo.unary main_v155 main_v156 (broadcastInDim S4096x256 ![0, 1] bcast_S4096x1_S4096x256_0_1),
    StableHlo.binary main_v154 main_v156 main_v157 (addf),
    StableHlo.TRef.unary (.of main_v146 : StableHlo.TRef sig ⟨S4096, .f32⟩) (.of main_call4_v0 : StableHlo.TRef sig ⟨S4096, .f32⟩) Host.negf,
    StableHlo.TRef.nullary (.of main_call4_call0_cst : StableHlo.TRef sig ⟨S_, .f32⟩) (constant S_ .f32 0x00000000#32),
    StableHlo.TRef.unary (.of main_call4_call0_cst : StableHlo.TRef sig ⟨S_, .f32⟩) (.of main_call4_call0_v0 : StableHlo.TRef sig ⟨S4096, .f32⟩) (broadcastInDim S4096 ![] bcast_S_S4096),
    StableHlo.TRef.binary (.of main_call4_v0 : StableHlo.TRef sig ⟨S4096, .f32⟩) (.of main_call4_call0_v0 : StableHlo.TRef sig ⟨S4096, .f32⟩) (.of main_call4_call0_v1 : StableHlo.TRef sig ⟨S4096, .f32⟩) maximumf,
    StableHlo.TRef.unary (.of main_call4_call0_cst : StableHlo.TRef sig ⟨S_, .f32⟩) (.of main_call4_call0_v2 : StableHlo.TRef sig ⟨S4096, .f32⟩) (broadcastInDim S4096 ![] bcast_S_S4096),
    StableHlo.TRef.binary (.of main_call4_v0 : StableHlo.TRef sig ⟨S4096, .f32⟩) (.of main_call4_call0_v2 : StableHlo.TRef sig ⟨S4096, .f32⟩) (.of main_call4_call0_v3 : StableHlo.TRef sig ⟨S4096, .f32⟩) subf,
    StableHlo.TRef.binary (.of main_call4_call0_v3 : StableHlo.TRef sig ⟨S4096, .f32⟩) (.of main_call4_call0_v3 : StableHlo.TRef sig ⟨S4096, .f32⟩) (.of main_call4_call0_v4 : StableHlo.TRef sig ⟨S4096, .i1⟩) (cmpf .une),
    StableHlo.TRef.unary (.of main_call4_call0_cst : StableHlo.TRef sig ⟨S_, .f32⟩) (.of main_call4_call0_v5 : StableHlo.TRef sig ⟨S4096, .f32⟩) (broadcastInDim S4096 ![] bcast_S_S4096),
    StableHlo.TRef.binary (.of main_call4_v0 : StableHlo.TRef sig ⟨S4096, .f32⟩) (.of main_call4_call0_v5 : StableHlo.TRef sig ⟨S4096, .f32⟩) (.of main_call4_call0_v6 : StableHlo.TRef sig ⟨S4096, .f32⟩) addf,
    StableHlo.TRef.unary (.of main_call4_call0_v3 : StableHlo.TRef sig ⟨S4096, .f32⟩) (.of main_call4_call0_v7 : StableHlo.TRef sig ⟨S4096, .f32⟩) Host.absf,
    StableHlo.TRef.unary (.of main_call4_call0_v7 : StableHlo.TRef sig ⟨S4096, .f32⟩) (.of main_call4_call0_v8 : StableHlo.TRef sig ⟨S4096, .f32⟩) Host.negf,
    StableHlo.TRef.unary (.of main_call4_call0_v8 : StableHlo.TRef sig ⟨S4096, .f32⟩) (.of main_call4_call0_v9 : StableHlo.TRef sig ⟨S4096, .f32⟩) Host.exp,
    StableHlo.TRef.unary (.of main_call4_call0_v9 : StableHlo.TRef sig ⟨S4096, .f32⟩) (.of main_call4_call0_v10 : StableHlo.TRef sig ⟨S4096, .f32⟩) Host.log1p,
    StableHlo.TRef.binary (.of main_call4_call0_v1 : StableHlo.TRef sig ⟨S4096, .f32⟩) (.of main_call4_call0_v10 : StableHlo.TRef sig ⟨S4096, .f32⟩) (.of main_call4_call0_v11 : StableHlo.TRef sig ⟨S4096, .f32⟩) addf,
    StableHlo.TRef.ternary (.of main_call4_call0_v4 : StableHlo.TRef sig ⟨S4096, .i1⟩) (.of main_call4_call0_v6 : StableHlo.TRef sig ⟨S4096, .f32⟩) (.of main_call4_call0_v11 : StableHlo.TRef sig ⟨S4096, .f32⟩) (.of main_call4_v1 : StableHlo.TRef sig ⟨S4096, .f32⟩) select,
    StableHlo.TRef.unary (.of main_call4_v1 : StableHlo.TRef sig ⟨S4096, .f32⟩) (.of main_v158 : StableHlo.TRef sig ⟨S4096, .f32⟩) Host.negf,
    StableHlo.unary main_v158 main_v159 (Host.negf),
    StableHlo.unary main_v157 main_v160 (Host.negf),
    StableHlo.TRef.unary (.of main_v160 : StableHlo.TRef sig ⟨S4096x256, .f32⟩) (.of main_call5_v0 : StableHlo.TRef sig ⟨S4096x256, .f32⟩) Host.negf,
    StableHlo.TRef.nullary (.of main_call5_call0_cst : StableHlo.TRef sig ⟨S_, .f32⟩) (constant S_ .f32 0x00000000#32),
    StableHlo.TRef.unary (.of main_call5_call0_cst : StableHlo.TRef sig ⟨S_, .f32⟩) (.of main_call5_call0_v0 : StableHlo.TRef sig ⟨S4096x256, .f32⟩) (broadcastInDim S4096x256 ![] bcast_S_S4096x256),
    StableHlo.TRef.binary (.of main_call5_v0 : StableHlo.TRef sig ⟨S4096x256, .f32⟩) (.of main_call5_call0_v0 : StableHlo.TRef sig ⟨S4096x256, .f32⟩) (.of main_call5_call0_v1 : StableHlo.TRef sig ⟨S4096x256, .f32⟩) maximumf,
    StableHlo.TRef.unary (.of main_call5_call0_cst : StableHlo.TRef sig ⟨S_, .f32⟩) (.of main_call5_call0_v2 : StableHlo.TRef sig ⟨S4096x256, .f32⟩) (broadcastInDim S4096x256 ![] bcast_S_S4096x256),
    StableHlo.TRef.binary (.of main_call5_v0 : StableHlo.TRef sig ⟨S4096x256, .f32⟩) (.of main_call5_call0_v2 : StableHlo.TRef sig ⟨S4096x256, .f32⟩) (.of main_call5_call0_v3 : StableHlo.TRef sig ⟨S4096x256, .f32⟩) subf,
    StableHlo.TRef.binary (.of main_call5_call0_v3 : StableHlo.TRef sig ⟨S4096x256, .f32⟩) (.of main_call5_call0_v3 : StableHlo.TRef sig ⟨S4096x256, .f32⟩) (.of main_call5_call0_v4 : StableHlo.TRef sig ⟨S4096x256, .i1⟩) (cmpf .une),
    StableHlo.TRef.unary (.of main_call5_call0_cst : StableHlo.TRef sig ⟨S_, .f32⟩) (.of main_call5_call0_v5 : StableHlo.TRef sig ⟨S4096x256, .f32⟩) (broadcastInDim S4096x256 ![] bcast_S_S4096x256),
    StableHlo.TRef.binary (.of main_call5_v0 : StableHlo.TRef sig ⟨S4096x256, .f32⟩) (.of main_call5_call0_v5 : StableHlo.TRef sig ⟨S4096x256, .f32⟩) (.of main_call5_call0_v6 : StableHlo.TRef sig ⟨S4096x256, .f32⟩) addf,
    StableHlo.TRef.unary (.of main_call5_call0_v3 : StableHlo.TRef sig ⟨S4096x256, .f32⟩) (.of main_call5_call0_v7 : StableHlo.TRef sig ⟨S4096x256, .f32⟩) Host.absf,
    StableHlo.TRef.unary (.of main_call5_call0_v7 : StableHlo.TRef sig ⟨S4096x256, .f32⟩) (.of main_call5_call0_v8 : StableHlo.TRef sig ⟨S4096x256, .f32⟩) Host.negf,
    StableHlo.TRef.unary (.of main_call5_call0_v8 : StableHlo.TRef sig ⟨S4096x256, .f32⟩) (.of main_call5_call0_v9 : StableHlo.TRef sig ⟨S4096x256, .f32⟩) Host.exp,
    StableHlo.TRef.unary (.of main_call5_call0_v9 : StableHlo.TRef sig ⟨S4096x256, .f32⟩) (.of main_call5_call0_v10 : StableHlo.TRef sig ⟨S4096x256, .f32⟩) Host.log1p,
    StableHlo.TRef.binary (.of main_call5_call0_v1 : StableHlo.TRef sig ⟨S4096x256, .f32⟩) (.of main_call5_call0_v10 : StableHlo.TRef sig ⟨S4096x256, .f32⟩) (.of main_call5_call0_v11 : StableHlo.TRef sig ⟨S4096x256, .f32⟩) addf,
    StableHlo.TRef.ternary (.of main_call5_call0_v4 : StableHlo.TRef sig ⟨S4096x256, .i1⟩) (.of main_call5_call0_v6 : StableHlo.TRef sig ⟨S4096x256, .f32⟩) (.of main_call5_call0_v11 : StableHlo.TRef sig ⟨S4096x256, .f32⟩) (.of main_call5_v1 : StableHlo.TRef sig ⟨S4096x256, .f32⟩) select,
    StableHlo.TRef.unary (.of main_call5_v1 : StableHlo.TRef sig ⟨S4096x256, .f32⟩) (.of main_v161 : StableHlo.TRef sig ⟨S4096x256, .f32⟩) Host.negf,
    StableHlo.nullary main_cst_32 (constant S_ .f32 0x00000000#32),
    StableHlo.binary main_v161 main_cst_32 main_v162 ((fun x v => Host.reduceAdd x v reducesTo_S4096x256_S4096_d1 h_S_)),
    StableHlo.unary main_v162 main_v163 (Host.negf),
    StableHlo.binary main_v159 main_v163 main_v164 (addf),
    StableHlo.nullary main_cst_33 (constant S_ .f32 0x00000000#32),
    StableHlo.binary main_v164 main_cst_33 main_v165 ((fun x v => Host.reduceAdd x v reducesTo_S4096_S_d0 h_S_)),
    StableHlo.nullary main_cst_34 (constant S_ .f32 0x45800000#32),
    StableHlo.binary main_v165 main_cst_34 main_v166 (Host.divf),
    StableHlo.binary main_v111 main_v166 main_v167 (addf) ]

abbrev W_2 : List (Ref sig .tc) :=
  [main_v112, main_v113, main_v114, main_v115, main_v116, main_v117, main_v118, main_v119, main_c_23, main_v120, main_v121, main_c_24, main_v122, main_v123, main_v124, main_v125, main_v126, main_v127, main_v128, main_v129, main_c_25, main_v130, main_v131, main_c_26, main_v132, main_v133, main_v134, main_v135, main_v136, main_c_27, main_v137, main_v138, main_c_28, main_v139, main_v140, main_v141, main_v142, main_v143, main_v144, main_cst_29, main_v145, main_v146, main_c_30, main_v147, main_v148, main_c_31, main_v149, main_v150, main_v151, main_v152, main_v153, main_v154, main_v155, main_v156, main_v157, main_call4_v0, main_call4_call0_cst, main_call4_call0_v0, main_call4_call0_v1, main_call4_call0_v2, main_call4_call0_v3, main_call4_call0_v4, main_call4_call0_v5, main_call4_call0_v6, main_call4_call0_v7, main_call4_call0_v8, main_call4_call0_v9, main_call4_call0_v10, main_call4_call0_v11, main_call4_v1, main_v158, main_v159, main_v160, main_call5_v0, main_call5_call0_cst, main_call5_call0_v0, main_call5_call0_v1, main_call5_call0_v2, main_call5_call0_v3, main_call5_call0_v4, main_call5_call0_v5, main_call5_call0_v6, main_call5_call0_v7, main_call5_call0_v8, main_call5_call0_v9, main_call5_call0_v10, main_call5_call0_v11, main_call5_v1, main_v161, main_cst_32, main_v162, main_v163, main_v164, main_cst_33, main_v165, main_cst_34, main_v166, main_v167]

theorem opsRel_2_sub : (opsRel_2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

abbrev opsRel_3 : List (HloOp τ sig (Elt F)) :=
  [ StableHlo.unary main_arg8 main_v168 ((extractStridedSlice S1x100 ![3, 0] · slices_S8x100_S1x100_3_0)),
    StableHlo.reshape main_v168 main_v169 rfl shapeCasts_S1x100_S100,
    StableHlo.unary main_arg0 main_v170 ((extractStridedSlice S4096x1 ![0, 1] · slices_S4096x8_S4096x1_0_1)),
    StableHlo.reshape main_v170 main_v171 rfl shapeCasts_S4096x1_S4096,
    StableHlo.unary main_arg0 main_v172 ((extractStridedSlice S4096x1 ![0, 3] · slices_S4096x8_S4096x1_0_3)),
    StableHlo.reshape main_v172 main_v173 rfl shapeCasts_S4096x1_S4096,
    StableHlo.unary main_arg1 main_v174 ((extractStridedSlice S1x256 ![3, 0] · slices_S8x256_S1x256_3_0)),
    StableHlo.reshape main_v174 main_v175 rfl shapeCasts_S1x256_S256,
    StableHlo.nullary main_c_35 (constantI S_ 32 0#32),
    StableHlo.unary main_c_35 main_v176 (broadcastInDim S4096 ![] bcast_S_S4096),
    StableHlo.binary main_v171 main_v176 main_v177 (cmpi .slt),
    StableHlo.nullary main_c_36 (constantI S_ 32 50001#32),
    StableHlo.unary main_c_36 main_v178 (broadcastInDim S4096 ![] bcast_S_S4096),
    StableHlo.binary main_v171 main_v178 main_v179 (addi),
    StableHlo.ternary main_v177 main_v179 main_v171 main_v180 (select),
    StableHlo.unary main_v180 main_v181 (broadcastInDim S4096x1 ![0] bcast_S4096_S4096x1_0),
    StableHlo.binary main_arg3 main_v181 main_v182 ((fun x i => Host.gather gather_S50001x100_S4096x1_S4096x100_1_0_n_n_0_1_1100 x i)),
    StableHlo.unary main_v169 main_v183 (broadcastInDim S1x100 ![1] bcast_S100_S1x100_1),
    StableHlo.unary main_v183 main_v184 (broadcastInDim S4096x100 ![0, 1] bcast_S1x100_S4096x100_0_1),
    StableHlo.binary main_v182 main_v184 main_v185 (addf),
    StableHlo.nullary main_c_37 (constantI S_ 32 0#32),
    StableHlo.unary main_c_37 main_v186 (broadcastInDim S4096 ![] bcast_S_S4096),
    StableHlo.binary main_v173 main_v186 main_v187 (cmpi .slt),
    StableHlo.nullary main_c_38 (constantI S_ 32 5001#32),
    StableHlo.unary main_c_38 main_v188 (broadcastInDim S4096 ![] bcast_S_S4096),
    StableHlo.binary main_v173 main_v188 main_v189 (addi),
    StableHlo.ternary main_v187 main_v189 main_v173 main_v190 (select),
    StableHlo.unary main_v190 main_v191 (broadcastInDim S4096x1 ![0] bcast_S4096_S4096x1_0),
    StableHlo.binary main_arg5 main_v191 main_v192 ((fun x i => Host.gather gather_S5001x100_S4096x1_S4096x100_1_0_n_n_0_1_1100 x i)),
    StableHlo.nullary main_c_39 (constantI S_ 32 0#32),
    StableHlo.unary main_c_39 main_v193 (broadcastInDim S4096 ![] bcast_S_S4096),
    StableHlo.binary main_v173 main_v193 main_v194 (cmpi .slt),
    StableHlo.nullary main_c_40 (constantI S_ 32 5001#32),
    StableHlo.unary main_c_40 main_v195 (broadcastInDim S4096 ![] bcast_S_S4096),
    StableHlo.binary main_v173 main_v195 main_v196 (addi),
    StableHlo.ternary main_v194 main_v196 main_v173 main_v197 (select),
    StableHlo.unary main_v197 main_v198 (broadcastInDim S4096x1 ![0] bcast_S4096_S4096x1_0),
    StableHlo.binary main_arg12 main_v198 main_v199 ((fun x i => Host.gather gather_S5001_S4096x1_S4096_n_0_n_n_0_1_1 x i)),
    StableHlo.binary main_v185 main_v192 main_v200 (mulf),
    StableHlo.nullary main_cst_41 (constant S_ .f32 0x00000000#32),
    StableHlo.binary main_v200 main_cst_41 main_v201 ((fun x v => Host.reduceAdd x v reducesTo_S4096x100_S4096_d1 h_S_)),
    StableHlo.binary main_v201 main_v199 main_v202 (addf),
    StableHlo.nullary main_c_42 (constantI S_ 32 0#32),
    StableHlo.unary main_c_42 main_v203 (broadcastInDim S256 ![] bcast_S_S256),
    StableHlo.binary main_v175 main_v203 main_v204 (cmpi .slt),
    StableHlo.nullary main_c_43 (constantI S_ 32 5001#32),
    StableHlo.unary main_c_43 main_v205 (broadcastInDim S256 ![] bcast_S_S256),
    StableHlo.binary main_v175 main_v205 main_v206 (addi),
    StableHlo.ternary main_v204 main_v206 main_v175 main_v207 (select),
    StableHlo.unary main_v207 main_v208 (broadcastInDim S256x1 ![0] bcast_S256_S256x1_0),
    StableHlo.binary main_arg5 main_v208 main_v209 ((fun x i => Host.gather gather_S5001x100_S256x1_S256x100_1_0_n_n_0_1_1100 x i)),
    StableHlo.binary main_v185 main_v209 main_v210 ((fun l r => Host.dotGeneral dot_S4096x100_S256x100_S4096x256_1_1_0_0_n_n none l r)),
    StableHlo.unary main_v199 main_v211 (broadcastInDim S4096x1 ![0] bcast_S4096_S4096x1_0),
    StableHlo.unary main_v211 main_v212 (broadcastInDim S4096x256 ![0, 1] bcast_S4096x1_S4096x256_0_1),
    StableHlo.binary main_v210 main_v212 main_v213 (addf),
    StableHlo.TRef.unary (.of main_v202 : StableHlo.TRef sig ⟨S4096, .f32⟩) (.of main_call6_v0 : StableHlo.TRef sig ⟨S4096, .f32⟩) Host.negf,
    StableHlo.TRef.nullary (.of main_call6_call0_cst : StableHlo.TRef sig ⟨S_, .f32⟩) (constant S_ .f32 0x00000000#32),
    StableHlo.TRef.unary (.of main_call6_call0_cst : StableHlo.TRef sig ⟨S_, .f32⟩) (.of main_call6_call0_v0 : StableHlo.TRef sig ⟨S4096, .f32⟩) (broadcastInDim S4096 ![] bcast_S_S4096),
    StableHlo.TRef.binary (.of main_call6_v0 : StableHlo.TRef sig ⟨S4096, .f32⟩) (.of main_call6_call0_v0 : StableHlo.TRef sig ⟨S4096, .f32⟩) (.of main_call6_call0_v1 : StableHlo.TRef sig ⟨S4096, .f32⟩) maximumf,
    StableHlo.TRef.unary (.of main_call6_call0_cst : StableHlo.TRef sig ⟨S_, .f32⟩) (.of main_call6_call0_v2 : StableHlo.TRef sig ⟨S4096, .f32⟩) (broadcastInDim S4096 ![] bcast_S_S4096),
    StableHlo.TRef.binary (.of main_call6_v0 : StableHlo.TRef sig ⟨S4096, .f32⟩) (.of main_call6_call0_v2 : StableHlo.TRef sig ⟨S4096, .f32⟩) (.of main_call6_call0_v3 : StableHlo.TRef sig ⟨S4096, .f32⟩) subf,
    StableHlo.TRef.binary (.of main_call6_call0_v3 : StableHlo.TRef sig ⟨S4096, .f32⟩) (.of main_call6_call0_v3 : StableHlo.TRef sig ⟨S4096, .f32⟩) (.of main_call6_call0_v4 : StableHlo.TRef sig ⟨S4096, .i1⟩) (cmpf .une),
    StableHlo.TRef.unary (.of main_call6_call0_cst : StableHlo.TRef sig ⟨S_, .f32⟩) (.of main_call6_call0_v5 : StableHlo.TRef sig ⟨S4096, .f32⟩) (broadcastInDim S4096 ![] bcast_S_S4096),
    StableHlo.TRef.binary (.of main_call6_v0 : StableHlo.TRef sig ⟨S4096, .f32⟩) (.of main_call6_call0_v5 : StableHlo.TRef sig ⟨S4096, .f32⟩) (.of main_call6_call0_v6 : StableHlo.TRef sig ⟨S4096, .f32⟩) addf,
    StableHlo.TRef.unary (.of main_call6_call0_v3 : StableHlo.TRef sig ⟨S4096, .f32⟩) (.of main_call6_call0_v7 : StableHlo.TRef sig ⟨S4096, .f32⟩) Host.absf,
    StableHlo.TRef.unary (.of main_call6_call0_v7 : StableHlo.TRef sig ⟨S4096, .f32⟩) (.of main_call6_call0_v8 : StableHlo.TRef sig ⟨S4096, .f32⟩) Host.negf,
    StableHlo.TRef.unary (.of main_call6_call0_v8 : StableHlo.TRef sig ⟨S4096, .f32⟩) (.of main_call6_call0_v9 : StableHlo.TRef sig ⟨S4096, .f32⟩) Host.exp,
    StableHlo.TRef.unary (.of main_call6_call0_v9 : StableHlo.TRef sig ⟨S4096, .f32⟩) (.of main_call6_call0_v10 : StableHlo.TRef sig ⟨S4096, .f32⟩) Host.log1p,
    StableHlo.TRef.binary (.of main_call6_call0_v1 : StableHlo.TRef sig ⟨S4096, .f32⟩) (.of main_call6_call0_v10 : StableHlo.TRef sig ⟨S4096, .f32⟩) (.of main_call6_call0_v11 : StableHlo.TRef sig ⟨S4096, .f32⟩) addf,
    StableHlo.TRef.ternary (.of main_call6_call0_v4 : StableHlo.TRef sig ⟨S4096, .i1⟩) (.of main_call6_call0_v6 : StableHlo.TRef sig ⟨S4096, .f32⟩) (.of main_call6_call0_v11 : StableHlo.TRef sig ⟨S4096, .f32⟩) (.of main_call6_v1 : StableHlo.TRef sig ⟨S4096, .f32⟩) select,
    StableHlo.TRef.unary (.of main_call6_v1 : StableHlo.TRef sig ⟨S4096, .f32⟩) (.of main_v214 : StableHlo.TRef sig ⟨S4096, .f32⟩) Host.negf,
    StableHlo.unary main_v214 main_v215 (Host.negf),
    StableHlo.unary main_v213 main_v216 (Host.negf),
    StableHlo.TRef.unary (.of main_v216 : StableHlo.TRef sig ⟨S4096x256, .f32⟩) (.of main_call7_v0 : StableHlo.TRef sig ⟨S4096x256, .f32⟩) Host.negf,
    StableHlo.TRef.nullary (.of main_call7_call0_cst : StableHlo.TRef sig ⟨S_, .f32⟩) (constant S_ .f32 0x00000000#32),
    StableHlo.TRef.unary (.of main_call7_call0_cst : StableHlo.TRef sig ⟨S_, .f32⟩) (.of main_call7_call0_v0 : StableHlo.TRef sig ⟨S4096x256, .f32⟩) (broadcastInDim S4096x256 ![] bcast_S_S4096x256),
    StableHlo.TRef.binary (.of main_call7_v0 : StableHlo.TRef sig ⟨S4096x256, .f32⟩) (.of main_call7_call0_v0 : StableHlo.TRef sig ⟨S4096x256, .f32⟩) (.of main_call7_call0_v1 : StableHlo.TRef sig ⟨S4096x256, .f32⟩) maximumf,
    StableHlo.TRef.unary (.of main_call7_call0_cst : StableHlo.TRef sig ⟨S_, .f32⟩) (.of main_call7_call0_v2 : StableHlo.TRef sig ⟨S4096x256, .f32⟩) (broadcastInDim S4096x256 ![] bcast_S_S4096x256),
    StableHlo.TRef.binary (.of main_call7_v0 : StableHlo.TRef sig ⟨S4096x256, .f32⟩) (.of main_call7_call0_v2 : StableHlo.TRef sig ⟨S4096x256, .f32⟩) (.of main_call7_call0_v3 : StableHlo.TRef sig ⟨S4096x256, .f32⟩) subf,
    StableHlo.TRef.binary (.of main_call7_call0_v3 : StableHlo.TRef sig ⟨S4096x256, .f32⟩) (.of main_call7_call0_v3 : StableHlo.TRef sig ⟨S4096x256, .f32⟩) (.of main_call7_call0_v4 : StableHlo.TRef sig ⟨S4096x256, .i1⟩) (cmpf .une),
    StableHlo.TRef.unary (.of main_call7_call0_cst : StableHlo.TRef sig ⟨S_, .f32⟩) (.of main_call7_call0_v5 : StableHlo.TRef sig ⟨S4096x256, .f32⟩) (broadcastInDim S4096x256 ![] bcast_S_S4096x256),
    StableHlo.TRef.binary (.of main_call7_v0 : StableHlo.TRef sig ⟨S4096x256, .f32⟩) (.of main_call7_call0_v5 : StableHlo.TRef sig ⟨S4096x256, .f32⟩) (.of main_call7_call0_v6 : StableHlo.TRef sig ⟨S4096x256, .f32⟩) addf,
    StableHlo.TRef.unary (.of main_call7_call0_v3 : StableHlo.TRef sig ⟨S4096x256, .f32⟩) (.of main_call7_call0_v7 : StableHlo.TRef sig ⟨S4096x256, .f32⟩) Host.absf,
    StableHlo.TRef.unary (.of main_call7_call0_v7 : StableHlo.TRef sig ⟨S4096x256, .f32⟩) (.of main_call7_call0_v8 : StableHlo.TRef sig ⟨S4096x256, .f32⟩) Host.negf,
    StableHlo.TRef.unary (.of main_call7_call0_v8 : StableHlo.TRef sig ⟨S4096x256, .f32⟩) (.of main_call7_call0_v9 : StableHlo.TRef sig ⟨S4096x256, .f32⟩) Host.exp,
    StableHlo.TRef.unary (.of main_call7_call0_v9 : StableHlo.TRef sig ⟨S4096x256, .f32⟩) (.of main_call7_call0_v10 : StableHlo.TRef sig ⟨S4096x256, .f32⟩) Host.log1p,
    StableHlo.TRef.binary (.of main_call7_call0_v1 : StableHlo.TRef sig ⟨S4096x256, .f32⟩) (.of main_call7_call0_v10 : StableHlo.TRef sig ⟨S4096x256, .f32⟩) (.of main_call7_call0_v11 : StableHlo.TRef sig ⟨S4096x256, .f32⟩) addf,
    StableHlo.TRef.ternary (.of main_call7_call0_v4 : StableHlo.TRef sig ⟨S4096x256, .i1⟩) (.of main_call7_call0_v6 : StableHlo.TRef sig ⟨S4096x256, .f32⟩) (.of main_call7_call0_v11 : StableHlo.TRef sig ⟨S4096x256, .f32⟩) (.of main_call7_v1 : StableHlo.TRef sig ⟨S4096x256, .f32⟩) select,
    StableHlo.TRef.unary (.of main_call7_v1 : StableHlo.TRef sig ⟨S4096x256, .f32⟩) (.of main_v217 : StableHlo.TRef sig ⟨S4096x256, .f32⟩) Host.negf,
    StableHlo.nullary main_cst_44 (constant S_ .f32 0x00000000#32),
    StableHlo.binary main_v217 main_cst_44 main_v218 ((fun x v => Host.reduceAdd x v reducesTo_S4096x256_S4096_d1 h_S_)),
    StableHlo.unary main_v218 main_v219 (Host.negf),
    StableHlo.binary main_v215 main_v219 main_v220 (addf),
    StableHlo.nullary main_cst_45 (constant S_ .f32 0x00000000#32),
    StableHlo.binary main_v220 main_cst_45 main_v221 ((fun x v => Host.reduceAdd x v reducesTo_S4096_S_d0 h_S_)),
    StableHlo.nullary main_cst_46 (constant S_ .f32 0x45800000#32),
    StableHlo.binary main_v221 main_cst_46 main_v222 (Host.divf),
    StableHlo.binary main_v167 main_v222 main_v223 (addf) ]

abbrev W_3 : List (Ref sig .tc) :=
  [main_v168, main_v169, main_v170, main_v171, main_v172, main_v173, main_v174, main_v175, main_c_35, main_v176, main_v177, main_c_36, main_v178, main_v179, main_v180, main_v181, main_v182, main_v183, main_v184, main_v185, main_c_37, main_v186, main_v187, main_c_38, main_v188, main_v189, main_v190, main_v191, main_v192, main_c_39, main_v193, main_v194, main_c_40, main_v195, main_v196, main_v197, main_v198, main_v199, main_v200, main_cst_41, main_v201, main_v202, main_c_42, main_v203, main_v204, main_c_43, main_v205, main_v206, main_v207, main_v208, main_v209, main_v210, main_v211, main_v212, main_v213, main_call6_v0, main_call6_call0_cst, main_call6_call0_v0, main_call6_call0_v1, main_call6_call0_v2, main_call6_call0_v3, main_call6_call0_v4, main_call6_call0_v5, main_call6_call0_v6, main_call6_call0_v7, main_call6_call0_v8, main_call6_call0_v9, main_call6_call0_v10, main_call6_call0_v11, main_call6_v1, main_v214, main_v215, main_v216, main_call7_v0, main_call7_call0_cst, main_call7_call0_v0, main_call7_call0_v1, main_call7_call0_v2, main_call7_call0_v3, main_call7_call0_v4, main_call7_call0_v5, main_call7_call0_v6, main_call7_call0_v7, main_call7_call0_v8, main_call7_call0_v9, main_call7_call0_v10, main_call7_call0_v11, main_call7_v1, main_v217, main_cst_44, main_v218, main_v219, main_v220, main_cst_45, main_v221, main_cst_46, main_v222, main_v223]

theorem opsRel_3_sub : (opsRel_3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

abbrev opsRel_4 : List (HloOp τ sig (Elt F)) :=
  [ StableHlo.unary main_arg8 main_v224 ((extractStridedSlice S1x100 ![4, 0] · slices_S8x100_S1x100_4_0)),
    StableHlo.reshape main_v224 main_v225 rfl shapeCasts_S1x100_S100,
    StableHlo.unary main_arg0 main_v226 ((extractStridedSlice S4096x1 ![0, 1] · slices_S4096x8_S4096x1_0_1)),
    StableHlo.reshape main_v226 main_v227 rfl shapeCasts_S4096x1_S4096,
    StableHlo.unary main_arg0 main_v228 ((extractStridedSlice S4096x1 ![0, 4] · slices_S4096x8_S4096x1_0_4)),
    StableHlo.reshape main_v228 main_v229 rfl shapeCasts_S4096x1_S4096,
    StableHlo.unary main_arg1 main_v230 ((extractStridedSlice S1x256 ![4, 0] · slices_S8x256_S1x256_4_0)),
    StableHlo.reshape main_v230 main_v231 rfl shapeCasts_S1x256_S256,
    StableHlo.nullary main_c_47 (constantI S_ 32 0#32),
    StableHlo.unary main_c_47 main_v232 (broadcastInDim S4096 ![] bcast_S_S4096),
    StableHlo.binary main_v227 main_v232 main_v233 (cmpi .slt),
    StableHlo.nullary main_c_48 (constantI S_ 32 50001#32),
    StableHlo.unary main_c_48 main_v234 (broadcastInDim S4096 ![] bcast_S_S4096),
    StableHlo.binary main_v227 main_v234 main_v235 (addi),
    StableHlo.ternary main_v233 main_v235 main_v227 main_v236 (select),
    StableHlo.unary main_v236 main_v237 (broadcastInDim S4096x1 ![0] bcast_S4096_S4096x1_0),
    StableHlo.binary main_arg3 main_v237 main_v238 ((fun x i => Host.gather gather_S50001x100_S4096x1_S4096x100_1_0_n_n_0_1_1100 x i)),
    StableHlo.unary main_v225 main_v239 (broadcastInDim S1x100 ![1] bcast_S100_S1x100_1),
    StableHlo.unary main_v239 main_v240 (broadcastInDim S4096x100 ![0, 1] bcast_S1x100_S4096x100_0_1),
    StableHlo.binary main_v238 main_v240 main_v241 (addf),
    StableHlo.nullary main_c_49 (constantI S_ 32 0#32),
    StableHlo.unary main_c_49 main_v242 (broadcastInDim S4096 ![] bcast_S_S4096),
    StableHlo.binary main_v229 main_v242 main_v243 (cmpi .slt),
    StableHlo.nullary main_c_50 (constantI S_ 32 1001#32),
    StableHlo.unary main_c_50 main_v244 (broadcastInDim S4096 ![] bcast_S_S4096),
    StableHlo.binary main_v229 main_v244 main_v245 (addi),
    StableHlo.ternary main_v243 main_v245 main_v229 main_v246 (select),
    StableHlo.unary main_v246 main_v247 (broadcastInDim S4096x1 ![0] bcast_S4096_S4096x1_0),
    StableHlo.binary main_arg6 main_v247 main_v248 ((fun x i => Host.gather gather_S1001x100_S4096x1_S4096x100_1_0_n_n_0_1_1100 x i)),
    StableHlo.nullary main_c_51 (constantI S_ 32 0#32),
    StableHlo.unary main_c_51 main_v249 (broadcastInDim S4096 ![] bcast_S_S4096),
    StableHlo.binary main_v229 main_v249 main_v250 (cmpi .slt),
    StableHlo.nullary main_c_52 (constantI S_ 32 1001#32),
    StableHlo.unary main_c_52 main_v251 (broadcastInDim S4096 ![] bcast_S_S4096),
    StableHlo.binary main_v229 main_v251 main_v252 (addi),
    StableHlo.ternary main_v250 main_v252 main_v229 main_v253 (select),
    StableHlo.unary main_v253 main_v254 (broadcastInDim S4096x1 ![0] bcast_S4096_S4096x1_0),
    StableHlo.binary main_arg13 main_v254 main_v255 ((fun x i => Host.gather gather_S1001_S4096x1_S4096_n_0_n_n_0_1_1 x i)),
    StableHlo.binary main_v241 main_v248 main_v256 (mulf),
    StableHlo.nullary main_cst_53 (constant S_ .f32 0x00000000#32),
    StableHlo.binary main_v256 main_cst_53 main_v257 ((fun x v => Host.reduceAdd x v reducesTo_S4096x100_S4096_d1 h_S_)),
    StableHlo.binary main_v257 main_v255 main_v258 (addf),
    StableHlo.nullary main_c_54 (constantI S_ 32 0#32),
    StableHlo.unary main_c_54 main_v259 (broadcastInDim S256 ![] bcast_S_S256),
    StableHlo.binary main_v231 main_v259 main_v260 (cmpi .slt),
    StableHlo.nullary main_c_55 (constantI S_ 32 1001#32),
    StableHlo.unary main_c_55 main_v261 (broadcastInDim S256 ![] bcast_S_S256),
    StableHlo.binary main_v231 main_v261 main_v262 (addi),
    StableHlo.ternary main_v260 main_v262 main_v231 main_v263 (select),
    StableHlo.unary main_v263 main_v264 (broadcastInDim S256x1 ![0] bcast_S256_S256x1_0),
    StableHlo.binary main_arg6 main_v264 main_v265 ((fun x i => Host.gather gather_S1001x100_S256x1_S256x100_1_0_n_n_0_1_1100 x i)),
    StableHlo.binary main_v241 main_v265 main_v266 ((fun l r => Host.dotGeneral dot_S4096x100_S256x100_S4096x256_1_1_0_0_n_n none l r)),
    StableHlo.unary main_v255 main_v267 (broadcastInDim S4096x1 ![0] bcast_S4096_S4096x1_0),
    StableHlo.unary main_v267 main_v268 (broadcastInDim S4096x256 ![0, 1] bcast_S4096x1_S4096x256_0_1),
    StableHlo.binary main_v266 main_v268 main_v269 (addf),
    StableHlo.TRef.unary (.of main_v258 : StableHlo.TRef sig ⟨S4096, .f32⟩) (.of main_call8_v0 : StableHlo.TRef sig ⟨S4096, .f32⟩) Host.negf,
    StableHlo.TRef.nullary (.of main_call8_call0_cst : StableHlo.TRef sig ⟨S_, .f32⟩) (constant S_ .f32 0x00000000#32),
    StableHlo.TRef.unary (.of main_call8_call0_cst : StableHlo.TRef sig ⟨S_, .f32⟩) (.of main_call8_call0_v0 : StableHlo.TRef sig ⟨S4096, .f32⟩) (broadcastInDim S4096 ![] bcast_S_S4096),
    StableHlo.TRef.binary (.of main_call8_v0 : StableHlo.TRef sig ⟨S4096, .f32⟩) (.of main_call8_call0_v0 : StableHlo.TRef sig ⟨S4096, .f32⟩) (.of main_call8_call0_v1 : StableHlo.TRef sig ⟨S4096, .f32⟩) maximumf,
    StableHlo.TRef.unary (.of main_call8_call0_cst : StableHlo.TRef sig ⟨S_, .f32⟩) (.of main_call8_call0_v2 : StableHlo.TRef sig ⟨S4096, .f32⟩) (broadcastInDim S4096 ![] bcast_S_S4096),
    StableHlo.TRef.binary (.of main_call8_v0 : StableHlo.TRef sig ⟨S4096, .f32⟩) (.of main_call8_call0_v2 : StableHlo.TRef sig ⟨S4096, .f32⟩) (.of main_call8_call0_v3 : StableHlo.TRef sig ⟨S4096, .f32⟩) subf,
    StableHlo.TRef.binary (.of main_call8_call0_v3 : StableHlo.TRef sig ⟨S4096, .f32⟩) (.of main_call8_call0_v3 : StableHlo.TRef sig ⟨S4096, .f32⟩) (.of main_call8_call0_v4 : StableHlo.TRef sig ⟨S4096, .i1⟩) (cmpf .une),
    StableHlo.TRef.unary (.of main_call8_call0_cst : StableHlo.TRef sig ⟨S_, .f32⟩) (.of main_call8_call0_v5 : StableHlo.TRef sig ⟨S4096, .f32⟩) (broadcastInDim S4096 ![] bcast_S_S4096),
    StableHlo.TRef.binary (.of main_call8_v0 : StableHlo.TRef sig ⟨S4096, .f32⟩) (.of main_call8_call0_v5 : StableHlo.TRef sig ⟨S4096, .f32⟩) (.of main_call8_call0_v6 : StableHlo.TRef sig ⟨S4096, .f32⟩) addf,
    StableHlo.TRef.unary (.of main_call8_call0_v3 : StableHlo.TRef sig ⟨S4096, .f32⟩) (.of main_call8_call0_v7 : StableHlo.TRef sig ⟨S4096, .f32⟩) Host.absf,
    StableHlo.TRef.unary (.of main_call8_call0_v7 : StableHlo.TRef sig ⟨S4096, .f32⟩) (.of main_call8_call0_v8 : StableHlo.TRef sig ⟨S4096, .f32⟩) Host.negf,
    StableHlo.TRef.unary (.of main_call8_call0_v8 : StableHlo.TRef sig ⟨S4096, .f32⟩) (.of main_call8_call0_v9 : StableHlo.TRef sig ⟨S4096, .f32⟩) Host.exp,
    StableHlo.TRef.unary (.of main_call8_call0_v9 : StableHlo.TRef sig ⟨S4096, .f32⟩) (.of main_call8_call0_v10 : StableHlo.TRef sig ⟨S4096, .f32⟩) Host.log1p,
    StableHlo.TRef.binary (.of main_call8_call0_v1 : StableHlo.TRef sig ⟨S4096, .f32⟩) (.of main_call8_call0_v10 : StableHlo.TRef sig ⟨S4096, .f32⟩) (.of main_call8_call0_v11 : StableHlo.TRef sig ⟨S4096, .f32⟩) addf,
    StableHlo.TRef.ternary (.of main_call8_call0_v4 : StableHlo.TRef sig ⟨S4096, .i1⟩) (.of main_call8_call0_v6 : StableHlo.TRef sig ⟨S4096, .f32⟩) (.of main_call8_call0_v11 : StableHlo.TRef sig ⟨S4096, .f32⟩) (.of main_call8_v1 : StableHlo.TRef sig ⟨S4096, .f32⟩) select,
    StableHlo.TRef.unary (.of main_call8_v1 : StableHlo.TRef sig ⟨S4096, .f32⟩) (.of main_v270 : StableHlo.TRef sig ⟨S4096, .f32⟩) Host.negf,
    StableHlo.unary main_v270 main_v271 (Host.negf),
    StableHlo.unary main_v269 main_v272 (Host.negf),
    StableHlo.TRef.unary (.of main_v272 : StableHlo.TRef sig ⟨S4096x256, .f32⟩) (.of main_call9_v0 : StableHlo.TRef sig ⟨S4096x256, .f32⟩) Host.negf,
    StableHlo.TRef.nullary (.of main_call9_call0_cst : StableHlo.TRef sig ⟨S_, .f32⟩) (constant S_ .f32 0x00000000#32),
    StableHlo.TRef.unary (.of main_call9_call0_cst : StableHlo.TRef sig ⟨S_, .f32⟩) (.of main_call9_call0_v0 : StableHlo.TRef sig ⟨S4096x256, .f32⟩) (broadcastInDim S4096x256 ![] bcast_S_S4096x256),
    StableHlo.TRef.binary (.of main_call9_v0 : StableHlo.TRef sig ⟨S4096x256, .f32⟩) (.of main_call9_call0_v0 : StableHlo.TRef sig ⟨S4096x256, .f32⟩) (.of main_call9_call0_v1 : StableHlo.TRef sig ⟨S4096x256, .f32⟩) maximumf,
    StableHlo.TRef.unary (.of main_call9_call0_cst : StableHlo.TRef sig ⟨S_, .f32⟩) (.of main_call9_call0_v2 : StableHlo.TRef sig ⟨S4096x256, .f32⟩) (broadcastInDim S4096x256 ![] bcast_S_S4096x256),
    StableHlo.TRef.binary (.of main_call9_v0 : StableHlo.TRef sig ⟨S4096x256, .f32⟩) (.of main_call9_call0_v2 : StableHlo.TRef sig ⟨S4096x256, .f32⟩) (.of main_call9_call0_v3 : StableHlo.TRef sig ⟨S4096x256, .f32⟩) subf,
    StableHlo.TRef.binary (.of main_call9_call0_v3 : StableHlo.TRef sig ⟨S4096x256, .f32⟩) (.of main_call9_call0_v3 : StableHlo.TRef sig ⟨S4096x256, .f32⟩) (.of main_call9_call0_v4 : StableHlo.TRef sig ⟨S4096x256, .i1⟩) (cmpf .une),
    StableHlo.TRef.unary (.of main_call9_call0_cst : StableHlo.TRef sig ⟨S_, .f32⟩) (.of main_call9_call0_v5 : StableHlo.TRef sig ⟨S4096x256, .f32⟩) (broadcastInDim S4096x256 ![] bcast_S_S4096x256),
    StableHlo.TRef.binary (.of main_call9_v0 : StableHlo.TRef sig ⟨S4096x256, .f32⟩) (.of main_call9_call0_v5 : StableHlo.TRef sig ⟨S4096x256, .f32⟩) (.of main_call9_call0_v6 : StableHlo.TRef sig ⟨S4096x256, .f32⟩) addf,
    StableHlo.TRef.unary (.of main_call9_call0_v3 : StableHlo.TRef sig ⟨S4096x256, .f32⟩) (.of main_call9_call0_v7 : StableHlo.TRef sig ⟨S4096x256, .f32⟩) Host.absf,
    StableHlo.TRef.unary (.of main_call9_call0_v7 : StableHlo.TRef sig ⟨S4096x256, .f32⟩) (.of main_call9_call0_v8 : StableHlo.TRef sig ⟨S4096x256, .f32⟩) Host.negf,
    StableHlo.TRef.unary (.of main_call9_call0_v8 : StableHlo.TRef sig ⟨S4096x256, .f32⟩) (.of main_call9_call0_v9 : StableHlo.TRef sig ⟨S4096x256, .f32⟩) Host.exp,
    StableHlo.TRef.unary (.of main_call9_call0_v9 : StableHlo.TRef sig ⟨S4096x256, .f32⟩) (.of main_call9_call0_v10 : StableHlo.TRef sig ⟨S4096x256, .f32⟩) Host.log1p,
    StableHlo.TRef.binary (.of main_call9_call0_v1 : StableHlo.TRef sig ⟨S4096x256, .f32⟩) (.of main_call9_call0_v10 : StableHlo.TRef sig ⟨S4096x256, .f32⟩) (.of main_call9_call0_v11 : StableHlo.TRef sig ⟨S4096x256, .f32⟩) addf,
    StableHlo.TRef.ternary (.of main_call9_call0_v4 : StableHlo.TRef sig ⟨S4096x256, .i1⟩) (.of main_call9_call0_v6 : StableHlo.TRef sig ⟨S4096x256, .f32⟩) (.of main_call9_call0_v11 : StableHlo.TRef sig ⟨S4096x256, .f32⟩) (.of main_call9_v1 : StableHlo.TRef sig ⟨S4096x256, .f32⟩) select,
    StableHlo.TRef.unary (.of main_call9_v1 : StableHlo.TRef sig ⟨S4096x256, .f32⟩) (.of main_v273 : StableHlo.TRef sig ⟨S4096x256, .f32⟩) Host.negf,
    StableHlo.nullary main_cst_56 (constant S_ .f32 0x00000000#32),
    StableHlo.binary main_v273 main_cst_56 main_v274 ((fun x v => Host.reduceAdd x v reducesTo_S4096x256_S4096_d1 h_S_)),
    StableHlo.unary main_v274 main_v275 (Host.negf),
    StableHlo.binary main_v271 main_v275 main_v276 (addf),
    StableHlo.nullary main_cst_57 (constant S_ .f32 0x00000000#32),
    StableHlo.binary main_v276 main_cst_57 main_v277 ((fun x v => Host.reduceAdd x v reducesTo_S4096_S_d0 h_S_)),
    StableHlo.nullary main_cst_58 (constant S_ .f32 0x45800000#32),
    StableHlo.binary main_v277 main_cst_58 main_v278 (Host.divf),
    StableHlo.binary main_v223 main_v278 main_v279 (addf) ]

abbrev W_4 : List (Ref sig .tc) :=
  [main_v224, main_v225, main_v226, main_v227, main_v228, main_v229, main_v230, main_v231, main_c_47, main_v232, main_v233, main_c_48, main_v234, main_v235, main_v236, main_v237, main_v238, main_v239, main_v240, main_v241, main_c_49, main_v242, main_v243, main_c_50, main_v244, main_v245, main_v246, main_v247, main_v248, main_c_51, main_v249, main_v250, main_c_52, main_v251, main_v252, main_v253, main_v254, main_v255, main_v256, main_cst_53, main_v257, main_v258, main_c_54, main_v259, main_v260, main_c_55, main_v261, main_v262, main_v263, main_v264, main_v265, main_v266, main_v267, main_v268, main_v269, main_call8_v0, main_call8_call0_cst, main_call8_call0_v0, main_call8_call0_v1, main_call8_call0_v2, main_call8_call0_v3, main_call8_call0_v4, main_call8_call0_v5, main_call8_call0_v6, main_call8_call0_v7, main_call8_call0_v8, main_call8_call0_v9, main_call8_call0_v10, main_call8_call0_v11, main_call8_v1, main_v270, main_v271, main_v272, main_call9_v0, main_call9_call0_cst, main_call9_call0_v0, main_call9_call0_v1, main_call9_call0_v2, main_call9_call0_v3, main_call9_call0_v4, main_call9_call0_v5, main_call9_call0_v6, main_call9_call0_v7, main_call9_call0_v8, main_call9_call0_v9, main_call9_call0_v10, main_call9_call0_v11, main_call9_v1, main_v273, main_cst_56, main_v274, main_v275, main_v276, main_cst_57, main_v277, main_cst_58, main_v278, main_v279]

theorem opsRel_4_sub : (opsRel_4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

abbrev opsRel_5 : List (HloOp τ sig (Elt F)) :=
  [ StableHlo.unary main_arg8 main_v280 ((extractStridedSlice S1x100 ![5, 0] · slices_S8x100_S1x100_5_0)),
    StableHlo.reshape main_v280 main_v281 rfl shapeCasts_S1x100_S100,
    StableHlo.unary main_arg0 main_v282 ((extractStridedSlice S4096x1 ![0, 1] · slices_S4096x8_S4096x1_0_1)),
    StableHlo.reshape main_v282 main_v283 rfl shapeCasts_S4096x1_S4096,
    StableHlo.unary main_arg0 main_v284 ((extractStridedSlice S4096x1 ![0, 5] · slices_S4096x8_S4096x1_0_5)),
    StableHlo.reshape main_v284 main_v285 rfl shapeCasts_S4096x1_S4096,
    StableHlo.unary main_arg1 main_v286 ((extractStridedSlice S1x256 ![5, 0] · slices_S8x256_S1x256_5_0)),
    StableHlo.reshape main_v286 main_v287 rfl shapeCasts_S1x256_S256,
    StableHlo.nullary main_c_59 (constantI S_ 32 0#32),
    StableHlo.unary main_c_59 main_v288 (broadcastInDim S4096 ![] bcast_S_S4096),
    StableHlo.binary main_v283 main_v288 main_v289 (cmpi .slt),
    StableHlo.nullary main_c_60 (constantI S_ 32 50001#32),
    StableHlo.unary main_c_60 main_v290 (broadcastInDim S4096 ![] bcast_S_S4096),
    StableHlo.binary main_v283 main_v290 main_v291 (addi),
    StableHlo.ternary main_v289 main_v291 main_v283 main_v292 (select),
    StableHlo.unary main_v292 main_v293 (broadcastInDim S4096x1 ![0] bcast_S4096_S4096x1_0),
    StableHlo.binary main_arg3 main_v293 main_v294 ((fun x i => Host.gather gather_S50001x100_S4096x1_S4096x100_1_0_n_n_0_1_1100 x i)),
    StableHlo.unary main_v281 main_v295 (broadcastInDim S1x100 ![1] bcast_S100_S1x100_1),
    StableHlo.unary main_v295 main_v296 (broadcastInDim S4096x100 ![0, 1] bcast_S1x100_S4096x100_0_1),
    StableHlo.binary main_v294 main_v296 main_v297 (addf),
    StableHlo.nullary main_c_61 (constantI S_ 32 0#32),
    StableHlo.unary main_c_61 main_v298 (broadcastInDim S4096 ![] bcast_S_S4096),
    StableHlo.binary main_v285 main_v298 main_v299 (cmpi .slt),
    StableHlo.nullary main_c_62 (constantI S_ 32 50001#32),
    StableHlo.unary main_c_62 main_v300 (broadcastInDim S4096 ![] bcast_S_S4096),
    StableHlo.binary main_v285 main_v300 main_v301 (addi),
    StableHlo.ternary main_v299 main_v301 main_v285 main_v302 (select),
    StableHlo.unary main_v302 main_v303 (broadcastInDim S4096x1 ![0] bcast_S4096_S4096x1_0),
    StableHlo.binary main_arg7 main_v303 main_v304 ((fun x i => Host.gather gather_S50001x100_S4096x1_S4096x100_1_0_n_n_0_1_1100 x i)),
    StableHlo.nullary main_c_63 (constantI S_ 32 0#32),
    StableHlo.unary main_c_63 main_v305 (broadcastInDim S4096 ![] bcast_S_S4096),
    StableHlo.binary main_v285 main_v305 main_v306 (cmpi .slt),
    StableHlo.nullary main_c_64 (constantI S_ 32 50001#32),
    StableHlo.unary main_c_64 main_v307 (broadcastInDim S4096 ![] bcast_S_S4096),
    StableHlo.binary main_v285 main_v307 main_v308 (addi),
    StableHlo.ternary main_v306 main_v308 main_v285 main_v309 (select),
    StableHlo.unary main_v309 main_v310 (broadcastInDim S4096x1 ![0] bcast_S4096_S4096x1_0),
    StableHlo.binary main_arg14 main_v310 main_v311 ((fun x i => Host.gather gather_S50001_S4096x1_S4096_n_0_n_n_0_1_1 x i)),
    StableHlo.binary main_v297 main_v304 main_v312 (mulf),
    StableHlo.nullary main_cst_65 (constant S_ .f32 0x00000000#32),
    StableHlo.binary main_v312 main_cst_65 main_v313 ((fun x v => Host.reduceAdd x v reducesTo_S4096x100_S4096_d1 h_S_)),
    StableHlo.binary main_v313 main_v311 main_v314 (addf),
    StableHlo.nullary main_c_66 (constantI S_ 32 0#32),
    StableHlo.unary main_c_66 main_v315 (broadcastInDim S256 ![] bcast_S_S256),
    StableHlo.binary main_v287 main_v315 main_v316 (cmpi .slt),
    StableHlo.nullary main_c_67 (constantI S_ 32 50001#32),
    StableHlo.unary main_c_67 main_v317 (broadcastInDim S256 ![] bcast_S_S256),
    StableHlo.binary main_v287 main_v317 main_v318 (addi),
    StableHlo.ternary main_v316 main_v318 main_v287 main_v319 (select),
    StableHlo.unary main_v319 main_v320 (broadcastInDim S256x1 ![0] bcast_S256_S256x1_0),
    StableHlo.binary main_arg7 main_v320 main_v321 ((fun x i => Host.gather gather_S50001x100_S256x1_S256x100_1_0_n_n_0_1_1100 x i)),
    StableHlo.binary main_v297 main_v321 main_v322 ((fun l r => Host.dotGeneral dot_S4096x100_S256x100_S4096x256_1_1_0_0_n_n none l r)),
    StableHlo.unary main_v311 main_v323 (broadcastInDim S4096x1 ![0] bcast_S4096_S4096x1_0),
    StableHlo.unary main_v323 main_v324 (broadcastInDim S4096x256 ![0, 1] bcast_S4096x1_S4096x256_0_1),
    StableHlo.binary main_v322 main_v324 main_v325 (addf),
    StableHlo.TRef.unary (.of main_v314 : StableHlo.TRef sig ⟨S4096, .f32⟩) (.of main_call10_v0 : StableHlo.TRef sig ⟨S4096, .f32⟩) Host.negf,
    StableHlo.TRef.nullary (.of main_call10_call0_cst : StableHlo.TRef sig ⟨S_, .f32⟩) (constant S_ .f32 0x00000000#32),
    StableHlo.TRef.unary (.of main_call10_call0_cst : StableHlo.TRef sig ⟨S_, .f32⟩) (.of main_call10_call0_v0 : StableHlo.TRef sig ⟨S4096, .f32⟩) (broadcastInDim S4096 ![] bcast_S_S4096),
    StableHlo.TRef.binary (.of main_call10_v0 : StableHlo.TRef sig ⟨S4096, .f32⟩) (.of main_call10_call0_v0 : StableHlo.TRef sig ⟨S4096, .f32⟩) (.of main_call10_call0_v1 : StableHlo.TRef sig ⟨S4096, .f32⟩) maximumf,
    StableHlo.TRef.unary (.of main_call10_call0_cst : StableHlo.TRef sig ⟨S_, .f32⟩) (.of main_call10_call0_v2 : StableHlo.TRef sig ⟨S4096, .f32⟩) (broadcastInDim S4096 ![] bcast_S_S4096),
    StableHlo.TRef.binary (.of main_call10_v0 : StableHlo.TRef sig ⟨S4096, .f32⟩) (.of main_call10_call0_v2 : StableHlo.TRef sig ⟨S4096, .f32⟩) (.of main_call10_call0_v3 : StableHlo.TRef sig ⟨S4096, .f32⟩) subf,
    StableHlo.TRef.binary (.of main_call10_call0_v3 : StableHlo.TRef sig ⟨S4096, .f32⟩) (.of main_call10_call0_v3 : StableHlo.TRef sig ⟨S4096, .f32⟩) (.of main_call10_call0_v4 : StableHlo.TRef sig ⟨S4096, .i1⟩) (cmpf .une),
    StableHlo.TRef.unary (.of main_call10_call0_cst : StableHlo.TRef sig ⟨S_, .f32⟩) (.of main_call10_call0_v5 : StableHlo.TRef sig ⟨S4096, .f32⟩) (broadcastInDim S4096 ![] bcast_S_S4096),
    StableHlo.TRef.binary (.of main_call10_v0 : StableHlo.TRef sig ⟨S4096, .f32⟩) (.of main_call10_call0_v5 : StableHlo.TRef sig ⟨S4096, .f32⟩) (.of main_call10_call0_v6 : StableHlo.TRef sig ⟨S4096, .f32⟩) addf,
    StableHlo.TRef.unary (.of main_call10_call0_v3 : StableHlo.TRef sig ⟨S4096, .f32⟩) (.of main_call10_call0_v7 : StableHlo.TRef sig ⟨S4096, .f32⟩) Host.absf,
    StableHlo.TRef.unary (.of main_call10_call0_v7 : StableHlo.TRef sig ⟨S4096, .f32⟩) (.of main_call10_call0_v8 : StableHlo.TRef sig ⟨S4096, .f32⟩) Host.negf,
    StableHlo.TRef.unary (.of main_call10_call0_v8 : StableHlo.TRef sig ⟨S4096, .f32⟩) (.of main_call10_call0_v9 : StableHlo.TRef sig ⟨S4096, .f32⟩) Host.exp,
    StableHlo.TRef.unary (.of main_call10_call0_v9 : StableHlo.TRef sig ⟨S4096, .f32⟩) (.of main_call10_call0_v10 : StableHlo.TRef sig ⟨S4096, .f32⟩) Host.log1p,
    StableHlo.TRef.binary (.of main_call10_call0_v1 : StableHlo.TRef sig ⟨S4096, .f32⟩) (.of main_call10_call0_v10 : StableHlo.TRef sig ⟨S4096, .f32⟩) (.of main_call10_call0_v11 : StableHlo.TRef sig ⟨S4096, .f32⟩) addf,
    StableHlo.TRef.ternary (.of main_call10_call0_v4 : StableHlo.TRef sig ⟨S4096, .i1⟩) (.of main_call10_call0_v6 : StableHlo.TRef sig ⟨S4096, .f32⟩) (.of main_call10_call0_v11 : StableHlo.TRef sig ⟨S4096, .f32⟩) (.of main_call10_v1 : StableHlo.TRef sig ⟨S4096, .f32⟩) select,
    StableHlo.TRef.unary (.of main_call10_v1 : StableHlo.TRef sig ⟨S4096, .f32⟩) (.of main_v326 : StableHlo.TRef sig ⟨S4096, .f32⟩) Host.negf,
    StableHlo.unary main_v326 main_v327 (Host.negf),
    StableHlo.unary main_v325 main_v328 (Host.negf),
    StableHlo.TRef.unary (.of main_v328 : StableHlo.TRef sig ⟨S4096x256, .f32⟩) (.of main_call11_v0 : StableHlo.TRef sig ⟨S4096x256, .f32⟩) Host.negf,
    StableHlo.TRef.nullary (.of main_call11_call0_cst : StableHlo.TRef sig ⟨S_, .f32⟩) (constant S_ .f32 0x00000000#32),
    StableHlo.TRef.unary (.of main_call11_call0_cst : StableHlo.TRef sig ⟨S_, .f32⟩) (.of main_call11_call0_v0 : StableHlo.TRef sig ⟨S4096x256, .f32⟩) (broadcastInDim S4096x256 ![] bcast_S_S4096x256),
    StableHlo.TRef.binary (.of main_call11_v0 : StableHlo.TRef sig ⟨S4096x256, .f32⟩) (.of main_call11_call0_v0 : StableHlo.TRef sig ⟨S4096x256, .f32⟩) (.of main_call11_call0_v1 : StableHlo.TRef sig ⟨S4096x256, .f32⟩) maximumf,
    StableHlo.TRef.unary (.of main_call11_call0_cst : StableHlo.TRef sig ⟨S_, .f32⟩) (.of main_call11_call0_v2 : StableHlo.TRef sig ⟨S4096x256, .f32⟩) (broadcastInDim S4096x256 ![] bcast_S_S4096x256),
    StableHlo.TRef.binary (.of main_call11_v0 : StableHlo.TRef sig ⟨S4096x256, .f32⟩) (.of main_call11_call0_v2 : StableHlo.TRef sig ⟨S4096x256, .f32⟩) (.of main_call11_call0_v3 : StableHlo.TRef sig ⟨S4096x256, .f32⟩) subf,
    StableHlo.TRef.binary (.of main_call11_call0_v3 : StableHlo.TRef sig ⟨S4096x256, .f32⟩) (.of main_call11_call0_v3 : StableHlo.TRef sig ⟨S4096x256, .f32⟩) (.of main_call11_call0_v4 : StableHlo.TRef sig ⟨S4096x256, .i1⟩) (cmpf .une),
    StableHlo.TRef.unary (.of main_call11_call0_cst : StableHlo.TRef sig ⟨S_, .f32⟩) (.of main_call11_call0_v5 : StableHlo.TRef sig ⟨S4096x256, .f32⟩) (broadcastInDim S4096x256 ![] bcast_S_S4096x256),
    StableHlo.TRef.binary (.of main_call11_v0 : StableHlo.TRef sig ⟨S4096x256, .f32⟩) (.of main_call11_call0_v5 : StableHlo.TRef sig ⟨S4096x256, .f32⟩) (.of main_call11_call0_v6 : StableHlo.TRef sig ⟨S4096x256, .f32⟩) addf,
    StableHlo.TRef.unary (.of main_call11_call0_v3 : StableHlo.TRef sig ⟨S4096x256, .f32⟩) (.of main_call11_call0_v7 : StableHlo.TRef sig ⟨S4096x256, .f32⟩) Host.absf,
    StableHlo.TRef.unary (.of main_call11_call0_v7 : StableHlo.TRef sig ⟨S4096x256, .f32⟩) (.of main_call11_call0_v8 : StableHlo.TRef sig ⟨S4096x256, .f32⟩) Host.negf,
    StableHlo.TRef.unary (.of main_call11_call0_v8 : StableHlo.TRef sig ⟨S4096x256, .f32⟩) (.of main_call11_call0_v9 : StableHlo.TRef sig ⟨S4096x256, .f32⟩) Host.exp,
    StableHlo.TRef.unary (.of main_call11_call0_v9 : StableHlo.TRef sig ⟨S4096x256, .f32⟩) (.of main_call11_call0_v10 : StableHlo.TRef sig ⟨S4096x256, .f32⟩) Host.log1p,
    StableHlo.TRef.binary (.of main_call11_call0_v1 : StableHlo.TRef sig ⟨S4096x256, .f32⟩) (.of main_call11_call0_v10 : StableHlo.TRef sig ⟨S4096x256, .f32⟩) (.of main_call11_call0_v11 : StableHlo.TRef sig ⟨S4096x256, .f32⟩) addf,
    StableHlo.TRef.ternary (.of main_call11_call0_v4 : StableHlo.TRef sig ⟨S4096x256, .i1⟩) (.of main_call11_call0_v6 : StableHlo.TRef sig ⟨S4096x256, .f32⟩) (.of main_call11_call0_v11 : StableHlo.TRef sig ⟨S4096x256, .f32⟩) (.of main_call11_v1 : StableHlo.TRef sig ⟨S4096x256, .f32⟩) select,
    StableHlo.TRef.unary (.of main_call11_v1 : StableHlo.TRef sig ⟨S4096x256, .f32⟩) (.of main_v329 : StableHlo.TRef sig ⟨S4096x256, .f32⟩) Host.negf,
    StableHlo.nullary main_cst_68 (constant S_ .f32 0x00000000#32),
    StableHlo.binary main_v329 main_cst_68 main_v330 ((fun x v => Host.reduceAdd x v reducesTo_S4096x256_S4096_d1 h_S_)),
    StableHlo.unary main_v330 main_v331 (Host.negf),
    StableHlo.binary main_v327 main_v331 main_v332 (addf),
    StableHlo.nullary main_cst_69 (constant S_ .f32 0x00000000#32),
    StableHlo.binary main_v332 main_cst_69 main_v333 ((fun x v => Host.reduceAdd x v reducesTo_S4096_S_d0 h_S_)),
    StableHlo.nullary main_cst_70 (constant S_ .f32 0x45800000#32),
    StableHlo.binary main_v333 main_cst_70 main_v334 (Host.divf),
    StableHlo.binary main_v279 main_v334 main_v335 (addf) ]

abbrev W_5 : List (Ref sig .tc) :=
  [main_v280, main_v281, main_v282, main_v283, main_v284, main_v285, main_v286, main_v287, main_c_59, main_v288, main_v289, main_c_60, main_v290, main_v291, main_v292, main_v293, main_v294, main_v295, main_v296, main_v297, main_c_61, main_v298, main_v299, main_c_62, main_v300, main_v301, main_v302, main_v303, main_v304, main_c_63, main_v305, main_v306, main_c_64, main_v307, main_v308, main_v309, main_v310, main_v311, main_v312, main_cst_65, main_v313, main_v314, main_c_66, main_v315, main_v316, main_c_67, main_v317, main_v318, main_v319, main_v320, main_v321, main_v322, main_v323, main_v324, main_v325, main_call10_v0, main_call10_call0_cst, main_call10_call0_v0, main_call10_call0_v1, main_call10_call0_v2, main_call10_call0_v3, main_call10_call0_v4, main_call10_call0_v5, main_call10_call0_v6, main_call10_call0_v7, main_call10_call0_v8, main_call10_call0_v9, main_call10_call0_v10, main_call10_call0_v11, main_call10_v1, main_v326, main_v327, main_v328, main_call11_v0, main_call11_call0_cst, main_call11_call0_v0, main_call11_call0_v1, main_call11_call0_v2, main_call11_call0_v3, main_call11_call0_v4, main_call11_call0_v5, main_call11_call0_v6, main_call11_call0_v7, main_call11_call0_v8, main_call11_call0_v9, main_call11_call0_v10, main_call11_call0_v11, main_call11_v1, main_v329, main_cst_68, main_v330, main_v331, main_v332, main_cst_69, main_v333, main_cst_70, main_v334, main_v335]

theorem opsRel_5_sub : (opsRel_5 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

abbrev opsRel_6 : List (HloOp τ sig (Elt F)) :=
  [ StableHlo.unary main_arg8 main_v336 ((extractStridedSlice S1x100 ![6, 0] · slices_S8x100_S1x100_6_0)),
    StableHlo.reshape main_v336 main_v337 rfl shapeCasts_S1x100_S100,
    StableHlo.unary main_arg0 main_v338 ((extractStridedSlice S4096x1 ![0, 1] · slices_S4096x8_S4096x1_0_1)),
    StableHlo.reshape main_v338 main_v339 rfl shapeCasts_S4096x1_S4096,
    StableHlo.unary main_arg0 main_v340 ((extractStridedSlice S4096x1 ![0, 6] · slices_S4096x8_S4096x1_0_6)),
    StableHlo.reshape main_v340 main_v341 rfl shapeCasts_S4096x1_S4096,
    StableHlo.unary main_arg1 main_v342 ((extractStridedSlice S1x256 ![6, 0] · slices_S8x256_S1x256_6_0)),
    StableHlo.reshape main_v342 main_v343 rfl shapeCasts_S1x256_S256,
    StableHlo.nullary main_c_71 (constantI S_ 32 0#32),
    StableHlo.unary main_c_71 main_v344 (broadcastInDim S4096 ![] bcast_S_S4096),
    StableHlo.binary main_v339 main_v344 main_v345 (cmpi .slt),
    StableHlo.nullary main_c_72 (constantI S_ 32 50001#32),
    StableHlo.unary main_c_72 main_v346 (broadcastInDim S4096 ![] bcast_S_S4096),
    StableHlo.binary main_v339 main_v346 main_v347 (addi),
    StableHlo.ternary main_v345 main_v347 main_v339 main_v348 (select),
    StableHlo.unary main_v348 main_v349 (broadcastInDim S4096x1 ![0] bcast_S4096_S4096x1_0),
    StableHlo.binary main_arg3 main_v349 main_v350 ((fun x i => Host.gather gather_S50001x100_S4096x1_S4096x100_1_0_n_n_0_1_1100 x i)),
    StableHlo.unary main_v337 main_v351 (broadcastInDim S1x100 ![1] bcast_S100_S1x100_1),
    StableHlo.unary main_v351 main_v352 (broadcastInDim S4096x100 ![0, 1] bcast_S1x100_S4096x100_0_1),
    StableHlo.binary main_v350 main_v352 main_v353 (addf),
    StableHlo.nullary main_c_73 (constantI S_ 32 0#32),
    StableHlo.unary main_c_73 main_v354 (broadcastInDim S4096 ![] bcast_S_S4096),
    StableHlo.binary main_v341 main_v354 main_v355 (cmpi .slt),
    StableHlo.nullary main_c_74 (constantI S_ 32 50001#32),
    StableHlo.unary main_c_74 main_v356 (broadcastInDim S4096 ![] bcast_S_S4096),
    StableHlo.binary main_v341 main_v356 main_v357 (addi),
    StableHlo.ternary main_v355 main_v357 main_v341 main_v358 (select),
    StableHlo.unary main_v358 main_v359 (broadcastInDim S4096x1 ![0] bcast_S4096_S4096x1_0),
    StableHlo.binary main_arg7 main_v359 main_v360 ((fun x i => Host.gather gather_S50001x100_S4096x1_S4096x100_1_0_n_n_0_1_1100 x i)),
    StableHlo.nullary main_c_75 (constantI S_ 32 0#32),
    StableHlo.unary main_c_75 main_v361 (broadcastInDim S4096 ![] bcast_S_S4096),
    StableHlo.binary main_v341 main_v361 main_v362 (cmpi .slt),
    StableHlo.nullary main_c_76 (constantI S_ 32 50001#32),
    StableHlo.unary main_c_76 main_v363 (broadcastInDim S4096 ![] bcast_S_S4096),
    StableHlo.binary main_v341 main_v363 main_v364 (addi),
    StableHlo.ternary main_v362 main_v364 main_v341 main_v365 (select),
    StableHlo.unary main_v365 main_v366 (broadcastInDim S4096x1 ![0] bcast_S4096_S4096x1_0),
    StableHlo.binary main_arg15 main_v366 main_v367 ((fun x i => Host.gather gather_S50001_S4096x1_S4096_n_0_n_n_0_1_1 x i)),
    StableHlo.binary main_v353 main_v360 main_v368 (mulf),
    StableHlo.nullary main_cst_77 (constant S_ .f32 0x00000000#32),
    StableHlo.binary main_v368 main_cst_77 main_v369 ((fun x v => Host.reduceAdd x v reducesTo_S4096x100_S4096_d1 h_S_)),
    StableHlo.binary main_v369 main_v367 main_v370 (addf),
    StableHlo.nullary main_c_78 (constantI S_ 32 0#32),
    StableHlo.unary main_c_78 main_v371 (broadcastInDim S256 ![] bcast_S_S256),
    StableHlo.binary main_v343 main_v371 main_v372 (cmpi .slt),
    StableHlo.nullary main_c_79 (constantI S_ 32 50001#32),
    StableHlo.unary main_c_79 main_v373 (broadcastInDim S256 ![] bcast_S_S256),
    StableHlo.binary main_v343 main_v373 main_v374 (addi),
    StableHlo.ternary main_v372 main_v374 main_v343 main_v375 (select),
    StableHlo.unary main_v375 main_v376 (broadcastInDim S256x1 ![0] bcast_S256_S256x1_0),
    StableHlo.binary main_arg7 main_v376 main_v377 ((fun x i => Host.gather gather_S50001x100_S256x1_S256x100_1_0_n_n_0_1_1100 x i)),
    StableHlo.binary main_v353 main_v377 main_v378 ((fun l r => Host.dotGeneral dot_S4096x100_S256x100_S4096x256_1_1_0_0_n_n none l r)),
    StableHlo.unary main_v367 main_v379 (broadcastInDim S4096x1 ![0] bcast_S4096_S4096x1_0),
    StableHlo.unary main_v379 main_v380 (broadcastInDim S4096x256 ![0, 1] bcast_S4096x1_S4096x256_0_1),
    StableHlo.binary main_v378 main_v380 main_v381 (addf),
    StableHlo.TRef.unary (.of main_v370 : StableHlo.TRef sig ⟨S4096, .f32⟩) (.of main_call12_v0 : StableHlo.TRef sig ⟨S4096, .f32⟩) Host.negf,
    StableHlo.TRef.nullary (.of main_call12_call0_cst : StableHlo.TRef sig ⟨S_, .f32⟩) (constant S_ .f32 0x00000000#32),
    StableHlo.TRef.unary (.of main_call12_call0_cst : StableHlo.TRef sig ⟨S_, .f32⟩) (.of main_call12_call0_v0 : StableHlo.TRef sig ⟨S4096, .f32⟩) (broadcastInDim S4096 ![] bcast_S_S4096),
    StableHlo.TRef.binary (.of main_call12_v0 : StableHlo.TRef sig ⟨S4096, .f32⟩) (.of main_call12_call0_v0 : StableHlo.TRef sig ⟨S4096, .f32⟩) (.of main_call12_call0_v1 : StableHlo.TRef sig ⟨S4096, .f32⟩) maximumf,
    StableHlo.TRef.unary (.of main_call12_call0_cst : StableHlo.TRef sig ⟨S_, .f32⟩) (.of main_call12_call0_v2 : StableHlo.TRef sig ⟨S4096, .f32⟩) (broadcastInDim S4096 ![] bcast_S_S4096),
    StableHlo.TRef.binary (.of main_call12_v0 : StableHlo.TRef sig ⟨S4096, .f32⟩) (.of main_call12_call0_v2 : StableHlo.TRef sig ⟨S4096, .f32⟩) (.of main_call12_call0_v3 : StableHlo.TRef sig ⟨S4096, .f32⟩) subf,
    StableHlo.TRef.binary (.of main_call12_call0_v3 : StableHlo.TRef sig ⟨S4096, .f32⟩) (.of main_call12_call0_v3 : StableHlo.TRef sig ⟨S4096, .f32⟩) (.of main_call12_call0_v4 : StableHlo.TRef sig ⟨S4096, .i1⟩) (cmpf .une),
    StableHlo.TRef.unary (.of main_call12_call0_cst : StableHlo.TRef sig ⟨S_, .f32⟩) (.of main_call12_call0_v5 : StableHlo.TRef sig ⟨S4096, .f32⟩) (broadcastInDim S4096 ![] bcast_S_S4096),
    StableHlo.TRef.binary (.of main_call12_v0 : StableHlo.TRef sig ⟨S4096, .f32⟩) (.of main_call12_call0_v5 : StableHlo.TRef sig ⟨S4096, .f32⟩) (.of main_call12_call0_v6 : StableHlo.TRef sig ⟨S4096, .f32⟩) addf,
    StableHlo.TRef.unary (.of main_call12_call0_v3 : StableHlo.TRef sig ⟨S4096, .f32⟩) (.of main_call12_call0_v7 : StableHlo.TRef sig ⟨S4096, .f32⟩) Host.absf,
    StableHlo.TRef.unary (.of main_call12_call0_v7 : StableHlo.TRef sig ⟨S4096, .f32⟩) (.of main_call12_call0_v8 : StableHlo.TRef sig ⟨S4096, .f32⟩) Host.negf,
    StableHlo.TRef.unary (.of main_call12_call0_v8 : StableHlo.TRef sig ⟨S4096, .f32⟩) (.of main_call12_call0_v9 : StableHlo.TRef sig ⟨S4096, .f32⟩) Host.exp,
    StableHlo.TRef.unary (.of main_call12_call0_v9 : StableHlo.TRef sig ⟨S4096, .f32⟩) (.of main_call12_call0_v10 : StableHlo.TRef sig ⟨S4096, .f32⟩) Host.log1p,
    StableHlo.TRef.binary (.of main_call12_call0_v1 : StableHlo.TRef sig ⟨S4096, .f32⟩) (.of main_call12_call0_v10 : StableHlo.TRef sig ⟨S4096, .f32⟩) (.of main_call12_call0_v11 : StableHlo.TRef sig ⟨S4096, .f32⟩) addf,
    StableHlo.TRef.ternary (.of main_call12_call0_v4 : StableHlo.TRef sig ⟨S4096, .i1⟩) (.of main_call12_call0_v6 : StableHlo.TRef sig ⟨S4096, .f32⟩) (.of main_call12_call0_v11 : StableHlo.TRef sig ⟨S4096, .f32⟩) (.of main_call12_v1 : StableHlo.TRef sig ⟨S4096, .f32⟩) select,
    StableHlo.TRef.unary (.of main_call12_v1 : StableHlo.TRef sig ⟨S4096, .f32⟩) (.of main_v382 : StableHlo.TRef sig ⟨S4096, .f32⟩) Host.negf,
    StableHlo.unary main_v382 main_v383 (Host.negf),
    StableHlo.unary main_v381 main_v384 (Host.negf),
    StableHlo.TRef.unary (.of main_v384 : StableHlo.TRef sig ⟨S4096x256, .f32⟩) (.of main_call13_v0 : StableHlo.TRef sig ⟨S4096x256, .f32⟩) Host.negf,
    StableHlo.TRef.nullary (.of main_call13_call0_cst : StableHlo.TRef sig ⟨S_, .f32⟩) (constant S_ .f32 0x00000000#32),
    StableHlo.TRef.unary (.of main_call13_call0_cst : StableHlo.TRef sig ⟨S_, .f32⟩) (.of main_call13_call0_v0 : StableHlo.TRef sig ⟨S4096x256, .f32⟩) (broadcastInDim S4096x256 ![] bcast_S_S4096x256),
    StableHlo.TRef.binary (.of main_call13_v0 : StableHlo.TRef sig ⟨S4096x256, .f32⟩) (.of main_call13_call0_v0 : StableHlo.TRef sig ⟨S4096x256, .f32⟩) (.of main_call13_call0_v1 : StableHlo.TRef sig ⟨S4096x256, .f32⟩) maximumf,
    StableHlo.TRef.unary (.of main_call13_call0_cst : StableHlo.TRef sig ⟨S_, .f32⟩) (.of main_call13_call0_v2 : StableHlo.TRef sig ⟨S4096x256, .f32⟩) (broadcastInDim S4096x256 ![] bcast_S_S4096x256),
    StableHlo.TRef.binary (.of main_call13_v0 : StableHlo.TRef sig ⟨S4096x256, .f32⟩) (.of main_call13_call0_v2 : StableHlo.TRef sig ⟨S4096x256, .f32⟩) (.of main_call13_call0_v3 : StableHlo.TRef sig ⟨S4096x256, .f32⟩) subf,
    StableHlo.TRef.binary (.of main_call13_call0_v3 : StableHlo.TRef sig ⟨S4096x256, .f32⟩) (.of main_call13_call0_v3 : StableHlo.TRef sig ⟨S4096x256, .f32⟩) (.of main_call13_call0_v4 : StableHlo.TRef sig ⟨S4096x256, .i1⟩) (cmpf .une),
    StableHlo.TRef.unary (.of main_call13_call0_cst : StableHlo.TRef sig ⟨S_, .f32⟩) (.of main_call13_call0_v5 : StableHlo.TRef sig ⟨S4096x256, .f32⟩) (broadcastInDim S4096x256 ![] bcast_S_S4096x256),
    StableHlo.TRef.binary (.of main_call13_v0 : StableHlo.TRef sig ⟨S4096x256, .f32⟩) (.of main_call13_call0_v5 : StableHlo.TRef sig ⟨S4096x256, .f32⟩) (.of main_call13_call0_v6 : StableHlo.TRef sig ⟨S4096x256, .f32⟩) addf,
    StableHlo.TRef.unary (.of main_call13_call0_v3 : StableHlo.TRef sig ⟨S4096x256, .f32⟩) (.of main_call13_call0_v7 : StableHlo.TRef sig ⟨S4096x256, .f32⟩) Host.absf,
    StableHlo.TRef.unary (.of main_call13_call0_v7 : StableHlo.TRef sig ⟨S4096x256, .f32⟩) (.of main_call13_call0_v8 : StableHlo.TRef sig ⟨S4096x256, .f32⟩) Host.negf,
    StableHlo.TRef.unary (.of main_call13_call0_v8 : StableHlo.TRef sig ⟨S4096x256, .f32⟩) (.of main_call13_call0_v9 : StableHlo.TRef sig ⟨S4096x256, .f32⟩) Host.exp,
    StableHlo.TRef.unary (.of main_call13_call0_v9 : StableHlo.TRef sig ⟨S4096x256, .f32⟩) (.of main_call13_call0_v10 : StableHlo.TRef sig ⟨S4096x256, .f32⟩) Host.log1p,
    StableHlo.TRef.binary (.of main_call13_call0_v1 : StableHlo.TRef sig ⟨S4096x256, .f32⟩) (.of main_call13_call0_v10 : StableHlo.TRef sig ⟨S4096x256, .f32⟩) (.of main_call13_call0_v11 : StableHlo.TRef sig ⟨S4096x256, .f32⟩) addf,
    StableHlo.TRef.ternary (.of main_call13_call0_v4 : StableHlo.TRef sig ⟨S4096x256, .i1⟩) (.of main_call13_call0_v6 : StableHlo.TRef sig ⟨S4096x256, .f32⟩) (.of main_call13_call0_v11 : StableHlo.TRef sig ⟨S4096x256, .f32⟩) (.of main_call13_v1 : StableHlo.TRef sig ⟨S4096x256, .f32⟩) select,
    StableHlo.TRef.unary (.of main_call13_v1 : StableHlo.TRef sig ⟨S4096x256, .f32⟩) (.of main_v385 : StableHlo.TRef sig ⟨S4096x256, .f32⟩) Host.negf,
    StableHlo.nullary main_cst_80 (constant S_ .f32 0x00000000#32),
    StableHlo.binary main_v385 main_cst_80 main_v386 ((fun x v => Host.reduceAdd x v reducesTo_S4096x256_S4096_d1 h_S_)),
    StableHlo.unary main_v386 main_v387 (Host.negf),
    StableHlo.binary main_v383 main_v387 main_v388 (addf),
    StableHlo.nullary main_cst_81 (constant S_ .f32 0x00000000#32),
    StableHlo.binary main_v388 main_cst_81 main_v389 ((fun x v => Host.reduceAdd x v reducesTo_S4096_S_d0 h_S_)),
    StableHlo.nullary main_cst_82 (constant S_ .f32 0x45800000#32),
    StableHlo.binary main_v389 main_cst_82 main_v390 (Host.divf),
    StableHlo.binary main_v335 main_v390 main_v391 (addf) ]

abbrev W_6 : List (Ref sig .tc) :=
  [main_v336, main_v337, main_v338, main_v339, main_v340, main_v341, main_v342, main_v343, main_c_71, main_v344, main_v345, main_c_72, main_v346, main_v347, main_v348, main_v349, main_v350, main_v351, main_v352, main_v353, main_c_73, main_v354, main_v355, main_c_74, main_v356, main_v357, main_v358, main_v359, main_v360, main_c_75, main_v361, main_v362, main_c_76, main_v363, main_v364, main_v365, main_v366, main_v367, main_v368, main_cst_77, main_v369, main_v370, main_c_78, main_v371, main_v372, main_c_79, main_v373, main_v374, main_v375, main_v376, main_v377, main_v378, main_v379, main_v380, main_v381, main_call12_v0, main_call12_call0_cst, main_call12_call0_v0, main_call12_call0_v1, main_call12_call0_v2, main_call12_call0_v3, main_call12_call0_v4, main_call12_call0_v5, main_call12_call0_v6, main_call12_call0_v7, main_call12_call0_v8, main_call12_call0_v9, main_call12_call0_v10, main_call12_call0_v11, main_call12_v1, main_v382, main_v383, main_v384, main_call13_v0, main_call13_call0_cst, main_call13_call0_v0, main_call13_call0_v1, main_call13_call0_v2, main_call13_call0_v3, main_call13_call0_v4, main_call13_call0_v5, main_call13_call0_v6, main_call13_call0_v7, main_call13_call0_v8, main_call13_call0_v9, main_call13_call0_v10, main_call13_call0_v11, main_call13_v1, main_v385, main_cst_80, main_v386, main_v387, main_v388, main_cst_81, main_v389, main_cst_82, main_v390, main_v391]

theorem opsRel_6_sub : (opsRel_6 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

abbrev opsRel_7 : List (HloOp τ sig (Elt F)) :=
  [ StableHlo.unary main_arg8 main_v392 ((extractStridedSlice S1x100 ![7, 0] · slices_S8x100_S1x100_7_0)),
    StableHlo.reshape main_v392 main_v393 rfl shapeCasts_S1x100_S100,
    StableHlo.unary main_arg0 main_v394 ((extractStridedSlice S4096x1 ![0, 1] · slices_S4096x8_S4096x1_0_1)),
    StableHlo.reshape main_v394 main_v395 rfl shapeCasts_S4096x1_S4096,
    StableHlo.unary main_arg0 main_v396 ((extractStridedSlice S4096x1 ![0, 7] · slices_S4096x8_S4096x1_0_7)),
    StableHlo.reshape main_v396 main_v397 rfl shapeCasts_S4096x1_S4096,
    StableHlo.unary main_arg1 main_v398 ((extractStridedSlice S1x256 ![7, 0] · slices_S8x256_S1x256_7_0)),
    StableHlo.reshape main_v398 main_v399 rfl shapeCasts_S1x256_S256,
    StableHlo.nullary main_c_83 (constantI S_ 32 0#32),
    StableHlo.unary main_c_83 main_v400 (broadcastInDim S4096 ![] bcast_S_S4096),
    StableHlo.binary main_v395 main_v400 main_v401 (cmpi .slt),
    StableHlo.nullary main_c_84 (constantI S_ 32 50001#32),
    StableHlo.unary main_c_84 main_v402 (broadcastInDim S4096 ![] bcast_S_S4096),
    StableHlo.binary main_v395 main_v402 main_v403 (addi),
    StableHlo.ternary main_v401 main_v403 main_v395 main_v404 (select),
    StableHlo.unary main_v404 main_v405 (broadcastInDim S4096x1 ![0] bcast_S4096_S4096x1_0),
    StableHlo.binary main_arg3 main_v405 main_v406 ((fun x i => Host.gather gather_S50001x100_S4096x1_S4096x100_1_0_n_n_0_1_1100 x i)),
    StableHlo.unary main_v393 main_v407 (broadcastInDim S1x100 ![1] bcast_S100_S1x100_1),
    StableHlo.unary main_v407 main_v408 (broadcastInDim S4096x100 ![0, 1] bcast_S1x100_S4096x100_0_1),
    StableHlo.binary main_v406 main_v408 main_v409 (addf),
    StableHlo.nullary main_c_85 (constantI S_ 32 0#32),
    StableHlo.unary main_c_85 main_v410 (broadcastInDim S4096 ![] bcast_S_S4096),
    StableHlo.binary main_v397 main_v410 main_v411 (cmpi .slt),
    StableHlo.nullary main_c_86 (constantI S_ 32 50001#32),
    StableHlo.unary main_c_86 main_v412 (broadcastInDim S4096 ![] bcast_S_S4096),
    StableHlo.binary main_v397 main_v412 main_v413 (addi),
    StableHlo.ternary main_v411 main_v413 main_v397 main_v414 (select),
    StableHlo.unary main_v414 main_v415 (broadcastInDim S4096x1 ![0] bcast_S4096_S4096x1_0),
    StableHlo.binary main_arg7 main_v415 main_v416 ((fun x i => Host.gather gather_S50001x100_S4096x1_S4096x100_1_0_n_n_0_1_1100 x i)),
    StableHlo.nullary main_c_87 (constantI S_ 32 0#32),
    StableHlo.unary main_c_87 main_v417 (broadcastInDim S4096 ![] bcast_S_S4096),
    StableHlo.binary main_v397 main_v417 main_v418 (cmpi .slt),
    StableHlo.nullary main_c_88 (constantI S_ 32 50001#32),
    StableHlo.unary main_c_88 main_v419 (broadcastInDim S4096 ![] bcast_S_S4096),
    StableHlo.binary main_v397 main_v419 main_v420 (addi),
    StableHlo.ternary main_v418 main_v420 main_v397 main_v421 (select),
    StableHlo.unary main_v421 main_v422 (broadcastInDim S4096x1 ![0] bcast_S4096_S4096x1_0),
    StableHlo.binary main_arg16 main_v422 main_v423 ((fun x i => Host.gather gather_S50001_S4096x1_S4096_n_0_n_n_0_1_1 x i)),
    StableHlo.binary main_v409 main_v416 main_v424 (mulf),
    StableHlo.nullary main_cst_89 (constant S_ .f32 0x00000000#32),
    StableHlo.binary main_v424 main_cst_89 main_v425 ((fun x v => Host.reduceAdd x v reducesTo_S4096x100_S4096_d1 h_S_)),
    StableHlo.binary main_v425 main_v423 main_v426 (addf),
    StableHlo.nullary main_c_90 (constantI S_ 32 0#32),
    StableHlo.unary main_c_90 main_v427 (broadcastInDim S256 ![] bcast_S_S256),
    StableHlo.binary main_v399 main_v427 main_v428 (cmpi .slt),
    StableHlo.nullary main_c_91 (constantI S_ 32 50001#32),
    StableHlo.unary main_c_91 main_v429 (broadcastInDim S256 ![] bcast_S_S256),
    StableHlo.binary main_v399 main_v429 main_v430 (addi),
    StableHlo.ternary main_v428 main_v430 main_v399 main_v431 (select),
    StableHlo.unary main_v431 main_v432 (broadcastInDim S256x1 ![0] bcast_S256_S256x1_0),
    StableHlo.binary main_arg7 main_v432 main_v433 ((fun x i => Host.gather gather_S50001x100_S256x1_S256x100_1_0_n_n_0_1_1100 x i)),
    StableHlo.binary main_v409 main_v433 main_v434 ((fun l r => Host.dotGeneral dot_S4096x100_S256x100_S4096x256_1_1_0_0_n_n none l r)),
    StableHlo.unary main_v423 main_v435 (broadcastInDim S4096x1 ![0] bcast_S4096_S4096x1_0),
    StableHlo.unary main_v435 main_v436 (broadcastInDim S4096x256 ![0, 1] bcast_S4096x1_S4096x256_0_1),
    StableHlo.binary main_v434 main_v436 main_v437 (addf),
    StableHlo.TRef.unary (.of main_v426 : StableHlo.TRef sig ⟨S4096, .f32⟩) (.of main_call14_v0 : StableHlo.TRef sig ⟨S4096, .f32⟩) Host.negf,
    StableHlo.TRef.nullary (.of main_call14_call0_cst : StableHlo.TRef sig ⟨S_, .f32⟩) (constant S_ .f32 0x00000000#32),
    StableHlo.TRef.unary (.of main_call14_call0_cst : StableHlo.TRef sig ⟨S_, .f32⟩) (.of main_call14_call0_v0 : StableHlo.TRef sig ⟨S4096, .f32⟩) (broadcastInDim S4096 ![] bcast_S_S4096),
    StableHlo.TRef.binary (.of main_call14_v0 : StableHlo.TRef sig ⟨S4096, .f32⟩) (.of main_call14_call0_v0 : StableHlo.TRef sig ⟨S4096, .f32⟩) (.of main_call14_call0_v1 : StableHlo.TRef sig ⟨S4096, .f32⟩) maximumf,
    StableHlo.TRef.unary (.of main_call14_call0_cst : StableHlo.TRef sig ⟨S_, .f32⟩) (.of main_call14_call0_v2 : StableHlo.TRef sig ⟨S4096, .f32⟩) (broadcastInDim S4096 ![] bcast_S_S4096),
    StableHlo.TRef.binary (.of main_call14_v0 : StableHlo.TRef sig ⟨S4096, .f32⟩) (.of main_call14_call0_v2 : StableHlo.TRef sig ⟨S4096, .f32⟩) (.of main_call14_call0_v3 : StableHlo.TRef sig ⟨S4096, .f32⟩) subf,
    StableHlo.TRef.binary (.of main_call14_call0_v3 : StableHlo.TRef sig ⟨S4096, .f32⟩) (.of main_call14_call0_v3 : StableHlo.TRef sig ⟨S4096, .f32⟩) (.of main_call14_call0_v4 : StableHlo.TRef sig ⟨S4096, .i1⟩) (cmpf .une),
    StableHlo.TRef.unary (.of main_call14_call0_cst : StableHlo.TRef sig ⟨S_, .f32⟩) (.of main_call14_call0_v5 : StableHlo.TRef sig ⟨S4096, .f32⟩) (broadcastInDim S4096 ![] bcast_S_S4096),
    StableHlo.TRef.binary (.of main_call14_v0 : StableHlo.TRef sig ⟨S4096, .f32⟩) (.of main_call14_call0_v5 : StableHlo.TRef sig ⟨S4096, .f32⟩) (.of main_call14_call0_v6 : StableHlo.TRef sig ⟨S4096, .f32⟩) addf,
    StableHlo.TRef.unary (.of main_call14_call0_v3 : StableHlo.TRef sig ⟨S4096, .f32⟩) (.of main_call14_call0_v7 : StableHlo.TRef sig ⟨S4096, .f32⟩) Host.absf,
    StableHlo.TRef.unary (.of main_call14_call0_v7 : StableHlo.TRef sig ⟨S4096, .f32⟩) (.of main_call14_call0_v8 : StableHlo.TRef sig ⟨S4096, .f32⟩) Host.negf,
    StableHlo.TRef.unary (.of main_call14_call0_v8 : StableHlo.TRef sig ⟨S4096, .f32⟩) (.of main_call14_call0_v9 : StableHlo.TRef sig ⟨S4096, .f32⟩) Host.exp,
    StableHlo.TRef.unary (.of main_call14_call0_v9 : StableHlo.TRef sig ⟨S4096, .f32⟩) (.of main_call14_call0_v10 : StableHlo.TRef sig ⟨S4096, .f32⟩) Host.log1p,
    StableHlo.TRef.binary (.of main_call14_call0_v1 : StableHlo.TRef sig ⟨S4096, .f32⟩) (.of main_call14_call0_v10 : StableHlo.TRef sig ⟨S4096, .f32⟩) (.of main_call14_call0_v11 : StableHlo.TRef sig ⟨S4096, .f32⟩) addf,
    StableHlo.TRef.ternary (.of main_call14_call0_v4 : StableHlo.TRef sig ⟨S4096, .i1⟩) (.of main_call14_call0_v6 : StableHlo.TRef sig ⟨S4096, .f32⟩) (.of main_call14_call0_v11 : StableHlo.TRef sig ⟨S4096, .f32⟩) (.of main_call14_v1 : StableHlo.TRef sig ⟨S4096, .f32⟩) select,
    StableHlo.TRef.unary (.of main_call14_v1 : StableHlo.TRef sig ⟨S4096, .f32⟩) (.of main_v438 : StableHlo.TRef sig ⟨S4096, .f32⟩) Host.negf,
    StableHlo.unary main_v438 main_v439 (Host.negf),
    StableHlo.unary main_v437 main_v440 (Host.negf),
    StableHlo.TRef.unary (.of main_v440 : StableHlo.TRef sig ⟨S4096x256, .f32⟩) (.of main_call15_v0 : StableHlo.TRef sig ⟨S4096x256, .f32⟩) Host.negf,
    StableHlo.TRef.nullary (.of main_call15_call0_cst : StableHlo.TRef sig ⟨S_, .f32⟩) (constant S_ .f32 0x00000000#32),
    StableHlo.TRef.unary (.of main_call15_call0_cst : StableHlo.TRef sig ⟨S_, .f32⟩) (.of main_call15_call0_v0 : StableHlo.TRef sig ⟨S4096x256, .f32⟩) (broadcastInDim S4096x256 ![] bcast_S_S4096x256),
    StableHlo.TRef.binary (.of main_call15_v0 : StableHlo.TRef sig ⟨S4096x256, .f32⟩) (.of main_call15_call0_v0 : StableHlo.TRef sig ⟨S4096x256, .f32⟩) (.of main_call15_call0_v1 : StableHlo.TRef sig ⟨S4096x256, .f32⟩) maximumf,
    StableHlo.TRef.unary (.of main_call15_call0_cst : StableHlo.TRef sig ⟨S_, .f32⟩) (.of main_call15_call0_v2 : StableHlo.TRef sig ⟨S4096x256, .f32⟩) (broadcastInDim S4096x256 ![] bcast_S_S4096x256),
    StableHlo.TRef.binary (.of main_call15_v0 : StableHlo.TRef sig ⟨S4096x256, .f32⟩) (.of main_call15_call0_v2 : StableHlo.TRef sig ⟨S4096x256, .f32⟩) (.of main_call15_call0_v3 : StableHlo.TRef sig ⟨S4096x256, .f32⟩) subf,
    StableHlo.TRef.binary (.of main_call15_call0_v3 : StableHlo.TRef sig ⟨S4096x256, .f32⟩) (.of main_call15_call0_v3 : StableHlo.TRef sig ⟨S4096x256, .f32⟩) (.of main_call15_call0_v4 : StableHlo.TRef sig ⟨S4096x256, .i1⟩) (cmpf .une),
    StableHlo.TRef.unary (.of main_call15_call0_cst : StableHlo.TRef sig ⟨S_, .f32⟩) (.of main_call15_call0_v5 : StableHlo.TRef sig ⟨S4096x256, .f32⟩) (broadcastInDim S4096x256 ![] bcast_S_S4096x256),
    StableHlo.TRef.binary (.of main_call15_v0 : StableHlo.TRef sig ⟨S4096x256, .f32⟩) (.of main_call15_call0_v5 : StableHlo.TRef sig ⟨S4096x256, .f32⟩) (.of main_call15_call0_v6 : StableHlo.TRef sig ⟨S4096x256, .f32⟩) addf,
    StableHlo.TRef.unary (.of main_call15_call0_v3 : StableHlo.TRef sig ⟨S4096x256, .f32⟩) (.of main_call15_call0_v7 : StableHlo.TRef sig ⟨S4096x256, .f32⟩) Host.absf,
    StableHlo.TRef.unary (.of main_call15_call0_v7 : StableHlo.TRef sig ⟨S4096x256, .f32⟩) (.of main_call15_call0_v8 : StableHlo.TRef sig ⟨S4096x256, .f32⟩) Host.negf,
    StableHlo.TRef.unary (.of main_call15_call0_v8 : StableHlo.TRef sig ⟨S4096x256, .f32⟩) (.of main_call15_call0_v9 : StableHlo.TRef sig ⟨S4096x256, .f32⟩) Host.exp,
    StableHlo.TRef.unary (.of main_call15_call0_v9 : StableHlo.TRef sig ⟨S4096x256, .f32⟩) (.of main_call15_call0_v10 : StableHlo.TRef sig ⟨S4096x256, .f32⟩) Host.log1p,
    StableHlo.TRef.binary (.of main_call15_call0_v1 : StableHlo.TRef sig ⟨S4096x256, .f32⟩) (.of main_call15_call0_v10 : StableHlo.TRef sig ⟨S4096x256, .f32⟩) (.of main_call15_call0_v11 : StableHlo.TRef sig ⟨S4096x256, .f32⟩) addf,
    StableHlo.TRef.ternary (.of main_call15_call0_v4 : StableHlo.TRef sig ⟨S4096x256, .i1⟩) (.of main_call15_call0_v6 : StableHlo.TRef sig ⟨S4096x256, .f32⟩) (.of main_call15_call0_v11 : StableHlo.TRef sig ⟨S4096x256, .f32⟩) (.of main_call15_v1 : StableHlo.TRef sig ⟨S4096x256, .f32⟩) select,
    StableHlo.TRef.unary (.of main_call15_v1 : StableHlo.TRef sig ⟨S4096x256, .f32⟩) (.of main_v441 : StableHlo.TRef sig ⟨S4096x256, .f32⟩) Host.negf,
    StableHlo.nullary main_cst_92 (constant S_ .f32 0x00000000#32),
    StableHlo.binary main_v441 main_cst_92 main_v442 ((fun x v => Host.reduceAdd x v reducesTo_S4096x256_S4096_d1 h_S_)),
    StableHlo.unary main_v442 main_v443 (Host.negf),
    StableHlo.binary main_v439 main_v443 main_v444 (addf),
    StableHlo.nullary main_cst_93 (constant S_ .f32 0x00000000#32),
    StableHlo.binary main_v444 main_cst_93 main_v445 ((fun x v => Host.reduceAdd x v reducesTo_S4096_S_d0 h_S_)),
    StableHlo.nullary main_cst_94 (constant S_ .f32 0x45800000#32),
    StableHlo.binary main_v445 main_cst_94 main_v446 (Host.divf),
    StableHlo.binary main_v391 main_v446 main_v447 (addf) ]

abbrev W_7 : List (Ref sig .tc) :=
  [main_v392, main_v393, main_v394, main_v395, main_v396, main_v397, main_v398, main_v399, main_c_83, main_v400, main_v401, main_c_84, main_v402, main_v403, main_v404, main_v405, main_v406, main_v407, main_v408, main_v409, main_c_85, main_v410, main_v411, main_c_86, main_v412, main_v413, main_v414, main_v415, main_v416, main_c_87, main_v417, main_v418, main_c_88, main_v419, main_v420, main_v421, main_v422, main_v423, main_v424, main_cst_89, main_v425, main_v426, main_c_90, main_v427, main_v428, main_c_91, main_v429, main_v430, main_v431, main_v432, main_v433, main_v434, main_v435, main_v436, main_v437, main_call14_v0, main_call14_call0_cst, main_call14_call0_v0, main_call14_call0_v1, main_call14_call0_v2, main_call14_call0_v3, main_call14_call0_v4, main_call14_call0_v5, main_call14_call0_v6, main_call14_call0_v7, main_call14_call0_v8, main_call14_call0_v9, main_call14_call0_v10, main_call14_call0_v11, main_call14_v1, main_v438, main_v439, main_v440, main_call15_v0, main_call15_call0_cst, main_call15_call0_v0, main_call15_call0_v1, main_call15_call0_v2, main_call15_call0_v3, main_call15_call0_v4, main_call15_call0_v5, main_call15_call0_v6, main_call15_call0_v7, main_call15_call0_v8, main_call15_call0_v9, main_call15_call0_v10, main_call15_call0_v11, main_call15_v1, main_v441, main_cst_92, main_v442, main_v443, main_v444, main_cst_93, main_v445, main_cst_94, main_v446, main_v447]

theorem opsRel_7_sub : (opsRel_7 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩

/-- All 785 operations: the eight relations one after the other. -/
abbrev ops : List (HloOp τ sig (Elt F)) :=
  opsRel_0 ++ (opsRel_1 ++ (opsRel_2 ++ (opsRel_3 ++ (opsRel_4 ++ (opsRel_5 ++ (opsRel_6 ++ (opsRel_7)))))))

end Cert.ReferenceIdeal.Hand

end
-- ==== Proof.RI.Run.lean ====
import proofs.«400362_j8907762172017_2_alg».proof.Proof.RI.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A line from its `a`-th operation on is its next `n` operations run, then the line from the `b`-th on. -/
theorem seq_cut {Λ : Labels} (a n b : ℕ) (h : a + n = b) (l : List (HloOp τ sig (Elt F))) :
    (seq (l.drop a) : Prog (TpuEff nD τ sig (Elt F) Λ .tc) PUnit)
      = seq ((l.drop a).take n) >>= fun _ => seq (l.drop b) := by
  subst h
  rw [← seq_append, ← List.drop_drop, List.take_append_drop]

set_option maxRecDepth 8192 in
theorem part0_eq (c : Dev nD) : main_part0 (F := F) c = seq ((ops.drop 0).take 90) := rfl
set_option maxRecDepth 8192 in
theorem part1_eq (c : Dev nD) : main_part1 (F := F) c = seq ((ops.drop 90).take 60) := rfl
set_option maxRecDepth 8192 in
theorem part2_eq (c : Dev nD) : main_part2 (F := F) c = seq ((ops.drop 150).take 90) := rfl
set_option maxRecDepth 8192 in
theorem part3_eq (c : Dev nD) : main_part3 (F := F) c = seq ((ops.drop 240).take 90) := rfl
set_option maxRecDepth 8192 in
theorem part4_eq (c : Dev nD) : main_part4 (F := F) c = seq ((ops.drop 330).take 90) := rfl
set_option maxRecDepth 8192 in
theorem part5_eq (c : Dev nD) : main_part5 (F := F) c = seq ((ops.drop 420).take 90) := rfl
set_option maxRecDepth 8192 in
theorem part6_eq (c : Dev nD) : main_part6 (F := F) c = seq ((ops.drop 510).take 90) := rfl
set_option maxRecDepth 8192 in
theorem part7_eq (c : Dev nD) : main_part7 (F := F) c = seq ((ops.drop 600).take 90) := rfl
set_option maxRecDepth 8192 in
theorem part8_eq (c : Dev nD) : main_part8 (F := F) c = seq ((ops.drop 690).take 90) := rfl
set_option maxRecDepth 8192 in
theorem part9_eq (c : Dev nD) : main_part9 (F := F) c = seq (ops.drop 780) := rfl

/-- @main runs its ten windows in order, and window k is operations aₖ … aₖ + nₖ - 1 of the one list. -/
theorem main_eq (c : Dev nD) : main (F := F) c = seq ops := by
  show _ = seq (ops.drop 0)
  rw [seq_cut 0 90 90 rfl, seq_cut 90 60 150 rfl, seq_cut 150 90 240 rfl, seq_cut 240 90 330 rfl, seq_cut 330 90 420 rfl,
    seq_cut 420 90 510 rfl, seq_cut 510 90 600 rfl, seq_cut 600 90 690 rfl, seq_cut 690 90 780 rfl,
    ← part0_eq c, ← part1_eq c, ← part2_eq c, ← part3_eq c, ← part4_eq c, ← part5_eq c, ← part6_eq c,
    ← part7_eq c, ← part8_eq c, ← part9_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsRel_0_sub, List.forall_append.mpr ⟨opsRel_1_sub, List.forall_append.mpr ⟨opsRel_2_sub,
    List.forall_append.mpr ⟨opsRel_3_sub, List.forall_append.mpr ⟨opsRel_4_sub, List.forall_append.mpr ⟨opsRel_5_sub,
    List.forall_append.mpr ⟨opsRel_6_sub, opsRel_7_sub⟩⟩⟩⟩⟩⟩⟩

/-- No operation only allocates: each determines its result. -/
theorem ops_fresh : ∀ op ∈ (ops : List (HloOp τ sig (Elt F))), op.fresh = ∅ := by
  rw [← List.forall_iff_forall_mem]
  simp only [ops, List.forall_append, List.Forall]
  repeat' constructor

/-- Every execution ends with each buffer at the fold of the 785 operations over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem writes_sub_of {op : HloOp τ sig (Elt F)} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

theorem writes_0 : (opsRel_0 : List (HloOp τ sig (Elt F))).Forall fun op =>
    op.writes ⊆ ((W_0).map (Proc.devRef (τ := τ) .tc)).toFinset := by
  simp only [List.Forall]; repeat' apply And.intro
  all_goals exact writes_sub_of rfl (by decide)
theorem writes_1 : (opsRel_1 : List (HloOp τ sig (Elt F))).Forall fun op =>
    op.writes ⊆ ((W_1).map (Proc.devRef (τ := τ) .tc)).toFinset := by
  simp only [List.Forall]; repeat' apply And.intro
  all_goals exact writes_sub_of rfl (by decide)
theorem writes_2 : (opsRel_2 : List (HloOp τ sig (Elt F))).Forall fun op =>
    op.writes ⊆ ((W_2).map (Proc.devRef (τ := τ) .tc)).toFinset := by
  simp only [List.Forall]; repeat' apply And.intro
  all_goals exact writes_sub_of rfl (by decide)
theorem writes_3 : (opsRel_3 : List (HloOp τ sig (Elt F))).Forall fun op =>
    op.writes ⊆ ((W_3).map (Proc.devRef (τ := τ) .tc)).toFinset := by
  simp only [List.Forall]; repeat' apply And.intro
  all_goals exact writes_sub_of rfl (by decide)
theorem writes_4 : (opsRel_4 : List (HloOp τ sig (Elt F))).Forall fun op =>
    op.writes ⊆ ((W_4).map (Proc.devRef (τ := τ) .tc)).toFinset := by
  simp only [List.Forall]; repeat' apply And.intro
  all_goals exact writes_sub_of rfl (by decide)
theorem writes_5 : (opsRel_5 : List (HloOp τ sig (Elt F))).Forall fun op =>
    op.writes ⊆ ((W_5).map (Proc.devRef (τ := τ) .tc)).toFinset := by
  simp only [List.Forall]; repeat' apply And.intro
  all_goals exact writes_sub_of rfl (by decide)
theorem writes_6 : (opsRel_6 : List (HloOp τ sig (Elt F))).Forall fun op =>
    op.writes ⊆ ((W_6).map (Proc.devRef (τ := τ) .tc)).toFinset := by
  simp only [List.Forall]; repeat' apply And.intro
  all_goals exact writes_sub_of rfl (by decide)
theorem writes_7 : (opsRel_7 : List (HloOp τ sig (Elt F))).Forall fun op =>
    op.writes ⊆ ((W_7).map (Proc.devRef (τ := τ) .tc)).toFinset := by
  simp only [List.Forall]; repeat' apply And.intro
  all_goals exact writes_sub_of rfl (by decide)

/-- A reference no relation writes keeps its launch contents through the whole line. -/
theorem kept_of {r : Ref sig .tc} (h : r ∉ W_0 ++ (W_1 ++ (W_2 ++ (W_3 ++ (W_4 ++ (W_5 ++ (W_6 ++ (W_7))))))))
    (V : Valuation τ sig (Elt F)) : after ops V (Proc.devRef .tc r) = V (Proc.devRef .tc r) := by
  simp only [List.mem_append, not_or] at h
  obtain ⟨h0, h1, h2, h3, h4, h5, h6, h7⟩ := h
  simp only [ops, StableHlo.after_append]
  rw [after_of_writes_sub opsRel_7 _ writes_7 h7, after_of_writes_sub opsRel_6 _ writes_6 h6,
    after_of_writes_sub opsRel_5 _ writes_5 h5, after_of_writes_sub opsRel_4 _ writes_4 h4,
    after_of_writes_sub opsRel_3 _ writes_3 h3, after_of_writes_sub opsRel_2 _ writes_2 h2,
    after_of_writes_sub opsRel_1 _ writes_1 h1, after_of_writes_sub opsRel_0 _ writes_0 h0]

theorem kept_arg0 (V : Valuation τ sig (Elt F)) :
    after ops V (Proc.devRef .tc main_arg0) = V (Proc.devRef .tc main_arg0) := kept_of (by decide) V
theorem kept_arg1 (V : Valuation τ sig (Elt F)) :
    after ops V (Proc.devRef .tc main_arg1) = V (Proc.devRef .tc main_arg1) := kept_of (by decide) V
theorem kept_arg2 (V : Valuation τ sig (Elt F)) :
    after ops V (Proc.devRef .tc main_arg2) = V (Proc.devRef .tc main_arg2) := kept_of (by decide) V
theorem kept_arg3 (V : Valuation τ sig (Elt F)) :
    after ops V (Proc.devRef .tc main_arg3) = V (Proc.devRef .tc main_arg3) := kept_of (by decide) V
theorem kept_arg4 (V : Valuation τ sig (Elt F)) :
    after ops V (Proc.devRef .tc main_arg4) = V (Proc.devRef .tc main_arg4) := kept_of (by decide) V
theorem kept_arg5 (V : Valuation τ sig (Elt F)) :
    after ops V (Proc.devRef .tc main_arg5) = V (Proc.devRef .tc main_arg5) := kept_of (by decide) V
theorem kept_arg6 (V : Valuation τ sig (Elt F)) :
    after ops V (Proc.devRef .tc main_arg6) = V (Proc.devRef .tc main_arg6) := kept_of (by decide) V
theorem kept_arg7 (V : Valuation τ sig (Elt F)) :
    after ops V (Proc.devRef .tc main_arg7) = V (Proc.devRef .tc main_arg7) := kept_of (by decide) V
theorem kept_arg8 (V : Valuation τ sig (Elt F)) :
    after ops V (Proc.devRef .tc main_arg8) = V (Proc.devRef .tc main_arg8) := kept_of (by decide) V
theorem kept_arg9 (V : Valuation τ sig (Elt F)) :
    after ops V (Proc.devRef .tc main_arg9) = V (Proc.devRef .tc main_arg9) := kept_of (by decide) V
theorem kept_arg10 (V : Valuation τ sig (Elt F)) :
    after ops V (Proc.devRef .tc main_arg10) = V (Proc.devRef .tc main_arg10) := kept_of (by decide) V
theorem kept_arg11 (V : Valuation τ sig (Elt F)) :
    after ops V (Proc.devRef .tc main_arg11) = V (Proc.devRef .tc main_arg11) := kept_of (by decide) V
theorem kept_arg12 (V : Valuation τ sig (Elt F)) :
    after ops V (Proc.devRef .tc main_arg12) = V (Proc.devRef .tc main_arg12) := kept_of (by decide) V
theorem kept_arg13 (V : Valuation τ sig (Elt F)) :
    after ops V (Proc.devRef .tc main_arg13) = V (Proc.devRef .tc main_arg13) := kept_of (by decide) V
theorem kept_arg14 (V : Valuation τ sig (Elt F)) :
    after ops V (Proc.devRef .tc main_arg14) = V (Proc.devRef .tc main_arg14) := kept_of (by decide) V
theorem kept_arg15 (V : Valuation τ sig (Elt F)) :
    after ops V (Proc.devRef .tc main_arg15) = V (Proc.devRef .tc main_arg15) := kept_of (by decide) V
theorem kept_arg16 (V : Valuation τ sig (Elt F)) :
    after ops V (Proc.devRef .tc main_arg16) = V (Proc.devRef .tc main_arg16) := kept_of (by decide) V

theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _)⟩)
    (run m g)

end Cert.ReferenceIdeal.Hand

end
-- ==== Proof.Spec.lean ====
import Idealize.ShloMosaic.PureOps.Ideal
import Idealize.ShloMosaic.Lib.ValueIdx

noncomputable section

open scoped BigOperators

namespace Cert.Spec

open Idealize.ShloMosaic

/-- Softplus written as max x 0 + log(1 + exp(-|x|)), the form both programs spell. -/
def sp (x : EReal) : EReal := max x 0 + Ideal.log1p (Ideal.exp (-(max x (-x))))

/-- Row b's score against its own tail: ⟨head b + relation, tail b⟩ + bias b. -/
def pos {ι : Type} (hv tv : ι → Fin 100 → EReal) (rv : Fin 100 → EReal) (bi : ι → EReal) (b : ι) : EReal :=
  (∑ e : Fin 100, (hv b e + rv e) * tv b e) + bi b

/-- Row b's score against negative sample n, with the same head, relation and bias. -/
def neg {ι : Type} (hv : ι → Fin 100 → EReal) (rv : Fin 100 → EReal) (bi : ι → EReal) (nv : Fin 256 → Fin 100 → EReal)
    (b : ι) (n : Fin 256) : EReal :=
  (∑ e : Fin 100, (hv b e + rv e) * nv n e) + bi b

/-- Row b's negative-sampling loss: softplus(-pos b) - ∑ₙ -softplus(neg b n). -/
def rowLoss {ι : Type} (hv tv : ι → Fin 100 → EReal) (rv : Fin 100 → EReal) (bi : ι → EReal)
    (nv : Fin 256 → Fin 100 → EReal) (b : ι) : EReal :=
  sp (-(pos hv tv rv bi b)) + -(∑ n : Fin 256, -(sp (neg hv rv bi nv b n)))

end Cert.Spec

end
-- ==== Proof.KIPayload.lean ====
import proofs.«400362_j8907762172017_2_alg».proof.Proof.Gen.KernelIdeal.Skeleton
import proofs.«400362_j8907762172017_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Pay

open Idealize.ShloMosaic Idealize.ShloMosaic.ValueIdx Cert.KernelIdeal Cert.KernelIdeal.Gen

theorem pay1_apply (x2 : Vec Ideal S1x1x2048 .f32) (p : Fin 2048) :
    Gen.k0_pay1 x2 (ix2 p (0 : Fin 1)) = x2 (ix3 (0 : Fin 1) (0 : Fin 1) p) := by
  unfold Gen.k0_pay1
  refine (transpose_ix2_apply _ _ p (0 : Fin 1)).trans ?_
  exact shapeCast_1ab_ab_apply x2 _ (0 : Fin 1) p

theorem pay2_apply (x0 : Vec Ideal S1x2048x100 .f32) (x3 : Vec Ideal S1x1x100 .f32) (p : Fin 2048) (e : Fin 100) :
    Gen.k0_pay2 x0 x3 (ix2 p e) = x0 (ix3 (0 : Fin 1) p e) + x3 (ix3 (0 : Fin 1) (0 : Fin 1) e) := by
  unfold Gen.k0_pay2
  show shapeCast S2048x100 x0 _ (ix2 p e) + broadcastTo S2048x100 (shapeCast S1x100 x3 _) _ (ix2 p e) = _
  rw [shapeCast_1ab_ab_apply x0 _ p e, broadcastTo_1b_ab_apply _ _ p e, shapeCast_1ab_ab_apply x3 _ (0 : Fin 1) e]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem laneSum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (p : Fin n) :
    multiReduction .add [1] ⟨1, ![n]⟩ src 0x00000000#32 h hφ hacc (ix1 p) = ∑ k : Fin m, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

theorem rowSum_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ p : Fin n, src (ix2 p u) := by
  refine (Ideal.multiReduction_add_single src 0x00000000#32 h hφ hacc (ix1 u)).trans ?_
  refine Finset.sum_congr rfl fun k _ => congrArg src ?_
  funext c
  apply Fin.ext
  match c with
  | ⟨0, _⟩ => rfl
  | ⟨1, _⟩ => rfl

theorem idx111 (j : S1x1x1.Idx) : j = ix3 (0 : Fin 1) (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

theorem cmp_one_self (x : EReal) : FloatOps.cmpf (F := Ideal) (φ := .f32) .one x x = 0#1 := by
  show Ideal.cmp .one x x = 0#1
  simp [Ideal.cmp]

/-- The body's guarded softplus is sp: on the extended reals the guard x ≠ x never holds. -/
theorem softplus_chain (y : EReal) :
    Scalar.select (FloatOps.cmpf (F := Ideal) (φ := .f32) .one (y - Ideal.ofBits .f32 0x00000000#32) (y - Ideal.ofBits .f32 0x00000000#32))
        (y + Ideal.ofBits .f32 0x00000000#32)
        (max y (Ideal.ofBits .f32 0x00000000#32)
          + Ideal.log1p (Ideal.exp (Ideal.ofBits .f32 0x00000000#32
              - max (y - Ideal.ofBits .f32 0x00000000#32) (-(y - Ideal.ofBits .f32 0x00000000#32)))))
      = Cert.Spec.sp y := by
  rw [cmp_one_self, select_zero, Ideal.ofBits_zero_f32, sub_zero, zero_sub]
  rfl

theorem softplusVec_apply {s : Shape} (y : FVec Ideal s .f32) (i : s.Idx) :
    select (cmpf .one (subf y (broadcast s (Scalar.ofBits .f32 0x00000000#32))) (subf y (broadcast s (Scalar.ofBits .f32 0x00000000#32))))
        (addf y (broadcast s (Scalar.ofBits .f32 0x00000000#32)))
        (addf (maximumf y (broadcast s (Scalar.ofBits .f32 0x00000000#32)))
          (log1p (exp (subf (broadcast s (Scalar.ofBits .f32 0x00000000#32))
            (absf (subf y (broadcast s (Scalar.ofBits .f32 0x00000000#32))))))))
        i
      = Cert.Spec.sp (y i) :=
  softplus_chain (y i)

abbrev DD := dot_S2048x100_S256x100_S2048x256_1_1_0_0_n_n

theorem lhs_DD_0 (j : S2048x256.Idx) (k : DD.contr.Idx) : (DD.lhsIdx j k 0 : ℕ) = j 0 := by
  simp [DotDims.lhsIdx, DD, dot_S2048x100_S256x100_S2048x256_1_1_0_0_n_n]; rfl
theorem lhs_DD_1 (j : S2048x256.Idx) (k : DD.contr.Idx) : (DD.lhsIdx j k 1 : ℕ) = k ⟨0, by decide⟩ := by
  simp [DotDims.lhsIdx, DD, dot_S2048x100_S256x100_S2048x256_1_1_0_0_n_n]; rfl
theorem rhs_DD_0 (j : S2048x256.Idx) (k : DD.contr.Idx) : (DD.rhsIdx j k 0 : ℕ) = j 1 := by
  simp [DotDims.rhsIdx, DD, dot_S2048x100_S256x100_S2048x256_1_1_0_0_n_n]; rfl
theorem rhs_DD_1 (j : S2048x256.Idx) (k : DD.contr.Idx) : (DD.rhsIdx j k 1 : ℕ) = k ⟨0, by decide⟩ := by
  simp [DotDims.rhsIdx, DD, dot_S2048x100_S256x100_S2048x256_1_1_0_0_n_n]; rfl

theorem pay3_apply (x0 : Vec Ideal S1x2048x100 .f32) (x2 : Vec Ideal S1x1x2048 .f32) (x3 : Vec Ideal S1x1x100 .f32)
    (x4 : Vec Ideal S1x256x100 .f32) (p : Fin 2048) (n : Fin 256) :
    Gen.k0_pay3 x0 x2 x3 x4 (ix2 p n)
      = Cert.Spec.neg (fun p e => x0 (ix3 (0 : Fin 1) p e)) (fun e => x3 (ix3 (0 : Fin 1) (0 : Fin 1) e))
          (fun p => x2 (ix3 (0 : Fin 1) (0 : Fin 1) p)) (fun n e => x4 (ix3 (0 : Fin 1) n e)) p n := by
  unfold Gen.k0_pay3 Cert.Spec.neg
  refine congrArg₂ (· + ·) ?_ ((broadcastTo_a1_ab_apply _ _ p n).trans (pay1_apply x2 p))
  refine (Ideal.matmul_constant_zero_apply DD none _ _ (ix2 p n)).trans ?_
  refine (Equiv.sum_comp (contrEquiv1 DD 100 rfl rfl).symm _).symm.trans ?_
  refine Finset.sum_congr rfl fun e _ => ?_
  have hl : DD.lhsIdx (ix2 p n) ((contrEquiv1 DD 100 rfl rfl).symm e) = ix2 p e :=
    Shape.idx_ext₂ (lhs_DD_0 _ _) ((lhs_DD_1 _ _).trans (contrEquiv1_symm_val DD 100 rfl rfl e))
  have hr : DD.rhsIdx (ix2 p n) ((contrEquiv1 DD 100 rfl rfl).symm e) = ix2 n e :=
    Shape.idx_ext₂ (rhs_DD_0 _ _) ((rhs_DD_1 _ _).trans (contrEquiv1_symm_val DD 100 rfl rfl e))
  show Gen.k0_pay2 x0 x3 (DD.lhsIdx (ix2 p n) ((contrEquiv1 DD 100 rfl rfl).symm e))
      * shapeCast S256x100 x4 _ (DD.rhsIdx (ix2 p n) ((contrEquiv1 DD 100 rfl rfl).symm e)) = _
  rw [hl, hr, pay2_apply, shapeCast_1ab_ab_apply x4 _ n e]

theorem pay4_apply (x0 x1 : Vec Ideal S1x2048x100 .f32) (x2 : Vec Ideal S1x1x2048 .f32) (x3 : Vec Ideal S1x1x100 .f32)
    (p : Fin 2048) :
    Gen.k0_pay4 x0 x1 x2 x3 (ix2 p (0 : Fin 1))
      = Cert.Spec.sp (-(Cert.Spec.pos (fun p e => x0 (ix3 (0 : Fin 1) p e)) (fun p e => x1 (ix3 (0 : Fin 1) p e))
          (fun e => x3 (ix3 (0 : Fin 1) (0 : Fin 1) e)) (fun p => x2 (ix3 (0 : Fin 1) (0 : Fin 1) p)) p)) := by
  unfold Gen.k0_pay4
  refine (softplusVec_apply _ (ix2 p (0 : Fin 1))).trans (congrArg Cert.Spec.sp ?_)
  show Ideal.ofBits .f32 0x00000000#32
      - (shapeCast S2048x1 _ _ (ix2 p (0 : Fin 1)) + Gen.k0_pay1 x2 (ix2 p (0 : Fin 1))) = _
  rw [Ideal.ofBits_zero_f32, zero_sub]
  refine congrArg Neg.neg ?_
  unfold Cert.Spec.pos
  refine congrArg₂ (· + ·) ?_ (pay1_apply x2 p)
  refine (shapeCast_a_a1_apply _ _ p (0 : Fin 1)).trans ?_
  refine (laneSum_apply _ _ _ _ p).trans ?_
  refine Finset.sum_congr rfl fun e _ => ?_
  show Gen.k0_pay2 x0 x3 (ix2 p e) * shapeCast S2048x100 x1 _ (ix2 p e) = _
  rw [pay2_apply, shapeCast_1ab_ab_apply x1 _ p e]

theorem pay5_eq (j : S1x1x1.Idx) : Gen.k0_pay5 (F := Ideal) j = 0 := by
  rw [idx111 j]
  unfold Gen.k0_pay5
  refine (shapeCast_ab_1ab_apply _ _ (0 : Fin 1) (0 : Fin 1) (0 : Fin 1)).trans ?_
  exact Ideal.ofBits_zero_f32

theorem pay6_apply (v21 : FVec Ideal S2048x256 .f32) (v37 : FVec Ideal S2048x1 .f32) (xo : Vec Ideal S1x1x1 .f32)
    (j : S1x1x1.Idx) :
    Gen.k0_pay6 v21 v37 xo j
      = xo (ix3 (0 : Fin 1) (0 : Fin 1) (0 : Fin 1))
        + ∑ p : Fin 2048, (v37 (ix2 p (0 : Fin 1)) + -(∑ n : Fin 256, -(Cert.Spec.sp (v21 (ix2 p n))))) := by
  rw [idx111 j]
  unfold Gen.k0_pay6
  refine (shapeCast_ab_1ab_apply _ _ (0 : Fin 1) (0 : Fin 1) (0 : Fin 1)).trans ?_
  refine congrArg₂ (· + ·) (shapeCast_1ab_ab_apply xo _ (0 : Fin 1) (0 : Fin 1)) ?_
  refine (shapeCast_a_1a_apply _ _ (0 : Fin 1) (0 : Fin 1)).trans ?_
  refine (rowSum_apply _ _ _ _ (0 : Fin 1)).trans ?_
  refine Finset.sum_congr rfl fun p _ => ?_
  show (Ideal.ofBits .f32 0x00000000#32 - (Ideal.ofBits .f32 0x00000000#32 - v37 (ix2 p (0 : Fin 1))))
      + (Ideal.ofBits .f32 0x00000000#32 - shapeCast S2048x1 _ _ (ix2 p (0 : Fin 1))) = _
  rw [Ideal.ofBits_zero_f32, zero_sub, zero_sub, zero_sub, neg_neg]
  refine congrArg (v37 (ix2 p (0 : Fin 1)) + -·) ?_
  refine (shapeCast_a_a1_apply _ _ p (0 : Fin 1)).trans ?_
  refine (laneSum_apply _ _ _ _ p).trans ?_
  refine Finset.sum_congr rfl fun n _ => ?_
  show Ideal.ofBits .f32 0x00000000#32 - select _ _ _ (ix2 p n) = _
  rw [Ideal.ofBits_zero_f32, zero_sub]
  refine congrArg Neg.neg ?_
  refine (softplusVec_apply _ (ix2 p n)).trans (congrArg Cert.Spec.sp ?_)
  show Ideal.ofBits .f32 0x00000000#32 - (Ideal.ofBits .f32 0x00000000#32 - v21 (ix2 p n)) = _
  rw [Ideal.ofBits_zero_f32, zero_sub, zero_sub, neg_neg]

/-- The body adds to the running total the sum over the tile's 2048 rows of the row loss. -/
theorem pay_eq (x0 x1 : Vec Ideal S1x2048x100 .f32) (x2 : Vec Ideal S1x1x2048 .f32) (x3 : Vec Ideal S1x1x100 .f32)
    (x4 : Vec Ideal S1x256x100 .f32) (xo : Vec Ideal S1x1x1 .f32) (j : S1x1x1.Idx) :
    Gen.k0_pay6 (F := Ideal) (Gen.k0_pay3 x0 x2 x3 x4) (Gen.k0_pay4 x0 x1 x2 x3) xo j
      = xo (ix3 0 0 0)
        + ∑ p : Fin 2048, Cert.Spec.rowLoss (fun p e => x0 (ix3 0 p e)) (fun p e => x1 (ix3 0 p e))
            (fun e => x3 (ix3 0 0 e)) (fun p => x2 (ix3 0 0 p)) (fun n e => x4 (ix3 0 n e)) p := by
  refine (pay6_apply _ _ xo j).trans ?_
  refine congrArg (xo (ix3 (0 : Fin 1) (0 : Fin 1) (0 : Fin 1)) + ·) (Finset.sum_congr rfl fun p _ => ?_)
  unfold Cert.Spec.rowLoss
  rw [pay4_apply]
  refine congrArg (_ + -·) (Finset.sum_congr rfl fun n _ => ?_)
  rw [pay3_apply]

end Cert.KernelIdeal.Pay

end
-- ==== Proof.KITile.lean ====
import proofs.«400362_j8907762172017_2_alg».proof.Proof.KIFrame.Runs
import proofs.«400362_j8907762172017_2_alg».proof.Proof.Spec
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- One grid point's contribution: the sum of the row losses of the 2048 rows in its blocks. -/
def tile (c : Dev nD) (t : Fin cfg0.N) : EReal :=
  ∑ p : Fin 2048, Cert.Spec.rowLoss
    (fun (p : Fin 2048) (e : Fin 100) => (iblk m c 0 t (ix3 (0 : Fin 1) p e) : EReal))
    (fun (p : Fin 2048) (e : Fin 100) => (iblk m c 1 t (ix3 (0 : Fin 1) p e) : EReal))
    (fun (e : Fin 100) => (iblk m c 3 t (ix3 (0 : Fin 1) (0 : Fin 1) e) : EReal))
    (fun (p : Fin 2048) => (iblk m c 2 t (ix3 (0 : Fin 1) (0 : Fin 1) p) : EReal))
    (fun (n : Fin 256) (e : Fin 100) => (iblk m c 4 t (ix3 (0 : Fin 1) n e) : EReal)) p

end Cert.KernelIdeal.Fr
-- ==== Proof.KIValue.lean ====
import proofs.«400362_j8907762172017_2_alg».proof.Proof.KIFrame.Frame
import proofs.«400362_j8907762172017_2_alg».proof.Proof.KIPayload
import proofs.«400362_j8907762172017_2_alg».proof.Proof.KITile
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Pieces

variable {F : FTy → Type} [FloatOps F]

theorem hz3 : (![0, 0, 0] : Fin 3 → Nat) = fun _ => 0 := funext fun a => by fin_cases a <;> rfl

theorem out_B (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : ¬cond0_0 i)
    (x0 : Vec F S1x2048x100 .f32) (x1 : Vec F S1x2048x100 .f32) (x2 : Vec F S1x1x2048 .f32) (x3 : Vec F S1x1x100 .f32) (x4 : Vec F S1x256x100 .f32) (xo5 : Vec F S1x1x1 .f32) :
    out0_B_5 c i arg2 harg2 arg3 harg3 arg4 harg4 arg5 harg5 arg6 harg6 arg7 harg7 hc0 x0 x1 x2 x3 x4 xo5
      = k0_pay6 (k0_pay3 x0 x2 x3 x4) (k0_pay4 x0 x1 x2 x3) xo5 := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero (S := S1x1x1) hz3]
  simp only [View.readAt_eq_ld, harg2.read_unread, harg3.read_unread, harg4.read_unread, harg5.read_unread,
    harg6.read_unread, harg7.read_unread, View.ld_unit_zero (S := S1x2048x100) hz3, View.ld_unit_zero (S := S1x1x2048) hz3,
    View.ld_unit_zero (S := S1x1x100) hz3, View.ld_unit_zero (S := S1x256x100) hz3, View.ld_unit_zero (S := S1x1x1) hz3]

theorem out_A (c : Dev nD) (i : grid0.Coords) (arg2 : Memref sig .tc .vmem S1x2048x100 .f32) (harg2 : arg2.IsWhole) (arg3 : Memref sig .tc .vmem S1x2048x100 .f32) (harg3 : arg3.IsWhole) (arg4 : Memref sig .tc .vmem S1x1x2048 .f32) (harg4 : arg4.IsWhole) (arg5 : Memref sig .tc .vmem S1x1x100 .f32) (harg5 : arg5.IsWhole) (arg6 : Memref sig .tc .vmem S1x256x100 .f32) (harg6 : arg6.IsWhole) (arg7 : Memref sig .tc .vmem S1x1x1 .f32) (harg7 : arg7.IsWhole) (hc0 : cond0_0 i)
    (x0 : Vec F S1x2048x100 .f32) (x1 : Vec F S1x2048x100 .f32) (x2 : Vec F S1x1x2048 .f32) (x3 : Vec F S1x1x100 .f32) (x4 : Vec F S1x256x100 .f32) :
    out0_A_5 c i arg2 harg2 arg3 harg3 arg4 harg4 arg5 harg5 arg6 harg6 arg7 harg7 hc0 x0 x1 x2 x3 x4
      = k0_pay6 (k0_pay3 x0 x2 x3 x4) (k0_pay4 x0 x1 x2 x3) k0_pay5 := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread,
    harg6.read_unread, View.ld_unit_zero (S := S1x2048x100) hz3, View.ld_unit_zero (S := S1x1x2048) hz3,
    View.ld_unit_zero (S := S1x1x100) hz3, View.ld_unit_zero (S := S1x256x100) hz3]

end Pieces

section Invariant

variable (m : (ℓ : Loc nD τ sig) → Buf (Elt Ideal) ℓ)

abbrev blk0 (c : Dev nD) (t : Fin cfg0.N) : Vec Ideal S1x2048x100 .f32 := iblk m c 0 t
abbrev blk1 (c : Dev nD) (t : Fin cfg0.N) : Vec Ideal S1x2048x100 .f32 := iblk m c 1 t
abbrev blk2 (c : Dev nD) (t : Fin cfg0.N) : Vec Ideal S1x1x2048 .f32 := iblk m c 2 t
abbrev blk3 (c : Dev nD) (t : Fin cfg0.N) : Vec Ideal S1x1x100 .f32 := iblk m c 3 t
abbrev blk4 (c : Dev nD) (t : Fin cfg0.N) : Vec Ideal S1x256x100 .f32 := iblk m c 4 t

abbrev prevPt (t : Fin cfg0.N) : Fin cfg0.N := ⟨t.val - 1, Nat.lt_of_le_of_lt (Nat.sub_le _ _) t.isLt⟩

/-- The stored value is the previous total plus this point's tile sum. -/
theorem pay_tile (c : Dev nD) (t : Fin cfg0.N) (xo : Vec Ideal S1x1x1 .f32) :
    k0_pay6 (F := Ideal) (k0_pay3 (blk0 m c t) (blk2 m c t) (blk3 m c t) (blk4 m c t)) (k0_pay4 (blk0 m c t) (blk1 m c t) (blk2 m c t) (blk3 m c t)) xo (ix3 (0 : Fin 1) (0 : Fin 1) (0 : Fin 1)) = xo (ix3 (0 : Fin 1) (0 : Fin 1) (0 : Fin 1)) + tile m c t :=
  Pay.pay_eq (blk0 m c t) (blk1 m c t) (blk2 m c t) (blk3 m c t) (blk4 m c t) xo (ix3 (0 : Fin 1) (0 : Fin 1) (0 : Fin 1))

theorem outsAt_even_pay (c : Dev nD) (t : Fin cfg0.N) (h0 : t.val % 2 = 0) :
    outsAt0 m c t.val t.isLt (ix3 (0 : Fin 1) (0 : Fin 1) (0 : Fin 1)) = k0_pay6 (F := Ideal) (k0_pay3 (blk0 m c t) (blk2 m c t) (blk3 m c t) (blk4 m c t)) (k0_pay4 (blk0 m c t) (blk1 m c t) (blk2 m c t) (blk3 m c t)) (k0_pay5 (F := Ideal)) (ix3 (0 : Fin 1) (0 : Fin 1) (0 : Fin 1)) := by
  rw [outsAt0_A m c t h0]
  exact congrFun (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t) (blk3 m c t) (blk4 m c t)) (ix3 (0 : Fin 1) (0 : Fin 1) (0 : Fin 1))

theorem outsAt_odd_pay (c : Dev nD) (t : Fin cfg0.N) (h0 : ¬t.val % 2 = 0) :
    outsAt0 m c t.val t.isLt (ix3 (0 : Fin 1) (0 : Fin 1) (0 : Fin 1)) = k0_pay6 (F := Ideal) (k0_pay3 (blk0 m c t) (blk2 m c t) (blk3 m c t) (blk4 m c t)) (k0_pay4 (blk0 m c t) (blk1 m c t) (blk2 m c t) (blk3 m c t)) (outsAt0 m c (t.val - 1) (Nat.lt_of_le_of_lt (Nat.sub_le _ _) t.isLt)) (ix3 (0 : Fin 1) (0 : Fin 1) (0 : Fin 1)) := by
  rw [outsAt0_B m c t h0]
  exact congrFun (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t) (blk3 m c t) (blk4 m c t) (outsAt0 m c (t.val - 1) (Nat.lt_of_le_of_lt (Nat.sub_le _ _) t.isLt))) (ix3 (0 : Fin 1) (0 : Fin 1) (0 : Fin 1))

theorem outsAt_even (c : Dev nD) (t : Fin cfg0.N) (h0 : t.val % 2 = 0) :
    outsAt0 m c t.val t.isLt (ix3 (0 : Fin 1) (0 : Fin 1) (0 : Fin 1)) = 0 + tile m c t :=
  (outsAt_even_pay m c t h0).trans ((pay_tile m c t (k0_pay5 (F := Ideal))).trans
    (congrArg (· + tile m c t) (Pay.pay5_eq (ix3 (0 : Fin 1) (0 : Fin 1) (0 : Fin 1)))))

theorem outsAt_odd (c : Dev nD) (t : Fin cfg0.N) (h0 : ¬t.val % 2 = 0) :
    outsAt0 m c t.val t.isLt (ix3 (0 : Fin 1) (0 : Fin 1) (0 : Fin 1)) = (0 + tile m c (prevPt t)) + tile m c t :=
  (outsAt_odd_pay m c t h0).trans ((pay_tile m c t (outsAt0 m c (t.val - 1) (Nat.lt_of_le_of_lt (Nat.sub_le _ _) t.isLt))).trans
    (congrArg (· + tile m c t) (outsAt_even m c (prevPt t) (by show (t.val - 1) % 2 = 0; omega))))

/-- The output cell after point t: the tile sum alone at an even point, both tile sums of the pair at an odd one. -/
theorem outsAt_inv (c : Dev nD) (t : Fin cfg0.N) :
    outsAt0 m c t.val t.isLt (ix3 (0 : Fin 1) (0 : Fin 1) (0 : Fin 1))
      = if t.val % 2 = 0 then 0 + tile m c t else (0 + tile m c (prevPt t)) + tile m c t := by
  by_cases h0 : t.val % 2 = 0
  · rw [if_pos h0]; exact outsAt_even m c t h0
  · rw [if_neg h0]; exact outsAt_odd m c t h0

end Invariant

end Cert.KernelIdeal.Fr

end
-- ==== Proof.KIBlocks.lean ====
import proofs.«400362_j8907762172017_2_alg».proof.Proof.KIFrame.Runs
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- Point t works on relation t / 2 and on half t % 2 of its rows: decided over the sixteen points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = t.val % 2
    ∧ win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

theorem tdiv_lt (t : Fin cfg0.N) : t.val / 2 < 8 := by
  have h : t.val < 16 := t.isLt
  omega

/-- Window 0's block at point t is rows 2048 (t % 2) … of relation t / 2 of the stacked head rows. -/
theorem iblk0 (c : Dev nD) (t : Fin cfg0.N) (p : Fin 2048) (e : Fin 100) :
    iblk m c 0 t (ix3 (0 : Fin 1) p e) = V m c main_v88 (ix3 (⟨t.val / 2, tdiv_lt t⟩ : Fin 8) (⟨2048 * (t.val % 2) + p.val, by have := p.isLt; omega⟩ : Fin 4096) e) := by
  obtain ⟨e0, e1, e2, -⟩ := idx_facts t
  show V m c main_v88 (((cfg0.win 0).blk t).view.emb (ix3 (0 : Fin 1) p e)) = V m c main_v88 _
  refine congrArg _ ?_
  funext a; apply Fin.ext
  match a with
  | ⟨0, _⟩ => show win0_0.index t (0 : Fin 3) * 1 + 1 * 0 = t.val / 2; omega
  | ⟨1, _⟩ => show win0_0.index t (1 : Fin 3) * 2048 + 1 * p.val = 2048 * (t.val % 2) + p.val; omega
  | ⟨2, _⟩ => show win0_0.index t (2 : Fin 3) * 100 + 1 * e.val = e.val; omega

theorem iblk1 (c : Dev nD) (t : Fin cfg0.N) (p : Fin 2048) (e : Fin 100) :
    iblk m c 1 t (ix3 (0 : Fin 1) p e) = V m c main_v97 (ix3 (⟨t.val / 2, tdiv_lt t⟩ : Fin 8) (⟨2048 * (t.val % 2) + p.val, by have := p.isLt; omega⟩ : Fin 4096) e) := by
  obtain ⟨-, -, -, e0, e1, e2, -⟩ := idx_facts t
  show V m c main_v97 (((cfg0.win 1).blk t).view.emb (ix3 (0 : Fin 1) p e)) = V m c main_v97 _
  refine congrArg _ ?_
  funext a; apply Fin.ext
  match a with
  | ⟨0, _⟩ => show win0_1.index t (0 : Fin 3) * 1 + 1 * 0 = t.val / 2; omega
  | ⟨1, _⟩ => show win0_1.index t (1 : Fin 3) * 2048 + 1 * p.val = 2048 * (t.val % 2) + p.val; omega
  | ⟨2, _⟩ => show win0_1.index t (2 : Fin 3) * 100 + 1 * e.val = e.val; omega

theorem iblk2 (c : Dev nD) (t : Fin cfg0.N) (p : Fin 2048) :
    iblk m c 2 t (ix3 (0 : Fin 1) (0 : Fin 1) p) = V m c main_v107 (ix3 (⟨t.val / 2, tdiv_lt t⟩ : Fin 8) (0 : Fin 1) (⟨2048 * (t.val % 2) + p.val, by have := p.isLt; omega⟩ : Fin 4096)) := by
  obtain ⟨-, -, -, -, -, -, e0, e1, e2, -⟩ := idx_facts t
  show V m c main_v107 (((cfg0.win 2).blk t).view.emb (ix3 (0 : Fin 1) (0 : Fin 1) p)) = V m c main_v107 _
  refine congrArg _ ?_
  funext a; apply Fin.ext
  match a with
  | ⟨0, _⟩ => show win0_2.index t (0 : Fin 3) * 1 + 1 * 0 = t.val / 2; omega
  | ⟨1, _⟩ => show win0_2.index t (1 : Fin 3) * 1 + 1 * 0 = 0; omega
  | ⟨2, _⟩ => show win0_2.index t (2 : Fin 3) * 2048 + 1 * p.val = 2048 * (t.val % 2) + p.val; omega

theorem iblk3 (c : Dev nD) (t : Fin cfg0.N) (e : Fin 100) :
    iblk m c 3 t (ix3 (0 : Fin 1) (0 : Fin 1) e) = V m c main_v117 (ix3 (⟨t.val / 2, tdiv_lt t⟩ : Fin 8) (0 : Fin 1) e) := by
  obtain ⟨-, -, -, -, -, -, -, -, -, e0, e1, e2, -⟩ := idx_facts t
  show V m c main_v117 (((cfg0.win 3).blk t).view.emb (ix3 (0 : Fin 1) (0 : Fin 1) e)) = V m c main_v117 _
  refine congrArg _ ?_
  funext a; apply Fin.ext
  match a with
  | ⟨0, _⟩ => show win0_3.index t (0 : Fin 3) * 1 + 1 * 0 = t.val / 2; omega
  | ⟨1, _⟩ => show win0_3.index t (1 : Fin 3) * 1 + 1 * 0 = 0; omega
  | ⟨2, _⟩ => show win0_3.index t (2 : Fin 3) * 100 + 1 * e.val = e.val; omega

theorem iblk4 (c : Dev nD) (t : Fin cfg0.N) (n : Fin 256) (e : Fin 100) :
    iblk m c 4 t (ix3 (0 : Fin 1) n e) = V m c main_v116 (ix3 (⟨t.val / 2, tdiv_lt t⟩ : Fin 8) n e) := by
  obtain ⟨-, -, -, -, -, -, -, -, -, -, -, -, e0, e1, e2, -⟩ := idx_facts t
  show V m c main_v116 (((cfg0.win 4).blk t).view.emb (ix3 (0 : Fin 1) n e)) = V m c main_v116 _
  refine congrArg _ ?_
  funext a; apply Fin.ext
  match a with
  | ⟨0, _⟩ => show win0_4.index t (0 : Fin 3) * 1 + 1 * 0 = t.val / 2; omega
  | ⟨1, _⟩ => show win0_4.index t (1 : Fin 3) * 256 + 1 * n.val = n.val; omega
  | ⟨2, _⟩ => show win0_4.index t (2 : Fin 3) * 100 + 1 * e.val = e.val; omega

theorem mem_blk5 (t : Fin cfg0.N) (i : S8x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v118).slice (win0_5.rect t)).set ↔ _
  rw [View.set_slice_whole, Rect.mem_set_unit]
  exact Iff.rfl

theorem mem_blk5_iff (t : Fin cfg0.N) (i : S8x1x1.Idx) :
    i ∈ ((cfg0.win 5).blk t).view.set ↔ (i 0).val = t.val / 2 := by
  rw [mem_blk5]
  obtain ⟨-, -, -, -, -, -, -, -, -, -, -, -, -, -, -, e0, e1, e2⟩ := idx_facts t
  have h1 : (i 1).val < 1 := (i 1).isLt
  have h2 : (i 2).val < 1 := (i 2).isLt
  constructor
  · intro h
    have b0 : win0_5.index t (0 : Fin 3) * 1 ≤ (i 0).val ∧ (i 0).val < win0_5.index t (0 : Fin 3) * 1 + 1 := h 0
    omega
  · intro h a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1 ≤ (i 1).val ∧ (i 1).val < win0_5.index t (1 : Fin 3) * 1 + 1; omega
    | ⟨2, _⟩ => show win0_5.index t (2 : Fin 3) * 1 ≤ (i 2).val ∧ (i 2).val < win0_5.index t (2 : Fin 3) * 1 + 1; omega

def flushPt (r : Fin 8) : Fin cfg0.N := ⟨2 * r.val + 1, lt_of_lt_of_eq (by have := r.isLt; omega) N_0.symm⟩

theorem flushPt_val (r : Fin 8) : (flushPt r).val = 2 * r.val + 1 := rfl

theorem flush_flushPt (r : Fin 8) : (cfg0.win 5).flush (flushPt r) = true :=
  (flush0_5 (flushPt r)).mpr (by show (2 * r.val + 1) % 2 = 1; omega)

theorem eq_flushPt_of_flush (t : Fin cfg0.N) (h : (cfg0.win 5).flush t = true) : t.val = 2 * (t.val / 2) + 1 := by
  have := (flush0_5 t).mp h
  omega

theorem cover5 (i : S8x1x1.Idx) : ∃ t : Fin cfg0.N, (cfg0.win 5).flush t = true ∧ i ∈ ((cfg0.win 5).blk t).view.set := by
  have h0 : (i 0).val < 8 := (i 0).isLt
  refine ⟨flushPt ⟨(i 0).val, h0⟩, flush_flushPt _, ?_⟩
  rw [mem_blk5_iff]
  show (i 0).val = (2 * (i 0).val + 1) / 2
  omega

theorem flush_inj (t t' : Fin cfg0.N) (h : (cfg0.win 5).flush t = true) (h' : (cfg0.win 5).flush t' = true) (i : S8x1x1.Idx)
    (hi : i ∈ ((cfg0.win 5).blk t).view.set) (hi' : i ∈ ((cfg0.win 5).blk t').view.set) : t = t' := by
  rw [mem_blk5_iff] at hi hi'
  have := eq_flushPt_of_flush t h
  have := eq_flushPt_of_flush t' h'
  exact Fin.ext (by omega)

theorem emb_blk5 (t : Fin cfg0.N) (y : ((cfg0.win 5).xblock (cfg0.grid.coords t)).Idx) :
    ((cfg0.win 5).blk t).view.emb y = ix3 (⟨t.val / 2, tdiv_lt t⟩ : Fin 8) (0 : Fin 1) (0 : Fin 1) := by
  obtain ⟨-, -, -, -, -, -, -, -, -, -, -, -, -, -, -, e0, e1, e2⟩ := idx_facts t
  have h0 : (y 0).val < 1 := (y 0).isLt
  have h1 : (y 1).val < 1 := (y 1).isLt
  have h2 : (y 2).val < 1 := (y 2).isLt
  funext a; apply Fin.ext
  match a with
  | ⟨0, _⟩ => show win0_5.index t (0 : Fin 3) * 1 + 1 * (y 0).val = t.val / 2; omega
  | ⟨1, _⟩ => show win0_5.index t (1 : Fin 3) * 1 + 1 * (y 1).val = 0; omega
  | ⟨2, _⟩ => show win0_5.index t (2 : Fin 3) * 1 + 1 * (y 2).val = 0; omega

end Cert.KernelIdeal.Fr
-- ==== Proof.KIOut5.lean ====
import proofs.«400362_j8907762172017_2_alg».proof.Proof.KIFrame.Frame
import proofs.«400362_j8907762172017_2_alg».proof.Proof.KIBlocks

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

theorem outsAt0_congr (c : Dev nD) {n n' : ℕ} (h : n = n') (hn : n < cfg0.N) (hn' : n' < cfg0.N) :
    outsAt0 m c n hn = outsAt0 m c n' hn' := by
  subst h; rfl

/-- Row r of the region's result is the output cell after point 2r + 1. -/
def G5 (c : Dev nD) : S8x1x1.Idx → Elt F .f32 := fun i =>
  outsAt0 m c (2 * (i 0).val + 1) (lt_of_lt_of_eq (by have h : (i 0).val < 8 := (i 0).isLt; omega) N_0.symm)
    (ix3 (0 : Fin 1) (0 : Fin 1) (0 : Fin 1))

theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  funext j
  show outsAt0 m c t.val t.isLt ((cfg0.win 5).xinj (grid0.coords t) j) = G5 m c (((cfg0.win 5).blk t).view.emb j)
  rw [emb_blk5]
  have ht := eq_flushPt_of_flush t hf
  have h0 : (j 0).val < 1 := (j 0).isLt
  have h1 : (j 1).val < 1 := (j 1).isLt
  have h2 : (j 2).val < 1 := (j 2).isLt
  refine (congrFun (outsAt0_congr m c ht t.isLt (lt_of_lt_of_eq (by have := tdiv_lt t; omega) N_0.symm)) _).trans ?_
  show outsAt0 m c (2 * (t.val / 2) + 1) _ _ = outsAt0 m c (2 * (t.val / 2) + 1) _ _
  refine congrArg _ ?_
  funext a; apply Fin.ext
  match a with
  | ⟨0, _⟩ => show (j 0).val = 0; omega
  | ⟨1, _⟩ => show (j 1).val = 0; omega
  | ⟨2, _⟩ => show (j 2).val = 0; omega

theorem arrAt5_eq (c : Dev nD) : (dats m 0 c).arrAt 5 cfg0.N = G5 m c :=
  (dats m 0 c).arrAt_eq_of_cover 5 (G5 m c) (fun t hf => flushed5_eq m c t hf) cover5

theorem arrAt5 (c : Dev nD) (r : Fin 8) :
    (dats m 0 c).arrAt 5 cfg0.N (ix3 r (0 : Fin 1) (0 : Fin 1))
      = outsAt0 m c (2 * r.val + 1) (lt_of_lt_of_eq (by have := r.isLt; omega) N_0.symm) (ix3 (0 : Fin 1) (0 : Fin 1) (0 : Fin 1)) := by
  rw [arrAt5_eq]
  rfl

end Cert.KernelIdeal.Fr
-- ==== Proof.KITail.lean ====
import proofs.«400362_j8907762172017_2_alg».proof.Proof.Gen.KernelIdeal.Launch
import Idealize.ShloMosaic.Lib.ValueIdx
import Idealize.ShloMosaic.Lib.IdealHost
import Idealize.ShloMosaic.Lib.StableHlo.Run
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

def rowEquiv : S8x1x1.Idx ≃ Fin 8 where
  toFun i := i 0
  invFun r := ix3 r (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv r := rfl

theorem sum_rows {M : Type*} [AddCommMonoid M] (x : S8x1x1.Idx → M) : ∑ i, x i = ∑ r : Fin 8, x (ix3 r (0 : Fin 1) (0 : Fin 1)) := by
  rw [← Equiv.sum_comp rowEquiv.symm x]
  rfl

/-- The sum of the [8,1,1] array over all its axes, from zero, is zero plus the sum of its eight rows. -/
theorem tail_reduce (x : FVec Ideal S8x1x1 .f32) :
    Host.reduceAdd (F := Ideal) x (constant S_ .f32 0x00000000#32) reducesTo_S8x1x1_S_d0_1_2 h_S_ ix0
      = 0 + ∑ r : Fin 8, x (ix3 r (0 : Fin 1) (0 : Fin 1)) := by
  rw [hostReduceAdd_apply, Ideal.hostReduceAdd_total _ (fun b => b.elim0), sum_rows, constant_apply, Ideal.ofBits_zero_f32]

variable {F : FTy → Type} [FloatOps F]

/-- After the region the result is the all-axes sum of the region's output, divided by 4096. -/
theorem tail_after (X : Valuation τ sig (Elt F)) :
    StableHlo.after (hostOps1 (F := F)) X (Proc.devRef .tc main_v120)
      = Host.divf (Host.reduceAdd (X (Proc.devRef .tc main_v118)) (constant S_ .f32 0x00000000#32) reducesTo_S8x1x1_S_d0_1_2 h_S_)
          (constant S_ .f32 0x45800000#32) := by
  open Idealize.ShloMosaic.StableHlo in after_results

end Cert.KernelIdeal.Fr
-- ==== Proof.KIValueRun.lean ====
import proofs.«400362_j8907762172017_2_alg».proof.Proof.KIValue
import proofs.«400362_j8907762172017_2_alg».proof.Proof.KIOut5
import proofs.«400362_j8907762172017_2_alg».proof.Proof.KITail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Run

variable (m : (ℓ : Loc nD τ sig) → Buf (Elt Ideal) ℓ) (ρ : Dev nD → PrngReg)

theorem lt_even (r : Fin 8) : 2 * r.val < cfg0.N := lt_of_lt_of_eq (by have := r.isLt; omega) N_0.symm
theorem lt_odd (r : Fin 8) : 2 * r.val + 1 < cfg0.N := lt_of_lt_of_eq (by have := r.isLt; omega) N_0.symm

/-- So row r of the result is zero plus relation r's two tile sums. -/
theorem arr5_row (c : Dev nD) (r : Fin 8) :
    (dats m 0 c).arrAt 5 cfg0.N (ix3 r (0 : Fin 1) (0 : Fin 1))
      = (0 + tile m c ⟨2 * r.val, lt_even r⟩) + tile m c ⟨2 * r.val + 1, lt_odd r⟩ := by
  refine (arrAt5 m c r).trans ?_
  have h := outsAt_odd m c ⟨2 * r.val + 1, lt_odd r⟩ (by show ¬(2 * r.val + 1) % 2 = 0; omega)
  have e : prevPt ⟨2 * r.val + 1, lt_odd r⟩ = ⟨2 * r.val, lt_even r⟩ := Fin.ext (by show 2 * r.val + 1 - 1 = 2 * r.val; omega)
  rw [e] at h
  exact h

/-- The program's result: the eight rows summed from zero, divided by 4096. -/
def result (c : Dev nD) : EReal :=
  Ideal.div (0 + ∑ r : Fin 8, ((0 + tile m c ⟨2 * r.val, lt_even r⟩) + tile m c ⟨2 * r.val + 1, lt_odd r⟩))
    (Ideal.ofBits .f32 0x45800000#32)

theorem tail_value (c : Dev nD) :
    Pipeline.afterTail₀ cfgs (dats m) 0 (V0 m) [hostOps1] c main_v120 = fun _ => result m c := by
  unfold Pipeline.afterTail₀
  show StableHlo.after hostOps1 _ (Proc.devRef .tc main_v120) = _
  refine (tail_after _).trans ?_
  have hw : Pipeline.withArrays (cfgs 0).spec c (V0 m c) (fun w => (dats m 0 c).arrAt w (cfgs 0).N) (Proc.devRef .tc main_v118)
      = (dats m 0 c).arrAt 5 cfg0.N := Pipeline.withArrays_arr spec0 launch0.win.arr_inj c _ _ 5
  rw [hw]
  funext j
  rw [hostDivf_apply, eq_ix0 j, tail_reduce, constant_apply]
  exact congrArg (fun z => Ideal.div (0 + z) (Ideal.ofBits .f32 0x45800000#32)) (Finset.sum_congr rfl fun r _ => arr5_row m c r)

/-- Every execution ends with the result buffer at that value and the arguments as launched. -/
theorem run_value : θ_run (defs (F := Ideal)) (onTc (τ := τ) (main (F := Ideal))) ⟨m, fun _ => 0, ρ⟩ (fun r => ∀ c : Dev nD,
      r.2.mem ((c.tc : Thread nD τ).loc main_v120) = (fun _ => Ideal.div (0 + ∑ r : Fin 8, ((0 + tile m c ⟨2 * r.val, lt_even r⟩) + tile m c ⟨2 * r.val + 1, lt_odd r⟩)) (Ideal.ofBits .f32 0x45800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v120 (Pipeline.mem_restRefs_of main_v120 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩) (run_main m ρ)

end Run

end Cert.KernelIdeal.Fr

end
-- ==== Proof.Algebra.lean ====
import Mathlib.Data.EReal.Operations
import Mathlib.Algebra.BigOperators.Fin

open scoped BigOperators

namespace Cert.Algebra

/-- A finite non-negative factor distributes over a finite sum of extended reals, infinite terms included. -/
theorem sum_mul_const {ι : Type} (s : Finset ι) (f : ι → EReal) (c : EReal) (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- Scaling the sum of eight two-part totals gives the left-nested sum of the eight scaled totals. -/
theorem total_eq (T : Fin 8 → Fin 2 → EReal) (S : Fin 8 → EReal) (hS : ∀ r, S r = T r 0 + T r 1)
    (c : EReal) (hc : 0 ≤ c) (hc' : c ≠ ⊤) :
    (∑ r : Fin 8, ((0 + T r 0) + T r 1)) * c
      = ((((((((0 + S 0 * c) + S 1 * c) + S 2 * c) + S 3 * c) + S 4 * c) + S 5 * c) + S 6 * c) + S 7 * c) := by
  rw [sum_mul_const _ _ c hc hc']
  simp only [Fin.sum_univ_eight, zero_add, hS]

theorem scaled_total (S : Fin 8 → EReal) (c : EReal) (hc : 0 ≤ c) (hc' : c ≠ ⊤) :
    (0 + ∑ r : Fin 8, S r) * c
      = ((((((((0 + S 0 * c) + S 1 * c) + S 2 * c) + S 3 * c) + S 4 * c) + S 5 * c) + S 6 * c) + S 7 * c) := by
  rw [zero_add, sum_mul_const _ _ c hc hc']
  simp only [Fin.sum_univ_eight, zero_add]

/-- A sum over 4096 rows is the sum over rows 0 … 2047 plus the sum over rows 2048 … 4095. -/
theorem sum_halves (f : Fin 4096 → EReal) :
    ∑ b : Fin 4096, f b
      = (∑ p : Fin 2048, f ⟨p.val, by omega⟩) + ∑ p : Fin 2048, f ⟨2048 + p.val, by omega⟩ := by
  have h := Fin.sum_univ_add (M := EReal) (a := 2048) (b := 2048) (fun i : Fin (2048 + 2048) => f ⟨i.val, by omega⟩)
  simp only [Fin.val_castAdd, Fin.val_natAdd] at h
  exact h

end Cert.Algebra
-- ==== Proof.KITotals.lean ====
import proofs.«400362_j8907762172017_2_alg».proof.Proof.KITile
import proofs.«400362_j8907762172017_2_alg».proof.Proof.KIBlocks
import proofs.«400362_j8907762172017_2_alg».proof.Proof.Algebra

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)

theorem ix3_congr {n0 n1 n2 : Nat} {a a' : Fin n0} {b b' : Fin n1} {c c' : Fin n2}
    (ha : a.val = a'.val) (hb : b.val = b'.val) (hc : c.val = c'.val) : ix3 a b c = ix3 a' b' c' := by
  cases Fin.ext ha; cases Fin.ext hb; cases Fin.ext hc; rfl

/-- Row b of relation r's loss, from the stacked arrays the region reads. -/
def relRow (c : Dev nD) (r : Fin 8) (b : Fin 4096) : EReal :=
  Cert.Spec.rowLoss
    (fun (b : Fin 4096) (e : Fin 100) => (V m c main_v88 (ix3 r b e) : EReal))
    (fun (b : Fin 4096) (e : Fin 100) => (V m c main_v97 (ix3 r b e) : EReal))
    (fun (e : Fin 100) => (V m c main_v117 (ix3 r (0 : Fin 1) e) : EReal))
    (fun (b : Fin 4096) => (V m c main_v107 (ix3 r (0 : Fin 1) b) : EReal))
    (fun (n : Fin 256) (e : Fin 100) => (V m c main_v116 (ix3 r n e) : EReal)) b

/-- Point 2r + i sums relation r's rows 2048 i … 2048 i + 2047. -/
theorem tile_eq (c : Dev nD) (r : Fin 8) (i : ℕ) (hi : i < 2) (t : Fin cfg0.N) (ht : t.val = 2 * r.val + i) :
    tile m c t = ∑ p : Fin 2048, relRow m c r ⟨2048 * i + p.val, by have := p.isLt; omega⟩ := by
  unfold tile relRow
  refine Finset.sum_congr rfl fun p _ => ?_
  have hr : t.val / 2 = r.val := by omega
  have hm : t.val % 2 = i := by omega
  have h0 : (fun (p : Fin 2048) (e : Fin 100) => (iblk m c 0 t (ix3 (0 : Fin 1) p e) : EReal))
      = fun p e => V m c main_v88 (ix3 r (⟨2048 * i + p.val, by have := p.isLt; omega⟩ : Fin 4096) e) := by
    funext p e; rw [iblk0]
    exact congrArg _ (ix3_congr hr (by show 2048 * (t.val % 2) + p.val = 2048 * i + p.val; rw [hm]) rfl)
  have h1 : (fun (p : Fin 2048) (e : Fin 100) => (iblk m c 1 t (ix3 (0 : Fin 1) p e) : EReal))
      = fun p e => V m c main_v97 (ix3 r (⟨2048 * i + p.val, by have := p.isLt; omega⟩ : Fin 4096) e) := by
    funext p e; rw [iblk1]
    exact congrArg _ (ix3_congr hr (by show 2048 * (t.val % 2) + p.val = 2048 * i + p.val; rw [hm]) rfl)
  have h2 : (fun (p : Fin 2048) => (iblk m c 2 t (ix3 (0 : Fin 1) (0 : Fin 1) p) : EReal))
      = fun p => V m c main_v107 (ix3 r (0 : Fin 1) (⟨2048 * i + p.val, by have := p.isLt; omega⟩ : Fin 4096)) := by
    funext p; rw [iblk2]
    exact congrArg _ (ix3_congr hr rfl (by show 2048 * (t.val % 2) + p.val = 2048 * i + p.val; rw [hm]))
  have h3 : (fun (e : Fin 100) => (iblk m c 3 t (ix3 (0 : Fin 1) (0 : Fin 1) e) : EReal))
      = fun e => V m c main_v117 (ix3 r (0 : Fin 1) e) := by
    funext e; rw [iblk3]
    exact congrArg _ (ix3_congr hr rfl rfl)
  have h4 : (fun (n : Fin 256) (e : Fin 100) => (iblk m c 4 t (ix3 (0 : Fin 1) n e) : EReal))
      = fun n e => V m c main_v116 (ix3 r n e) := by
    funext n e; rw [iblk4]
    exact congrArg _ (ix3_congr hr rfl rfl)
  rw [h0, h1, h2, h3, h4]
  rfl

/-- The two points of relation r together sum its 4096 rows: a row's loss uses only that row. -/
theorem pair_total (c : Dev nD) (r : Fin 8) :
    (0 + tile m c ⟨2 * r.val, lt_of_lt_of_eq (by have := r.isLt; omega) N_0.symm⟩)
        + tile m c ⟨2 * r.val + 1, lt_of_lt_of_eq (by have := r.isLt; omega) N_0.symm⟩
      = ∑ b : Fin 4096, Cert.Spec.rowLoss
          (fun (b : Fin 4096) (e : Fin 100) => (V m c main_v88 (ix3 r b e) : EReal))
          (fun (b : Fin 4096) (e : Fin 100) => (V m c main_v97 (ix3 r b e) : EReal))
          (fun (e : Fin 100) => (V m c main_v117 (ix3 r (0 : Fin 1) e) : EReal))
          (fun (b : Fin 4096) => (V m c main_v107 (ix3 r (0 : Fin 1) b) : EReal))
          (fun (n : Fin 256) (e : Fin 100) => (V m c main_v116 (ix3 r n e) : EReal)) b := by
  rw [tile_eq m c r 0 (by omega) _ rfl, tile_eq m c r 1 (by omega) _ rfl, zero_add]
  show _ = ∑ b : Fin 4096, relRow m c r b
  rw [Cert.Algebra.sum_halves (relRow m c r)]
  exact congrArg₂ (· + ·)
    (Finset.sum_congr rfl fun p _ => congrArg (relRow m c r) (Fin.ext (by show 2048 * 0 + p.val = p.val; omega)))
    (Finset.sum_congr rfl fun p _ => congrArg (relRow m c r) (Fin.ext (by show 2048 * 1 + p.val = 2048 + p.val; omega)))

end Cert.KernelIdeal.Fr
-- ==== Proof.Cols.lean ====
import Idealize.ShloMosaic.PureOps.Ideal
import Idealize.ShloMosaic.Lib.ValueIdx

noncomputable section

namespace Cert.Cols

open Idealize.ShloMosaic

abbrev S4096x8 : Shape := ⟨2, ![4096, 8]⟩
abbrev S8x256 : Shape := ⟨2, ![8, 256]⟩
abbrev S4096x1 : Shape := ⟨2, ![4096, 1]⟩
abbrev S1x256 : Shape := ⟨2, ![1, 256]⟩
abbrev S4096 : Shape := ⟨1, ![4096]⟩
abbrev S256 : Shape := ⟨1, ![256]⟩

/-- Column k of the batch index array, as a vector of 4096 indices. -/
def bcol : Fin 8 → IVec S4096x8 32 → IVec S4096 32
  | 0, a => shapeCast S4096 (extractStridedSlice S4096x1 ![0, 0] a (by decide)) (by decide)
  | 1, a => shapeCast S4096 (extractStridedSlice S4096x1 ![0, 1] a (by decide)) (by decide)
  | 2, a => shapeCast S4096 (extractStridedSlice S4096x1 ![0, 2] a (by decide)) (by decide)
  | 3, a => shapeCast S4096 (extractStridedSlice S4096x1 ![0, 3] a (by decide)) (by decide)
  | 4, a => shapeCast S4096 (extractStridedSlice S4096x1 ![0, 4] a (by decide)) (by decide)
  | 5, a => shapeCast S4096 (extractStridedSlice S4096x1 ![0, 5] a (by decide)) (by decide)
  | 6, a => shapeCast S4096 (extractStridedSlice S4096x1 ![0, 6] a (by decide)) (by decide)
  | 7, a => shapeCast S4096 (extractStridedSlice S4096x1 ![0, 7] a (by decide)) (by decide)

/-- Row r of the negative-sample index array, as a vector of 256 indices. -/
def nrow : Fin 8 → IVec S8x256 32 → IVec S256 32
  | 0, a => shapeCast S256 (extractStridedSlice S1x256 ![0, 0] a (by decide)) (by decide)
  | 1, a => shapeCast S256 (extractStridedSlice S1x256 ![1, 0] a (by decide)) (by decide)
  | 2, a => shapeCast S256 (extractStridedSlice S1x256 ![2, 0] a (by decide)) (by decide)
  | 3, a => shapeCast S256 (extractStridedSlice S1x256 ![3, 0] a (by decide)) (by decide)
  | 4, a => shapeCast S256 (extractStridedSlice S1x256 ![4, 0] a (by decide)) (by decide)
  | 5, a => shapeCast S256 (extractStridedSlice S1x256 ![5, 0] a (by decide)) (by decide)
  | 6, a => shapeCast S256 (extractStridedSlice S1x256 ![6, 0] a (by decide)) (by decide)
  | 7, a => shapeCast S256 (extractStridedSlice S1x256 ![7, 0] a (by decide)) (by decide)

def colRows : Fin 8 → Nat
  | 0 => 30001 | 1 => 50001 | 2 => 100001 | 3 => 5001 | 4 => 1001 | 5 => 50001 | 6 => 50001 | 7 => 50001

def negRows : Fin 8 → Nat
  | 0 => 50001 | 1 => 100001 | 2 => 100001 | 3 => 5001 | 4 => 1001 | 5 => 50001 | 6 => 50001 | 7 => 50001

/-- Every index, read as a signed integer, lies inside the table it is looked up in. -/
def IdxOK (a0 : IVec S4096x8 32) (a1 : IVec S8x256 32) : Prop :=
  (∀ (k : Fin 8) (j : S4096.Idx), 0 ≤ (bcol k a0 j).toInt ∧ (bcol k a0 j).toInt < (colRows k : Int))
  ∧ (∀ (r : Fin 8) (j : S256.Idx), 0 ≤ (nrow r a1 j).toInt ∧ (nrow r a1 j).toInt < (negRows r : Int))

/-- A negative index counts from the end of its table: x + n where x < 0, else x. -/
def norm {s : Shape} (n : BitVec 32) (x : IVec s 32) : IVec s 32 :=
  fun i => Scalar.select (IntOp.cmpi .slt (x i) 0#32) (IntOp.addi (x i) n) (x i)

end Cert.Cols

end
-- ==== Proof.KIHost.Mask.lean ====
import Idealize.ShloMosaic.PureOps.Ideal
import Idealize.ShloMosaic.Lib.ValueIdx
import Idealize.ShloMosaic.Lib.ReduceAll
import proofs.«400362_j8907762172017_2_alg».proof.Proof.Cols

noncomputable section

namespace Cert.KernelIdeal.HostVal

open Idealize.ShloMosaic

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = (1#1 : BitVec 1) := by decide
    rw [List.foldl_cons, hf a, e]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

theorem range_mask_ones {sI sM u : Shape} {axes : List (Fin sI.rank)} (I lo hi : IVec sI 32) (one : IVec u 1)
    (hred : sI.ReducesTo axes sM) (hu : 0 < u.numel)
    (hlo : ∀ i, (lo i).toInt ≤ (I i).toInt) (hhi : ∀ i, (I i).toInt ≤ (hi i).toInt) (hone : ∀ k, one k = 1#1) (j : sM.Idx) :
    Host.reduce IntOp.andi (andi (cmpi .sge I lo) (cmpi .sle I hi)) one hred hu j = 1#1 :=
  reduce_andi_ones _ one hred hu
    (fun i => IntOp.andi_eq_one.2 ⟨IntOp.cmpi_sge.2 (hlo i), IntOp.cmpi_sle.2 (hhi i)⟩) hone j

theorem mask_select_bcast {sI sM sO u : Shape} {axes : List (Fin sI.rank)} {α : Type} (I lo hi : IVec sI 32) (one : IVec u 1)
    (hred : sI.ReducesTo axes sM) (hu : 0 < u.numel) (dims : Fin sM.rank → Fin sO.rank) (hb : sM.BroadcastsInDim sO dims)
    (G nan : sO.Idx → α)
    (hlo : ∀ i, (lo i).toInt ≤ (I i).toInt) (hhi : ∀ i, (I i).toInt ≤ (hi i).toInt) (hone : ∀ k, one k = 1#1) :
    select (broadcastInDim sO dims hb (Host.reduce IntOp.andi (andi (cmpi .sge I lo) (cmpi .sle I hi)) one hred hu)) G nan = G := by
  funext j
  show Scalar.select (Host.reduce IntOp.andi (andi (cmpi .sge I lo) (cmpi .sle I hi)) one hred hu _) (G j) (nan j) = G j
  rw [range_mask_ones I lo hi one hred hu hlo hhi hone]
  exact if_pos rfl

/-- When every index lies between the bounds the in-range test is one everywhere, so the select keeps the gathered values. -/
theorem mask_select {sI sM u : Shape} {axes : List (Fin sI.rank)} {α : Type} (I lo hi : IVec sI 32) (one : IVec u 1)
    (hred : sI.ReducesTo axes sM) (hu : 0 < u.numel) (G nan : sM.Idx → α)
    (hlo : ∀ i, (lo i).toInt ≤ (I i).toInt) (hhi : ∀ i, (I i).toInt ≤ (hi i).toInt) (hone : ∀ k, one k = 1#1) :
    select (Host.reduce IntOp.andi (andi (cmpi .sge I lo) (cmpi .sle I hi)) one hred hu) G nan = G := by
  funext j
  show Scalar.select (Host.reduce IntOp.andi (andi (cmpi .sge I lo) (cmpi .sle I hi)) one hred hu j) (G j) (nan j) = G j
  rw [range_mask_ones I lo hi one hred hu hlo hhi hone]
  exact if_pos rfl

theorem norm_of_nonneg {s : Shape} (n : BitVec 32) (x : IVec s 32) (i : s.Idx) (h : 0 ≤ (x i).toInt) :
    Cert.Cols.norm n x i = x i := by
  unfold Cert.Cols.norm
  have hz : (0#32 : BitVec 32).toInt = 0 := by decide
  have hc : IntOp.cmpi .slt (x i) 0#32 ≠ 1#1 := fun e => by
    have := IntOp.cmpi_slt.1 e
    rw [hz] at this
    omega
  exact if_neg hc

/-- Normalising non-negative indices changes nothing. -/
theorem norm_eq_self {s : Shape} (n : BitVec 32) (x : IVec s 32) (h : ∀ i, 0 ≤ (x i).toInt) : Cert.Cols.norm n x = x :=
  funext fun i => norm_of_nonneg n x i (h i)

end Cert.KernelIdeal.HostVal

end
-- ==== Proof.KIHost.TakeLib.lean ====
import proofs.«400362_j8907762172017_2_alg».proof.Proof.KIHost.Mask
import proofs.«400362_j8907762172017_2_alg».proof.Proof.KIFrame.Runs

set_option maxRecDepth 16384

noncomputable section

namespace Cert.KernelIdeal.HostVal

open Cert.KernelIdeal Cert.KernelIdeal.Gen Cert.KernelIdeal.Fr
open Idealize.ShloMosaic Idealize.ShloMosaic.TcCoe

variable {α : Type}

theorem bcast_at {s t : Shape} {β : Type} (dims : Fin s.rank → Fin t.rank) (h : s.BroadcastsInDim t dims) (x : s.Idx → β) (i : t.Idx) :
    ∃ j, broadcastInDim t dims h x i = x j := ⟨_, rfl⟩

theorem toInt_zero32 : (0#32 : BitVec 32).toInt = 0 := by decide

abbrev nrm4096 (n : BitVec 32) (col : IVec S4096 32) : IVec S4096 32 :=
  select (cmpi .slt col (broadcastInDim S4096 ![] bcast_S_S4096 (constantI S_ 32 0#32)))
    (addi col (broadcastInDim S4096 ![] bcast_S_S4096 (constantI S_ 32 n))) col

theorem nrm4096_eq (n : BitVec 32) (col : IVec S4096 32) : nrm4096 n col = Cert.Cols.norm n col := rfl

/-- A look-up of 4096 rows of 100: normalise the indices, gather, keep where in range. -/
abbrev takeB {sT : Shape} (d : GatherDims sT S4096x1 S4096x100) (n hiw : BitVec 32) (nan : S4096x100.Idx → α)
    (T : sT.Idx → α) (col : IVec S4096 32) : S4096x100.Idx → α :=
  select (broadcastInDim S4096x100 ![0] bcast_S4096_S4096x100_0
      (Host.reduce IntOp.andi
        (andi (cmpi .sge (broadcastInDim S4096x1 ![0] bcast_S4096_S4096x1_0 (nrm4096 n col)) (broadcastInDim S4096x1 ![] bcast_S_S4096x1 (constantI S_ 32 0#32)))
              (cmpi .sle (broadcastInDim S4096x1 ![0] bcast_S4096_S4096x1_0 (nrm4096 n col))
                (broadcastInDim S4096x1 ![0, 1] bcast_S1x1_S4096x1_0_1 (broadcastInDim S1x1 ![1] bcast_S1_S1x1_1 (constantI S1 32 hiw)))))
        (constantI S_ 1 1#1) reducesTo_S4096x1_S4096_d1 h_S_))
    (Host.gather d T (broadcastInDim S4096x1 ![0] bcast_S4096_S4096x1_0 (nrm4096 n col)))
    nan

/-- With every index inside the table it is the plain gather at the normalised indices. -/
theorem takeB_eq {sT : Shape} (d : GatherDims sT S4096x1 S4096x100) (n hiw : BitVec 32) (N : Int) (hN : hiw.toInt = N - 1)
    (nan : S4096x100.Idx → α) (T : sT.Idx → α) (col : IVec S4096 32) (hcol : ∀ j, 0 ≤ (col j).toInt ∧ (col j).toInt < N) :
    takeB d n hiw nan T col = Host.gather d T (broadcastInDim S4096x1 ![0] bcast_S4096_S4096x1_0 (Cert.Cols.norm n col)) := by
  show select (broadcastInDim S4096x100 ![0] bcast_S4096_S4096x100_0
      (Host.reduce IntOp.andi
        (andi (cmpi .sge (broadcastInDim S4096x1 ![0] bcast_S4096_S4096x1_0 (nrm4096 n col)) (broadcastInDim S4096x1 ![] bcast_S_S4096x1 (constantI S_ 32 0#32)))
              (cmpi .sle (broadcastInDim S4096x1 ![0] bcast_S4096_S4096x1_0 (nrm4096 n col))
                (broadcastInDim S4096x1 ![0, 1] bcast_S1x1_S4096x1_0_1 (broadcastInDim S1x1 ![1] bcast_S1_S1x1_1 (constantI S1 32 hiw)))))
        (constantI S_ 1 1#1) reducesTo_S4096x1_S4096_d1 h_S_))
    (Host.gather d T (broadcastInDim S4096x1 ![0] bcast_S4096_S4096x1_0 (nrm4096 n col))) nan = _
  rw [nrm4096_eq]
  refine mask_select_bcast _ _ _ _ _ _ _ _ _ _ (fun i => ?_) (fun i => ?_) (fun k => rfl)
  · obtain ⟨j, hj⟩ := bcast_at ![0] bcast_S4096_S4096x1_0 (Cert.Cols.norm n col) i
    show (0#32 : BitVec 32).toInt ≤ _
    rw [hj, norm_of_nonneg n col j (hcol j).1, toInt_zero32]
    exact (hcol j).1
  · obtain ⟨j, hj⟩ := bcast_at ![0] bcast_S4096_S4096x1_0 (Cert.Cols.norm n col) i
    show _ ≤ hiw.toInt
    rw [hj, norm_of_nonneg n col j (hcol j).1, hN]
    have := (hcol j).2
    omega

abbrev takeS {sT : Shape} (d : GatherDims sT S4096x1 S4096) (n hiw : BitVec 32) (nan : S4096.Idx → α)
    (T : sT.Idx → α) (col : IVec S4096 32) : S4096.Idx → α :=
  select (Host.reduce IntOp.andi
        (andi (cmpi .sge (broadcastInDim S4096x1 ![0] bcast_S4096_S4096x1_0 (nrm4096 n col)) (broadcastInDim S4096x1 ![] bcast_S_S4096x1 (constantI S_ 32 0#32)))
              (cmpi .sle (broadcastInDim S4096x1 ![0] bcast_S4096_S4096x1_0 (nrm4096 n col))
                (broadcastInDim S4096x1 ![0, 1] bcast_S1x1_S4096x1_0_1 (broadcastInDim S1x1 ![1] bcast_S1_S1x1_1 (constantI S1 32 hiw)))))
        (constantI S_ 1 1#1) reducesTo_S4096x1_S4096_d1 h_S_)
    (Host.gather d T (broadcastInDim S4096x1 ![0] bcast_S4096_S4096x1_0 (nrm4096 n col)))
    nan

theorem takeS_eq {sT : Shape} (d : GatherDims sT S4096x1 S4096) (n hiw : BitVec 32) (N : Int) (hN : hiw.toInt = N - 1)
    (nan : S4096.Idx → α) (T : sT.Idx → α) (col : IVec S4096 32) (hcol : ∀ j, 0 ≤ (col j).toInt ∧ (col j).toInt < N) :
    takeS d n hiw nan T col = Host.gather d T (broadcastInDim S4096x1 ![0] bcast_S4096_S4096x1_0 (Cert.Cols.norm n col)) := by
  show select (Host.reduce IntOp.andi
        (andi (cmpi .sge (broadcastInDim S4096x1 ![0] bcast_S4096_S4096x1_0 (nrm4096 n col)) (broadcastInDim S4096x1 ![] bcast_S_S4096x1 (constantI S_ 32 0#32)))
              (cmpi .sle (broadcastInDim S4096x1 ![0] bcast_S4096_S4096x1_0 (nrm4096 n col))
                (broadcastInDim S4096x1 ![0, 1] bcast_S1x1_S4096x1_0_1 (broadcastInDim S1x1 ![1] bcast_S1_S1x1_1 (constantI S1 32 hiw)))))
        (constantI S_ 1 1#1) reducesTo_S4096x1_S4096_d1 h_S_)
    (Host.gather d T (broadcastInDim S4096x1 ![0] bcast_S4096_S4096x1_0 (nrm4096 n col))) nan = _
  rw [nrm4096_eq]
  refine mask_select _ _ _ _ _ _ _ _ (fun i => ?_) (fun i => ?_) (fun k => rfl)
  · obtain ⟨j, hj⟩ := bcast_at ![0] bcast_S4096_S4096x1_0 (Cert.Cols.norm n col) i
    show (0#32 : BitVec 32).toInt ≤ _
    rw [hj, norm_of_nonneg n col j (hcol j).1, toInt_zero32]
    exact (hcol j).1
  · obtain ⟨j, hj⟩ := bcast_at ![0] bcast_S4096_S4096x1_0 (Cert.Cols.norm n col) i
    show _ ≤ hiw.toInt
    rw [hj, norm_of_nonneg n col j (hcol j).1, hN]
    have := (hcol j).2
    omega

abbrev nrm256 (n : BitVec 32) (col : IVec S256 32) : IVec S256 32 :=
  select (cmpi .slt col (broadcastInDim S256 ![] bcast_S_S256 (constantI S_ 32 0#32)))
    (addi col (broadcastInDim S256 ![] bcast_S_S256 (constantI S_ 32 n))) col

theorem nrm256_eq (n : BitVec 32) (col : IVec S256 32) : nrm256 n col = Cert.Cols.norm n col := rfl

abbrev takeN {sT : Shape} (d : GatherDims sT S256x1 S256x100) (n hiw : BitVec 32) (nan : S256x100.Idx → α)
    (T : sT.Idx → α) (col : IVec S256 32) : S256x100.Idx → α :=
  select (broadcastInDim S256x100 ![0] bcast_S256_S256x100_0
      (Host.reduce IntOp.andi
        (andi (cmpi .sge (broadcastInDim S256x1 ![0] bcast_S256_S256x1_0 (nrm256 n col)) (broadcastInDim S256x1 ![] bcast_S_S256x1 (constantI S_ 32 0#32)))
              (cmpi .sle (broadcastInDim S256x1 ![0] bcast_S256_S256x1_0 (nrm256 n col))
                (broadcastInDim S256x1 ![0, 1] bcast_S1x1_S256x1_0_1 (broadcastInDim S1x1 ![1] bcast_S1_S1x1_1 (constantI S1 32 hiw)))))
        (constantI S_ 1 1#1) reducesTo_S256x1_S256_d1 h_S_))
    (Host.gather d T (broadcastInDim S256x1 ![0] bcast_S256_S256x1_0 (nrm256 n col)))
    nan

theorem takeN_eq {sT : Shape} (d : GatherDims sT S256x1 S256x100) (n hiw : BitVec 32) (N : Int) (hN : hiw.toInt = N - 1)
    (nan : S256x100.Idx → α) (T : sT.Idx → α) (col : IVec S256 32) (hcol : ∀ j, 0 ≤ (col j).toInt ∧ (col j).toInt < N) :
    takeN d n hiw nan T col = Host.gather d T (broadcastInDim S256x1 ![0] bcast_S256_S256x1_0 (Cert.Cols.norm n col)) := by
  show select (broadcastInDim S256x100 ![0] bcast_S256_S256x100_0
      (Host.reduce IntOp.andi
        (andi (cmpi .sge (broadcastInDim S256x1 ![0] bcast_S256_S256x1_0 (nrm256 n col)) (broadcastInDim S256x1 ![] bcast_S_S256x1 (constantI S_ 32 0#32)))
              (cmpi .sle (broadcastInDim S256x1 ![0] bcast_S256_S256x1_0 (nrm256 n col))
                (broadcastInDim S256x1 ![0, 1] bcast_S1x1_S256x1_0_1 (broadcastInDim S1x1 ![1] bcast_S1_S1x1_1 (constantI S1 32 hiw)))))
        (constantI S_ 1 1#1) reducesTo_S256x1_S256_d1 h_S_))
    (Host.gather d T (broadcastInDim S256x1 ![0] bcast_S256_S256x1_0 (nrm256 n col))) nan = _
  rw [nrm256_eq]
  refine mask_select_bcast _ _ _ _ _ _ _ _ _ _ (fun i => ?_) (fun i => ?_) (fun k => rfl)
  · obtain ⟨j, hj⟩ := bcast_at ![0] bcast_S256_S256x1_0 (Cert.Cols.norm n col) i
    show (0#32 : BitVec 32).toInt ≤ _
    rw [hj, norm_of_nonneg n col j (hcol j).1, toInt_zero32]
    exact (hcol j).1
  · obtain ⟨j, hj⟩ := bcast_at ![0] bcast_S256_S256x1_0 (Cert.Cols.norm n col) i
    show _ ≤ hiw.toInt
    rw [hj, norm_of_nonneg n col j (hcol j).1, hN]
    have := (hcol j).2
    omega

end Cert.KernelIdeal.HostVal

end
-- ==== Proof.KIHost.Writes.lean ====
import proofs.«400362_j8907762172017_2_alg».proof.Proof.KIFrame.Runs

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]

macro "writes_sub" : tactic =>
  `(tactic| (simp only [List.Forall, StableHlo.nullary_writes, StableHlo.unary_writes, StableHlo.binary_writes, StableHlo.ternary_writes, StableHlo.reshape_writes, StableHlo.nary_writes, Finset.singleton_subset_iff, List.mem_toFinset]; (repeat' apply And.intro) <;> exact List.mem_map_of_mem (by decide)))

abbrev wr0 : List (Ref sig .tc) := [main_v0, main_v1, main_v2, main_v3, main_v4, main_v5]
abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
abbrev wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
abbrev wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v8]
abbrev wr4 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v9]
abbrev wr5 : List (Ref sig .tc) := [main_v10, main_v11, main_v12, main_v13, main_v14, main_v15]
abbrev wr6 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v16]
abbrev wr7 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v17]
abbrev wr8 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v18]
abbrev wr9 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v19]
abbrev wr10 : List (Ref sig .tc) := [main_v20, main_v21, main_v22, main_v23, main_v24, main_v25]
abbrev wr11 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v26]
abbrev wr12 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v27]
abbrev wr13 : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v28]
abbrev wr14 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v29]
abbrev wr15 : List (Ref sig .tc) := [main_v30, main_v31, main_v32, main_v33, main_v34, main_v35]
abbrev wr16 : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v36]
abbrev wr17 : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v37]
abbrev wr18 : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_cst, main_call14_v14, main_v38]
abbrev wr19 : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v39]
abbrev wr20 : List (Ref sig .tc) := [main_v40, main_v41, main_v42, main_v43, main_v44, main_v45]
abbrev wr21 : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v46]
abbrev wr22 : List (Ref sig .tc) := [main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v47]
abbrev wr23 : List (Ref sig .tc) := [main_call18_c, main_call18_v0, main_call18_v1, main_call18_c_0, main_call18_v2, main_call18_v3, main_call18_v4, main_call18_v5, main_call18_c_1, main_call18_c_2, main_call18_v6, main_call18_v7, main_call18_v8, main_call18_v9, main_call18_v10, main_call18_v11, main_call18_c_3, main_call18_v12, main_call18_v13, main_call18_cst, main_call18_v14, main_v48]
abbrev wr24 : List (Ref sig .tc) := [main_call19_c, main_call19_v0, main_call19_v1, main_call19_c_0, main_call19_v2, main_call19_v3, main_call19_v4, main_call19_v5, main_call19_c_1, main_call19_c_2, main_call19_v6, main_call19_v7, main_call19_v8, main_call19_v9, main_call19_v10, main_call19_v11, main_call19_c_3, main_call19_v12, main_call19_v13, main_call19_v14, main_call19_cst, main_call19_v15, main_v49]
abbrev wr25 : List (Ref sig .tc) := [main_v50, main_v51, main_v52, main_v53, main_v54, main_v55]
abbrev wr26 : List (Ref sig .tc) := [main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v56]
abbrev wr27 : List (Ref sig .tc) := [main_call21_c, main_call21_v0, main_call21_v1, main_call21_c_0, main_call21_v2, main_call21_v3, main_call21_v4, main_call21_v5, main_call21_c_1, main_call21_c_2, main_call21_v6, main_call21_v7, main_call21_v8, main_call21_v9, main_call21_v10, main_call21_v11, main_call21_c_3, main_call21_v12, main_call21_v13, main_call21_v14, main_call21_cst, main_call21_v15, main_v57]
abbrev wr28 : List (Ref sig .tc) := [main_call22_c, main_call22_v0, main_call22_v1, main_call22_c_0, main_call22_v2, main_call22_v3, main_call22_v4, main_call22_v5, main_call22_c_1, main_call22_c_2, main_call22_v6, main_call22_v7, main_call22_v8, main_call22_v9, main_call22_v10, main_call22_v11, main_call22_c_3, main_call22_v12, main_call22_v13, main_call22_cst, main_call22_v14, main_v58]
abbrev wr29 : List (Ref sig .tc) := [main_call23_c, main_call23_v0, main_call23_v1, main_call23_c_0, main_call23_v2, main_call23_v3, main_call23_v4, main_call23_v5, main_call23_c_1, main_call23_c_2, main_call23_v6, main_call23_v7, main_call23_v8, main_call23_v9, main_call23_v10, main_call23_v11, main_call23_c_3, main_call23_v12, main_call23_v13, main_call23_v14, main_call23_cst, main_call23_v15, main_v59]
abbrev wr30 : List (Ref sig .tc) := [main_v60, main_v61, main_v62, main_v63, main_v64, main_v65]
abbrev wr31 : List (Ref sig .tc) := [main_call24_c, main_call24_v0, main_call24_v1, main_call24_c_0, main_call24_v2, main_call24_v3, main_call24_v4, main_call24_v5, main_call24_c_1, main_call24_c_2, main_call24_v6, main_call24_v7, main_call24_v8, main_call24_v9, main_call24_v10, main_call24_v11, main_call24_c_3, main_call24_v12, main_call24_v13, main_call24_v14, main_call24_cst, main_call24_v15, main_v66]
abbrev wr32 : List (Ref sig .tc) := [main_call25_c, main_call25_v0, main_call25_v1, main_call25_c_0, main_call25_v2, main_call25_v3, main_call25_v4, main_call25_v5, main_call25_c_1, main_call25_c_2, main_call25_v6, main_call25_v7, main_call25_v8, main_call25_v9, main_call25_v10, main_call25_v11, main_call25_c_3, main_call25_v12, main_call25_v13, main_call25_v14, main_call25_cst, main_call25_v15, main_v67]
abbrev wr33 : List (Ref sig .tc) := [main_call26_c, main_call26_v0, main_call26_v1, main_call26_c_0, main_call26_v2, main_call26_v3, main_call26_v4, main_call26_v5, main_call26_c_1, main_call26_c_2, main_call26_v6, main_call26_v7, main_call26_v8, main_call26_v9, main_call26_v10, main_call26_v11, main_call26_c_3, main_call26_v12, main_call26_v13, main_call26_cst, main_call26_v14, main_v68]
abbrev wr34 : List (Ref sig .tc) := [main_call27_c, main_call27_v0, main_call27_v1, main_call27_c_0, main_call27_v2, main_call27_v3, main_call27_v4, main_call27_v5, main_call27_c_1, main_call27_c_2, main_call27_v6, main_call27_v7, main_call27_v8, main_call27_v9, main_call27_v10, main_call27_v11, main_call27_c_3, main_call27_v12, main_call27_v13, main_call27_v14, main_call27_cst, main_call27_v15, main_v69]
abbrev wr35 : List (Ref sig .tc) := [main_v70, main_v71, main_v72, main_v73, main_v74, main_v75]
abbrev wr36 : List (Ref sig .tc) := [main_call28_c, main_call28_v0, main_call28_v1, main_call28_c_0, main_call28_v2, main_call28_v3, main_call28_v4, main_call28_v5, main_call28_c_1, main_call28_c_2, main_call28_v6, main_call28_v7, main_call28_v8, main_call28_v9, main_call28_v10, main_call28_v11, main_call28_c_3, main_call28_v12, main_call28_v13, main_call28_v14, main_call28_cst, main_call28_v15, main_v76]
abbrev wr37 : List (Ref sig .tc) := [main_call29_c, main_call29_v0, main_call29_v1, main_call29_c_0, main_call29_v2, main_call29_v3, main_call29_v4, main_call29_v5, main_call29_c_1, main_call29_c_2, main_call29_v6, main_call29_v7, main_call29_v8, main_call29_v9, main_call29_v10, main_call29_v11, main_call29_c_3, main_call29_v12, main_call29_v13, main_call29_v14, main_call29_cst, main_call29_v15, main_v77]
abbrev wr38 : List (Ref sig .tc) := [main_call30_c, main_call30_v0, main_call30_v1, main_call30_c_0, main_call30_v2, main_call30_v3, main_call30_v4, main_call30_v5, main_call30_c_1, main_call30_c_2, main_call30_v6, main_call30_v7, main_call30_v8, main_call30_v9, main_call30_v10, main_call30_v11, main_call30_c_3, main_call30_v12, main_call30_v13, main_call30_cst, main_call30_v14, main_v78]
abbrev wr39 : List (Ref sig .tc) := [main_call31_c, main_call31_v0, main_call31_v1, main_call31_c_0, main_call31_v2, main_call31_v3, main_call31_v4, main_call31_v5, main_call31_c_1, main_call31_c_2, main_call31_v6, main_call31_v7, main_call31_v8, main_call31_v9, main_call31_v10, main_call31_v11, main_call31_c_3, main_call31_v12, main_call31_v13, main_call31_v14, main_call31_cst, main_call31_v15, main_v79]
abbrev wr40 : List (Ref sig .tc) := [main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117]

theorem writes0 : (hostOps0 : List (HloOp τ sig (Elt F))).Forall fun op => op.writes ⊆ (wr0.map (Proc.devRef (τ := τ) .tc)).toFinset := by writes_sub
theorem writes1 : (hostOps0_1 : List (HloOp τ sig (Elt F))).Forall fun op => op.writes ⊆ (wr1.map (Proc.devRef (τ := τ) .tc)).toFinset := by writes_sub
theorem writes2 : (hostOps0_2 : List (HloOp τ sig (Elt F))).Forall fun op => op.writes ⊆ (wr2.map (Proc.devRef (τ := τ) .tc)).toFinset := by writes_sub
theorem writes3 : (hostOps0_3 : List (HloOp τ sig (Elt F))).Forall fun op => op.writes ⊆ (wr3.map (Proc.devRef (τ := τ) .tc)).toFinset := by writes_sub
theorem writes4 : (hostOps0_4 : List (HloOp τ sig (Elt F))).Forall fun op => op.writes ⊆ (wr4.map (Proc.devRef (τ := τ) .tc)).toFinset := by writes_sub
theorem writes5 : (hostOps0_5 : List (HloOp τ sig (Elt F))).Forall fun op => op.writes ⊆ (wr5.map (Proc.devRef (τ := τ) .tc)).toFinset := by writes_sub
theorem writes6 : (hostOps0_6 : List (HloOp τ sig (Elt F))).Forall fun op => op.writes ⊆ (wr6.map (Proc.devRef (τ := τ) .tc)).toFinset := by writes_sub
theorem writes7 : (hostOps0_7 : List (HloOp τ sig (Elt F))).Forall fun op => op.writes ⊆ (wr7.map (Proc.devRef (τ := τ) .tc)).toFinset := by writes_sub
theorem writes8 : (hostOps0_8 : List (HloOp τ sig (Elt F))).Forall fun op => op.writes ⊆ (wr8.map (Proc.devRef (τ := τ) .tc)).toFinset := by writes_sub
theorem writes9 : (hostOps0_9 : List (HloOp τ sig (Elt F))).Forall fun op => op.writes ⊆ (wr9.map (Proc.devRef (τ := τ) .tc)).toFinset := by writes_sub
theorem writes10 : (hostOps0_10 : List (HloOp τ sig (Elt F))).Forall fun op => op.writes ⊆ (wr10.map (Proc.devRef (τ := τ) .tc)).toFinset := by writes_sub
theorem writes11 : (hostOps0_11 : List (HloOp τ sig (Elt F))).Forall fun op => op.writes ⊆ (wr11.map (Proc.devRef (τ := τ) .tc)).toFinset := by writes_sub
theorem writes12 : (hostOps0_12 : List (HloOp τ sig (Elt F))).Forall fun op => op.writes ⊆ (wr12.map (Proc.devRef (τ := τ) .tc)).toFinset := by writes_sub
theorem writes13 : (hostOps0_13 : List (HloOp τ sig (Elt F))).Forall fun op => op.writes ⊆ (wr13.map (Proc.devRef (τ := τ) .tc)).toFinset := by writes_sub
theorem writes14 : (hostOps0_14 : List (HloOp τ sig (Elt F))).Forall fun op => op.writes ⊆ (wr14.map (Proc.devRef (τ := τ) .tc)).toFinset := by writes_sub
theorem writes15 : (hostOps0_15 : List (HloOp τ sig (Elt F))).Forall fun op => op.writes ⊆ (wr15.map (Proc.devRef (τ := τ) .tc)).toFinset := by writes_sub
theorem writes16 : (hostOps0_16 : List (HloOp τ sig (Elt F))).Forall fun op => op.writes ⊆ (wr16.map (Proc.devRef (τ := τ) .tc)).toFinset := by writes_sub
theorem writes17 : (hostOps0_17 : List (HloOp τ sig (Elt F))).Forall fun op => op.writes ⊆ (wr17.map (Proc.devRef (τ := τ) .tc)).toFinset := by writes_sub
theorem writes18 : (hostOps0_18 : List (HloOp τ sig (Elt F))).Forall fun op => op.writes ⊆ (wr18.map (Proc.devRef (τ := τ) .tc)).toFinset := by writes_sub
theorem writes19 : (hostOps0_19 : List (HloOp τ sig (Elt F))).Forall fun op => op.writes ⊆ (wr19.map (Proc.devRef (τ := τ) .tc)).toFinset := by writes_sub
theorem writes20 : (hostOps0_20 : List (HloOp τ sig (Elt F))).Forall fun op => op.writes ⊆ (wr20.map (Proc.devRef (τ := τ) .tc)).toFinset := by writes_sub
theorem writes21 : (hostOps0_21 : List (HloOp τ sig (Elt F))).Forall fun op => op.writes ⊆ (wr21.map (Proc.devRef (τ := τ) .tc)).toFinset := by writes_sub
theorem writes22 : (hostOps0_22 : List (HloOp τ sig (Elt F))).Forall fun op => op.writes ⊆ (wr22.map (Proc.devRef (τ := τ) .tc)).toFinset := by writes_sub
theorem writes23 : (hostOps0_23 : List (HloOp τ sig (Elt F))).Forall fun op => op.writes ⊆ (wr23.map (Proc.devRef (τ := τ) .tc)).toFinset := by writes_sub
theorem writes24 : (hostOps0_24 : List (HloOp τ sig (Elt F))).Forall fun op => op.writes ⊆ (wr24.map (Proc.devRef (τ := τ) .tc)).toFinset := by writes_sub
theorem writes25 : (hostOps0_25 : List (HloOp τ sig (Elt F))).Forall fun op => op.writes ⊆ (wr25.map (Proc.devRef (τ := τ) .tc)).toFinset := by writes_sub
theorem writes26 : (hostOps0_26 : List (HloOp τ sig (Elt F))).Forall fun op => op.writes ⊆ (wr26.map (Proc.devRef (τ := τ) .tc)).toFinset := by writes_sub
theorem writes27 : (hostOps0_27 : List (HloOp τ sig (Elt F))).Forall fun op => op.writes ⊆ (wr27.map (Proc.devRef (τ := τ) .tc)).toFinset := by writes_sub
theorem writes28 : (hostOps0_28 : List (HloOp τ sig (Elt F))).Forall fun op => op.writes ⊆ (wr28.map (Proc.devRef (τ := τ) .tc)).toFinset := by writes_sub
theorem writes29 : (hostOps0_29 : List (HloOp τ sig (Elt F))).Forall fun op => op.writes ⊆ (wr29.map (Proc.devRef (τ := τ) .tc)).toFinset := by writes_sub
theorem writes30 : (hostOps0_30 : List (HloOp τ sig (Elt F))).Forall fun op => op.writes ⊆ (wr30.map (Proc.devRef (τ := τ) .tc)).toFinset := by writes_sub
theorem writes31 : (hostOps0_31 : List (HloOp τ sig (Elt F))).Forall fun op => op.writes ⊆ (wr31.map (Proc.devRef (τ := τ) .tc)).toFinset := by writes_sub
theorem writes32 : (hostOps0_32 : List (HloOp τ sig (Elt F))).Forall fun op => op.writes ⊆ (wr32.map (Proc.devRef (τ := τ) .tc)).toFinset := by writes_sub
theorem writes33 : (hostOps0_33 : List (HloOp τ sig (Elt F))).Forall fun op => op.writes ⊆ (wr33.map (Proc.devRef (τ := τ) .tc)).toFinset := by writes_sub
theorem writes34 : (hostOps0_34 : List (HloOp τ sig (Elt F))).Forall fun op => op.writes ⊆ (wr34.map (Proc.devRef (τ := τ) .tc)).toFinset := by writes_sub
theorem writes35 : (hostOps0_35 : List (HloOp τ sig (Elt F))).Forall fun op => op.writes ⊆ (wr35.map (Proc.devRef (τ := τ) .tc)).toFinset := by writes_sub
theorem writes36 : (hostOps0_36 : List (HloOp τ sig (Elt F))).Forall fun op => op.writes ⊆ (wr36.map (Proc.devRef (τ := τ) .tc)).toFinset := by writes_sub
theorem writes37 : (hostOps0_37 : List (HloOp τ sig (Elt F))).Forall fun op => op.writes ⊆ (wr37.map (Proc.devRef (τ := τ) .tc)).toFinset := by writes_sub
theorem writes38 : (hostOps0_38 : List (HloOp τ sig (Elt F))).Forall fun op => op.writes ⊆ (wr38.map (Proc.devRef (τ := τ) .tc)).toFinset := by writes_sub
theorem writes39 : (hostOps0_39 : List (HloOp τ sig (Elt F))).Forall fun op => op.writes ⊆ (wr39.map (Proc.devRef (τ := τ) .tc)).toFinset := by writes_sub
theorem writes40 : (hostOps0_40 : List (HloOp τ sig (Elt F))).Forall fun op => op.writes ⊆ (wr40.map (Proc.devRef (τ := τ) .tc)).toFinset := by writes_sub

variable (m : (ℓ : Loc nD τ sig) → Buf (Elt F) ℓ)

def St0 (c : Dev nD) : Valuation τ sig (Elt F) := StableHlo.after hostOps0 (fun b => m (c, b))
def St1 (c : Dev nD) : Valuation τ sig (Elt F) := StableHlo.after hostOps0_1 (St0 m c)
def St2 (c : Dev nD) : Valuation τ sig (Elt F) := StableHlo.after hostOps0_2 (St1 m c)
def St3 (c : Dev nD) : Valuation τ sig (Elt F) := StableHlo.after hostOps0_3 (St2 m c)
def St4 (c : Dev nD) : Valuation τ sig (Elt F) := StableHlo.after hostOps0_4 (St3 m c)
def St5 (c : Dev nD) : Valuation τ sig (Elt F) := StableHlo.after hostOps0_5 (St4 m c)
def St6 (c : Dev nD) : Valuation τ sig (Elt F) := StableHlo.after hostOps0_6 (St5 m c)
def St7 (c : Dev nD) : Valuation τ sig (Elt F) := StableHlo.after hostOps0_7 (St6 m c)
def St8 (c : Dev nD) : Valuation τ sig (Elt F) := StableHlo.after hostOps0_8 (St7 m c)
def St9 (c : Dev nD) : Valuation τ sig (Elt F) := StableHlo.after hostOps0_9 (St8 m c)
def St10 (c : Dev nD) : Valuation τ sig (Elt F) := StableHlo.after hostOps0_10 (St9 m c)
def St11 (c : Dev nD) : Valuation τ sig (Elt F) := StableHlo.after hostOps0_11 (St10 m c)
def St12 (c : Dev nD) : Valuation τ sig (Elt F) := StableHlo.after hostOps0_12 (St11 m c)
def St13 (c : Dev nD) : Valuation τ sig (Elt F) := StableHlo.after hostOps0_13 (St12 m c)
def St14 (c : Dev nD) : Valuation τ sig (Elt F) := StableHlo.after hostOps0_14 (St13 m c)
def St15 (c : Dev nD) : Valuation τ sig (Elt F) := StableHlo.after hostOps0_15 (St14 m c)
def St16 (c : Dev nD) : Valuation τ sig (Elt F) := StableHlo.after hostOps0_16 (St15 m c)
def St17 (c : Dev nD) : Valuation τ sig (Elt F) := StableHlo.after hostOps0_17 (St16 m c)
def St18 (c : Dev nD) : Valuation τ sig (Elt F) := StableHlo.after hostOps0_18 (St17 m c)
def St19 (c : Dev nD) : Valuation τ sig (Elt F) := StableHlo.after hostOps0_19 (St18 m c)
def St20 (c : Dev nD) : Valuation τ sig (Elt F) := StableHlo.after hostOps0_20 (St19 m c)
def St21 (c : Dev nD) : Valuation τ sig (Elt F) := StableHlo.after hostOps0_21 (St20 m c)
def St22 (c : Dev nD) : Valuation τ sig (Elt F) := StableHlo.after hostOps0_22 (St21 m c)
def St23 (c : Dev nD) : Valuation τ sig (Elt F) := StableHlo.after hostOps0_23 (St22 m c)
def St24 (c : Dev nD) : Valuation τ sig (Elt F) := StableHlo.after hostOps0_24 (St23 m c)
def St25 (c : Dev nD) : Valuation τ sig (Elt F) := StableHlo.after hostOps0_25 (St24 m c)
def St26 (c : Dev nD) : Valuation τ sig (Elt F) := StableHlo.after hostOps0_26 (St25 m c)
def St27 (c : Dev nD) : Valuation τ sig (Elt F) := StableHlo.after hostOps0_27 (St26 m c)
def St28 (c : Dev nD) : Valuation τ sig (Elt F) := StableHlo.after hostOps0_28 (St27 m c)
def St29 (c : Dev nD) : Valuation τ sig (Elt F) := StableHlo.after hostOps0_29 (St28 m c)
def St30 (c : Dev nD) : Valuation τ sig (Elt F) := StableHlo.after hostOps0_30 (St29 m c)
def St31 (c : Dev nD) : Valuation τ sig (Elt F) := StableHlo.after hostOps0_31 (St30 m c)
def St32 (c : Dev nD) : Valuation τ sig (Elt F) := StableHlo.after hostOps0_32 (St31 m c)
def St33 (c : Dev nD) : Valuation τ sig (Elt F) := StableHlo.after hostOps0_33 (St32 m c)
def St34 (c : Dev nD) : Valuation τ sig (Elt F) := StableHlo.after hostOps0_34 (St33 m c)
def St35 (c : Dev nD) : Valuation τ sig (Elt F) := StableHlo.after hostOps0_35 (St34 m c)
def St36 (c : Dev nD) : Valuation τ sig (Elt F) := StableHlo.after hostOps0_36 (St35 m c)
def St37 (c : Dev nD) : Valuation τ sig (Elt F) := StableHlo.after hostOps0_37 (St36 m c)
def St38 (c : Dev nD) : Valuation τ sig (Elt F) := StableHlo.after hostOps0_38 (St37 m c)
def St39 (c : Dev nD) : Valuation τ sig (Elt F) := StableHlo.after hostOps0_39 (St38 m c)
def St40 (c : Dev nD) : Valuation τ sig (Elt F) := StableHlo.after hostOps0_40 (St39 m c)

theorem after_flatten_cons (l : List (HloOp τ sig (Elt F))) (L : List (List (HloOp τ sig (Elt F)))) (V : Valuation τ sig (Elt F)) :
    StableHlo.after (List.flatten (l :: L)) V = StableHlo.after (List.flatten L) (StableHlo.after l V) := by
  rw [List.flatten_cons, StableHlo.after_append]

/-- The region finds the contents left by the last of the 41 stretches. -/
theorem V0_eq (c : Dev nD) : V0 m c = St40 m c := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40]) (fun b => m (c, b)) = _
  simp only [after_flatten_cons, List.flatten_nil, StableHlo.after_nil]
  rfl

theorem St0_of (c : Dev nD) (r : Ref sig .tc) (h : r ∉ wr0) : St0 m c (no_index (Proc.devRef .tc r)) = m (c, Proc.devRef .tc r) := StableHlo.after_of_writes_sub hostOps0 _ writes0 h
theorem St1_of (c : Dev nD) (r : Ref sig .tc) (h : r ∉ wr1) : St1 m c (no_index (Proc.devRef .tc r)) = St0 m c (Proc.devRef .tc r) := StableHlo.after_of_writes_sub hostOps0_1 _ writes1 h
theorem St2_of (c : Dev nD) (r : Ref sig .tc) (h : r ∉ wr2) : St2 m c (no_index (Proc.devRef .tc r)) = St1 m c (Proc.devRef .tc r) := StableHlo.after_of_writes_sub hostOps0_2 _ writes2 h
theorem St3_of (c : Dev nD) (r : Ref sig .tc) (h : r ∉ wr3) : St3 m c (no_index (Proc.devRef .tc r)) = St2 m c (Proc.devRef .tc r) := StableHlo.after_of_writes_sub hostOps0_3 _ writes3 h
theorem St4_of (c : Dev nD) (r : Ref sig .tc) (h : r ∉ wr4) : St4 m c (no_index (Proc.devRef .tc r)) = St3 m c (Proc.devRef .tc r) := StableHlo.after_of_writes_sub hostOps0_4 _ writes4 h
theorem St5_of (c : Dev nD) (r : Ref sig .tc) (h : r ∉ wr5) : St5 m c (no_index (Proc.devRef .tc r)) = St4 m c (Proc.devRef .tc r) := StableHlo.after_of_writes_sub hostOps0_5 _ writes5 h
theorem St6_of (c : Dev nD) (r : Ref sig .tc) (h : r ∉ wr6) : St6 m c (no_index (Proc.devRef .tc r)) = St5 m c (Proc.devRef .tc r) := StableHlo.after_of_writes_sub hostOps0_6 _ writes6 h
theorem St7_of (c : Dev nD) (r : Ref sig .tc) (h : r ∉ wr7) : St7 m c (no_index (Proc.devRef .tc r)) = St6 m c (Proc.devRef .tc r) := StableHlo.after_of_writes_sub hostOps0_7 _ writes7 h
theorem St8_of (c : Dev nD) (r : Ref sig .tc) (h : r ∉ wr8) : St8 m c (no_index (Proc.devRef .tc r)) = St7 m c (Proc.devRef .tc r) := StableHlo.after_of_writes_sub hostOps0_8 _ writes8 h
theorem St9_of (c : Dev nD) (r : Ref sig .tc) (h : r ∉ wr9) : St9 m c (no_index (Proc.devRef .tc r)) = St8 m c (Proc.devRef .tc r) := StableHlo.after_of_writes_sub hostOps0_9 _ writes9 h
theorem St10_of (c : Dev nD) (r : Ref sig .tc) (h : r ∉ wr10) : St10 m c (no_index (Proc.devRef .tc r)) = St9 m c (Proc.devRef .tc r) := StableHlo.after_of_writes_sub hostOps0_10 _ writes10 h
theorem St11_of (c : Dev nD) (r : Ref sig .tc) (h : r ∉ wr11) : St11 m c (no_index (Proc.devRef .tc r)) = St10 m c (Proc.devRef .tc r) := StableHlo.after_of_writes_sub hostOps0_11 _ writes11 h
theorem St12_of (c : Dev nD) (r : Ref sig .tc) (h : r ∉ wr12) : St12 m c (no_index (Proc.devRef .tc r)) = St11 m c (Proc.devRef .tc r) := StableHlo.after_of_writes_sub hostOps0_12 _ writes12 h
theorem St13_of (c : Dev nD) (r : Ref sig .tc) (h : r ∉ wr13) : St13 m c (no_index (Proc.devRef .tc r)) = St12 m c (Proc.devRef .tc r) := StableHlo.after_of_writes_sub hostOps0_13 _ writes13 h
theorem St14_of (c : Dev nD) (r : Ref sig .tc) (h : r ∉ wr14) : St14 m c (no_index (Proc.devRef .tc r)) = St13 m c (Proc.devRef .tc r) := StableHlo.after_of_writes_sub hostOps0_14 _ writes14 h
theorem St15_of (c : Dev nD) (r : Ref sig .tc) (h : r ∉ wr15) : St15 m c (no_index (Proc.devRef .tc r)) = St14 m c (Proc.devRef .tc r) := StableHlo.after_of_writes_sub hostOps0_15 _ writes15 h
theorem St16_of (c : Dev nD) (r : Ref sig .tc) (h : r ∉ wr16) : St16 m c (no_index (Proc.devRef .tc r)) = St15 m c (Proc.devRef .tc r) := StableHlo.after_of_writes_sub hostOps0_16 _ writes16 h
theorem St17_of (c : Dev nD) (r : Ref sig .tc) (h : r ∉ wr17) : St17 m c (no_index (Proc.devRef .tc r)) = St16 m c (Proc.devRef .tc r) := StableHlo.after_of_writes_sub hostOps0_17 _ writes17 h
theorem St18_of (c : Dev nD) (r : Ref sig .tc) (h : r ∉ wr18) : St18 m c (no_index (Proc.devRef .tc r)) = St17 m c (Proc.devRef .tc r) := StableHlo.after_of_writes_sub hostOps0_18 _ writes18 h
theorem St19_of (c : Dev nD) (r : Ref sig .tc) (h : r ∉ wr19) : St19 m c (no_index (Proc.devRef .tc r)) = St18 m c (Proc.devRef .tc r) := StableHlo.after_of_writes_sub hostOps0_19 _ writes19 h
theorem St20_of (c : Dev nD) (r : Ref sig .tc) (h : r ∉ wr20) : St20 m c (no_index (Proc.devRef .tc r)) = St19 m c (Proc.devRef .tc r) := StableHlo.after_of_writes_sub hostOps0_20 _ writes20 h
theorem St21_of (c : Dev nD) (r : Ref sig .tc) (h : r ∉ wr21) : St21 m c (no_index (Proc.devRef .tc r)) = St20 m c (Proc.devRef .tc r) := StableHlo.after_of_writes_sub hostOps0_21 _ writes21 h
theorem St22_of (c : Dev nD) (r : Ref sig .tc) (h : r ∉ wr22) : St22 m c (no_index (Proc.devRef .tc r)) = St21 m c (Proc.devRef .tc r) := StableHlo.after_of_writes_sub hostOps0_22 _ writes22 h
theorem St23_of (c : Dev nD) (r : Ref sig .tc) (h : r ∉ wr23) : St23 m c (no_index (Proc.devRef .tc r)) = St22 m c (Proc.devRef .tc r) := StableHlo.after_of_writes_sub hostOps0_23 _ writes23 h
theorem St24_of (c : Dev nD) (r : Ref sig .tc) (h : r ∉ wr24) : St24 m c (no_index (Proc.devRef .tc r)) = St23 m c (Proc.devRef .tc r) := StableHlo.after_of_writes_sub hostOps0_24 _ writes24 h
theorem St25_of (c : Dev nD) (r : Ref sig .tc) (h : r ∉ wr25) : St25 m c (no_index (Proc.devRef .tc r)) = St24 m c (Proc.devRef .tc r) := StableHlo.after_of_writes_sub hostOps0_25 _ writes25 h
theorem St26_of (c : Dev nD) (r : Ref sig .tc) (h : r ∉ wr26) : St26 m c (no_index (Proc.devRef .tc r)) = St25 m c (Proc.devRef .tc r) := StableHlo.after_of_writes_sub hostOps0_26 _ writes26 h
theorem St27_of (c : Dev nD) (r : Ref sig .tc) (h : r ∉ wr27) : St27 m c (no_index (Proc.devRef .tc r)) = St26 m c (Proc.devRef .tc r) := StableHlo.after_of_writes_sub hostOps0_27 _ writes27 h
theorem St28_of (c : Dev nD) (r : Ref sig .tc) (h : r ∉ wr28) : St28 m c (no_index (Proc.devRef .tc r)) = St27 m c (Proc.devRef .tc r) := StableHlo.after_of_writes_sub hostOps0_28 _ writes28 h
theorem St29_of (c : Dev nD) (r : Ref sig .tc) (h : r ∉ wr29) : St29 m c (no_index (Proc.devRef .tc r)) = St28 m c (Proc.devRef .tc r) := StableHlo.after_of_writes_sub hostOps0_29 _ writes29 h
theorem St30_of (c : Dev nD) (r : Ref sig .tc) (h : r ∉ wr30) : St30 m c (no_index (Proc.devRef .tc r)) = St29 m c (Proc.devRef .tc r) := StableHlo.after_of_writes_sub hostOps0_30 _ writes30 h
theorem St31_of (c : Dev nD) (r : Ref sig .tc) (h : r ∉ wr31) : St31 m c (no_index (Proc.devRef .tc r)) = St30 m c (Proc.devRef .tc r) := StableHlo.after_of_writes_sub hostOps0_31 _ writes31 h
theorem St32_of (c : Dev nD) (r : Ref sig .tc) (h : r ∉ wr32) : St32 m c (no_index (Proc.devRef .tc r)) = St31 m c (Proc.devRef .tc r) := StableHlo.after_of_writes_sub hostOps0_32 _ writes32 h
theorem St33_of (c : Dev nD) (r : Ref sig .tc) (h : r ∉ wr33) : St33 m c (no_index (Proc.devRef .tc r)) = St32 m c (Proc.devRef .tc r) := StableHlo.after_of_writes_sub hostOps0_33 _ writes33 h
theorem St34_of (c : Dev nD) (r : Ref sig .tc) (h : r ∉ wr34) : St34 m c (no_index (Proc.devRef .tc r)) = St33 m c (Proc.devRef .tc r) := StableHlo.after_of_writes_sub hostOps0_34 _ writes34 h
theorem St35_of (c : Dev nD) (r : Ref sig .tc) (h : r ∉ wr35) : St35 m c (no_index (Proc.devRef .tc r)) = St34 m c (Proc.devRef .tc r) := StableHlo.after_of_writes_sub hostOps0_35 _ writes35 h
theorem St36_of (c : Dev nD) (r : Ref sig .tc) (h : r ∉ wr36) : St36 m c (no_index (Proc.devRef .tc r)) = St35 m c (Proc.devRef .tc r) := StableHlo.after_of_writes_sub hostOps0_36 _ writes36 h
theorem St37_of (c : Dev nD) (r : Ref sig .tc) (h : r ∉ wr37) : St37 m c (no_index (Proc.devRef .tc r)) = St36 m c (Proc.devRef .tc r) := StableHlo.after_of_writes_sub hostOps0_37 _ writes37 h
theorem St38_of (c : Dev nD) (r : Ref sig .tc) (h : r ∉ wr38) : St38 m c (no_index (Proc.devRef .tc r)) = St37 m c (Proc.devRef .tc r) := StableHlo.after_of_writes_sub hostOps0_38 _ writes38 h
theorem St39_of (c : Dev nD) (r : Ref sig .tc) (h : r ∉ wr39) : St39 m c (no_index (Proc.devRef .tc r)) = St38 m c (Proc.devRef .tc r) := StableHlo.after_of_writes_sub hostOps0_39 _ writes39 h
theorem St40_of (c : Dev nD) (r : Ref sig .tc) (h : r ∉ wr40) : St40 m c (no_index (Proc.devRef .tc r)) = St39 m c (Proc.devRef .tc r) := StableHlo.after_of_writes_sub hostOps0_40 _ writes40 h

macro "keeps" : tactic =>
  `(tactic| simp (disch := decide) only [St40_of, St39_of, St38_of, St37_of, St36_of, St35_of, St34_of, St33_of, St32_of, St31_of, St30_of, St29_of, St28_of, St27_of, St26_of, St25_of, St24_of, St23_of, St22_of, St21_of, St20_of, St19_of, St18_of, St17_of, St16_of, St15_of, St14_of, St13_of, St12_of, St11_of, St10_of, St9_of, St8_of, St7_of, St6_of, St5_of, St4_of, St3_of, St2_of, St1_of, St0_of])

end Cert.KernelIdeal.HostVal

end
-- ==== Proof.KIHost.Rel0.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem St0_v1 (c : Dev nD) : St0 m c (Proc.devRef .tc main_v1) = Cert.Cols.bcol 0 (m (c, Proc.devRef .tc main_arg0)) := by
  rw [St0]; dsimp only [hostOps0]; after_results_simp; rfl
theorem St0_v3 (c : Dev nD) : St0 m c (Proc.devRef .tc main_v3) = Cert.Cols.bcol 1 (m (c, Proc.devRef .tc main_arg0)) := by
  rw [St0]; dsimp only [hostOps0]; after_results_simp; rfl
theorem St0_v5 (c : Dev nD) : St0 m c (Proc.devRef .tc main_v5) = Cert.Cols.nrow 0 (m (c, Proc.devRef .tc main_arg1)) := by
  rw [St0]; dsimp only [hostOps0]; after_results_simp; rfl

theorem val1 (X : Valuation τ sig (Elt F)) :
    StableHlo.after hostOps0_1 X (Proc.devRef .tc main_v6)
      = takeB gather_S30001x100_S4096x1_S4096x100_1_0_n_n_0_1_1100 30001#32 30000#32
          (broadcastInDim S4096x100 ![] bcast_S_S4096x100 (constant (F := F) S_ .f32 0x7FC00000#32))
          (X (Proc.devRef .tc main_arg2)) (X (Proc.devRef .tc main_v1)) := by
  dsimp only [hostOps0_1]; after_results_simp <;> (try simp only [StableHlo.TRef.ofBuf, StableHlo.TRef.toBuf, cast_eq]) <;> (try rfl)
theorem val2 (X : Valuation τ sig (Elt F)) :
    StableHlo.after hostOps0_2 X (Proc.devRef .tc main_v7)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v3)) := by
  dsimp only [hostOps0_2]; after_results_simp <;> (try simp only [StableHlo.TRef.ofBuf, StableHlo.TRef.toBuf, cast_eq]) <;> (try rfl)
theorem val3 (X : Valuation τ sig (Elt F)) :
    StableHlo.after hostOps0_3 X (Proc.devRef .tc main_v8)
      = takeS gather_S50001_S4096x1_S4096_n_0_n_n_0_1_1 50001#32 50000#32
          (broadcastInDim S4096 ![] bcast_S_S4096 (constant (F := F) S_ .f32 0x7FC00000#32))
          (X (Proc.devRef .tc main_arg9)) (X (Proc.devRef .tc main_v3)) := by
  dsimp only [hostOps0_3]; after_results_simp <;> (try simp only [StableHlo.TRef.ofBuf, StableHlo.TRef.toBuf, cast_eq]) <;> (try rfl)
theorem val4 (X : Valuation τ sig (Elt F)) :
    StableHlo.after hostOps0_4 X (Proc.devRef .tc main_v9)
      = takeN gather_S50001x100_S256x1_S256x100_1_0_n_n_0_1_1100 50001#32 50000#32
          (broadcastInDim S256x100 ![] bcast_S_S256x100 (constant (F := F) S_ .f32 0x7FC00000#32))
          (X (Proc.devRef .tc main_arg3)) (X (Proc.devRef .tc main_v5)) := by
  dsimp only [hostOps0_4]; after_results_simp <;> (try simp only [StableHlo.TRef.ofBuf, StableHlo.TRef.toBuf, cast_eq]) <;> (try rfl)

theorem head0 (c : Dev nD)
    (hok : Cert.Cols.IdxOK (m ((c : Thread nD τ).loc main_arg0)) (m ((c : Thread nD τ).loc main_arg1))) :
    V0 m c (Proc.devRef .tc main_v6)
      = Host.gather gather_S30001x100_S4096x1_S4096x100_1_0_n_n_0_1_1100 (m ((c : Thread nD τ).loc main_arg2))
          (broadcastInDim S4096x1 ![0] bcast_S4096_S4096x1_0 (Cert.Cols.norm 30001#32 (Cert.Cols.bcol 0 (m ((c : Thread nD τ).loc main_arg0))))) := by
  rw [V0_eq]
  keeps
  rw [St1, val1]
  keeps
  rw [St0_v1]
  exact takeB_eq _ _ _ (Cert.Cols.colRows 0 : Int) (by decide) _ _ _ (hok.1 0)

theorem tail0 (c : Dev nD)
    (hok : Cert.Cols.IdxOK (m ((c : Thread nD τ).loc main_arg0)) (m ((c : Thread nD τ).loc main_arg1))) :
    V0 m c (Proc.devRef .tc main_v7)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St2, val2]
  keeps
  rw [St0_v3]
  exact takeB_eq _ _ _ (Cert.Cols.colRows 1 : Int) (by decide) _ _ _ (hok.1 1)

theorem bias0 (c : Dev nD)
    (hok : Cert.Cols.IdxOK (m ((c : Thread nD τ).loc main_arg0)) (m ((c : Thread nD τ).loc main_arg1))) :
    V0 m c (Proc.devRef .tc main_v8)
      = Host.gather gather_S50001_S4096x1_S4096_n_0_n_n_0_1_1 (m ((c : Thread nD τ).loc main_arg9))
          (broadcastInDim S4096x1 ![0] bcast_S4096_S4096x1_0 (Cert.Cols.norm 50001#32 (Cert.Cols.bcol 1 (m ((c : Thread nD τ).loc main_arg0))))) := by
  rw [V0_eq]
  keeps
  rw [St3, val3]
  keeps
  rw [St0_v3]
  exact takeS_eq _ _ _ (Cert.Cols.colRows 1 : Int) (by decide) _ _ _ (hok.1 1)

theorem neg0 (c : Dev nD)
    (hok : Cert.Cols.IdxOK (m ((c : Thread nD τ).loc main_arg0)) (m ((c : Thread nD τ).loc main_arg1))) :
    V0 m c (Proc.devRef .tc main_v9)
      = Host.gather gather_S50001x100_S256x1_S256x100_1_0_n_n_0_1_1100 (m ((c : Thread nD τ).loc main_arg3))
          (broadcastInDim S256x1 ![0] bcast_S256_S256x1_0 (Cert.Cols.norm 50001#32 (Cert.Cols.nrow 0 (m ((c : Thread nD τ).loc main_arg1))))) := by
  rw [V0_eq]
  keeps
  rw [St4, val4]
  keeps
  rw [St0_v5]
  exact takeN_eq _ _ _ (Cert.Cols.negRows 0 : Int) (by decide) _ _ _ (hok.2 0)

end Cert.KernelIdeal.HostVal

end
-- ==== Proof.KIHost.StackLib.lean ====
import proofs.«400362_j8907762172017_2_alg».proof.Proof.KIHost.Writes
import Idealize.ShloMosaic.Lib.Pipeline.Value
import Idealize.ShloMosaic.Lib.ValueIdx

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable {F : FTy → Type} [FloatOps F]

theorem nary8_result {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (G : Valuation τ sig Val) :
    (StableHlo.nary (τ := τ) ![x0, x1, x2, x3, x4, x5, x6, x7] y f hxs hy).result G (Proc.devRef .tc y)
      = f (Fin.cons (G (Proc.devRef .tc x0)) (Fin.cons (G (Proc.devRef .tc x1)) (Fin.cons (G (Proc.devRef .tc x2)) (Fin.cons (G (Proc.devRef .tc x3))
          (Fin.cons (G (Proc.devRef .tc x4)) (Fin.cons (G (Proc.devRef .tc x5)) (Fin.cons (G (Proc.devRef .tc x6)) (Fin.cons (G (Proc.devRef .tc x7)) (fun i => i.elim0))))))))) := by
  rw [StableHlo.nary_result]; congr 1; funext k; fin_cases k <;> rfl

theorem vec8_map {α β : Type} (f : α → β) (a0 a1 a2 a3 a4 a5 a6 a7 : α) (r : Fin 8) :
    ![f a0, f a1, f a2, f a3, f a4, f a5, f a6, f a7] r = f (![a0, a1, a2, a3, a4, a5, a6, a7] r) := by
  fin_cases r <;> rfl

macro "operands" : tactic =>
  `(tactic| repeat (first | rw [StableHlo.unary_result] | (rw [StableHlo.unary_result_ne]; rotate_left; decide) | (rw [StableHlo.nary_result_ne]; rotate_left; decide)))

section Read

variable {α : Type}

/-- Eight arrays stacked along a new leading axis, read at (r, b, e), give the r-th array at (b, e). -/
theorem stackB_apply (p0 p1 p2 p3 p4 p5 p6 p7 : S1x4096x100.Idx → α) (r : Fin 8) (b : Fin 4096) (e : Fin 100) :
    concatenate S8x4096x100 0 [⟨S1x4096x100, p0⟩, ⟨S1x4096x100, p1⟩, ⟨S1x4096x100, p2⟩, ⟨S1x4096x100, p3⟩, ⟨S1x4096x100, p4⟩, ⟨S1x4096x100, p5⟩, ⟨S1x4096x100, p6⟩, ⟨S1x4096x100, p7⟩]
        concatenates_S1x4096x100_S1x4096x100_S1x4096x100_S1x4096x100_S1x4096x100_S1x4096x100_S1x4096x100_S1x4096x100_S8x4096x100_d0 (ix3 r b e)
      = (![p0, p1, p2, p3, p4, p5, p6, p7] r) (ix3 0 b e) := by
  show concatenate S8x4096x100 0 (List.ofFn fun n : Fin 8 => (⟨S1x4096x100, ![p0, p1, p2, p3, p4, p5, p6, p7] n⟩ : (s : Shape) × (s.Idx → α))) _ (ix3 r b e) = _
  exact concatenate_ofFn_unit_apply (t := S8x4096x100) (s₁ := S1x4096x100) (0 : Fin 3) ![p0, p1, p2, p3, p4, p5, p6, p7] _ rfl rfl (ix3 r b e) r rfl (ix3 0 b e) (fun a ha => by
    match a, ha with
    | ⟨1, _⟩, _ => rfl
    | ⟨2, _⟩, _ => rfl
    | ⟨0, _⟩, ha => exact absurd rfl ha)

theorem stackS_apply (p0 p1 p2 p3 p4 p5 p6 p7 : S1x4096.Idx → α) (r : Fin 8) (b : Fin 4096) :
    concatenate S8x4096 0 [⟨S1x4096, p0⟩, ⟨S1x4096, p1⟩, ⟨S1x4096, p2⟩, ⟨S1x4096, p3⟩, ⟨S1x4096, p4⟩, ⟨S1x4096, p5⟩, ⟨S1x4096, p6⟩, ⟨S1x4096, p7⟩]
        concatenates_S1x4096_S1x4096_S1x4096_S1x4096_S1x4096_S1x4096_S1x4096_S1x4096_S8x4096_d0 (ix2 r b)
      = (![p0, p1, p2, p3, p4, p5, p6, p7] r) (ix2 0 b) := by
  show concatenate S8x4096 0 (List.ofFn fun n : Fin 8 => (⟨S1x4096, ![p0, p1, p2, p3, p4, p5, p6, p7] n⟩ : (s : Shape) × (s.Idx → α))) _ (ix2 r b) = _
  exact concatenate_ofFn_unit_apply (t := S8x4096) (s₁ := S1x4096) (0 : Fin 2) ![p0, p1, p2, p3, p4, p5, p6, p7] _ rfl rfl (ix2 r b) r rfl (ix2 0 b) (fun a ha => by
    match a, ha with
    | ⟨1, _⟩, _ => rfl
    | ⟨0, _⟩, ha => exact absurd rfl ha)

theorem stackN_apply (p0 p1 p2 p3 p4 p5 p6 p7 : S1x256x100.Idx → α) (r : Fin 8) (n : Fin 256) (e : Fin 100) :
    concatenate S8x256x100 0 [⟨S1x256x100, p0⟩, ⟨S1x256x100, p1⟩, ⟨S1x256x100, p2⟩, ⟨S1x256x100, p3⟩, ⟨S1x256x100, p4⟩, ⟨S1x256x100, p5⟩, ⟨S1x256x100, p6⟩, ⟨S1x256x100, p7⟩]
        concatenates_S1x256x100_S1x256x100_S1x256x100_S1x256x100_S1x256x100_S1x256x100_S1x256x100_S1x256x100_S8x256x100_d0 (ix3 r n e)
      = (![p0, p1, p2, p3, p4, p5, p6, p7] r) (ix3 0 n e) := by
  show concatenate S8x256x100 0 (List.ofFn fun k : Fin 8 => (⟨S1x256x100, ![p0, p1, p2, p3, p4, p5, p6, p7] k⟩ : (s : Shape) × (s.Idx → α))) _ (ix3 r n e) = _
  exact concatenate_ofFn_unit_apply (t := S8x256x100) (s₁ := S1x256x100) (0 : Fin 3) ![p0, p1, p2, p3, p4, p5, p6, p7] _ rfl rfl (ix3 r n e) r rfl (ix3 0 n e) (fun a ha => by
    match a, ha with
    | ⟨1, _⟩, _ => rfl
    | ⟨2, _⟩, _ => rfl
    | ⟨0, _⟩, ha => exact absurd rfl ha)

theorem bcastB_apply (x : S4096x100.Idx → α) (b : Fin 4096) (e : Fin 100) :
    broadcastInDim S1x4096x100 ![1, 2] bcast_S4096x100_S1x4096x100_1_2 x (ix3 0 b e) = x (ix2 b e) := by
  show x _ = x _
  congr 1; funext a
  match a with
  | ⟨0, _⟩ => rfl
  | ⟨1, _⟩ => rfl
theorem bcastN_apply (x : S256x100.Idx → α) (n : Fin 256) (e : Fin 100) :
    broadcastInDim S1x256x100 ![1, 2] bcast_S256x100_S1x256x100_1_2 x (ix3 0 n e) = x (ix2 n e) := by
  show x _ = x _
  congr 1; funext a
  match a with
  | ⟨0, _⟩ => rfl
  | ⟨1, _⟩ => rfl
theorem bcastS1_apply (x : S4096.Idx → α) (b : Fin 4096) :
    broadcastInDim S1x4096 ![1] bcast_S4096_S1x4096_1 x (ix2 0 b) = x (ix1 b) := by
  show x _ = x _
  congr 1; funext a
  match a with
  | ⟨0, _⟩ => rfl
theorem bcastS2_apply (y : S8x4096.Idx → α) (r : Fin 8) (b : Fin 4096) :
    broadcastInDim S8x1x4096 ![0, 2] bcast_S8x4096_S8x1x4096_0_2 y (ix3 r 0 b) = y (ix2 r b) := by
  show y _ = y _
  congr 1; funext a
  match a with
  | ⟨0, _⟩ => rfl
  | ⟨1, _⟩ => rfl
theorem bcastR_apply (x : S8x100.Idx → α) (r : Fin 8) (e : Fin 100) :
    broadcastInDim S8x1x100 ![0, 2] bcast_S8x100_S8x1x100_0_2 x (ix3 r 0 e) = x (ix2 r e) := by
  show x _ = x _
  congr 1; funext a
  match a with
  | ⟨0, _⟩ => rfl
  | ⟨1, _⟩ => rfl

end Read

end Cert.KernelIdeal.HostVal

end
-- ==== Proof.KIHost.Stack88.lean ====
import proofs.«400362_j8907762172017_2_alg».proof.Proof.KIHost.StackLib

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable {F : FTy → Type} [FloatOps F]

set_option maxHeartbeats 1000000 in
theorem val40_v88 (X : Valuation τ sig (Elt F)) :
    StableHlo.after hostOps0_40 X (Proc.devRef .tc main_v88)
      = concatenate S8x4096x100 0
          [⟨S1x4096x100, broadcastInDim S1x4096x100 ![1, 2] bcast_S4096x100_S1x4096x100_1_2 (X (Proc.devRef .tc main_v6))⟩,
           ⟨S1x4096x100, broadcastInDim S1x4096x100 ![1, 2] bcast_S4096x100_S1x4096x100_1_2 (X (Proc.devRef .tc main_v16))⟩,
           ⟨S1x4096x100, broadcastInDim S1x4096x100 ![1, 2] bcast_S4096x100_S1x4096x100_1_2 (X (Proc.devRef .tc main_v26))⟩,
           ⟨S1x4096x100, broadcastInDim S1x4096x100 ![1, 2] bcast_S4096x100_S1x4096x100_1_2 (X (Proc.devRef .tc main_v36))⟩,
           ⟨S1x4096x100, broadcastInDim S1x4096x100 ![1, 2] bcast_S4096x100_S1x4096x100_1_2 (X (Proc.devRef .tc main_v46))⟩,
           ⟨S1x4096x100, broadcastInDim S1x4096x100 ![1, 2] bcast_S4096x100_S1x4096x100_1_2 (X (Proc.devRef .tc main_v56))⟩,
           ⟨S1x4096x100, broadcastInDim S1x4096x100 ![1, 2] bcast_S4096x100_S1x4096x100_1_2 (X (Proc.devRef .tc main_v66))⟩,
           ⟨S1x4096x100, broadcastInDim S1x4096x100 ![1, 2] bcast_S4096x100_S1x4096x100_1_2 (X (Proc.devRef .tc main_v76))⟩]
          concatenates_S1x4096x100_S1x4096x100_S1x4096x100_S1x4096x100_S1x4096x100_S1x4096x100_S1x4096x100_S1x4096x100_S8x4096x100_d0 := by
  have h0 : StableHlo.after (List.take 8 hostOps0_40) X (Proc.devRef .tc main_v80) = broadcastInDim S1x4096x100 ![1, 2] bcast_S4096x100_S1x4096x100_1_2 (X (Proc.devRef .tc main_v6)) := by
    dsimp only [hostOps0_40, List.take_succ_cons, List.take_zero]; after_results <;> rfl
  have h1 : StableHlo.after (List.take 8 hostOps0_40) X (Proc.devRef .tc main_v81) = broadcastInDim S1x4096x100 ![1, 2] bcast_S4096x100_S1x4096x100_1_2 (X (Proc.devRef .tc main_v16)) := by
    dsimp only [hostOps0_40, List.take_succ_cons, List.take_zero]; after_results <;> rfl
  have h2 : StableHlo.after (List.take 8 hostOps0_40) X (Proc.devRef .tc main_v82) = broadcastInDim S1x4096x100 ![1, 2] bcast_S4096x100_S1x4096x100_1_2 (X (Proc.devRef .tc main_v26)) := by
    dsimp only [hostOps0_40, List.take_succ_cons, List.take_zero]; after_results <;> rfl
  have h3 : StableHlo.after (List.take 8 hostOps0_40) X (Proc.devRef .tc main_v83) = broadcastInDim S1x4096x100 ![1, 2] bcast_S4096x100_S1x4096x100_1_2 (X (Proc.devRef .tc main_v36)) := by
    dsimp only [hostOps0_40, List.take_succ_cons, List.take_zero]; after_results <;> rfl
  have h4 : StableHlo.after (List.take 8 hostOps0_40) X (Proc.devRef .tc main_v84) = broadcastInDim S1x4096x100 ![1, 2] bcast_S4096x100_S1x4096x100_1_2 (X (Proc.devRef .tc main_v46)) := by
    dsimp only [hostOps0_40, List.take_succ_cons, List.take_zero]; after_results <;> rfl
  have h5 : StableHlo.after (List.take 8 hostOps0_40) X (Proc.devRef .tc main_v85) = broadcastInDim S1x4096x100 ![1, 2] bcast_S4096x100_S1x4096x100_1_2 (X (Proc.devRef .tc main_v56)) := by
    dsimp only [hostOps0_40, List.take_succ_cons, List.take_zero]; after_results <;> rfl
  have h6 : StableHlo.after (List.take 8 hostOps0_40) X (Proc.devRef .tc main_v86) = broadcastInDim S1x4096x100 ![1, 2] bcast_S4096x100_S1x4096x100_1_2 (X (Proc.devRef .tc main_v66)) := by
    dsimp only [hostOps0_40, List.take_succ_cons, List.take_zero]; after_results <;> rfl
  have h7 : StableHlo.after (List.take 8 hostOps0_40) X (Proc.devRef .tc main_v87) = broadcastInDim S1x4096x100 ![1, 2] bcast_S4096x100_S1x4096x100_1_2 (X (Proc.devRef .tc main_v76)) := by
    dsimp only [hostOps0_40, List.take_succ_cons, List.take_zero]; after_results <;> rfl
  have e : (hostOps0_40 : List (HloOp τ sig (Elt F))) = List.take 8 hostOps0_40 ++ List.drop 8 hostOps0_40 := (List.take_append_drop 8 _).symm
  rw [e, StableHlo.after_append]
  generalize StableHlo.after (List.take 8 hostOps0_40) X = G at h0 h1 h2 h3 h4 h5 h6 h7 ⊢
  dsimp only [hostOps0_40]
  show StableHlo.after (_ :: _) G _ = _
  rw [StableHlo.after_cons, StableHlo.after_of_writes_sub (W := [main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117]) _ _ (by writes_sub) (by decide)]
  rw [nary8_result, h0, h1, h2, h3, h4, h5, h6, h7]
  rfl

variable (m : (ℓ : Loc nD τ sig) → Buf (Elt F) ℓ)

theorem v88_at (c : Dev nD) (r : Fin 8) (b : Fin 4096) (e : Fin 100) :
    V0 m c (Proc.devRef .tc main_v88) (ix3 r b e)
      = ((![V0 m c (Proc.devRef .tc main_v6), V0 m c (Proc.devRef .tc main_v16), V0 m c (Proc.devRef .tc main_v26), V0 m c (Proc.devRef .tc main_v36),
            V0 m c (Proc.devRef .tc main_v46), V0 m c (Proc.devRef .tc main_v56), V0 m c (Proc.devRef .tc main_v66), V0 m c (Proc.devRef .tc main_v76)]
          : Fin 8 → Vec F S4096x100 .f32) r) (ix2 b e) := by
  have h : St40 m c (Proc.devRef .tc main_v88) = _ := val40_v88 (St39 m c)
  rw [V0_eq, h, stackB_apply]
  keeps
  refine Eq.trans ?_ (bcastB_apply _ b e)
  exact congrFun (vec8_map _ _ _ _ _ _ _ _ _ r) (ix3 0 b e)

theorem v88_r0 (c : Dev nD) (b : Fin 4096) (e : Fin 100) : V0 m c (Proc.devRef .tc main_v88) (ix3 (0 : Fin 8) b e) = V0 m c (Proc.devRef .tc main_v6) (ix2 b e) := v88_at m c 0 b e
theorem v88_r1 (c : Dev nD) (b : Fin 4096) (e : Fin 100) : V0 m c (Proc.devRef .tc main_v88) (ix3 (1 : Fin 8) b e) = V0 m c (Proc.devRef .tc main_v16) (ix2 b e) := v88_at m c 1 b e
theorem v88_r2 (c : Dev nD) (b : Fin 4096) (e : Fin 100) : V0 m c (Proc.devRef .tc main_v88) (ix3 (2 : Fin 8) b e) = V0 m c (Proc.devRef .tc main_v26) (ix2 b e) := v88_at m c 2 b e
theorem v88_r3 (c : Dev nD) (b : Fin 4096) (e : Fin 100) : V0 m c (Proc.devRef .tc main_v88) (ix3 (3 : Fin 8) b e) = V0 m c (Proc.devRef .tc main_v36) (ix2 b e) := v88_at m c 3 b e
theorem v88_r4 (c : Dev nD) (b : Fin 4096) (e : Fin 100) : V0 m c (Proc.devRef .tc main_v88) (ix3 (4 : Fin 8) b e) = V0 m c (Proc.devRef .tc main_v46) (ix2 b e) := v88_at m c 4 b e
theorem v88_r5 (c : Dev nD) (b : Fin 4096) (e : Fin 100) : V0 m c (Proc.devRef .tc main_v88) (ix3 (5 : Fin 8) b e) = V0 m c (Proc.devRef .tc main_v56) (ix2 b e) := v88_at m c 5 b e
theorem v88_r6 (c : Dev nD) (b : Fin 4096) (e : Fin 100) : V0 m c (Proc.devRef .tc main_v88) (ix3 (6 : Fin 8) b e) = V0 m c (Proc.devRef .tc main_v66) (ix2 b e) := v88_at m c 6 b e
theorem v88_r7 (c : Dev nD) (b : Fin 4096) (e : Fin 100) : V0 m c (Proc.devRef .tc main_v88) (ix3 (7 : Fin 8) b e) = V0 m c (Proc.devRef .tc main_v76) (ix2 b e) := v88_at m c 7 b e

end Cert.KernelIdeal.HostVal

end
-- ==== Proof.KIHost.Stack97.lean ====
import proofs.«400362_j8907762172017_2_alg».proof.Proof.KIHost.StackLib

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable {F : FTy → Type} [FloatOps F]

set_option maxHeartbeats 1000000 in
theorem val40_v97 (X : Valuation τ sig (Elt F)) :
    StableHlo.after hostOps0_40 X (Proc.devRef .tc main_v97)
      = concatenate S8x4096x100 0
          [⟨S1x4096x100, broadcastInDim S1x4096x100 ![1, 2] bcast_S4096x100_S1x4096x100_1_2 (X (Proc.devRef .tc main_v7))⟩,
           ⟨S1x4096x100, broadcastInDim S1x4096x100 ![1, 2] bcast_S4096x100_S1x4096x100_1_2 (X (Proc.devRef .tc main_v17))⟩,
           ⟨S1x4096x100, broadcastInDim S1x4096x100 ![1, 2] bcast_S4096x100_S1x4096x100_1_2 (X (Proc.devRef .tc main_v27))⟩,
           ⟨S1x4096x100, broadcastInDim S1x4096x100 ![1, 2] bcast_S4096x100_S1x4096x100_1_2 (X (Proc.devRef .tc main_v37))⟩,
           ⟨S1x4096x100, broadcastInDim S1x4096x100 ![1, 2] bcast_S4096x100_S1x4096x100_1_2 (X (Proc.devRef .tc main_v47))⟩,
           ⟨S1x4096x100, broadcastInDim S1x4096x100 ![1, 2] bcast_S4096x100_S1x4096x100_1_2 (X (Proc.devRef .tc main_v57))⟩,
           ⟨S1x4096x100, broadcastInDim S1x4096x100 ![1, 2] bcast_S4096x100_S1x4096x100_1_2 (X (Proc.devRef .tc main_v67))⟩,
           ⟨S1x4096x100, broadcastInDim S1x4096x100 ![1, 2] bcast_S4096x100_S1x4096x100_1_2 (X (Proc.devRef .tc main_v77))⟩]
          concatenates_S1x4096x100_S1x4096x100_S1x4096x100_S1x4096x100_S1x4096x100_S1x4096x100_S1x4096x100_S1x4096x100_S8x4096x100_d0 := by
  have h0 : StableHlo.after (List.take 17 hostOps0_40) X (Proc.devRef .tc main_v89) = broadcastInDim S1x4096x100 ![1, 2] bcast_S4096x100_S1x4096x100_1_2 (X (Proc.devRef .tc main_v7)) := by
    dsimp only [hostOps0_40, List.take_succ_cons, List.take_zero]; after_results <;> rfl
  have h1 : StableHlo.after (List.take 17 hostOps0_40) X (Proc.devRef .tc main_v90) = broadcastInDim S1x4096x100 ![1, 2] bcast_S4096x100_S1x4096x100_1_2 (X (Proc.devRef .tc main_v17)) := by
    dsimp only [hostOps0_40, List.take_succ_cons, List.take_zero]; after_results <;> rfl
  have h2 : StableHlo.after (List.take 17 hostOps0_40) X (Proc.devRef .tc main_v91) = broadcastInDim S1x4096x100 ![1, 2] bcast_S4096x100_S1x4096x100_1_2 (X (Proc.devRef .tc main_v27)) := by
    dsimp only [hostOps0_40, List.take_succ_cons, List.take_zero]; after_results <;> rfl
  have h3 : StableHlo.after (List.take 17 hostOps0_40) X (Proc.devRef .tc main_v92) = broadcastInDim S1x4096x100 ![1, 2] bcast_S4096x100_S1x4096x100_1_2 (X (Proc.devRef .tc main_v37)) := by
    dsimp only [hostOps0_40, List.take_succ_cons, List.take_zero]; after_results <;> rfl
  have h4 : StableHlo.after (List.take 17 hostOps0_40) X (Proc.devRef .tc main_v93) = broadcastInDim S1x4096x100 ![1, 2] bcast_S4096x100_S1x4096x100_1_2 (X (Proc.devRef .tc main_v47)) := by
    dsimp only [hostOps0_40, List.take_succ_cons, List.take_zero]; after_results <;> rfl
  have h5 : StableHlo.after (List.take 17 hostOps0_40) X (Proc.devRef .tc main_v94) = broadcastInDim S1x4096x100 ![1, 2] bcast_S4096x100_S1x4096x100_1_2 (X (Proc.devRef .tc main_v57)) := by
    dsimp only [hostOps0_40, List.take_succ_cons, List.take_zero]; after_results <;> rfl
  have h6 : StableHlo.after (List.take 17 hostOps0_40) X (Proc.devRef .tc main_v95) = broadcastInDim S1x4096x100 ![1, 2] bcast_S4096x100_S1x4096x100_1_2 (X (Proc.devRef .tc main_v67)) := by
    dsimp only [hostOps0_40, List.take_succ_cons, List.take_zero]; after_results <;> rfl
  have h7 : StableHlo.after (List.take 17 hostOps0_40) X (Proc.devRef .tc main_v96) = broadcastInDim S1x4096x100 ![1, 2] bcast_S4096x100_S1x4096x100_1_2 (X (Proc.devRef .tc main_v77)) := by
    dsimp only [hostOps0_40, List.take_succ_cons, List.take_zero]; after_results <;> rfl
  have e : (hostOps0_40 : List (HloOp τ sig (Elt F))) = List.take 17 hostOps0_40 ++ List.drop 17 hostOps0_40 := (List.take_append_drop 17 _).symm
  rw [e, StableHlo.after_append]
  generalize StableHlo.after (List.take 17 hostOps0_40) X = G at h0 h1 h2 h3 h4 h5 h6 h7 ⊢
  dsimp only [hostOps0_40]
  show StableHlo.after (_ :: _) G _ = _
  rw [StableHlo.after_cons, StableHlo.after_of_writes_sub (W := [main_v98, main_v99, main_v100, main_v101, main_v102, main_v103, main_v104, main_v105, main_v106, main_v107, main_v108, main_v109, main_v110, main_v111, main_v112, main_v113, main_v114, main_v115, main_v116, main_v117]) _ _ (by writes_sub) (by decide)]
  rw [nary8_result, h0, h1, h2, h3, h4, h5, h6, h7]
  rfl

variable (m : (ℓ : Loc nD τ sig) → Buf (Elt F) ℓ)

theorem v97_at (c : Dev nD) (r : Fin 8) (b : Fin 4096) (e : Fin 100) :
    V0 m c (Proc.devRef .tc main_v97) (ix3 r b e)
      = ((![V0 m c (Proc.devRef .tc main_v7), V0 m c (Proc.devRef .tc main_v17), V0 m c (Proc.devRef .tc main_v27), V0 m c (Proc.devRef .tc main_v37),
            V0 m c (Proc.devRef .tc main_v47), V0 m c (Proc.devRef .tc main_v57), V0 m c (Proc.devRef .tc main_v67), V0 m c (Proc.devRef .tc main_v77)]
          : Fin 8 → Vec F S4096x100 .f32) r) (ix2 b e) := by
  have h : St40 m c (Proc.devRef .tc main_v97) = _ := val40_v97 (St39 m c)
  rw [V0_eq, h, stackB_apply]
  keeps
  refine Eq.trans ?_ (bcastB_apply _ b e)
  exact congrFun (vec8_map _ _ _ _ _ _ _ _ _ r) (ix3 0 b e)

theorem v97_r0 (c : Dev nD) (b : Fin 4096) (e : Fin 100) : V0 m c (Proc.devRef .tc main_v97) (ix3 (0 : Fin 8) b e) = V0 m c (Proc.devRef .tc main_v7) (ix2 b e) := v97_at m c 0 b e
theorem v97_r1 (c : Dev nD) (b : Fin 4096) (e : Fin 100) : V0 m c (Proc.devRef .tc main_v97) (ix3 (1 : Fin 8) b e) = V0 m c (Proc.devRef .tc main_v17) (ix2 b e) := v97_at m c 1 b e
theorem v97_r2 (c : Dev nD) (b : Fin 4096) (e : Fin 100) : V0 m c (Proc.devRef .tc main_v97) (ix3 (2 : Fin 8) b e) = V0 m c (Proc.devRef .tc main_v27) (ix2 b e) := v97_at m c 2 b e
theorem v97_r3 (c : Dev nD) (b : Fin 4096) (e : Fin 100) : V0 m c (Proc.devRef .tc main_v97) (ix3 (3 : Fin 8) b e) = V0 m c (Proc.devRef .tc main_v37) (ix2 b e) := v97_at m c 3 b e
theorem v97_r4 (c : Dev nD) (b : Fin 4096) (e : Fin 100) : V0 m c (Proc.devRef .tc main_v97) (ix3 (4 : Fin 8) b e) = V0 m c (Proc.devRef .tc main_v47) (ix2 b e) := v97_at m c 4 b e
theorem v97_r5 (c : Dev nD) (b : Fin 4096) (e : Fin 100) : V0 m c (Proc.devRef .tc main_v97) (ix3 (5 : Fin 8) b e) = V0 m c (Proc.devRef .tc main_v57) (ix2 b e) := v97_at m c 5 b e
theorem v97_r6 (c : Dev nD) (b : Fin 4096) (e : Fin 100) : V0 m c (Proc.devRef .tc main_v97) (ix3 (6 : Fin 8) b e) = V0 m c (Proc.devRef .tc main_v67) (ix2 b e) := v97_at m c 6 b e
theorem v97_r7 (c : Dev nD) (b : Fin 4096) (e : Fin 100) : V0 m c (Proc.devRef .tc main_v97) (ix3 (7 : Fin 8) b e) = V0 m c (Proc.devRef .tc main_v77) (ix2 b e) := v97_at m c 7 b e

end Cert.KernelIdeal.HostVal

end
-- ==== Proof.KIHost.Stack107.lean ====
import proofs.«400362_j8907762172017_2_alg».proof.Proof.KIHost.StackLib

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable {F : FTy → Type} [FloatOps F]

set_option maxHeartbeats 1000000 in
theorem val40_v107 (X : Valuation τ sig (Elt F)) :
    StableHlo.after hostOps0_40 X (Proc.devRef .tc main_v107)
      = broadcastInDim S8x1x4096 ![0, 2] bcast_S8x4096_S8x1x4096_0_2 (concatenate S8x4096 0
          [⟨S1x4096, broadcastInDim S1x4096 ![1] bcast_S4096_S1x4096_1 (X (Proc.devRef .tc main_v8))⟩,
           ⟨S1x4096, broadcastInDim S1x4096 ![1] bcast_S4096_S1x4096_1 (X (Proc.devRef .tc main_v18))⟩,
           ⟨S1x4096, broadcastInDim S1x4096 ![1] bcast_S4096_S1x4096_1 (X (Proc.devRef .tc main_v28))⟩,
           ⟨S1x4096, broadcastInDim S1x4096 ![1] bcast_S4096_S1x4096_1 (X (Proc.devRef .tc main_v38))⟩,
           ⟨S1x4096, broadcastInDim S1x4096 ![1] bcast_S4096_S1x4096_1 (X (Proc.devRef .tc main_v48))⟩,
           ⟨S1x4096, broadcastInDim S1x4096 ![1] bcast_S4096_S1x4096_1 (X (Proc.devRef .tc main_v58))⟩,
           ⟨S1x4096, broadcastInDim S1x4096 ![1] bcast_S4096_S1x4096_1 (X (Proc.devRef .tc main_v68))⟩,
           ⟨S1x4096, broadcastInDim S1x4096 ![1] bcast_S4096_S1x4096_1 (X (Proc.devRef .tc main_v78))⟩]
          concatenates_S1x4096_S1x4096_S1x4096_S1x4096_S1x4096_S1x4096_S1x4096_S1x4096_S8x4096_d0) := by
  have hW : (List.take 18 (hostOps0_40 (F := F))).Forall fun op => op.writes ⊆ (([main_v80, main_v81, main_v82, main_v83, main_v84, main_v85, main_v86, main_v87, main_v88, main_v89, main_v90, main_v91, main_v92, main_v93, main_v94, main_v95, main_v96, main_v97] : List (Ref sig .tc)).map (Proc.devRef (τ := τ) .tc)).toFinset := by
    dsimp only [hostOps0_40, List.take_succ_cons, List.take_zero]
    writes_sub
  have k0 : StableHlo.after (List.take 18 (hostOps0_40 (F := F))) X (Proc.devRef .tc main_v8) = X (Proc.devRef .tc main_v8) :=
    StableHlo.after_of_writes_sub _ _ hW (by decide)
  have k1 : StableHlo.after (List.take 18 (hostOps0_40 (F := F))) X (Proc.devRef .tc main_v18) = X (Proc.devRef .tc main_v18) :=
    StableHlo.after_of_writes_sub _ _ hW (by decide)
  have k2 : StableHlo.after (List.take 18 (hostOps0_40 (F := F))) X (Proc.devRef .tc main_v28) = X (Proc.devRef .tc main_v28) :=
    StableHlo.after_of_writes_sub _ _ hW (by decide)
  have k3 : StableHlo.after (List.take 18 (hostOps0_40 (F := F))) X (Proc.devRef .tc main_v38) = X (Proc.devRef .tc main_v38) :=
    StableHlo.after_of_writes_sub _ _ hW (by decide)
  have k4 : StableHlo.after (List.take 18 (hostOps0_40 (F := F))) X (Proc.devRef .tc main_v48) = X (Proc.devRef .tc main_v48) :=
    StableHlo.after_of_writes_sub _ _ hW (by decide)
  have k5 : StableHlo.after (List.take 18 (hostOps0_40 (F := F))) X (Proc.devRef .tc main_v58) = X (Proc.devRef .tc main_v58) :=
    StableHlo.after_of_writes_sub _ _ hW (by decide)
  have k6 : StableHlo.after (List.take 18 (hostOps0_40 (F := F))) X (Proc.devRef .tc main_v68) = X (Proc.devRef .tc main_v68) :=
    StableHlo.after_of_writes_sub _ _ hW (by decide)
  have k7 : StableHlo.after (List.take 18 (hostOps0_40 (F := F))) X (Proc.devRef .tc main_v78) = X (Proc.devRef .tc main_v78) :=
    StableHlo.after_of_writes_sub _ _ hW (by decide)
  have e : (hostOps0_40 : List (HloOp τ sig (Elt F))) = List.take 18 hostOps0_40 ++ List.drop 18 hostOps0_40 := (List.take_append_drop 18 _).symm
  rw [e, StableHlo.after_append]
  generalize StableHlo.after (List.take 18 hostOps0_40) X = H at k0 k1 k2 k3 k4 k5 k6 k7 ⊢
  dsimp only [hostOps0_40]
  show StableHlo.after (_ :: _ :: _ :: _ :: _ :: _ :: _ :: _ :: _ :: _ :: _) H _ = _
  iterate 10 rw [StableHlo.after_cons]
  rw [StableHlo.after_of_writes_sub (W := [main_v108, main_v109, main_v110, main_v111, main_v112, main_v113, main_v114, main_v115, main_v116, main_v117]) _ _ (by writes_sub) (by decide)]
  rw [StableHlo.unary_result, nary8_result]
  operands
  rw [k0, k1, k2, k3, k4, k5, k6, k7]
  rfl

variable (m : (ℓ : Loc nD τ sig) → Buf (Elt F) ℓ)

theorem v107_at (c : Dev nD) (r : Fin 8) (b : Fin 4096) :
    V0 m c (Proc.devRef .tc main_v107) (ix3 r (0 : Fin 1) b)
      = ((![V0 m c (Proc.devRef .tc main_v8), V0 m c (Proc.devRef .tc main_v18), V0 m c (Proc.devRef .tc main_v28), V0 m c (Proc.devRef .tc main_v38),
            V0 m c (Proc.devRef .tc main_v48), V0 m c (Proc.devRef .tc main_v58), V0 m c (Proc.devRef .tc main_v68), V0 m c (Proc.devRef .tc main_v78)]
          : Fin 8 → Vec F S4096 .f32) r) (ix1 b) := by
  have h : St40 m c (Proc.devRef .tc main_v107) = _ := val40_v107 (St39 m c)
  rw [V0_eq, h, bcastS2_apply, stackS_apply]
  keeps
  rw [vec8_map (α := S4096.Idx → Elt F .f32) (β := S1x4096.Idx → Elt F .f32) (broadcastInDim S1x4096 ![1] bcast_S4096_S1x4096_1)]
  exact bcastS1_apply _ b

theorem v107_r0 (c : Dev nD) (b : Fin 4096) : V0 m c (Proc.devRef .tc main_v107) (ix3 (0 : Fin 8) (0 : Fin 1) b) = V0 m c (Proc.devRef .tc main_v8) (ix1 b) := v107_at m c 0 b
theorem v107_r1 (c : Dev nD) (b : Fin 4096) : V0 m c (Proc.devRef .tc main_v107) (ix3 (1 : Fin 8) (0 : Fin 1) b) = V0 m c (Proc.devRef .tc main_v18) (ix1 b) := v107_at m c 1 b
theorem v107_r2 (c : Dev nD) (b : Fin 4096) : V0 m c (Proc.devRef .tc main_v107) (ix3 (2 : Fin 8) (0 : Fin 1) b) = V0 m c (Proc.devRef .tc main_v28) (ix1 b) := v107_at m c 2 b
theorem v107_r3 (c : Dev nD) (b : Fin 4096) : V0 m c (Proc.devRef .tc main_v107) (ix3 (3 : Fin 8) (0 : Fin 1) b) = V0 m c (Proc.devRef .tc main_v38) (ix1 b) := v107_at m c 3 b
theorem v107_r4 (c : Dev nD) (b : Fin 4096) : V0 m c (Proc.devRef .tc main_v107) (ix3 (4 : Fin 8) (0 : Fin 1) b) = V0 m c (Proc.devRef .tc main_v48) (ix1 b) := v107_at m c 4 b
theorem v107_r5 (c : Dev nD) (b : Fin 4096) : V0 m c (Proc.devRef .tc main_v107) (ix3 (5 : Fin 8) (0 : Fin 1) b) = V0 m c (Proc.devRef .tc main_v58) (ix1 b) := v107_at m c 5 b
theorem v107_r6 (c : Dev nD) (b : Fin 4096) : V0 m c (Proc.devRef .tc main_v107) (ix3 (6 : Fin 8) (0 : Fin 1) b) = V0 m c (Proc.devRef .tc main_v68) (ix1 b) := v107_at m c 6 b
theorem v107_r7 (c : Dev nD) (b : Fin 4096) : V0 m c (Proc.devRef .tc main_v107) (ix3 (7 : Fin 8) (0 : Fin 1) b) = V0 m c (Proc.devRef .tc main_v78) (ix1 b) := v107_at m c 7 b

end Cert.KernelIdeal.HostVal

end
-- ==== Proof.KIHost.Stack116.lean ====
import proofs.«400362_j8907762172017_2_alg».proof.Proof.KIHost.StackLib

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable {F : FTy → Type} [FloatOps F]

set_option maxHeartbeats 1000000 in
theorem val40_v116 (X : Valuation τ sig (Elt F)) :
    StableHlo.after hostOps0_40 X (Proc.devRef .tc main_v116)
      = concatenate S8x256x100 0
          [⟨S1x256x100, broadcastInDim S1x256x100 ![1, 2] bcast_S256x100_S1x256x100_1_2 (X (Proc.devRef .tc main_v9))⟩,
           ⟨S1x256x100, broadcastInDim S1x256x100 ![1, 2] bcast_S256x100_S1x256x100_1_2 (X (Proc.devRef .tc main_v19))⟩,
           ⟨S1x256x100, broadcastInDim S1x256x100 ![1, 2] bcast_S256x100_S1x256x100_1_2 (X (Proc.devRef .tc main_v29))⟩,
           ⟨S1x256x100, broadcastInDim S1x256x100 ![1, 2] bcast_S256x100_S1x256x100_1_2 (X (Proc.devRef .tc main_v39))⟩,
           ⟨S1x256x100, broadcastInDim S1x256x100 ![1, 2] bcast_S256x100_S1x256x100_1_2 (X (Proc.devRef .tc main_v49))⟩,
           ⟨S1x256x100, broadcastInDim S1x256x100 ![1, 2] bcast_S256x100_S1x256x100_1_2 (X (Proc.devRef .tc main_v59))⟩,
           ⟨S1x256x100, broadcastInDim S1x256x100 ![1, 2] bcast_S256x100_S1x256x100_1_2 (X (Proc.devRef .tc main_v69))⟩,
           ⟨S1x256x100, broadcastInDim S1x256x100 ![1, 2] bcast_S256x100_S1x256x100_1_2 (X (Proc.devRef .tc main_v79))⟩]
          concatenates_S1x256x100_S1x256x100_S1x256x100_S1x256x100_S1x256x100_S1x256x100_S1x256x100_S1x256x100_S8x256x100_d0 := by
  have hW : (List.take 28 (hostOps0_40 (F := F))).Forall fun op => op.writes ⊆ (([main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107] : List (Ref sig .tc)).map (Proc.devRef (τ := τ) .tc)).toFinset := by
    dsimp only [hostOps0_40, List.take_succ_cons, List.take_zero]
    writes_sub
  have k0 : StableHlo.after (List.take 28 (hostOps0_40 (F := F))) X (Proc.devRef .tc main_v9) = X (Proc.devRef .tc main_v9) :=
    StableHlo.after_of_writes_sub _ _ hW (by decide)
  have k1 : StableHlo.after (List.take 28 (hostOps0_40 (F := F))) X (Proc.devRef .tc main_v19) = X (Proc.devRef .tc main_v19) :=
    StableHlo.after_of_writes_sub _ _ hW (by decide)
  have k2 : StableHlo.after (List.take 28 (hostOps0_40 (F := F))) X (Proc.devRef .tc main_v29) = X (Proc.devRef .tc main_v29) :=
    StableHlo.after_of_writes_sub _ _ hW (by decide)
  have k3 : StableHlo.after (List.take 28 (hostOps0_40 (F := F))) X (Proc.devRef .tc main_v39) = X (Proc.devRef .tc main_v39) :=
    StableHlo.after_of_writes_sub _ _ hW (by decide)
  have k4 : StableHlo.after (List.take 28 (hostOps0_40 (F := F))) X (Proc.devRef .tc main_v49) = X (Proc.devRef .tc main_v49) :=
    StableHlo.after_of_writes_sub _ _ hW (by decide)
  have k5 : StableHlo.after (List.take 28 (hostOps0_40 (F := F))) X (Proc.devRef .tc main_v59) = X (Proc.devRef .tc main_v59) :=
    StableHlo.after_of_writes_sub _ _ hW (by decide)
  have k6 : StableHlo.after (List.take 28 (hostOps0_40 (F := F))) X (Proc.devRef .tc main_v69) = X (Proc.devRef .tc main_v69) :=
    StableHlo.after_of_writes_sub _ _ hW (by decide)
  have k7 : StableHlo.after (List.take 28 (hostOps0_40 (F := F))) X (Proc.devRef .tc main_v79) = X (Proc.devRef .tc main_v79) :=
    StableHlo.after_of_writes_sub _ _ hW (by decide)
  have e : (hostOps0_40 : List (HloOp τ sig (Elt F))) = List.take 28 hostOps0_40 ++ List.drop 28 hostOps0_40 := (List.take_append_drop 28 _).symm
  rw [e, StableHlo.after_append]
  generalize StableHlo.after (List.take 28 hostOps0_40) X = H at k0 k1 k2 k3 k4 k5 k6 k7 ⊢
  dsimp only [hostOps0_40]
  show StableHlo.after (_ :: _ :: _ :: _ :: _ :: _ :: _ :: _ :: _ :: _ :: []) H _ = _
  simp only [StableHlo.after_cons, StableHlo.after_nil]
  rw [StableHlo.unary_result_ne _ _ _ _ _ _ (by decide), nary8_result]
  operands
  rw [k0, k1, k2, k3, k4, k5, k6, k7]
  rfl

variable (m : (ℓ : Loc nD τ sig) → Buf (Elt F) ℓ)

theorem v116_at (c : Dev nD) (r : Fin 8) (n : Fin 256) (e : Fin 100) :
    V0 m c (Proc.devRef .tc main_v116) (ix3 r n e)
      = ((![V0 m c (Proc.devRef .tc main_v9), V0 m c (Proc.devRef .tc main_v19), V0 m c (Proc.devRef .tc main_v29), V0 m c (Proc.devRef .tc main_v39),
            V0 m c (Proc.devRef .tc main_v49), V0 m c (Proc.devRef .tc main_v59), V0 m c (Proc.devRef .tc main_v69), V0 m c (Proc.devRef .tc main_v79)]
          : Fin 8 → Vec F S256x100 .f32) r) (ix2 n e) := by
  have h : St40 m c (Proc.devRef .tc main_v116) = _ := val40_v116 (St39 m c)
  rw [V0_eq, h, stackN_apply]
  keeps
  rw [vec8_map (α := S256x100.Idx → Elt F .f32) (β := S1x256x100.Idx → Elt F .f32) (broadcastInDim S1x256x100 ![1, 2] bcast_S256x100_S1x256x100_1_2)]
  exact bcastN_apply _ n e

theorem v116_r0 (c : Dev nD) (n : Fin 256) (e : Fin 100) : V0 m c (Proc.devRef .tc main_v116) (ix3 (0 : Fin 8) n e) = V0 m c (Proc.devRef .tc main_v9) (ix2 n e) := v116_at m c 0 n e
theorem v116_r1 (c : Dev nD) (n : Fin 256) (e : Fin 100) : V0 m c (Proc.devRef .tc main_v116) (ix3 (1 : Fin 8) n e) = V0 m c (Proc.devRef .tc main_v19) (ix2 n e) := v116_at m c 1 n e
theorem v116_r2 (c : Dev nD) (n : Fin 256) (e : Fin 100) : V0 m c (Proc.devRef .tc main_v116) (ix3 (2 : Fin 8) n e) = V0 m c (Proc.devRef .tc main_v29) (ix2 n e) := v116_at m c 2 n e
theorem v116_r3 (c : Dev nD) (n : Fin 256) (e : Fin 100) : V0 m c (Proc.devRef .tc main_v116) (ix3 (3 : Fin 8) n e) = V0 m c (Proc.devRef .tc main_v39) (ix2 n e) := v116_at m c 3 n e
theorem v116_r4 (c : Dev nD) (n : Fin 256) (e : Fin 100) : V0 m c (Proc.devRef .tc main_v116) (ix3 (4 : Fin 8) n e) = V0 m c (Proc.devRef .tc main_v49) (ix2 n e) := v116_at m c 4 n e
theorem v116_r5 (c : Dev nD) (n : Fin 256) (e : Fin 100) : V0 m c (Proc.devRef .tc main_v116) (ix3 (5 : Fin 8) n e) = V0 m c (Proc.devRef .tc main_v59) (ix2 n e) := v116_at m c 5 n e
theorem v116_r6 (c : Dev nD) (n : Fin 256) (e : Fin 100) : V0 m c (Proc.devRef .tc main_v116) (ix3 (6 : Fin 8) n e) = V0 m c (Proc.devRef .tc main_v69) (ix2 n e) := v116_at m c 6 n e
theorem v116_r7 (c : Dev nD) (n : Fin 256) (e : Fin 100) : V0 m c (Proc.devRef .tc main_v116) (ix3 (7 : Fin 8) n e) = V0 m c (Proc.devRef .tc main_v79) (ix2 n e) := v116_at m c 7 n e

end Cert.KernelIdeal.HostVal

end
-- ==== Proof.KIHost.Stack117.lean ====
import proofs.«400362_j8907762172017_2_alg».proof.Proof.KIHost.StackLib

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable {F : FTy → Type} [FloatOps F]

set_option maxHeartbeats 1000000 in
theorem val40_v117 (X : Valuation τ sig (Elt F)) :
    StableHlo.after hostOps0_40 X (Proc.devRef .tc main_v117)
      = broadcastInDim S8x1x100 ![0, 2] bcast_S8x100_S8x1x100_0_2 (X (Proc.devRef .tc main_arg8)) := by
  have harg : StableHlo.after (List.take 37 (hostOps0_40 (F := F))) X (Proc.devRef .tc main_arg8) = X (Proc.devRef .tc main_arg8) := by
    dsimp only [hostOps0_40, List.take_succ_cons, List.take_zero]
    exact StableHlo.after_of_writes_sub (W := wr40) _ _ (by writes_sub) (by decide)
  have e : (hostOps0_40 : List (HloOp τ sig (Elt F))) = List.take 37 hostOps0_40 ++ List.drop 37 hostOps0_40 := (List.take_append_drop 37 _).symm
  rw [e, StableHlo.after_append]
  generalize StableHlo.after (List.take 37 hostOps0_40) X = G at harg ⊢
  dsimp only [hostOps0_40]
  show StableHlo.after (_ :: []) G _ = _
  rw [StableHlo.after_cons, StableHlo.after_nil, StableHlo.unary_result, harg]

variable (m : (ℓ : Loc nD τ sig) → Buf (Elt F) ℓ)

theorem v117_at (c : Dev nD) (r : Fin 8) (e : Fin 100) :
    V0 m c (Proc.devRef .tc main_v117) (ix3 r (0 : Fin 1) e) = m ((c : Thread nD τ).loc main_arg8) (ix2 r e) := by
  have h : St40 m c (Proc.devRef .tc main_v117) = _ := val40_v117 (St39 m c)
  rw [V0_eq, h, bcastR_apply]
  keeps

end Cert.KernelIdeal.HostVal

end
-- ==== Proof.KIHost.Stack.lean ====
import proofs.«400362_j8907762172017_2_alg».proof.Proof.KIHost.Stack88
import proofs.«400362_j8907762172017_2_alg».proof.Proof.KIHost.Stack97
import proofs.«400362_j8907762172017_2_alg».proof.Proof.KIHost.Stack107
import proofs.«400362_j8907762172017_2_alg».proof.Proof.KIHost.Stack116
import proofs.«400362_j8907762172017_2_alg».proof.Proof.KIHost.Stack117
-- ==== Proof.KIHost.Row0.lean ====
import proofs.«400362_j8907762172017_2_alg».proof.Proof.KIHost.Rel0
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow0 (c : Dev nD)
    (hok : Cert.Cols.IdxOK (m ((c : Thread nD τ).loc main_arg0)) (m ((c : Thread nD τ).loc main_arg1))) (b : Fin 4096) :
    relRow m c (0 : Fin 8) b
      = Cert.Spec.rowLoss
          (fun (b : Fin 4096) (e : Fin 100) => (Host.gather gather_S30001x100_S4096x1_S4096x100_1_0_n_n_0_1_1100 (m ((c : Thread nD τ).loc main_arg2)) (broadcastInDim S4096x1 ![0] bcast_S4096_S4096x1_0 (Cert.Cols.norm 30001#32 (Cert.Cols.bcol 0 (m ((c : Thread nD τ).loc main_arg0))))) (ix2 b e) : EReal))
          (fun (b : Fin 4096) (e : Fin 100) => (Host.gather gather_S50001x100_S4096x1_S4096x100_1_0_n_n_0_1_1100 (m ((c : Thread nD τ).loc main_arg3)) (broadcastInDim S4096x1 ![0] bcast_S4096_S4096x1_0 (Cert.Cols.norm 50001#32 (Cert.Cols.bcol 1 (m ((c : Thread nD τ).loc main_arg0))))) (ix2 b e) : EReal))
          (fun (e : Fin 100) => (m ((c : Thread nD τ).loc main_arg8) (ix2 (0 : Fin 8) e) : EReal))
          (fun (b : Fin 4096) => (Host.gather gather_S50001_S4096x1_S4096_n_0_n_n_0_1_1 (m ((c : Thread nD τ).loc main_arg9)) (broadcastInDim S4096x1 ![0] bcast_S4096_S4096x1_0 (Cert.Cols.norm 50001#32 (Cert.Cols.bcol 1 (m ((c : Thread nD τ).loc main_arg0))))) (ix1 b) : EReal))
          (fun (n : Fin 256) (e : Fin 100) => (Host.gather gather_S50001x100_S256x1_S256x100_1_0_n_n_0_1_1100 (m ((c : Thread nD τ).loc main_arg3)) (broadcastInDim S256x1 ![0] bcast_S256_S256x1_0 (Cert.Cols.norm 50001#32 (Cert.Cols.nrow 0 (m ((c : Thread nD τ).loc main_arg1))))) (ix2 n e) : EReal)) b := by
  unfold relRow
  simp only [v88_r0 m c, v97_r0 m c, v107_r0 m c, v116_r0 m c, v117_at m c]
  rw [head0 m c hok, tail0 m c hok, bias0 m c hok, neg0 m c hok]

end Cert.KernelIdeal.HostVal

end
-- ==== Proof.KIHost.Rel1.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem St5_v11 (c : Dev nD) : St5 m c (Proc.devRef .tc main_v11) = Cert.Cols.bcol 0 (m (c, Proc.devRef .tc main_arg0)) := by
  rw [St5]; dsimp only [hostOps0_5]; after_results_simp; keeps; rfl
theorem St5_v13 (c : Dev nD) : St5 m c (Proc.devRef .tc main_v13) = Cert.Cols.bcol 2 (m (c, Proc.devRef .tc main_arg0)) := by
  rw [St5]; dsimp only [hostOps0_5]; after_results_simp; keeps; rfl
theorem St5_v15 (c : Dev nD) : St5 m c (Proc.devRef .tc main_v15) = Cert.Cols.nrow 1 (m (c, Proc.devRef .tc main_arg1)) := by
  rw [St5]; dsimp only [hostOps0_5]; after_results_simp; keeps; rfl

theorem val6 (X : Valuation τ sig (Elt F)) :
    StableHlo.after hostOps0_6 X (Proc.devRef .tc main_v16)
      = takeB gather_S30001x100_S4096x1_S4096x100_1_0_n_n_0_1_1100 30001#32 30000#32
          (broadcastInDim S4096x100 ![] bcast_S_S4096x100 (constant (F := F) S_ .f32 0x7FC00000#32))
          (X (Proc.devRef .tc main_arg2)) (X (Proc.devRef .tc main_v11)) := by
  dsimp only [hostOps0_6]; after_results_simp <;> (try simp only [StableHlo.TRef.ofBuf, StableHlo.TRef.toBuf, cast_eq]) <;> (try rfl)
theorem val7 (X : Valuation τ sig (Elt F)) :
    StableHlo.after hostOps0_7 X (Proc.devRef .tc main_v17)
      = takeB gather_S100001x100_S4096x1_S4096x100_1_0_n_n_0_1_1100 100001#32 100000#32
          (broadcastInDim S4096x100 ![] bcast_S_S4096x100 (constant (F := F) S_ .f32 0x7FC00000#32))
          (X (Proc.devRef .tc main_arg4)) (X (Proc.devRef .tc main_v13)) := by
  dsimp only [hostOps0_7]; after_results_simp <;> (try simp only [StableHlo.TRef.ofBuf, StableHlo.TRef.toBuf, cast_eq]) <;> (try rfl)
theorem val8 (X : Valuation τ sig (Elt F)) :
    StableHlo.after hostOps0_8 X (Proc.devRef .tc main_v18)
      = takeS gather_S100001_S4096x1_S4096_n_0_n_n_0_1_1 100001#32 100000#32
          (broadcastInDim S4096 ![] bcast_S_S4096 (constant (F := F) S_ .f32 0x7FC00000#32))
          (X (Proc.devRef .tc main_arg10)) (X (Proc.devRef .tc main_v13)) := by
  dsimp only [hostOps0_8]; after_results_simp <;> (try simp only [StableHlo.TRef.ofBuf, StableHlo.TRef.toBuf, cast_eq]) <;> (try rfl)
theorem val9 (X : Valuation τ sig (Elt F)) :
    StableHlo.after hostOps0_9 X (Proc.devRef .tc main_v19)
      = takeN gather_S100001x100_S256x1_S256x100_1_0_n_n_0_1_1100 100001#32 100000#32
          (broadcastInDim S256x100 ![] bcast_S_S256x100 (constant (F := F) S_ .f32 0x7FC00000#32))
          (X (Proc.devRef .tc main_arg4)) (X (Proc.devRef .tc main_v15)) := by
  dsimp only [hostOps0_9]; after_results_simp <;> (try simp only [StableHlo.TRef.ofBuf, StableHlo.TRef.toBuf, cast_eq]) <;> (try rfl)

theorem head1 (c : Dev nD)
    (hok : Cert.Cols.IdxOK (m ((c : Thread nD τ).loc main_arg0)) (m ((c : Thread nD τ).loc main_arg1))) :
    V0 m c (Proc.devRef .tc main_v16)
      = Host.gather gather_S30001x100_S4096x1_S4096x100_1_0_n_n_0_1_1100 (m ((c : Thread nD τ).loc main_arg2))
          (broadcastInDim S4096x1 ![0] bcast_S4096_S4096x1_0 (Cert.Cols.norm 30001#32 (Cert.Cols.bcol 0 (m ((c : Thread nD τ).loc main_arg0))))) := by
  rw [V0_eq]
  keeps
  rw [St6, val6]
  keeps
  rw [St5_v11]
  exact takeB_eq _ _ _ (Cert.Cols.colRows 0 : Int) (by decide) _ _ _ (hok.1 0)

theorem tail1 (c : Dev nD)
    (hok : Cert.Cols.IdxOK (m ((c : Thread nD τ).loc main_arg0)) (m ((c : Thread nD τ).loc main_arg1))) :
    V0 m c (Proc.devRef .tc main_v17)
      = Host.gather gather_S100001x100_S4096x1_S4096x100_1_0_n_n_0_1_1100 (m ((c : Thread nD τ).loc main_arg4))
          (broadcastInDim S4096x1 ![0] bcast_S4096_S4096x1_0 (Cert.Cols.norm 100001#32 (Cert.Cols.bcol 2 (m ((c : Thread nD τ).loc main_arg0))))) := by
  rw [V0_eq]
  keeps
  rw [St7, val7]
  keeps
  rw [St5_v13]
  exact takeB_eq _ _ _ (Cert.Cols.colRows 2 : Int) (by decide) _ _ _ (hok.1 2)

theorem bias1 (c : Dev nD)
    (hok : Cert.Cols.IdxOK (m ((c : Thread nD τ).loc main_arg0)) (m ((c : Thread nD τ).loc main_arg1))) :
    V0 m c (Proc.devRef .tc main_v18)
      = Host.gather gather_S100001_S4096x1_S4096_n_0_n_n_0_1_1 (m ((c : Thread nD τ).loc main_arg10))
          (broadcastInDim S4096x1 ![0] bcast_S4096_S4096x1_0 (Cert.Cols.norm 100001#32 (Cert.Cols.bcol 2 (m ((c : Thread nD τ).loc main_arg0))))) := by
  rw [V0_eq]
  keeps
  rw [St8, val8]
  keeps
  rw [St5_v13]
  exact takeS_eq _ _ _ (Cert.Cols.colRows 2 : Int) (by decide) _ _ _ (hok.1 2)

theorem neg1 (c : Dev nD)
    (hok : Cert.Cols.IdxOK (m ((c : Thread nD τ).loc main_arg0)) (m ((c : Thread nD τ).loc main_arg1))) :
    V0 m c (Proc.devRef .tc main_v19)
      = Host.gather gather_S100001x100_S256x1_S256x100_1_0_n_n_0_1_1100 (m ((c : Thread nD τ).loc main_arg4))
          (broadcastInDim S256x1 ![0] bcast_S256_S256x1_0 (Cert.Cols.norm 100001#32 (Cert.Cols.nrow 1 (m ((c : Thread nD τ).loc main_arg1))))) := by
  rw [V0_eq]
  keeps
  rw [St9, val9]
  keeps
  rw [St5_v15]
  exact takeN_eq _ _ _ (Cert.Cols.negRows 1 : Int) (by decide) _ _ _ (hok.2 1)

end Cert.KernelIdeal.HostVal

end
-- ==== Proof.KIHost.Row1.lean ====
import proofs.«400362_j8907762172017_2_alg».proof.Proof.KIHost.Rel1
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow1 (c : Dev nD)
    (hok : Cert.Cols.IdxOK (m ((c : Thread nD τ).loc main_arg0)) (m ((c : Thread nD τ).loc main_arg1))) (b : Fin 4096) :
    relRow m c (1 : Fin 8) b
      = Cert.Spec.rowLoss
          (fun (b : Fin 4096) (e : Fin 100) => (Host.gather gather_S30001x100_S4096x1_S4096x100_1_0_n_n_0_1_1100 (m ((c : Thread nD τ).loc main_arg2)) (broadcastInDim S4096x1 ![0] bcast_S4096_S4096x1_0 (Cert.Cols.norm 30001#32 (Cert.Cols.bcol 0 (m ((c : Thread nD τ).loc main_arg0))))) (ix2 b e) : EReal))
          (fun (b : Fin 4096) (e : Fin 100) => (Host.gather gather_S100001x100_S4096x1_S4096x100_1_0_n_n_0_1_1100 (m ((c : Thread nD τ).loc main_arg4)) (broadcastInDim S4096x1 ![0] bcast_S4096_S4096x1_0 (Cert.Cols.norm 100001#32 (Cert.Cols.bcol 2 (m ((c : Thread nD τ).loc main_arg0))))) (ix2 b e) : EReal))
          (fun (e : Fin 100) => (m ((c : Thread nD τ).loc main_arg8) (ix2 (1 : Fin 8) e) : EReal))
          (fun (b : Fin 4096) => (Host.gather gather_S100001_S4096x1_S4096_n_0_n_n_0_1_1 (m ((c : Thread nD τ).loc main_arg10)) (broadcastInDim S4096x1 ![0] bcast_S4096_S4096x1_0 (Cert.Cols.norm 100001#32 (Cert.Cols.bcol 2 (m ((c : Thread nD τ).loc main_arg0))))) (ix1 b) : EReal))
          (fun (n : Fin 256) (e : Fin 100) => (Host.gather gather_S100001x100_S256x1_S256x100_1_0_n_n_0_1_1100 (m ((c : Thread nD τ).loc main_arg4)) (broadcastInDim S256x1 ![0] bcast_S256_S256x1_0 (Cert.Cols.norm 100001#32 (Cert.Cols.nrow 1 (m ((c : Thread nD τ).loc main_arg1))))) (ix2 n e) : EReal)) b := by
  unfold relRow
  simp only [v88_r1 m c, v97_r1 m c, v107_r1 m c, v116_r1 m c, v117_at m c]
  rw [head1 m c hok, tail1 m c hok, bias1 m c hok, neg1 m c hok]

end Cert.KernelIdeal.HostVal

end
-- ==== Proof.KIHost.Rel2.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem St10_v21 (c : Dev nD) : St10 m c (Proc.devRef .tc main_v21) = Cert.Cols.bcol 1 (m (c, Proc.devRef .tc main_arg0)) := by
  rw [St10]; dsimp only [hostOps0_10]; after_results_simp; keeps; rfl
theorem St10_v23 (c : Dev nD) : St10 m c (Proc.devRef .tc main_v23) = Cert.Cols.bcol 2 (m (c, Proc.devRef .tc main_arg0)) := by
  rw [St10]; dsimp only [hostOps0_10]; after_results_simp; keeps; rfl
theorem St10_v25 (c : Dev nD) : St10 m c (Proc.devRef .tc main_v25) = Cert.Cols.nrow 2 (m (c, Proc.devRef .tc main_arg1)) := by
  rw [St10]; dsimp only [hostOps0_10]; after_results_simp; keeps; rfl

theorem val11 (X : Valuation τ sig (Elt F)) :
    StableHlo.after hostOps0_11 X (Proc.devRef .tc main_v26)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v21)) := by
  dsimp only [hostOps0_11]; after_results_simp <;> (try simp only [StableHlo.TRef.ofBuf, StableHlo.TRef.toBuf, cast_eq]) <;> (try rfl)
theorem val12 (X : Valuation τ sig (Elt F)) :
    StableHlo.after hostOps0_12 X (Proc.devRef .tc main_v27)
      = takeB gather_S100001x100_S4096x1_S4096x100_1_0_n_n_0_1_1100 100001#32 100000#32
          (broadcastInDim S4096x100 ![] bcast_S_S4096x100 (constant (F := F) S_ .f32 0x7FC00000#32))
          (X (Proc.devRef .tc main_arg4)) (X (Proc.devRef .tc main_v23)) := by
  dsimp only [hostOps0_12]; after_results_simp <;> (try simp only [StableHlo.TRef.ofBuf, StableHlo.TRef.toBuf, cast_eq]) <;> (try rfl)
theorem val13 (X : Valuation τ sig (Elt F)) :
    StableHlo.after hostOps0_13 X (Proc.devRef .tc main_v28)
      = takeS gather_S100001_S4096x1_S4096_n_0_n_n_0_1_1 100001#32 100000#32
          (broadcastInDim S4096 ![] bcast_S_S4096 (constant (F := F) S_ .f32 0x7FC00000#32))
          (X (Proc.devRef .tc main_arg11)) (X (Proc.devRef .tc main_v23)) := by
  dsimp only [hostOps0_13]; after_results_simp <;> (try simp only [StableHlo.TRef.ofBuf, StableHlo.TRef.toBuf, cast_eq]) <;> (try rfl)
theorem val14 (X : Valuation τ sig (Elt F)) :
    StableHlo.after hostOps0_14 X (Proc.devRef .tc main_v29)
      = takeN gather_S100001x100_S256x1_S256x100_1_0_n_n_0_1_1100 100001#32 100000#32
          (broadcastInDim S256x100 ![] bcast_S_S256x100 (constant (F := F) S_ .f32 0x7FC00000#32))
          (X (Proc.devRef .tc main_arg4)) (X (Proc.devRef .tc main_v25)) := by
  dsimp only [hostOps0_14]; after_results_simp <;> (try simp only [StableHlo.TRef.ofBuf, StableHlo.TRef.toBuf, cast_eq]) <;> (try rfl)

theorem head2 (c : Dev nD)
    (hok : Cert.Cols.IdxOK (m ((c : Thread nD τ).loc main_arg0)) (m ((c : Thread nD τ).loc main_arg1))) :
    V0 m c (Proc.devRef .tc main_v26)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St11, val11]
  keeps
  rw [St10_v21]
  exact takeB_eq _ _ _ (Cert.Cols.colRows 1 : Int) (by decide) _ _ _ (hok.1 1)

theorem tail2 (c : Dev nD)
    (hok : Cert.Cols.IdxOK (m ((c : Thread nD τ).loc main_arg0)) (m ((c : Thread nD τ).loc main_arg1))) :
    V0 m c (Proc.devRef .tc main_v27)
      = Host.gather gather_S100001x100_S4096x1_S4096x100_1_0_n_n_0_1_1100 (m ((c : Thread nD τ).loc main_arg4))
          (broadcastInDim S4096x1 ![0] bcast_S4096_S4096x1_0 (Cert.Cols.norm 100001#32 (Cert.Cols.bcol 2 (m ((c : Thread nD τ).loc main_arg0))))) := by
  rw [V0_eq]
  keeps
  rw [St12, val12]
  keeps
  rw [St10_v23]
  exact takeB_eq _ _ _ (Cert.Cols.colRows 2 : Int) (by decide) _ _ _ (hok.1 2)

theorem bias2 (c : Dev nD)
    (hok : Cert.Cols.IdxOK (m ((c : Thread nD τ).loc main_arg0)) (m ((c : Thread nD τ).loc main_arg1))) :
    V0 m c (Proc.devRef .tc main_v28)
      = Host.gather gather_S100001_S4096x1_S4096_n_0_n_n_0_1_1 (m ((c : Thread nD τ).loc main_arg11))
          (broadcastInDim S4096x1 ![0] bcast_S4096_S4096x1_0 (Cert.Cols.norm 100001#32 (Cert.Cols.bcol 2 (m ((c : Thread nD τ).loc main_arg0))))) := by
  rw [V0_eq]
  keeps
  rw [St13, val13]
  keeps
  rw [St10_v23]
  exact takeS_eq _ _ _ (Cert.Cols.colRows 2 : Int) (by decide) _ _ _ (hok.1 2)

theorem neg2 (c : Dev nD)
    (hok : Cert.Cols.IdxOK (m ((c : Thread nD τ).loc main_arg0)) (m ((c : Thread nD τ).loc main_arg1))) :
    V0 m c (Proc.devRef .tc main_v29)
      = Host.gather gather_S100001x100_S256x1_S256x100_1_0_n_n_0_1_1100 (m ((c : Thread nD τ).loc main_arg4))
          (broadcastInDim S256x1 ![0] bcast_S256_S256x1_0 (Cert.Cols.norm 100001#32 (Cert.Cols.nrow 2 (m ((c : Thread nD τ).loc main_arg1))))) := by
  rw [V0_eq]
  keeps
  rw [St14, val14]
  keeps
  rw [St10_v25]
  exact takeN_eq _ _ _ (Cert.Cols.negRows 2 : Int) (by decide) _ _ _ (hok.2 2)

end Cert.KernelIdeal.HostVal

end
-- ==== Proof.KIHost.Row2.lean ====
import proofs.«400362_j8907762172017_2_alg».proof.Proof.KIHost.Rel2
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow2 (c : Dev nD)
    (hok : Cert.Cols.IdxOK (m ((c : Thread nD τ).loc main_arg0)) (m ((c : Thread nD τ).loc main_arg1))) (b : Fin 4096) :
    relRow m c (2 : Fin 8) b
      = Cert.Spec.rowLoss
          (fun (b : Fin 4096) (e : Fin 100) => (Host.gather gather_S50001x100_S4096x1_S4096x100_1_0_n_n_0_1_1100 (m ((c : Thread nD τ).loc main_arg3)) (broadcastInDim S4096x1 ![0] bcast_S4096_S4096x1_0 (Cert.Cols.norm 50001#32 (Cert.Cols.bcol 1 (m ((c : Thread nD τ).loc main_arg0))))) (ix2 b e) : EReal))
          (fun (b : Fin 4096) (e : Fin 100) => (Host.gather gather_S100001x100_S4096x1_S4096x100_1_0_n_n_0_1_1100 (m ((c : Thread nD τ).loc main_arg4)) (broadcastInDim S4096x1 ![0] bcast_S4096_S4096x1_0 (Cert.Cols.norm 100001#32 (Cert.Cols.bcol 2 (m ((c : Thread nD τ).loc main_arg0))))) (ix2 b e) : EReal))
          (fun (e : Fin 100) => (m ((c : Thread nD τ).loc main_arg8) (ix2 (2 : Fin 8) e) : EReal))
          (fun (b : Fin 4096) => (Host.gather gather_S100001_S4096x1_S4096_n_0_n_n_0_1_1 (m ((c : Thread nD τ).loc main_arg11)) (broadcastInDim S4096x1 ![0] bcast_S4096_S4096x1_0 (Cert.Cols.norm 100001#32 (Cert.Cols.bcol 2 (m ((c : Thread nD τ).loc main_arg0))))) (ix1 b) : EReal))
          (fun (n : Fin 256) (e : Fin 100) => (Host.gather gather_S100001x100_S256x1_S256x100_1_0_n_n_0_1_1100 (m ((c : Thread nD τ).loc main_arg4)) (broadcastInDim S256x1 ![0] bcast_S256_S256x1_0 (Cert.Cols.norm 100001#32 (Cert.Cols.nrow 2 (m ((c : Thread nD τ).loc main_arg1))))) (ix2 n e) : EReal)) b := by
  unfold relRow
  simp only [v88_r2 m c, v97_r2 m c, v107_r2 m c, v116_r2 m c, v117_at m c]
  rw [head2 m c hok, tail2 m c hok, bias2 m c hok, neg2 m c hok]

end Cert.KernelIdeal.HostVal

end
-- ==== Proof.KIHost.Rel3.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem St15_v31 (c : Dev nD) : St15 m c (Proc.devRef .tc main_v31) = Cert.Cols.bcol 1 (m (c, Proc.devRef .tc main_arg0)) := by
  rw [St15]; dsimp only [hostOps0_15]; after_results_simp; keeps; rfl
theorem St15_v33 (c : Dev nD) : St15 m c (Proc.devRef .tc main_v33) = Cert.Cols.bcol 3 (m (c, Proc.devRef .tc main_arg0)) := by
  rw [St15]; dsimp only [hostOps0_15]; after_results_simp; keeps; rfl
theorem St15_v35 (c : Dev nD) : St15 m c (Proc.devRef .tc main_v35) = Cert.Cols.nrow 3 (m (c, Proc.devRef .tc main_arg1)) := by
  rw [St15]; dsimp only [hostOps0_15]; after_results_simp; keeps; rfl

theorem val16 (X : Valuation τ sig (Elt F)) :
    StableHlo.after hostOps0_16 X (Proc.devRef .tc main_v36)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v31)) := by
  dsimp only [hostOps0_16]; after_results_simp <;> (try simp only [StableHlo.TRef.ofBuf, StableHlo.TRef.toBuf, cast_eq]) <;> (try rfl)
theorem val17 (X : Valuation τ sig (Elt F)) :
    StableHlo.after hostOps0_17 X (Proc.devRef .tc main_v37)
      = takeB gather_S5001x100_S4096x1_S4096x100_1_0_n_n_0_1_1100 5001#32 5000#32
          (broadcastInDim S4096x100 ![] bcast_S_S4096x100 (constant (F := F) S_ .f32 0x7FC00000#32))
          (X (Proc.devRef .tc main_arg5)) (X (Proc.devRef .tc main_v33)) := by
  dsimp only [hostOps0_17]; after_results_simp <;> (try simp only [StableHlo.TRef.ofBuf, StableHlo.TRef.toBuf, cast_eq]) <;> (try rfl)
theorem val18 (X : Valuation τ sig (Elt F)) :
    StableHlo.after hostOps0_18 X (Proc.devRef .tc main_v38)
      = takeS gather_S5001_S4096x1_S4096_n_0_n_n_0_1_1 5001#32 5000#32
          (broadcastInDim S4096 ![] bcast_S_S4096 (constant (F := F) S_ .f32 0x7FC00000#32))
          (X (Proc.devRef .tc main_arg12)) (X (Proc.devRef .tc main_v33)) := by
  dsimp only [hostOps0_18]; after_results_simp <;> (try simp only [StableHlo.TRef.ofBuf, StableHlo.TRef.toBuf, cast_eq]) <;> (try rfl)
theorem val19 (X : Valuation τ sig (Elt F)) :
    StableHlo.after hostOps0_19 X (Proc.devRef .tc main_v39)
      = takeN gather_S5001x100_S256x1_S256x100_1_0_n_n_0_1_1100 5001#32 5000#32
          (broadcastInDim S256x100 ![] bcast_S_S256x100 (constant (F := F) S_ .f32 0x7FC00000#32))
          (X (Proc.devRef .tc main_arg5)) (X (Proc.devRef .tc main_v35)) := by
  dsimp only [hostOps0_19]; after_results_simp <;> (try simp only [StableHlo.TRef.ofBuf, StableHlo.TRef.toBuf, cast_eq]) <;> (try rfl)

theorem head3 (c : Dev nD)
    (hok : Cert.Cols.IdxOK (m ((c : Thread nD τ).loc main_arg0)) (m ((c : Thread nD τ).loc main_arg1))) :
    V0 m c (Proc.devRef .tc main_v36)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St16, val16]
  keeps
  rw [St15_v31]
  exact takeB_eq _ _ _ (Cert.Cols.colRows 1 : Int) (by decide) _ _ _ (hok.1 1)

theorem tail3 (c : Dev nD)
    (hok : Cert.Cols.IdxOK (m ((c : Thread nD τ).loc main_arg0)) (m ((c : Thread nD τ).loc main_arg1))) :
    V0 m c (Proc.devRef .tc main_v37)
      = Host.gather gather_S5001x100_S4096x1_S4096x100_1_0_n_n_0_1_1100 (m ((c : Thread nD τ).loc main_arg5))
          (broadcastInDim S4096x1 ![0] bcast_S4096_S4096x1_0 (Cert.Cols.norm 5001#32 (Cert.Cols.bcol 3 (m ((c : Thread nD τ).loc main_arg0))))) := by
  rw [V0_eq]
  keeps
  rw [St17, val17]
  keeps
  rw [St15_v33]
  exact takeB_eq _ _ _ (Cert.Cols.colRows 3 : Int) (by decide) _ _ _ (hok.1 3)

theorem bias3 (c : Dev nD)
    (hok : Cert.Cols.IdxOK (m ((c : Thread nD τ).loc main_arg0)) (m ((c : Thread nD τ).loc main_arg1))) :
    V0 m c (Proc.devRef .tc main_v38)
      = Host.gather gather_S5001_S4096x1_S4096_n_0_n_n_0_1_1 (m ((c : Thread nD τ).loc main_arg12))
          (broadcastInDim S4096x1 ![0] bcast_S4096_S4096x1_0 (Cert.Cols.norm 5001#32 (Cert.Cols.bcol 3 (m ((c : Thread nD τ).loc main_arg0))))) := by
  rw [V0_eq]
  keeps
  rw [St18, val18]
  keeps
  rw [St15_v33]
  exact takeS_eq _ _ _ (Cert.Cols.colRows 3 : Int) (by decide) _ _ _ (hok.1 3)

theorem neg3 (c : Dev nD)
    (hok : Cert.Cols.IdxOK (m ((c : Thread nD τ).loc main_arg0)) (m ((c : Thread nD τ).loc main_arg1))) :
    V0 m c (Proc.devRef .tc main_v39)
      = Host.gather gather_S5001x100_S256x1_S256x100_1_0_n_n_0_1_1100 (m ((c : Thread nD τ).loc main_arg5))
          (broadcastInDim S256x1 ![0] bcast_S256_S256x1_0 (Cert.Cols.norm 5001#32 (Cert.Cols.nrow 3 (m ((c : Thread nD τ).loc main_arg1))))) := by
  rw [V0_eq]
  keeps
  rw [St19, val19]
  keeps
  rw [St15_v35]
  exact takeN_eq _ _ _ (Cert.Cols.negRows 3 : Int) (by decide) _ _ _ (hok.2 3)

end Cert.KernelIdeal.HostVal

end
-- ==== Proof.KIHost.Row3.lean ====
import proofs.«400362_j8907762172017_2_alg».proof.Proof.KIHost.Rel3
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow3 (c : Dev nD)
    (hok : Cert.Cols.IdxOK (m ((c : Thread nD τ).loc main_arg0)) (m ((c : Thread nD τ).loc main_arg1))) (b : Fin 4096) :
    relRow m c (3 : Fin 8) b
      = Cert.Spec.rowLoss
          (fun (b : Fin 4096) (e : Fin 100) => (Host.gather gather_S50001x100_S4096x1_S4096x100_1_0_n_n_0_1_1100 (m ((c : Thread nD τ).loc main_arg3)) (broadcastInDim S4096x1 ![0] bcast_S4096_S4096x1_0 (Cert.Cols.norm 50001#32 (Cert.Cols.bcol 1 (m ((c : Thread nD τ).loc main_arg0))))) (ix2 b e) : EReal))
          (fun (b : Fin 4096) (e : Fin 100) => (Host.gather gather_S5001x100_S4096x1_S4096x100_1_0_n_n_0_1_1100 (m ((c : Thread nD τ).loc main_arg5)) (broadcastInDim S4096x1 ![0] bcast_S4096_S4096x1_0 (Cert.Cols.norm 5001#32 (Cert.Cols.bcol 3 (m ((c : Thread nD τ).loc main_arg0))))) (ix2 b e) : EReal))
          (fun (e : Fin 100) => (m ((c : Thread nD τ).loc main_arg8) (ix2 (3 : Fin 8) e) : EReal))
          (fun (b : Fin 4096) => (Host.gather gather_S5001_S4096x1_S4096_n_0_n_n_0_1_1 (m ((c : Thread nD τ).loc main_arg12)) (broadcastInDim S4096x1 ![0] bcast_S4096_S4096x1_0 (Cert.Cols.norm 5001#32 (Cert.Cols.bcol 3 (m ((c : Thread nD τ).loc main_arg0))))) (ix1 b) : EReal))
          (fun (n : Fin 256) (e : Fin 100) => (Host.gather gather_S5001x100_S256x1_S256x100_1_0_n_n_0_1_1100 (m ((c : Thread nD τ).loc main_arg5)) (broadcastInDim S256x1 ![0] bcast_S256_S256x1_0 (Cert.Cols.norm 5001#32 (Cert.Cols.nrow 3 (m ((c : Thread nD τ).loc main_arg1))))) (ix2 n e) : EReal)) b := by
  unfold relRow
  simp only [v88_r3 m c, v97_r3 m c, v107_r3 m c, v116_r3 m c, v117_at m c]
  rw [head3 m c hok, tail3 m c hok, bias3 m c hok, neg3 m c hok]

end Cert.KernelIdeal.HostVal

end
-- ==== Proof.KIHost.Rel4.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem colsR4_a (X : Valuation τ sig (Elt F)) :
    StableHlo.after hostOps0_20 X (Proc.devRef .tc main_v41) = Cert.Cols.bcol 1 (X (Proc.devRef .tc main_arg0)) := by
  dsimp only [hostOps0_20]; after_results_simp; rfl
theorem colsR4_b (X : Valuation τ sig (Elt F)) :
    StableHlo.after hostOps0_20 X (Proc.devRef .tc main_v43) = Cert.Cols.bcol 4 (X (Proc.devRef .tc main_arg0)) := by
  dsimp only [hostOps0_20]; after_results_simp; rfl
theorem colsR4_n (X : Valuation τ sig (Elt F)) :
    StableHlo.after hostOps0_20 X (Proc.devRef .tc main_v45) = Cert.Cols.nrow 4 (X (Proc.devRef .tc main_arg1)) := by
  dsimp only [hostOps0_20]; after_results_simp; rfl

theorem valR4_head (X : Valuation τ sig (Elt F)) :
    StableHlo.after hostOps0_21 X (Proc.devRef .tc main_v46)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v41)) := by
  dsimp only [hostOps0_21]; after_results_simp <;> (try simp only [StableHlo.TRef.ofBuf, StableHlo.TRef.toBuf, cast_eq]) <;> rfl
theorem valR4_tail (X : Valuation τ sig (Elt F)) :
    StableHlo.after hostOps0_22 X (Proc.devRef .tc main_v47)
      = takeB gather_S1001x100_S4096x1_S4096x100_1_0_n_n_0_1_1100 1001#32 1000#32
          (broadcastInDim S4096x100 ![] bcast_S_S4096x100 (constant (F := F) S_ .f32 0x7FC00000#32))
          (X (Proc.devRef .tc main_arg6)) (X (Proc.devRef .tc main_v43)) := by
  dsimp only [hostOps0_22]; after_results_simp <;> (try simp only [StableHlo.TRef.ofBuf, StableHlo.TRef.toBuf, cast_eq]) <;> rfl
theorem valR4_bias (X : Valuation τ sig (Elt F)) :
    StableHlo.after hostOps0_23 X (Proc.devRef .tc main_v48)
      = takeS gather_S1001_S4096x1_S4096_n_0_n_n_0_1_1 1001#32 1000#32
          (broadcastInDim S4096 ![] bcast_S_S4096 (constant (F := F) S_ .f32 0x7FC00000#32))
          (X (Proc.devRef .tc main_arg13)) (X (Proc.devRef .tc main_v43)) := by
  dsimp only [hostOps0_23]; after_results_simp <;> (try simp only [StableHlo.TRef.ofBuf, StableHlo.TRef.toBuf, cast_eq]) <;> rfl
theorem valR4_neg (X : Valuation τ sig (Elt F)) :
    StableHlo.after hostOps0_24 X (Proc.devRef .tc main_v49)
      = takeN gather_S1001x100_S256x1_S256x100_1_0_n_n_0_1_1100 1001#32 1000#32
          (broadcastInDim S256x100 ![] bcast_S_S256x100 (constant (F := F) S_ .f32 0x7FC00000#32))
          (X (Proc.devRef .tc main_arg6)) (X (Proc.devRef .tc main_v45)) := by
  dsimp only [hostOps0_24]; after_results_simp <;> (try simp only [StableHlo.TRef.ofBuf, StableHlo.TRef.toBuf, cast_eq]) <;> rfl

theorem head4 (c : Dev nD)
    (hok : Cert.Cols.IdxOK (m ((c : Thread nD τ).loc main_arg0)) (m ((c : Thread nD τ).loc main_arg1))) :
    V0 m c (Proc.devRef .tc main_v46)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St21, valR4_head]
  keeps
  rw [St20, colsR4_a]
  keeps
  exact takeB_eq _ _ _ (Cert.Cols.colRows 1 : Int) (by decide) _ _ _ (hok.1 1)

theorem tail4 (c : Dev nD)
    (hok : Cert.Cols.IdxOK (m ((c : Thread nD τ).loc main_arg0)) (m ((c : Thread nD τ).loc main_arg1))) :
    V0 m c (Proc.devRef .tc main_v47)
      = Host.gather gather_S1001x100_S4096x1_S4096x100_1_0_n_n_0_1_1100 (m ((c : Thread nD τ).loc main_arg6))
          (broadcastInDim S4096x1 ![0] bcast_S4096_S4096x1_0 (Cert.Cols.norm 1001#32 (Cert.Cols.bcol 4 (m ((c : Thread nD τ).loc main_arg0))))) := by
  rw [V0_eq]
  keeps
  rw [St22, valR4_tail]
  keeps
  rw [St20, colsR4_b]
  keeps
  exact takeB_eq _ _ _ (Cert.Cols.colRows 4 : Int) (by decide) _ _ _ (hok.1 4)

theorem bias4 (c : Dev nD)
    (hok : Cert.Cols.IdxOK (m ((c : Thread nD τ).loc main_arg0)) (m ((c : Thread nD τ).loc main_arg1))) :
    V0 m c (Proc.devRef .tc main_v48)
      = Host.gather gather_S1001_S4096x1_S4096_n_0_n_n_0_1_1 (m ((c : Thread nD τ).loc main_arg13))
          (broadcastInDim S4096x1 ![0] bcast_S4096_S4096x1_0 (Cert.Cols.norm 1001#32 (Cert.Cols.bcol 4 (m ((c : Thread nD τ).loc main_arg0))))) := by
  rw [V0_eq]
  keeps
  rw [St23, valR4_bias]
  keeps
  rw [St20, colsR4_b]
  keeps
  exact takeS_eq _ _ _ (Cert.Cols.colRows 4 : Int) (by decide) _ _ _ (hok.1 4)

theorem neg4 (c : Dev nD)
    (hok : Cert.Cols.IdxOK (m ((c : Thread nD τ).loc main_arg0)) (m ((c : Thread nD τ).loc main_arg1))) :
    V0 m c (Proc.devRef .tc main_v49)
      = Host.gather gather_S1001x100_S256x1_S256x100_1_0_n_n_0_1_1100 (m ((c : Thread nD τ).loc main_arg6))
          (broadcastInDim S256x1 ![0] bcast_S256_S256x1_0 (Cert.Cols.norm 1001#32 (Cert.Cols.nrow 4 (m ((c : Thread nD τ).loc main_arg1))))) := by
  rw [V0_eq]
  keeps
  rw [St24, valR4_neg]
  keeps
  rw [St20, colsR4_n]
  keeps
  exact takeN_eq _ _ _ (Cert.Cols.negRows 4 : Int) (by decide) _ _ _ (hok.2 4)

end Cert.KernelIdeal.HostVal

end
-- ==== Proof.KIHost.Row4.lean ====
import proofs.«400362_j8907762172017_2_alg».proof.Proof.KIHost.Rel4
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow4 (c : Dev nD)
    (hok : Cert.Cols.IdxOK (m ((c : Thread nD τ).loc main_arg0)) (m ((c : Thread nD τ).loc main_arg1))) (b : Fin 4096) :
    relRow m c (4 : Fin 8) b
      = Cert.Spec.rowLoss
          (fun (b : Fin 4096) (e : Fin 100) => (Host.gather gather_S50001x100_S4096x1_S4096x100_1_0_n_n_0_1_1100 (m ((c : Thread nD τ).loc main_arg3))
              (broadcastInDim S4096x1 ![0] bcast_S4096_S4096x1_0 (Cert.Cols.norm 50001#32 (Cert.Cols.bcol 1 (m ((c : Thread nD τ).loc main_arg0))))) (ix2 b e) : EReal))
          (fun (b : Fin 4096) (e : Fin 100) => (Host.gather gather_S1001x100_S4096x1_S4096x100_1_0_n_n_0_1_1100 (m ((c : Thread nD τ).loc main_arg6))
              (broadcastInDim S4096x1 ![0] bcast_S4096_S4096x1_0 (Cert.Cols.norm 1001#32 (Cert.Cols.bcol 4 (m ((c : Thread nD τ).loc main_arg0))))) (ix2 b e) : EReal))
          (fun (e : Fin 100) => (m ((c : Thread nD τ).loc main_arg8) (ix2 (4 : Fin 8) e) : EReal))
          (fun (b : Fin 4096) => (Host.gather gather_S1001_S4096x1_S4096_n_0_n_n_0_1_1 (m ((c : Thread nD τ).loc main_arg13))
              (broadcastInDim S4096x1 ![0] bcast_S4096_S4096x1_0 (Cert.Cols.norm 1001#32 (Cert.Cols.bcol 4 (m ((c : Thread nD τ).loc main_arg0))))) (ix1 b) : EReal))
          (fun (n : Fin 256) (e : Fin 100) => (Host.gather gather_S1001x100_S256x1_S256x100_1_0_n_n_0_1_1100 (m ((c : Thread nD τ).loc main_arg6))
              (broadcastInDim S256x1 ![0] bcast_S256_S256x1_0 (Cert.Cols.norm 1001#32 (Cert.Cols.nrow 4 (m ((c : Thread nD τ).loc main_arg1))))) (ix2 n e) : EReal))
          b := by
  have h0 : (fun (b : Fin 4096) (e : Fin 100) => (V m c main_v88 (ix3 (4 : Fin 8) b e) : EReal))
      = fun b e => Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) (ix2 b e) := by
    funext b e
    show V0 m c (Proc.devRef .tc main_v88) (ix3 (4 : Fin 8) b e) = _
    rw [v88_r4, head4 m c hok]
  have h1 : (fun (b : Fin 4096) (e : Fin 100) => (V m c main_v97 (ix3 (4 : Fin 8) b e) : EReal))
      = fun b e => Host.gather gather_S1001x100_S4096x1_S4096x100_1_0_n_n_0_1_1100 (m ((c : Thread nD τ).loc main_arg6))
          (broadcastInDim S4096x1 ![0] bcast_S4096_S4096x1_0 (Cert.Cols.norm 1001#32 (Cert.Cols.bcol 4 (m ((c : Thread nD τ).loc main_arg0))))) (ix2 b e) := by
    funext b e
    show V0 m c (Proc.devRef .tc main_v97) (ix3 (4 : Fin 8) b e) = _
    rw [v97_r4, tail4 m c hok]
  have h2 : (fun (b : Fin 4096) => (V m c main_v107 (ix3 (4 : Fin 8) (0 : Fin 1) b) : EReal))
      = fun b => Host.gather gather_S1001_S4096x1_S4096_n_0_n_n_0_1_1 (m ((c : Thread nD τ).loc main_arg13))
          (broadcastInDim S4096x1 ![0] bcast_S4096_S4096x1_0 (Cert.Cols.norm 1001#32 (Cert.Cols.bcol 4 (m ((c : Thread nD τ).loc main_arg0))))) (ix1 b) := by
    funext b
    show V0 m c (Proc.devRef .tc main_v107) (ix3 (4 : Fin 8) (0 : Fin 1) b) = _
    rw [v107_r4, bias4 m c hok]
  have h3 : (fun (e : Fin 100) => (V m c main_v117 (ix3 (4 : Fin 8) (0 : Fin 1) e) : EReal))
      = fun e => m ((c : Thread nD τ).loc main_arg8) (ix2 (4 : Fin 8) e) := by
    funext e
    exact v117_at m c 4 e
  have h4 : (fun (n : Fin 256) (e : Fin 100) => (V m c main_v116 (ix3 (4 : Fin 8) n e) : EReal))
      = fun n e => Host.gather gather_S1001x100_S256x1_S256x100_1_0_n_n_0_1_1100 (m ((c : Thread nD τ).loc main_arg6))
          (broadcastInDim S256x1 ![0] bcast_S256_S256x1_0 (Cert.Cols.norm 1001#32 (Cert.Cols.nrow 4 (m ((c : Thread nD τ).loc main_arg1))))) (ix2 n e) := by
    funext n e
    show V0 m c (Proc.devRef .tc main_v116) (ix3 (4 : Fin 8) n e) = _
    rw [v116_r4, neg4 m c hok]
  unfold relRow
  rw [h0, h1, h2, h3, h4]

end Cert.KernelIdeal.HostVal

end
-- ==== Proof.KIHost.Rel5.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem colsR5_a (X : Valuation τ sig (Elt F)) :
    StableHlo.after hostOps0_25 X (Proc.devRef .tc main_v51) = Cert.Cols.bcol 1 (X (Proc.devRef .tc main_arg0)) := by
  dsimp only [hostOps0_25]; after_results_simp; rfl
theorem colsR5_b (X : Valuation τ sig (Elt F)) :
    StableHlo.after hostOps0_25 X (Proc.devRef .tc main_v53) = Cert.Cols.bcol 5 (X (Proc.devRef .tc main_arg0)) := by
  dsimp only [hostOps0_25]; after_results_simp; rfl
theorem colsR5_n (X : Valuation τ sig (Elt F)) :
    StableHlo.after hostOps0_25 X (Proc.devRef .tc main_v55) = Cert.Cols.nrow 5 (X (Proc.devRef .tc main_arg1)) := by
  dsimp only [hostOps0_25]; after_results_simp; rfl

theorem valR5_head (X : Valuation τ sig (Elt F)) :
    StableHlo.after hostOps0_26 X (Proc.devRef .tc main_v56)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v51)) := by
  dsimp only [hostOps0_26]; after_results_simp <;> (try simp only [StableHlo.TRef.ofBuf, StableHlo.TRef.toBuf, cast_eq]) <;> rfl
theorem valR5_tail (X : Valuation τ sig (Elt F)) :
    StableHlo.after hostOps0_27 X (Proc.devRef .tc main_v57)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg7)) (X (Proc.devRef .tc main_v53)) := by
  dsimp only [hostOps0_27]; after_results_simp <;> (try simp only [StableHlo.TRef.ofBuf, StableHlo.TRef.toBuf, cast_eq]) <;> rfl
theorem valR5_bias (X : Valuation τ sig (Elt F)) :
    StableHlo.after hostOps0_28 X (Proc.devRef .tc main_v58)
      = takeS gather_S50001_S4096x1_S4096_n_0_n_n_0_1_1 50001#32 50000#32
          (broadcastInDim S4096 ![] bcast_S_S4096 (constant (F := F) S_ .f32 0x7FC00000#32))
          (X (Proc.devRef .tc main_arg14)) (X (Proc.devRef .tc main_v53)) := by
  dsimp only [hostOps0_28]; after_results_simp <;> (try simp only [StableHlo.TRef.ofBuf, StableHlo.TRef.toBuf, cast_eq]) <;> rfl
theorem valR5_neg (X : Valuation τ sig (Elt F)) :
    StableHlo.after hostOps0_29 X (Proc.devRef .tc main_v59)
      = takeN gather_S50001x100_S256x1_S256x100_1_0_n_n_0_1_1100 50001#32 50000#32
          (broadcastInDim S256x100 ![] bcast_S_S256x100 (constant (F := F) S_ .f32 0x7FC00000#32))
          (X (Proc.devRef .tc main_arg7)) (X (Proc.devRef .tc main_v55)) := by
  dsimp only [hostOps0_29]; after_results_simp <;> (try simp only [StableHlo.TRef.ofBuf, StableHlo.TRef.toBuf, cast_eq]) <;> rfl

theorem head5 (c : Dev nD)
    (hok : Cert.Cols.IdxOK (m ((c : Thread nD τ).loc main_arg0)) (m ((c : Thread nD τ).loc main_arg1))) :
    V0 m c (Proc.devRef .tc main_v56)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St26, valR5_head]
  keeps
  rw [St25, colsR5_a]
  keeps
  exact takeB_eq _ _ _ (Cert.Cols.colRows 1 : Int) (by decide) _ _ _ (hok.1 1)

theorem tail5 (c : Dev nD)
    (hok : Cert.Cols.IdxOK (m ((c : Thread nD τ).loc main_arg0)) (m ((c : Thread nD τ).loc main_arg1))) :
    V0 m c (Proc.devRef .tc main_v57)
      = Host.gather gather_S50001x100_S4096x1_S4096x100_1_0_n_n_0_1_1100 (m ((c : Thread nD τ).loc main_arg7))
          (broadcastInDim S4096x1 ![0] bcast_S4096_S4096x1_0 (Cert.Cols.norm 50001#32 (Cert.Cols.bcol 5 (m ((c : Thread nD τ).loc main_arg0))))) := by
  rw [V0_eq]
  keeps
  rw [St27, valR5_tail]
  keeps
  rw [St25, colsR5_b]
  keeps
  exact takeB_eq _ _ _ (Cert.Cols.colRows 5 : Int) (by decide) _ _ _ (hok.1 5)

theorem bias5 (c : Dev nD)
    (hok : Cert.Cols.IdxOK (m ((c : Thread nD τ).loc main_arg0)) (m ((c : Thread nD τ).loc main_arg1))) :
    V0 m c (Proc.devRef .tc main_v58)
      = Host.gather gather_S50001_S4096x1_S4096_n_0_n_n_0_1_1 (m ((c : Thread nD τ).loc main_arg14))
          (broadcastInDim S4096x1 ![0] bcast_S4096_S4096x1_0 (Cert.Cols.norm 50001#32 (Cert.Cols.bcol 5 (m ((c : Thread nD τ).loc main_arg0))))) := by
  rw [V0_eq]
  keeps
  rw [St28, valR5_bias]
  keeps
  rw [St25, colsR5_b]
  keeps
  exact takeS_eq _ _ _ (Cert.Cols.colRows 5 : Int) (by decide) _ _ _ (hok.1 5)

theorem neg5 (c : Dev nD)
    (hok : Cert.Cols.IdxOK (m ((c : Thread nD τ).loc main_arg0)) (m ((c : Thread nD τ).loc main_arg1))) :
    V0 m c (Proc.devRef .tc main_v59)
      = Host.gather gather_S50001x100_S256x1_S256x100_1_0_n_n_0_1_1100 (m ((c : Thread nD τ).loc main_arg7))
          (broadcastInDim S256x1 ![0] bcast_S256_S256x1_0 (Cert.Cols.norm 50001#32 (Cert.Cols.nrow 5 (m ((c : Thread nD τ).loc main_arg1))))) := by
  rw [V0_eq]
  keeps
  rw [St29, valR5_neg]
  keeps
  rw [St25, colsR5_n]
  keeps
  exact takeN_eq _ _ _ (Cert.Cols.negRows 5 : Int) (by decide) _ _ _ (hok.2 5)

end Cert.KernelIdeal.HostVal

end
-- ==== Proof.KIHost.Row5.lean ====
import proofs.«400362_j8907762172017_2_alg».proof.Proof.KIHost.Rel5
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow5 (c : Dev nD)
    (hok : Cert.Cols.IdxOK (m ((c : Thread nD τ).loc main_arg0)) (m ((c : Thread nD τ).loc main_arg1))) (b : Fin 4096) :
    relRow m c (5 : Fin 8) b
      = Cert.Spec.rowLoss
          (fun (b : Fin 4096) (e : Fin 100) => (Host.gather gather_S50001x100_S4096x1_S4096x100_1_0_n_n_0_1_1100 (m ((c : Thread nD τ).loc main_arg3))
              (broadcastInDim S4096x1 ![0] bcast_S4096_S4096x1_0 (Cert.Cols.norm 50001#32 (Cert.Cols.bcol 1 (m ((c : Thread nD τ).loc main_arg0))))) (ix2 b e) : EReal))
          (fun (b : Fin 4096) (e : Fin 100) => (Host.gather gather_S50001x100_S4096x1_S4096x100_1_0_n_n_0_1_1100 (m ((c : Thread nD τ).loc main_arg7))
              (broadcastInDim S4096x1 ![0] bcast_S4096_S4096x1_0 (Cert.Cols.norm 50001#32 (Cert.Cols.bcol 5 (m ((c : Thread nD τ).loc main_arg0))))) (ix2 b e) : EReal))
          (fun (e : Fin 100) => (m ((c : Thread nD τ).loc main_arg8) (ix2 (5 : Fin 8) e) : EReal))
          (fun (b : Fin 4096) => (Host.gather gather_S50001_S4096x1_S4096_n_0_n_n_0_1_1 (m ((c : Thread nD τ).loc main_arg14))
              (broadcastInDim S4096x1 ![0] bcast_S4096_S4096x1_0 (Cert.Cols.norm 50001#32 (Cert.Cols.bcol 5 (m ((c : Thread nD τ).loc main_arg0))))) (ix1 b) : EReal))
          (fun (n : Fin 256) (e : Fin 100) => (Host.gather gather_S50001x100_S256x1_S256x100_1_0_n_n_0_1_1100 (m ((c : Thread nD τ).loc main_arg7))
              (broadcastInDim S256x1 ![0] bcast_S256_S256x1_0 (Cert.Cols.norm 50001#32 (Cert.Cols.nrow 5 (m ((c : Thread nD τ).loc main_arg1))))) (ix2 n e) : EReal))
          b := by
  have h0 : (fun (b : Fin 4096) (e : Fin 100) => (V m c main_v88 (ix3 (5 : Fin 8) b e) : EReal))
      = fun b e => Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) (ix2 b e) := by
    funext b e
    show V0 m c (Proc.devRef .tc main_v88) (ix3 (5 : Fin 8) b e) = _
    rw [v88_r5, head5 m c hok]
  have h1 : (fun (b : Fin 4096) (e : Fin 100) => (V m c main_v97 (ix3 (5 : Fin 8) b e) : EReal))
      = fun b e => Host.gather gather_S50001x100_S4096x1_S4096x100_1_0_n_n_0_1_1100 (m ((c : Thread nD τ).loc main_arg7))
          (broadcastInDim S4096x1 ![0] bcast_S4096_S4096x1_0 (Cert.Cols.norm 50001#32 (Cert.Cols.bcol 5 (m ((c : Thread nD τ).loc main_arg0))))) (ix2 b e) := by
    funext b e
    show V0 m c (Proc.devRef .tc main_v97) (ix3 (5 : Fin 8) b e) = _
    rw [v97_r5, tail5 m c hok]
  have h2 : (fun (b : Fin 4096) => (V m c main_v107 (ix3 (5 : Fin 8) (0 : Fin 1) b) : EReal))
      = fun b => Host.gather gather_S50001_S4096x1_S4096_n_0_n_n_0_1_1 (m ((c : Thread nD τ).loc main_arg14))
          (broadcastInDim S4096x1 ![0] bcast_S4096_S4096x1_0 (Cert.Cols.norm 50001#32 (Cert.Cols.bcol 5 (m ((c : Thread nD τ).loc main_arg0))))) (ix1 b) := by
    funext b
    show V0 m c (Proc.devRef .tc main_v107) (ix3 (5 : Fin 8) (0 : Fin 1) b) = _
    rw [v107_r5, bias5 m c hok]
  have h3 : (fun (e : Fin 100) => (V m c main_v117 (ix3 (5 : Fin 8) (0 : Fin 1) e) : EReal))
      = fun e => m ((c : Thread nD τ).loc main_arg8) (ix2 (5 : Fin 8) e) := by
    funext e
    exact v117_at m c 5 e
  have h4 : (fun (n : Fin 256) (e : Fin 100) => (V m c main_v116 (ix3 (5 : Fin 8) n e) : EReal))
      = fun n e => Host.gather gather_S50001x100_S256x1_S256x100_1_0_n_n_0_1_1100 (m ((c : Thread nD τ).loc main_arg7))
          (broadcastInDim S256x1 ![0] bcast_S256_S256x1_0 (Cert.Cols.norm 50001#32 (Cert.Cols.nrow 5 (m ((c : Thread nD τ).loc main_arg1))))) (ix2 n e) := by
    funext n e
    show V0 m c (Proc.devRef .tc main_v116) (ix3 (5 : Fin 8) n e) = _
    rw [v116_r5, neg5 m c hok]
  unfold relRow
  rw [h0, h1, h2, h3, h4]

end Cert.KernelIdeal.HostVal

end
-- ==== Proof.KIHost.Rel6.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem colsR6_a (X : Valuation τ sig (Elt F)) :
    StableHlo.after hostOps0_30 X (Proc.devRef .tc main_v61) = Cert.Cols.bcol 1 (X (Proc.devRef .tc main_arg0)) := by
  dsimp only [hostOps0_30]; after_results_simp; rfl
theorem colsR6_b (X : Valuation τ sig (Elt F)) :
    StableHlo.after hostOps0_30 X (Proc.devRef .tc main_v63) = Cert.Cols.bcol 6 (X (Proc.devRef .tc main_arg0)) := by
  dsimp only [hostOps0_30]; after_results_simp; rfl
theorem colsR6_n (X : Valuation τ sig (Elt F)) :
    StableHlo.after hostOps0_30 X (Proc.devRef .tc main_v65) = Cert.Cols.nrow 6 (X (Proc.devRef .tc main_arg1)) := by
  dsimp only [hostOps0_30]; after_results_simp; rfl

theorem valR6_head (X : Valuation τ sig (Elt F)) :
    StableHlo.after hostOps0_31 X (Proc.devRef .tc main_v66)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v61)) := by
  dsimp only [hostOps0_31]; after_results_simp <;> (try simp only [StableHlo.TRef.ofBuf, StableHlo.TRef.toBuf, cast_eq]) <;> rfl
theorem valR6_tail (X : Valuation τ sig (Elt F)) :
    StableHlo.after hostOps0_32 X (Proc.devRef .tc main_v67)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg7)) (X (Proc.devRef .tc main_v63)) := by
  dsimp only [hostOps0_32]; after_results_simp <;> (try simp only [StableHlo.TRef.ofBuf, StableHlo.TRef.toBuf, cast_eq]) <;> rfl
theorem valR6_bias (X : Valuation τ sig (Elt F)) :
    StableHlo.after hostOps0_33 X (Proc.devRef .tc main_v68)
      = takeS gather_S50001_S4096x1_S4096_n_0_n_n_0_1_1 50001#32 50000#32
          (broadcastInDim S4096 ![] bcast_S_S4096 (constant (F := F) S_ .f32 0x7FC00000#32))
          (X (Proc.devRef .tc main_arg15)) (X (Proc.devRef .tc main_v63)) := by
  dsimp only [hostOps0_33]; after_results_simp <;> (try simp only [StableHlo.TRef.ofBuf, StableHlo.TRef.toBuf, cast_eq]) <;> rfl
theorem valR6_neg (X : Valuation τ sig (Elt F)) :
    StableHlo.after hostOps0_34 X (Proc.devRef .tc main_v69)
      = takeN gather_S50001x100_S256x1_S256x100_1_0_n_n_0_1_1100 50001#32 50000#32
          (broadcastInDim S256x100 ![] bcast_S_S256x100 (constant (F := F) S_ .f32 0x7FC00000#32))
          (X (Proc.devRef .tc main_arg7)) (X (Proc.devRef .tc main_v65)) := by
  dsimp only [hostOps0_34]; after_results_simp <;> (try simp only [StableHlo.TRef.ofBuf, StableHlo.TRef.toBuf, cast_eq]) <;> rfl

theorem head6 (c : Dev nD)
    (hok : Cert.Cols.IdxOK (m ((c : Thread nD τ).loc main_arg0)) (m ((c : Thread nD τ).loc main_arg1))) :
    V0 m c (Proc.devRef .tc main_v66)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St31, valR6_head]
  keeps
  rw [St30, colsR6_a]
  keeps
  exact takeB_eq _ _ _ (Cert.Cols.colRows 1 : Int) (by decide) _ _ _ (hok.1 1)

theorem tail6 (c : Dev nD)
    (hok : Cert.Cols.IdxOK (m ((c : Thread nD τ).loc main_arg0)) (m ((c : Thread nD τ).loc main_arg1))) :
    V0 m c (Proc.devRef .tc main_v67)
      = Host.gather gather_S50001x100_S4096x1_S4096x100_1_0_n_n_0_1_1100 (m ((c : Thread nD τ).loc main_arg7))
          (broadcastInDim S4096x1 ![0] bcast_S4096_S4096x1_0 (Cert.Cols.norm 50001#32 (Cert.Cols.bcol 6 (m ((c : Thread nD τ).loc main_arg0))))) := by
  rw [V0_eq]
  keeps
  rw [St32, valR6_tail]
  keeps
  rw [St30, colsR6_b]
  keeps
  exact takeB_eq _ _ _ (Cert.Cols.colRows 6 : Int) (by decide) _ _ _ (hok.1 6)

theorem bias6 (c : Dev nD)
    (hok : Cert.Cols.IdxOK (m ((c : Thread nD τ).loc main_arg0)) (m ((c : Thread nD τ).loc main_arg1))) :
    V0 m c (Proc.devRef .tc main_v68)
      = Host.gather gather_S50001_S4096x1_S4096_n_0_n_n_0_1_1 (m ((c : Thread nD τ).loc main_arg15))
          (broadcastInDim S4096x1 ![0] bcast_S4096_S4096x1_0 (Cert.Cols.norm 50001#32 (Cert.Cols.bcol 6 (m ((c : Thread nD τ).loc main_arg0))))) := by
  rw [V0_eq]
  keeps
  rw [St33, valR6_bias]
  keeps
  rw [St30, colsR6_b]
  keeps
  exact takeS_eq _ _ _ (Cert.Cols.colRows 6 : Int) (by decide) _ _ _ (hok.1 6)

theorem neg6 (c : Dev nD)
    (hok : Cert.Cols.IdxOK (m ((c : Thread nD τ).loc main_arg0)) (m ((c : Thread nD τ).loc main_arg1))) :
    V0 m c (Proc.devRef .tc main_v69)
      = Host.gather gather_S50001x100_S256x1_S256x100_1_0_n_n_0_1_1100 (m ((c : Thread nD τ).loc main_arg7))
          (broadcastInDim S256x1 ![0] bcast_S256_S256x1_0 (Cert.Cols.norm 50001#32 (Cert.Cols.nrow 6 (m ((c : Thread nD τ).loc main_arg1))))) := by
  rw [V0_eq]
  keeps
  rw [St34, valR6_neg]
  keeps
  rw [St30, colsR6_n]
  keeps
  exact takeN_eq _ _ _ (Cert.Cols.negRows 6 : Int) (by decide) _ _ _ (hok.2 6)

end Cert.KernelIdeal.HostVal

end
-- ==== Proof.KIHost.Row6.lean ====
import proofs.«400362_j8907762172017_2_alg».proof.Proof.KIHost.Rel6
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow6 (c : Dev nD)
    (hok : Cert.Cols.IdxOK (m ((c : Thread nD τ).loc main_arg0)) (m ((c : Thread nD τ).loc main_arg1))) (b : Fin 4096) :
    relRow m c (6 : Fin 8) b
      = Cert.Spec.rowLoss
          (fun (b : Fin 4096) (e : Fin 100) => (Host.gather gather_S50001x100_S4096x1_S4096x100_1_0_n_n_0_1_1100 (m ((c : Thread nD τ).loc main_arg3))
              (broadcastInDim S4096x1 ![0] bcast_S4096_S4096x1_0 (Cert.Cols.norm 50001#32 (Cert.Cols.bcol 1 (m ((c : Thread nD τ).loc main_arg0))))) (ix2 b e) : EReal))
          (fun (b : Fin 4096) (e : Fin 100) => (Host.gather gather_S50001x100_S4096x1_S4096x100_1_0_n_n_0_1_1100 (m ((c : Thread nD τ).loc main_arg7))
              (broadcastInDim S4096x1 ![0] bcast_S4096_S4096x1_0 (Cert.Cols.norm 50001#32 (Cert.Cols.bcol 6 (m ((c : Thread nD τ).loc main_arg0))))) (ix2 b e) : EReal))
          (fun (e : Fin 100) => (m ((c : Thread nD τ).loc main_arg8) (ix2 (6 : Fin 8) e) : EReal))
          (fun (b : Fin 4096) => (Host.gather gather_S50001_S4096x1_S4096_n_0_n_n_0_1_1 (m ((c : Thread nD τ).loc main_arg15))
              (broadcastInDim S4096x1 ![0] bcast_S4096_S4096x1_0 (Cert.Cols.norm 50001#32 (Cert.Cols.bcol 6 (m ((c : Thread nD τ).loc main_arg0))))) (ix1 b) : EReal))
          (fun (n : Fin 256) (e : Fin 100) => (Host.gather gather_S50001x100_S256x1_S256x100_1_0_n_n_0_1_1100 (m ((c : Thread nD τ).loc main_arg7))
              (broadcastInDim S256x1 ![0] bcast_S256_S256x1_0 (Cert.Cols.norm 50001#32 (Cert.Cols.nrow 6 (m ((c : Thread nD τ).loc main_arg1))))) (ix2 n e) : EReal))
          b := by
  have h0 : (fun (b : Fin 4096) (e : Fin 100) => (V m c main_v88 (ix3 (6 : Fin 8) b e) : EReal))
      = fun b e => Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) (ix2 b e) := by
    funext b e
    show V0 m c (Proc.devRef .tc main_v88) (ix3 (6 : Fin 8) b e) = _
    rw [v88_r6, head6 m c hok]
  have h1 : (fun (b : Fin 4096) (e : Fin 100) => (V m c main_v97 (ix3 (6 : Fin 8) b e) : EReal))
      = fun b e => Host.gather gather_S50001x100_S4096x1_S4096x100_1_0_n_n_0_1_1100 (m ((c : Thread nD τ).loc main_arg7))
          (broadcastInDim S4096x1 ![0] bcast_S4096_S4096x1_0 (Cert.Cols.norm 50001#32 (Cert.Cols.bcol 6 (m ((c : Thread nD τ).loc main_arg0))))) (ix2 b e) := by
    funext b e
    show V0 m c (Proc.devRef .tc main_v97) (ix3 (6 : Fin 8) b e) = _
    rw [v97_r6, tail6 m c hok]
  have h2 : (fun (b : Fin 4096) => (V m c main_v107 (ix3 (6 : Fin 8) (0 : Fin 1) b) : EReal))
      = fun b => Host.gather gather_S50001_S4096x1_S4096_n_0_n_n_0_1_1 (m ((c : Thread nD τ).loc main_arg15))
          (broadcastInDim S4096x1 ![0] bcast_S4096_S4096x1_0 (Cert.Cols.norm 50001#32 (Cert.Cols.bcol 6 (m ((c : Thread nD τ).loc main_arg0))))) (ix1 b) := by
    funext b
    show V0 m c (Proc.devRef .tc main_v107) (ix3 (6 : Fin 8) (0 : Fin 1) b) = _
    rw [v107_r6, bias6 m c hok]
  have h3 : (fun (e : Fin 100) => (V m c main_v117 (ix3 (6 : Fin 8) (0 : Fin 1) e) : EReal))
      = fun e => m ((c : Thread nD τ).loc main_arg8) (ix2 (6 : Fin 8) e) := by
    funext e
    exact v117_at m c 6 e
  have h4 : (fun (n : Fin 256) (e : Fin 100) => (V m c main_v116 (ix3 (6 : Fin 8) n e) : EReal))
      = fun n e => Host.gather gather_S50001x100_S256x1_S256x100_1_0_n_n_0_1_1100 (m ((c : Thread nD τ).loc main_arg7))
          (broadcastInDim S256x1 ![0] bcast_S256_S256x1_0 (Cert.Cols.norm 50001#32 (Cert.Cols.nrow 6 (m ((c : Thread nD τ).loc main_arg1))))) (ix2 n e) := by
    funext n e
    show V0 m c (Proc.devRef .tc main_v116) (ix3 (6 : Fin 8) n e) = _
    rw [v116_r6, neg6 m c hok]
  unfold relRow
  rw [h0, h1, h2, h3, h4]

end Cert.KernelIdeal.HostVal

end
-- ==== Proof.KIHost.Rel7.lean ====
import proofs.«400362_j8907762172017_2_alg».proof.Proof.KIHost.TakeLib
import proofs.«400362_j8907762172017_2_alg».proof.Proof.KIHost.Writes

set_option maxRecDepth 16384

noncomputable section

namespace Cert.KernelIdeal.HostVal

open Cert.KernelIdeal Cert.KernelIdeal.Gen Cert.KernelIdeal.Fr
open Idealize.ShloMosaic Idealize.ShloMosaic.TcCoe

variable {F : FTy → Type} [FloatOps F]
variable (m : (ℓ : Loc nD τ sig) → Buf (Elt F) ℓ)

theorem colsR7_a (X : Valuation τ sig (Elt F)) :
    StableHlo.after hostOps0_35 X (Proc.devRef .tc main_v71) = Cert.Cols.bcol 1 (X (Proc.devRef .tc main_arg0)) := by
  dsimp only [hostOps0_35]; after_results_simp; rfl
theorem colsR7_b (X : Valuation τ sig (Elt F)) :
    StableHlo.after hostOps0_35 X (Proc.devRef .tc main_v73) = Cert.Cols.bcol 7 (X (Proc.devRef .tc main_arg0)) := by
  dsimp only [hostOps0_35]; after_results_simp; rfl
theorem colsR7_n (X : Valuation τ sig (Elt F)) :
    StableHlo.after hostOps0_35 X (Proc.devRef .tc main_v75) = Cert.Cols.nrow 7 (X (Proc.devRef .tc main_arg1)) := by
  dsimp only [hostOps0_35]; after_results_simp; rfl

theorem valR7_head (X : Valuation τ sig (Elt F)) :
    StableHlo.after hostOps0_36 X (Proc.devRef .tc main_v76)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg3)) (X (Proc.devRef .tc main_v71)) := by
  dsimp only [hostOps0_36]; after_results_simp <;> (try simp only [StableHlo.TRef.ofBuf, StableHlo.TRef.toBuf, cast_eq]) <;> rfl
theorem valR7_tail (X : Valuation τ sig (Elt F)) :
    StableHlo.after hostOps0_37 X (Proc.devRef .tc main_v77)
      = takeB gather_S50001x100_S4096x1_S4096x100_1_0_n_n_0_1_1100 50001#32 50000#32
          (broadcastInDim S4096x100 ![] bcast_S_S4096x100 (constant (F := F) S_ .f32 0x7FC00000#32))
          (X (Proc.devRef .tc main_arg7)) (X (Proc.devRef .tc main_v73)) := by
  dsimp only [hostOps0_37]; after_results_simp <;> (try simp only [StableHlo.TRef.ofBuf, StableHlo.TRef.toBuf, cast_eq]) <;> rfl
theorem valR7_bias (X : Valuation τ sig (Elt F)) :
    StableHlo.after hostOps0_38 X (Proc.devRef .tc main_v78)
      = takeS gather_S50001_S4096x1_S4096_n_0_n_n_0_1_1 50001#32 50000#32
          (broadcastInDim S4096 ![] bcast_S_S4096 (constant (F := F) S_ .f32 0x7FC00000#32))
          (X (Proc.devRef .tc main_arg16)) (X (Proc.devRef .tc main_v73)) := by
  dsimp only [hostOps0_38]; after_results_simp <;> (try simp only [StableHlo.TRef.ofBuf, StableHlo.TRef.toBuf, cast_eq]) <;> rfl
theorem valR7_neg (X : Valuation τ sig (Elt F)) :
    StableHlo.after hostOps0_39 X (Proc.devRef .tc main_v79)
      = takeN gather_S50001x100_S256x1_S256x100_1_0_n_n_0_1_1100 50001#32 50000#32
          (broadcastInDim S256x100 ![] bcast_S_S256x100 (constant (F := F) S_ .f32 0x7FC00000#32))
          (X (Proc.devRef .tc main_arg7)) (X (Proc.devRef .tc main_v75)) := by
  dsimp only [hostOps0_39]; after_results_simp <;> (try simp only [StableHlo.TRef.ofBuf, StableHlo.TRef.toBuf, cast_eq]) <;> rfl

theorem head7 (c : Dev nD)
    (hok : Cert.Cols.IdxOK (m ((c : Thread nD τ).loc main_arg0)) (m ((c : Thread nD τ).loc main_arg1))) :
    V0 m c (Proc.devRef .tc main_v76)
      = Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) := by
  rw [V0_eq]
  keeps
  rw [St36, valR7_head]
  keeps
  rw [St35, colsR7_a]
  keeps
  exact takeB_eq _ _ _ (Cert.Cols.colRows 1 : Int) (by decide) _ _ _ (hok.1 1)

theorem tail7 (c : Dev nD)
    (hok : Cert.Cols.IdxOK (m ((c : Thread nD τ).loc main_arg0)) (m ((c : Thread nD τ).loc main_arg1))) :
    V0 m c (Proc.devRef .tc main_v77)
      = Host.gather gather_S50001x100_S4096x1_S4096x100_1_0_n_n_0_1_1100 (m ((c : Thread nD τ).loc main_arg7))
          (broadcastInDim S4096x1 ![0] bcast_S4096_S4096x1_0 (Cert.Cols.norm 50001#32 (Cert.Cols.bcol 7 (m ((c : Thread nD τ).loc main_arg0))))) := by
  rw [V0_eq]
  keeps
  rw [St37, valR7_tail]
  keeps
  rw [St35, colsR7_b]
  keeps
  exact takeB_eq _ _ _ (Cert.Cols.colRows 7 : Int) (by decide) _ _ _ (hok.1 7)

theorem bias7 (c : Dev nD)
    (hok : Cert.Cols.IdxOK (m ((c : Thread nD τ).loc main_arg0)) (m ((c : Thread nD τ).loc main_arg1))) :
    V0 m c (Proc.devRef .tc main_v78)
      = Host.gather gather_S50001_S4096x1_S4096_n_0_n_n_0_1_1 (m ((c : Thread nD τ).loc main_arg16))
          (broadcastInDim S4096x1 ![0] bcast_S4096_S4096x1_0 (Cert.Cols.norm 50001#32 (Cert.Cols.bcol 7 (m ((c : Thread nD τ).loc main_arg0))))) := by
  rw [V0_eq]
  keeps
  rw [St38, valR7_bias]
  keeps
  rw [St35, colsR7_b]
  keeps
  exact takeS_eq _ _ _ (Cert.Cols.colRows 7 : Int) (by decide) _ _ _ (hok.1 7)

theorem neg7 (c : Dev nD)
    (hok : Cert.Cols.IdxOK (m ((c : Thread nD τ).loc main_arg0)) (m ((c : Thread nD τ).loc main_arg1))) :
    V0 m c (Proc.devRef .tc main_v79)
      = Host.gather gather_S50001x100_S256x1_S256x100_1_0_n_n_0_1_1100 (m ((c : Thread nD τ).loc main_arg7))
          (broadcastInDim S256x1 ![0] bcast_S256_S256x1_0 (Cert.Cols.norm 50001#32 (Cert.Cols.nrow 7 (m ((c : Thread nD τ).loc main_arg1))))) := by
  rw [V0_eq]
  keeps
  rw [St39, valR7_neg]
  keeps
  rw [St35, colsR7_n]
  keeps
  exact takeN_eq _ _ _ (Cert.Cols.negRows 7 : Int) (by decide) _ _ _ (hok.2 7)

end Cert.KernelIdeal.HostVal

end
-- ==== Proof.KIHost.Row7.lean ====
import proofs.«400362_j8907762172017_2_alg».proof.Proof.KIHost.Rel7
import proofs.«400362_j8907762172017_2_alg».proof.Proof.KIHost.Stack
import proofs.«400362_j8907762172017_2_alg».proof.Proof.KITotals

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

theorem krow7 (c : Dev nD)
    (hok : Cert.Cols.IdxOK (m ((c : Thread nD τ).loc main_arg0)) (m ((c : Thread nD τ).loc main_arg1))) (b : Fin 4096) :
    relRow m c (7 : Fin 8) b
      = Cert.Spec.rowLoss
          (fun (b : Fin 4096) (e : Fin 100) => (Host.gather gather_S50001x100_S4096x1_S4096x100_1_0_n_n_0_1_1100 (m ((c : Thread nD τ).loc main_arg3))
              (broadcastInDim S4096x1 ![0] bcast_S4096_S4096x1_0 (Cert.Cols.norm 50001#32 (Cert.Cols.bcol 1 (m ((c : Thread nD τ).loc main_arg0))))) (ix2 b e) : EReal))
          (fun (b : Fin 4096) (e : Fin 100) => (Host.gather gather_S50001x100_S4096x1_S4096x100_1_0_n_n_0_1_1100 (m ((c : Thread nD τ).loc main_arg7))
              (broadcastInDim S4096x1 ![0] bcast_S4096_S4096x1_0 (Cert.Cols.norm 50001#32 (Cert.Cols.bcol 7 (m ((c : Thread nD τ).loc main_arg0))))) (ix2 b e) : EReal))
          (fun (e : Fin 100) => (m ((c : Thread nD τ).loc main_arg8) (ix2 (7 : Fin 8) e) : EReal))
          (fun (b : Fin 4096) => (Host.gather gather_S50001_S4096x1_S4096_n_0_n_n_0_1_1 (m ((c : Thread nD τ).loc main_arg16))
              (broadcastInDim S4096x1 ![0] bcast_S4096_S4096x1_0 (Cert.Cols.norm 50001#32 (Cert.Cols.bcol 7 (m ((c : Thread nD τ).loc main_arg0))))) (ix1 b) : EReal))
          (fun (n : Fin 256) (e : Fin 100) => (Host.gather gather_S50001x100_S256x1_S256x100_1_0_n_n_0_1_1100 (m ((c : Thread nD τ).loc main_arg7))
              (broadcastInDim S256x1 ![0] bcast_S256_S256x1_0 (Cert.Cols.norm 50001#32 (Cert.Cols.nrow 7 (m ((c : Thread nD τ).loc main_arg1))))) (ix2 n e) : EReal))
          b := by
  have h0 : (fun (b : Fin 4096) (e : Fin 100) => (V m c main_v88 (ix3 (7 : Fin 8) b e) : EReal))
      = fun b e => Host.gather gather_S50001x100_S4096x1_S4096x100_1_0_n_n_0_1_1100 (m ((c : Thread nD τ).loc main_arg3))
          (broadcastInDim S4096x1 ![0] bcast_S4096_S4096x1_0 (Cert.Cols.norm 50001#32 (Cert.Cols.bcol 1 (m ((c : Thread nD τ).loc main_arg0))))) (ix2 b e) := by
    funext b e
    show V0 m c (Proc.devRef .tc main_v88) (ix3 (7 : Fin 8) b e) = _
    rw [v88_r7, head7 m c hok]
  have h1 : (fun (b : Fin 4096) (e : Fin 100) => (V m c main_v97 (ix3 (7 : Fin 8) b e) : EReal))
      = fun b e => Host.gather gather_S50001x100_S4096x1_S4096x100_1_0_n_n_0_1_1100 (m ((c : Thread nD τ).loc main_arg7))
          (broadcastInDim S4096x1 ![0] bcast_S4096_S4096x1_0 (Cert.Cols.norm 50001#32 (Cert.Cols.bcol 7 (m ((c : Thread nD τ).loc main_arg0))))) (ix2 b e) := by
    funext b e
    show V0 m c (Proc.devRef .tc main_v97) (ix3 (7 : Fin 8) b e) = _
    rw [v97_r7, tail7 m c hok]
  have h2 : (fun (b : Fin 4096) => (V m c main_v107 (ix3 (7 : Fin 8) (0 : Fin 1) b) : EReal))
      = fun b => Host.gather gather_S50001_S4096x1_S4096_n_0_n_n_0_1_1 (m ((c : Thread nD τ).loc main_arg16))
          (broadcastInDim S4096x1 ![0] bcast_S4096_S4096x1_0 (Cert.Cols.norm 50001#32 (Cert.Cols.bcol 7 (m ((c : Thread nD τ).loc main_arg0))))) (ix1 b) := by
    funext b
    show V0 m c (Proc.devRef .tc main_v107) (ix3 (7 : Fin 8) (0 : Fin 1) b) = _
    rw [v107_r7, bias7 m c hok]
  have h3 : (fun (e : Fin 100) => (V m c main_v117 (ix3 (7 : Fin 8) (0 : Fin 1) e) : EReal))
      = fun e => m ((c : Thread nD τ).loc main_arg8) (ix2 (7 : Fin 8) e) := by
    funext e
    exact v117_at m c 7 e
  have h4 : (fun (n : Fin 256) (e : Fin 100) => (V m c main_v116 (ix3 (7 : Fin 8) n e) : EReal))
      = fun n e => Host.gather gather_S50001x100_S256x1_S256x100_1_0_n_n_0_1_1100 (m ((c : Thread nD τ).loc main_arg7))
          (broadcastInDim S256x1 ![0] bcast_S256_S256x1_0 (Cert.Cols.norm 50001#32 (Cert.Cols.nrow 7 (m ((c : Thread nD τ).loc main_arg1))))) (ix2 n e) := by
    funext n e
    show V0 m c (Proc.devRef .tc main_v116) (ix3 (7 : Fin 8) n e) = _
    rw [v116_r7, neg7 m c hok]
  unfold relRow
  rw [h0, h1, h2, h3, h4]

end Cert.KernelIdeal.HostVal

end
-- ==== Proof.RI.Peel.lean ====
import proofs.«400362_j8907762172017_2_alg».proof.Proof.RI.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A relation's block leaves alone every reference it does not write (stated so that it rewrites under any later block). -/
theorem keptRel_0' (W : Valuation τ sig (Elt F)) {x : Ref sig .tc} (h : x ∉ W_0) :
    after (no_index opsRel_0) W (no_index (Proc.devRef .tc x)) = W (Proc.devRef .tc x) :=
  after_of_writes_sub opsRel_0 W writes_0 h
theorem keptRel_1' (W : Valuation τ sig (Elt F)) {x : Ref sig .tc} (h : x ∉ W_1) :
    after (no_index opsRel_1) W (no_index (Proc.devRef .tc x)) = W (Proc.devRef .tc x) :=
  after_of_writes_sub opsRel_1 W writes_1 h
theorem keptRel_2' (W : Valuation τ sig (Elt F)) {x : Ref sig .tc} (h : x ∉ W_2) :
    after (no_index opsRel_2) W (no_index (Proc.devRef .tc x)) = W (Proc.devRef .tc x) :=
  after_of_writes_sub opsRel_2 W writes_2 h
theorem keptRel_3' (W : Valuation τ sig (Elt F)) {x : Ref sig .tc} (h : x ∉ W_3) :
    after (no_index opsRel_3) W (no_index (Proc.devRef .tc x)) = W (Proc.devRef .tc x) :=
  after_of_writes_sub opsRel_3 W writes_3 h
theorem keptRel_4' (W : Valuation τ sig (Elt F)) {x : Ref sig .tc} (h : x ∉ W_4) :
    after (no_index opsRel_4) W (no_index (Proc.devRef .tc x)) = W (Proc.devRef .tc x) :=
  after_of_writes_sub opsRel_4 W writes_4 h
theorem keptRel_5' (W : Valuation τ sig (Elt F)) {x : Ref sig .tc} (h : x ∉ W_5) :
    after (no_index opsRel_5) W (no_index (Proc.devRef .tc x)) = W (Proc.devRef .tc x) :=
  after_of_writes_sub opsRel_5 W writes_5 h
theorem keptRel_6' (W : Valuation τ sig (Elt F)) {x : Ref sig .tc} (h : x ∉ W_6) :
    after (no_index opsRel_6) W (no_index (Proc.devRef .tc x)) = W (Proc.devRef .tc x) :=
  after_of_writes_sub opsRel_6 W writes_6 h
theorem keptRel_7' (W : Valuation τ sig (Elt F)) {x : Ref sig .tc} (h : x ∉ W_7) :
    after (no_index opsRel_7) W (no_index (Proc.devRef .tc x)) = W (Proc.devRef .tc x) :=
  after_of_writes_sub opsRel_7 W writes_7 h

macro "kept_blocks" : tactic =>
  `(tactic| (simp (disch := decide) only [keptRel_0', keptRel_1', keptRel_2', keptRel_3', keptRel_4', keptRel_5',
      keptRel_6', keptRel_7']))

/-- The whole fold is the eight relations' folds, one after the other. -/
theorem after_ops (V : Valuation τ sig (Elt F)) :
    after ops V = after opsRel_7 (after opsRel_6 (after opsRel_5 (after opsRel_4 (after opsRel_3 (after opsRel_2
      (after opsRel_1 (after opsRel_0 V))))))) := by
  simp only [ops, StableHlo.after_append]

end Cert.ReferenceIdeal.Hand

end
-- ==== Proof.RI.TailF.lean ====
import proofs.«400362_j8907762172017_2_alg».proof.Proof.Gen.ReferenceIdeal
import proofs.«400362_j8907762172017_2_alg».proof.Proof.Spec
import proofs.«400362_j8907762172017_2_alg».proof.Proof.Cols
import Idealize.ShloMosaic.Lib.IdealHost
import Idealize.ShloMosaic.Lib.ValueLayout
import Idealize.ShloMosaic.Lib.ValueIdxRank1

noncomputable section

namespace Cert.ReferenceIdeal.Hand

open Cert.ReferenceIdeal Cert.ReferenceIdeal.Gen Idealize.ShloMosaic Idealize.ShloMosaic.ValueIdx
open scoped BigOperators

theorem hostLog1p_apply {s : Shape} {φ : FTy} (a : FVec Ideal s φ) (i : s.Idx) : Host.log1p a i = Ideal.log1p (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostAbsf_apply {s : Shape} {φ : FTy} (a : FVec Ideal s φ) (i : s.Idx) : Host.absf a i = max (a i) (-(a i)) := rfl

theorem cmpf_une_self {φ : FTy} (a : Ideal φ) : FloatOps.cmpf .une a a = 0#1 := by
  show Ideal.cmp .une a a = 0#1
  simp [Ideal.cmp]

/-- The reference's guarded softplus on an array. -/
def spT {s : Shape} (h : S_.BroadcastsInDim s ![]) (x : FVec Ideal s .f32) : FVec Ideal s .f32 :=
  select (cmpf .une (subf x (broadcastInDim s ![] h (constant S_ .f32 0x00000000#32))) (subf x (broadcastInDim s ![] h (constant S_ .f32 0x00000000#32))))
    (addf x (broadcastInDim s ![] h (constant S_ .f32 0x00000000#32)))
    (addf (maximumf x (broadcastInDim s ![] h (constant S_ .f32 0x00000000#32))) (Host.log1p (Host.exp (Host.negf (Host.absf (subf x (broadcastInDim s ![] h (constant S_ .f32 0x00000000#32))))))))

theorem spT_apply {s : Shape} (h : S_.BroadcastsInDim s ![]) (x : FVec Ideal s .f32) (j : s.Idx) :
    spT h x j = Cert.Spec.sp (x j) := by
  unfold spT
  simp only [select_apply, cmpf_apply, subf_apply, addf_apply, maximumf_apply, broadcastInDim_scalar_apply, constant_apply,
    Ideal.ofBits_zero_f32, hostLog1p_apply, hostExp_apply, hostNegf_apply, hostAbsf_apply, sub_zero, cmpf_une_self, select_zero]
  rfl

theorem reduceRow100_apply (x : FVec Ideal S4096x100 .f32) (c : FVec Ideal S_ .f32) (b : Fin 4096) :
    Host.reduceAdd x c reducesTo_S4096x100_S4096_d1 h_S_ (ix1 b) = c ix0 + ∑ e : Fin 100, x (ix2 b e) := by
  have h : S4096x100.Reduces [1] S4096 := by decide
  rw [hostReduceAdd_apply, Ideal.hostReduceAdd_single reducesTo_S4096x100_S4096_d1 h]
  refine congrArg₂ (· + ·) (congrArg c (eq_ix0 _)) ?_
  show ∑ e : Fin 100, x (h.lift (ix1 b) e) = _
  exact Finset.sum_congr rfl fun e _ => congrArg x (Shape.idx_ext₂ rfl rfl)

theorem reduceRow256_apply (x : FVec Ideal S4096x256 .f32) (c : FVec Ideal S_ .f32) (b : Fin 4096) :
    Host.reduceAdd x c reducesTo_S4096x256_S4096_d1 h_S_ (ix1 b) = c ix0 + ∑ n : Fin 256, x (ix2 b n) := by
  have h : S4096x256.Reduces [1] S4096 := by decide
  rw [hostReduceAdd_apply, Ideal.hostReduceAdd_single reducesTo_S4096x256_S4096_d1 h]
  refine congrArg₂ (· + ·) (congrArg c (eq_ix0 _)) ?_
  show ∑ n : Fin 256, x (h.lift (ix1 b) n) = _
  exact Finset.sum_congr rfl fun n _ => congrArg x (Shape.idx_ext₂ rfl rfl)

theorem reduceAll_apply (x : FVec Ideal S4096 .f32) (c : FVec Ideal S_ .f32) (j : S_.Idx) :
    Host.reduceAdd x c reducesTo_S4096_S_d0 h_S_ j = c ix0 + ∑ b : Fin 4096, x (ix1 b) := by
  rw [hostReduceAdd_apply, Ideal.hostReduceAdd_total reducesTo_S4096_S_d0 (fun b => b.elim0)]
  refine congrArg₂ (· + ·) (congrArg c (eq_ix0 _)) ?_
  exact (Equiv.sum_comp (idxEquiv1 (n := 4096)).symm x).symm

abbrev dotD : DotDims S4096x100 S256x100 S4096x256 := dot_S4096x100_S256x100_S4096x256_1_1_0_0_n_n

theorem lhs_dotD_0 (j : S4096x256.Idx) (k : dotD.contr.Idx) : (dotD.lhsIdx j k 0 : ℕ) = j 0 := by
  simp [DotDims.lhsIdx, dotD, dot_S4096x100_S256x100_S4096x256_1_1_0_0_n_n]; rfl
theorem lhs_dotD_1 (j : S4096x256.Idx) (k : dotD.contr.Idx) : (dotD.lhsIdx j k 1 : ℕ) = k ⟨0, by decide⟩ := by
  simp [DotDims.lhsIdx, dotD, dot_S4096x100_S256x100_S4096x256_1_1_0_0_n_n]; rfl
theorem rhs_dotD_0 (j : S4096x256.Idx) (k : dotD.contr.Idx) : (dotD.rhsIdx j k 0 : ℕ) = j 1 := by
  simp [DotDims.rhsIdx, dotD, dot_S4096x100_S256x100_S4096x256_1_1_0_0_n_n]; rfl
theorem rhs_dotD_1 (j : S4096x256.Idx) (k : dotD.contr.Idx) : (dotD.rhsIdx j k 1 : ℕ) = k ⟨0, by decide⟩ := by
  simp [DotDims.rhsIdx, dotD, dot_S4096x100_S256x100_S4096x256_1_1_0_0_n_n]; rfl

theorem dot_apply (l : FVec Ideal S4096x100 .f32) (r : FVec Ideal S256x100 .f32) (b : Fin 4096) (n : Fin 256) :
    Host.dotGeneral dot_S4096x100_S256x100_S4096x256_1_1_0_0_n_n none l r (ix2 b n) = ∑ e : Fin 100, l (ix2 b e) * r (ix2 n e) := by
  show FloatOps.dotGeneral dotD none _ l r (ix2 b n) = _
  rw [Ideal.dotGeneral_apply, ← Equiv.sum_comp (contrEquiv1 dotD 100 rfl rfl).symm]
  refine Finset.sum_congr rfl fun e _ => ?_
  have hk := contrEquiv1_symm_val dotD 100 rfl rfl e
  refine congrArg₂ (· * ·) (congrArg l (Shape.idx_ext₂ ?_ ?_)) (congrArg r (Shape.idx_ext₂ ?_ ?_))
  · exact lhs_dotD_0 _ _
  · exact (lhs_dotD_1 _ _).trans hk
  · exact rhs_dotD_0 _ _
  · exact (rhs_dotD_1 _ _).trans hk

def rowB (rv : FVec Ideal S100 .f32) : FVec Ideal S4096x100 .f32 :=
  broadcastInDim S4096x100 ![0, 1] bcast_S1x100_S4096x100_0_1 (broadcastInDim S1x100 ![1] bcast_S100_S1x100_1 rv)

theorem rowB_apply (rv : FVec Ideal S100 .f32) (b : Fin 4096) (e : Fin 100) : rowB rv (ix2 b e) = rv (ix1 e) := by
  unfold rowB
  rw [broadcastInDim_apply ![0, 1] bcast_S1x100_S4096x100_0_1 _ (ix2 b e) (ix2 (0 : Fin 1) e)
        (fun a => match a with | ⟨0, _⟩ => rfl | ⟨1, _⟩ => rfl),
      broadcastInDim_apply ![1] bcast_S100_S1x100_1 rv (ix2 (0 : Fin 1) e) (ix1 e) (fun a => match a with | ⟨0, _⟩ => rfl)]

def colB (bi : FVec Ideal S4096 .f32) : FVec Ideal S4096x256 .f32 :=
  broadcastInDim S4096x256 ![0, 1] bcast_S4096x1_S4096x256_0_1 (broadcastInDim S4096x1 ![0] bcast_S4096_S4096x1_0 bi)

theorem colB_apply (bi : FVec Ideal S4096 .f32) (b : Fin 4096) (n : Fin 256) : colB bi (ix2 b n) = bi (ix1 b) := by
  unfold colB
  rw [broadcastInDim_apply ![0, 1] bcast_S4096x1_S4096x256_0_1 _ (ix2 b n) (ix2 b (0 : Fin 1))
        (fun a => match a with | ⟨0, _⟩ => rfl | ⟨1, _⟩ => rfl),
      broadcastInDim_apply ![0] bcast_S4096_S4096x1_0 bi (ix2 b (0 : Fin 1)) (ix1 b) (fun a => match a with | ⟨0, _⟩ => rfl)]

theorem norm_prog {s : Shape} (h : S_.BroadcastsInDim s ![]) (n : BitVec 32) (x : IVec s 32) :
    select (cmpi .slt x (broadcastInDim s ![] h (constantI S_ 32 0#32))) (addi x (broadcastInDim s ![] h (constantI S_ 32 n))) x
      = Cert.Cols.norm n x := by
  funext i; rfl

theorem relRow_apply (a8 : FVec Ideal S8x100 .f32) (r : Fin 8) (h : S8x100.Slices ![r.val, 0] S1x100)
    (h' : S1x100.ShapeCasts S100) (e : Fin 100) :
    shapeCast S100 (extractStridedSlice S1x100 ![r.val, 0] a8 h) h' (ix1 e) = a8 (ix2 r e) := by
  rw [shapeCast_1a_a_apply, slice2_axis0_apply r.val a8 h 0 e r (by simp)]

def exT (hv : FVec Ideal S4096x100 .f32) (rv : FVec Ideal S100 .f32) : FVec Ideal S4096x100 .f32 :=
  addf hv (rowB rv)

/-- One relation's mean loss as the reference computes it from gathered rows. -/
def relT (hv tv : FVec Ideal S4096x100 .f32) (rv : FVec Ideal S100 .f32) (bi : FVec Ideal S4096 .f32)
    (nv : FVec Ideal S256x100 .f32) : FVec Ideal S_ .f32 :=
  Host.divf
    (Host.reduceAdd
      (addf
        (Host.negf (Host.negf (spT bcast_S_S4096 (Host.negf
          (addf (Host.reduceAdd (mulf (exT hv rv) tv) (constant S_ .f32 0x00000000#32) reducesTo_S4096x100_S4096_d1 h_S_) bi)))))
        (Host.negf (Host.reduceAdd
          (Host.negf (spT bcast_S_S4096x256 (Host.negf (Host.negf
            (addf (Host.dotGeneral dot_S4096x100_S256x100_S4096x256_1_1_0_0_n_n none (exT hv rv) nv)
              (colB bi))))))
          (constant S_ .f32 0x00000000#32) reducesTo_S4096x256_S4096_d1 h_S_)))
      (constant S_ .f32 0x00000000#32) reducesTo_S4096_S_d0 h_S_)
    (constant S_ .f32 0x45800000#32)

/-- It is the sum of the 4096 row losses divided by 4096. -/
theorem relT_val (hv tv : FVec Ideal S4096x100 .f32) (rv : FVec Ideal S100 .f32) (bi : FVec Ideal S4096 .f32)
    (nv : FVec Ideal S256x100 .f32) :
    relT hv tv rv bi nv = fun _ => Ideal.div
      (∑ b : Fin 4096, Cert.Spec.rowLoss (fun b e => hv (ix2 b e)) (fun b e => tv (ix2 b e)) (fun e => rv (ix1 e))
        (fun b => bi (ix1 b)) (fun n e => nv (ix2 n e)) b)
      (Ideal.ofBits .f32 0x45800000#32) := by
  funext j
  unfold relT exT
  simp only [hostDivf_apply, constant_apply, reduceAll_apply, addf_apply, hostNegf_apply, spT_apply, reduceRow100_apply,
    reduceRow256_apply, mulf_apply, dot_apply, rowB_apply, colB_apply, Ideal.ofBits_zero_f32, zero_add, neg_neg]
  rfl

end Cert.ReferenceIdeal.Hand
-- ==== Proof.RI.Rel0.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.ValueIdx Idealize.ShloMosaic.StableHlo Idealize.SL.Sem
open scoped BigOperators

attribute [local irreducible] Host.gather Host.reduceAdd in
set_option maxHeartbeats 4000000 in
theorem rel0_term (W : Valuation τ sig (Elt Ideal)) :
    StableHlo.after opsRel_0 W (Proc.devRef .tc main_v55)
      = addf (constant S_ .f32 0x00000000#32)
          (relT
            (Host.gather gather_S30001x100_S4096x1_S4096x100_1_0_n_n_0_1_1100 (W (Proc.devRef .tc main_arg2))
              (broadcastInDim S4096x1 ![0] bcast_S4096_S4096x1_0 (Cert.Cols.norm 30001#32 (Cert.Cols.bcol 0 (W (Proc.devRef .tc main_arg0))))))
            (Host.gather gather_S50001x100_S4096x1_S4096x100_1_0_n_n_0_1_1100 (W (Proc.devRef .tc main_arg3))
              (broadcastInDim S4096x1 ![0] bcast_S4096_S4096x1_0 (Cert.Cols.norm 50001#32 (Cert.Cols.bcol 1 (W (Proc.devRef .tc main_arg0))))))
            (shapeCast S100 (extractStridedSlice S1x100 ![0, 0] (W (Proc.devRef .tc main_arg8)) slices_S8x100_S1x100_0_0) shapeCasts_S1x100_S100)
            (Host.gather gather_S50001_S4096x1_S4096_n_0_n_n_0_1_1 (W (Proc.devRef .tc main_arg9))
              (broadcastInDim S4096x1 ![0] bcast_S4096_S4096x1_0 (Cert.Cols.norm 50001#32 (Cert.Cols.bcol 1 (W (Proc.devRef .tc main_arg0))))))
            (Host.gather gather_S50001x100_S256x1_S256x100_1_0_n_n_0_1_1100 (W (Proc.devRef .tc main_arg3))
              (broadcastInDim S256x1 ![0] bcast_S256_S256x1_0 (Cert.Cols.norm 50001#32 (Cert.Cols.nrow 0 (W (Proc.devRef .tc main_arg1))))))) := by
  after_results_simp
  rfl

theorem rel0_val (W : Valuation τ sig (Elt Ideal)) :
    StableHlo.after opsRel_0 W (Proc.devRef .tc main_v55)
      = fun _ => (0 : EReal) + Ideal.div
          (∑ b : Fin 4096, Cert.Spec.rowLoss
            (fun b e => Host.gather gather_S30001x100_S4096x1_S4096x100_1_0_n_n_0_1_1100 (W (Proc.devRef .tc main_arg2))
              (broadcastInDim S4096x1 ![0] bcast_S4096_S4096x1_0 (Cert.Cols.norm 30001#32 (Cert.Cols.bcol 0 (W (Proc.devRef .tc main_arg0))))) (ix2 b e))
            (fun b e => Host.gather gather_S50001x100_S4096x1_S4096x100_1_0_n_n_0_1_1100 (W (Proc.devRef .tc main_arg3))
              (broadcastInDim S4096x1 ![0] bcast_S4096_S4096x1_0 (Cert.Cols.norm 50001#32 (Cert.Cols.bcol 1 (W (Proc.devRef .tc main_arg0))))) (ix2 b e))
            (fun e => W (Proc.devRef .tc main_arg8) (ix2 0 e))
            (fun b => Host.gather gather_S50001_S4096x1_S4096_n_0_n_n_0_1_1 (W (Proc.devRef .tc main_arg9))
              (broadcastInDim S4096x1 ![0] bcast_S4096_S4096x1_0 (Cert.Cols.norm 50001#32 (Cert.Cols.bcol 1 (W (Proc.devRef .tc main_arg0))))) (ix1 b))
            (fun n e => Host.gather gather_S50001x100_S256x1_S256x100_1_0_n_n_0_1_1100 (W (Proc.devRef .tc main_arg3))
              (broadcastInDim S256x1 ![0] bcast_S256_S256x1_0 (Cert.Cols.norm 50001#32 (Cert.Cols.nrow 0 (W (Proc.devRef .tc main_arg1))))) (ix2 n e))
            b)
          (Ideal.ofBits .f32 0x45800000#32) := by
  rw [rel0_term, relT_val]
  funext j
  rw [addf_apply, constant_apply, Ideal.ofBits_zero_f32]
  have hrv : (fun e : Fin 100 => shapeCast S100 (extractStridedSlice S1x100 ![0, 0] (W (Proc.devRef .tc main_arg8)) slices_S8x100_S1x100_0_0)
      shapeCasts_S1x100_S100 (ix1 e)) = fun e => W (Proc.devRef .tc main_arg8) (ix2 0 e) :=
    funext fun e => relRow_apply (W (Proc.devRef .tc main_arg8)) 0 slices_S8x100_S1x100_0_0 shapeCasts_S1x100_S100 e
  rw [hrv]

end Cert.ReferenceIdeal.Hand
-- ==== Proof.RI.Rel1.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.ValueIdx Idealize.ShloMosaic.StableHlo Idealize.SL.Sem
open scoped BigOperators

attribute [local irreducible] Host.gather Host.reduceAdd in
set_option maxHeartbeats 4000000 in
theorem rel1_term (W : Valuation τ sig (Elt Ideal)) :
    StableHlo.after opsRel_1 W (Proc.devRef .tc main_v111)
      = addf (W (Proc.devRef .tc main_v55))
          (relT
            (Host.gather gather_S30001x100_S4096x1_S4096x100_1_0_n_n_0_1_1100 (W (Proc.devRef .tc main_arg2))
              (broadcastInDim S4096x1 ![0] bcast_S4096_S4096x1_0 (Cert.Cols.norm 30001#32 (Cert.Cols.bcol 0 (W (Proc.devRef .tc main_arg0))))))
            (Host.gather gather_S100001x100_S4096x1_S4096x100_1_0_n_n_0_1_1100 (W (Proc.devRef .tc main_arg4))
              (broadcastInDim S4096x1 ![0] bcast_S4096_S4096x1_0 (Cert.Cols.norm 100001#32 (Cert.Cols.bcol 2 (W (Proc.devRef .tc main_arg0))))))
            (shapeCast S100 (extractStridedSlice S1x100 ![1, 0] (W (Proc.devRef .tc main_arg8)) slices_S8x100_S1x100_1_0) shapeCasts_S1x100_S100)
            (Host.gather gather_S100001_S4096x1_S4096_n_0_n_n_0_1_1 (W (Proc.devRef .tc main_arg10))
              (broadcastInDim S4096x1 ![0] bcast_S4096_S4096x1_0 (Cert.Cols.norm 100001#32 (Cert.Cols.bcol 2 (W (Proc.devRef .tc main_arg0))))))
            (Host.gather gather_S100001x100_S256x1_S256x100_1_0_n_n_0_1_1100 (W (Proc.devRef .tc main_arg4))
              (broadcastInDim S256x1 ![0] bcast_S256_S256x1_0 (Cert.Cols.norm 100001#32 (Cert.Cols.nrow 1 (W (Proc.devRef .tc main_arg1))))))) := by
  after_results_simp
  rfl

theorem rel1_val (W : Valuation τ sig (Elt Ideal)) :
    StableHlo.after opsRel_1 W (Proc.devRef .tc main_v111)
      = fun _ => HAdd.hAdd (α := EReal) (β := EReal) (γ := EReal) (W (Proc.devRef .tc main_v55) ix0) (Ideal.div
          (∑ b : Fin 4096, Cert.Spec.rowLoss
            (fun b e => Host.gather gather_S30001x100_S4096x1_S4096x100_1_0_n_n_0_1_1100 (W (Proc.devRef .tc main_arg2))
              (broadcastInDim S4096x1 ![0] bcast_S4096_S4096x1_0 (Cert.Cols.norm 30001#32 (Cert.Cols.bcol 0 (W (Proc.devRef .tc main_arg0))))) (ix2 b e))
            (fun b e => Host.gather gather_S100001x100_S4096x1_S4096x100_1_0_n_n_0_1_1100 (W (Proc.devRef .tc main_arg4))
              (broadcastInDim S4096x1 ![0] bcast_S4096_S4096x1_0 (Cert.Cols.norm 100001#32 (Cert.Cols.bcol 2 (W (Proc.devRef .tc main_arg0))))) (ix2 b e))
            (fun e => W (Proc.devRef .tc main_arg8) (ix2 1 e))
            (fun b => Host.gather gather_S100001_S4096x1_S4096_n_0_n_n_0_1_1 (W (Proc.devRef .tc main_arg10))
              (broadcastInDim S4096x1 ![0] bcast_S4096_S4096x1_0 (Cert.Cols.norm 100001#32 (Cert.Cols.bcol 2 (W (Proc.devRef .tc main_arg0))))) (ix1 b))
            (fun n e => Host.gather gather_S100001x100_S256x1_S256x100_1_0_n_n_0_1_1100 (W (Proc.devRef .tc main_arg4))
              (broadcastInDim S256x1 ![0] bcast_S256_S256x1_0 (Cert.Cols.norm 100001#32 (Cert.Cols.nrow 1 (W (Proc.devRef .tc main_arg1))))) (ix2 n e))
            b)
          (Ideal.ofBits .f32 0x45800000#32)) := by
  rw [rel1_term, relT_val]
  funext j
  rw [addf_apply, eq_ix0 j]
  have hrv : (fun e : Fin 100 => shapeCast S100 (extractStridedSlice S1x100 ![1, 0] (W (Proc.devRef .tc main_arg8)) slices_S8x100_S1x100_1_0)
      shapeCasts_S1x100_S100 (ix1 e)) = fun e => W (Proc.devRef .tc main_arg8) (ix2 1 e) :=
    funext fun e => relRow_apply (W (Proc.devRef .tc main_arg8)) 1 slices_S8x100_S1x100_1_0 shapeCasts_S1x100_S100 e
  rw [hrv]

end Cert.ReferenceIdeal.Hand
-- ==== Proof.RI.Rel2.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.ValueIdx Idealize.ShloMosaic.StableHlo Idealize.SL.Sem
open scoped BigOperators

attribute [local irreducible] Host.gather Host.reduceAdd in
set_option maxHeartbeats 4000000 in
theorem rel2_term (W : Valuation τ sig (Elt Ideal)) :
    StableHlo.after opsRel_2 W (Proc.devRef .tc main_v167)
      = addf (W (Proc.devRef .tc main_v111))
          (relT
            (Host.gather gather_S50001x100_S4096x1_S4096x100_1_0_n_n_0_1_1100 (W (Proc.devRef .tc main_arg3))
              (broadcastInDim S4096x1 ![0] bcast_S4096_S4096x1_0 (Cert.Cols.norm 50001#32 (Cert.Cols.bcol 1 (W (Proc.devRef .tc main_arg0))))))
            (Host.gather gather_S100001x100_S4096x1_S4096x100_1_0_n_n_0_1_1100 (W (Proc.devRef .tc main_arg4))
              (broadcastInDim S4096x1 ![0] bcast_S4096_S4096x1_0 (Cert.Cols.norm 100001#32 (Cert.Cols.bcol 2 (W (Proc.devRef .tc main_arg0))))))
            (shapeCast S100 (extractStridedSlice S1x100 ![2, 0] (W (Proc.devRef .tc main_arg8)) slices_S8x100_S1x100_2_0) shapeCasts_S1x100_S100)
            (Host.gather gather_S100001_S4096x1_S4096_n_0_n_n_0_1_1 (W (Proc.devRef .tc main_arg11))
              (broadcastInDim S4096x1 ![0] bcast_S4096_S4096x1_0 (Cert.Cols.norm 100001#32 (Cert.Cols.bcol 2 (W (Proc.devRef .tc main_arg0))))))
            (Host.gather gather_S100001x100_S256x1_S256x100_1_0_n_n_0_1_1100 (W (Proc.devRef .tc main_arg4))
              (broadcastInDim S256x1 ![0] bcast_S256_S256x1_0 (Cert.Cols.norm 100001#32 (Cert.Cols.nrow 2 (W (Proc.devRef .tc main_arg1))))))) := by
  after_results_simp
  rfl

theorem rel2_val (W : Valuation τ sig (Elt Ideal)) :
    StableHlo.after opsRel_2 W (Proc.devRef .tc main_v167)
      = fun _ => HAdd.hAdd (α := EReal) (β := EReal) (γ := EReal) (W (Proc.devRef .tc main_v111) ix0) (Ideal.div
          (∑ b : Fin 4096, Cert.Spec.rowLoss
            (fun b e => Host.gather gather_S50001x100_S4096x1_S4096x100_1_0_n_n_0_1_1100 (W (Proc.devRef .tc main_arg3))
              (broadcastInDim S4096x1 ![0] bcast_S4096_S4096x1_0 (Cert.Cols.norm 50001#32 (Cert.Cols.bcol 1 (W (Proc.devRef .tc main_arg0))))) (ix2 b e))
            (fun b e => Host.gather gather_S100001x100_S4096x1_S4096x100_1_0_n_n_0_1_1100 (W (Proc.devRef .tc main_arg4))
              (broadcastInDim S4096x1 ![0] bcast_S4096_S4096x1_0 (Cert.Cols.norm 100001#32 (Cert.Cols.bcol 2 (W (Proc.devRef .tc main_arg0))))) (ix2 b e))
            (fun e => W (Proc.devRef .tc main_arg8) (ix2 2 e))
            (fun b => Host.gather gather_S100001_S4096x1_S4096_n_0_n_n_0_1_1 (W (Proc.devRef .tc main_arg11))
              (broadcastInDim S4096x1 ![0] bcast_S4096_S4096x1_0 (Cert.Cols.norm 100001#32 (Cert.Cols.bcol 2 (W (Proc.devRef .tc main_arg0))))) (ix1 b))
            (fun n e => Host.gather gather_S100001x100_S256x1_S256x100_1_0_n_n_0_1_1100 (W (Proc.devRef .tc main_arg4))
              (broadcastInDim S256x1 ![0] bcast_S256_S256x1_0 (Cert.Cols.norm 100001#32 (Cert.Cols.nrow 2 (W (Proc.devRef .tc main_arg1))))) (ix2 n e))
            b)
          (Ideal.ofBits .f32 0x45800000#32)) := by
  rw [rel2_term, relT_val]
  funext j
  rw [addf_apply, eq_ix0 j]
  have hrv : (fun e : Fin 100 => shapeCast S100 (extractStridedSlice S1x100 ![2, 0] (W (Proc.devRef .tc main_arg8)) slices_S8x100_S1x100_2_0)
      shapeCasts_S1x100_S100 (ix1 e)) = fun e => W (Proc.devRef .tc main_arg8) (ix2 2 e) :=
    funext fun e => relRow_apply (W (Proc.devRef .tc main_arg8)) 2 slices_S8x100_S1x100_2_0 shapeCasts_S1x100_S100 e
  rw [hrv]

end Cert.ReferenceIdeal.Hand
-- ==== Proof.RI.Rel3.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.ValueIdx Idealize.ShloMosaic.StableHlo Idealize.SL.Sem
open scoped BigOperators

attribute [local irreducible] Host.gather Host.reduceAdd in
set_option maxHeartbeats 4000000 in
theorem rel3_term (W : Valuation τ sig (Elt Ideal)) :
    StableHlo.after opsRel_3 W (Proc.devRef .tc main_v223)
      = addf (W (Proc.devRef .tc main_v167))
          (relT
            (Host.gather gather_S50001x100_S4096x1_S4096x100_1_0_n_n_0_1_1100 (W (Proc.devRef .tc main_arg3))
              (broadcastInDim S4096x1 ![0] bcast_S4096_S4096x1_0 (Cert.Cols.norm 50001#32 (Cert.Cols.bcol 1 (W (Proc.devRef .tc main_arg0))))))
            (Host.gather gather_S5001x100_S4096x1_S4096x100_1_0_n_n_0_1_1100 (W (Proc.devRef .tc main_arg5))
              (broadcastInDim S4096x1 ![0] bcast_S4096_S4096x1_0 (Cert.Cols.norm 5001#32 (Cert.Cols.bcol 3 (W (Proc.devRef .tc main_arg0))))))
            (shapeCast S100 (extractStridedSlice S1x100 ![3, 0] (W (Proc.devRef .tc main_arg8)) slices_S8x100_S1x100_3_0) shapeCasts_S1x100_S100)
            (Host.gather gather_S5001_S4096x1_S4096_n_0_n_n_0_1_1 (W (Proc.devRef .tc main_arg12))
              (broadcastInDim S4096x1 ![0] bcast_S4096_S4096x1_0 (Cert.Cols.norm 5001#32 (Cert.Cols.bcol 3 (W (Proc.devRef .tc main_arg0))))))
            (Host.gather gather_S5001x100_S256x1_S256x100_1_0_n_n_0_1_1100 (W (Proc.devRef .tc main_arg5))
              (broadcastInDim S256x1 ![0] bcast_S256_S256x1_0 (Cert.Cols.norm 5001#32 (Cert.Cols.nrow 3 (W (Proc.devRef .tc main_arg1))))))) := by
  after_results_simp
  rfl

theorem rel3_val (W : Valuation τ sig (Elt Ideal)) :
    StableHlo.after opsRel_3 W (Proc.devRef .tc main_v223)
      = fun _ => HAdd.hAdd (α := EReal) (β := EReal) (γ := EReal) (W (Proc.devRef .tc main_v167) ix0) (Ideal.div
          (∑ b : Fin 4096, Cert.Spec.rowLoss
            (fun b e => Host.gather gather_S50001x100_S4096x1_S4096x100_1_0_n_n_0_1_1100 (W (Proc.devRef .tc main_arg3))
              (broadcastInDim S4096x1 ![0] bcast_S4096_S4096x1_0 (Cert.Cols.norm 50001#32 (Cert.Cols.bcol 1 (W (Proc.devRef .tc main_arg0))))) (ix2 b e))
            (fun b e => Host.gather gather_S5001x100_S4096x1_S4096x100_1_0_n_n_0_1_1100 (W (Proc.devRef .tc main_arg5))
              (broadcastInDim S4096x1 ![0] bcast_S4096_S4096x1_0 (Cert.Cols.norm 5001#32 (Cert.Cols.bcol 3 (W (Proc.devRef .tc main_arg0))))) (ix2 b e))
            (fun e => W (Proc.devRef .tc main_arg8) (ix2 3 e))
            (fun b => Host.gather gather_S5001_S4096x1_S4096_n_0_n_n_0_1_1 (W (Proc.devRef .tc main_arg12))
              (broadcastInDim S4096x1 ![0] bcast_S4096_S4096x1_0 (Cert.Cols.norm 5001#32 (Cert.Cols.bcol 3 (W (Proc.devRef .tc main_arg0))))) (ix1 b))
            (fun n e => Host.gather gather_S5001x100_S256x1_S256x100_1_0_n_n_0_1_1100 (W (Proc.devRef .tc main_arg5))
              (broadcastInDim S256x1 ![0] bcast_S256_S256x1_0 (Cert.Cols.norm 5001#32 (Cert.Cols.nrow 3 (W (Proc.devRef .tc main_arg1))))) (ix2 n e))
            b)
          (Ideal.ofBits .f32 0x45800000#32)) := by
  rw [rel3_term, relT_val]
  funext j
  rw [addf_apply, eq_ix0 j]
  have hrv : (fun e : Fin 100 => shapeCast S100 (extractStridedSlice S1x100 ![3, 0] (W (Proc.devRef .tc main_arg8)) slices_S8x100_S1x100_3_0)
      shapeCasts_S1x100_S100 (ix1 e)) = fun e => W (Proc.devRef .tc main_arg8) (ix2 3 e) :=
    funext fun e => relRow_apply (W (Proc.devRef .tc main_arg8)) 3 slices_S8x100_S1x100_3_0 shapeCasts_S1x100_S100 e
  rw [hrv]

end Cert.ReferenceIdeal.Hand
-- ==== Proof.RI.Rel4.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

section R4
variable (W : Valuation τ sig (Elt Ideal))

theorem rv4_apply (a8 : FVec Ideal S8x100 .f32) (e : Fin 100) :
    shapeCast S100 (extractStridedSlice S1x100 ![4, 0] a8 slices_S8x100_S1x100_4_0) shapeCasts_S1x100_S100 (ix1 e)
      = a8 (ix2 (4 : Fin 8) e) :=
  relRow_apply a8 (4 : Fin 8) slices_S8x100_S1x100_4_0 shapeCasts_S1x100_S100 e

set_option maxHeartbeats 1600000 in
theorem rel4_term :
    StableHlo.after (opsRel_4 (F := Ideal)) W (Proc.devRef .tc main_v279)
      = addf (W (Proc.devRef .tc main_v223))
          (relT
          (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0))))))
          (Host.gather gather_S1001x100_S4096x1_S4096x100_1_0_n_n_0_1_1100 (W (Proc.devRef .tc main_arg6))
            (broadcastInDim S4096x1 ![0] bcast_S4096_S4096x1_0 (Cert.Cols.norm 1001#32 (Cert.Cols.bcol 4 (W (Proc.devRef .tc main_arg0))))))
          (shapeCast S100 (extractStridedSlice S1x100 ![4, 0] (W (Proc.devRef .tc main_arg8)) slices_S8x100_S1x100_4_0) shapeCasts_S1x100_S100)
          (Host.gather gather_S1001_S4096x1_S4096_n_0_n_n_0_1_1 (W (Proc.devRef .tc main_arg13))
            (broadcastInDim S4096x1 ![0] bcast_S4096_S4096x1_0 (Cert.Cols.norm 1001#32 (Cert.Cols.bcol 4 (W (Proc.devRef .tc main_arg0))))))
          (Host.gather gather_S1001x100_S256x1_S256x100_1_0_n_n_0_1_1100 (W (Proc.devRef .tc main_arg6))
            (broadcastInDim S256x1 ![0] bcast_S256_S256x1_0 (Cert.Cols.norm 1001#32 (Cert.Cols.nrow 4 (W (Proc.devRef .tc main_arg1))))))) := by
  after_results_simp
  rfl

theorem rel4_val :
    StableHlo.after (opsRel_4 (F := Ideal)) W (Proc.devRef .tc main_v279)
      = fun _ => HAdd.hAdd (α := EReal) (W (Proc.devRef .tc main_v223) ix0)
          (Ideal.div (∑ b : Fin 4096, Cert.Spec.rowLoss
              (fun b e => (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0)))))) (ix2 b e))
              (fun b e => (Host.gather gather_S1001x100_S4096x1_S4096x100_1_0_n_n_0_1_1100 (W (Proc.devRef .tc main_arg6))
            (broadcastInDim S4096x1 ![0] bcast_S4096_S4096x1_0 (Cert.Cols.norm 1001#32 (Cert.Cols.bcol 4 (W (Proc.devRef .tc main_arg0)))))) (ix2 b e))
              (fun e => W (Proc.devRef .tc main_arg8) (ix2 (4 : Fin 8) e))
              (fun b => (Host.gather gather_S1001_S4096x1_S4096_n_0_n_n_0_1_1 (W (Proc.devRef .tc main_arg13))
            (broadcastInDim S4096x1 ![0] bcast_S4096_S4096x1_0 (Cert.Cols.norm 1001#32 (Cert.Cols.bcol 4 (W (Proc.devRef .tc main_arg0)))))) (ix1 b))
              (fun n e => (Host.gather gather_S1001x100_S256x1_S256x100_1_0_n_n_0_1_1100 (W (Proc.devRef .tc main_arg6))
            (broadcastInDim S256x1 ![0] bcast_S256_S256x1_0 (Cert.Cols.norm 1001#32 (Cert.Cols.nrow 4 (W (Proc.devRef .tc main_arg1)))))) (ix2 n e)) b)
            (Ideal.ofBits .f32 0x45800000#32)) := by
  rw [rel4_term W, relT_val]
  funext j
  obtain rfl : j = ix0 := eq_ix0 j
  rw [addf_apply]
  simp only [rv4_apply] <;> rfl

end R4

end Cert.ReferenceIdeal.Hand

end
-- ==== Proof.RI.Rel5.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

section R5
variable (W : Valuation τ sig (Elt Ideal))

theorem rv5_apply (a8 : FVec Ideal S8x100 .f32) (e : Fin 100) :
    shapeCast S100 (extractStridedSlice S1x100 ![5, 0] a8 slices_S8x100_S1x100_5_0) shapeCasts_S1x100_S100 (ix1 e)
      = a8 (ix2 (5 : Fin 8) e) :=
  relRow_apply a8 (5 : Fin 8) slices_S8x100_S1x100_5_0 shapeCasts_S1x100_S100 e

set_option maxHeartbeats 1600000 in
theorem rel5_term :
    StableHlo.after (opsRel_5 (F := Ideal)) W (Proc.devRef .tc main_v335)
      = addf (W (Proc.devRef .tc main_v279))
          (relT
          (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0))))))
          (Host.gather gather_S50001x100_S4096x1_S4096x100_1_0_n_n_0_1_1100 (W (Proc.devRef .tc main_arg7))
            (broadcastInDim S4096x1 ![0] bcast_S4096_S4096x1_0 (Cert.Cols.norm 50001#32 (Cert.Cols.bcol 5 (W (Proc.devRef .tc main_arg0))))))
          (shapeCast S100 (extractStridedSlice S1x100 ![5, 0] (W (Proc.devRef .tc main_arg8)) slices_S8x100_S1x100_5_0) shapeCasts_S1x100_S100)
          (Host.gather gather_S50001_S4096x1_S4096_n_0_n_n_0_1_1 (W (Proc.devRef .tc main_arg14))
            (broadcastInDim S4096x1 ![0] bcast_S4096_S4096x1_0 (Cert.Cols.norm 50001#32 (Cert.Cols.bcol 5 (W (Proc.devRef .tc main_arg0))))))
          (Host.gather gather_S50001x100_S256x1_S256x100_1_0_n_n_0_1_1100 (W (Proc.devRef .tc main_arg7))
            (broadcastInDim S256x1 ![0] bcast_S256_S256x1_0 (Cert.Cols.norm 50001#32 (Cert.Cols.nrow 5 (W (Proc.devRef .tc main_arg1))))))) := by
  after_results_simp
  rfl

theorem rel5_val :
    StableHlo.after (opsRel_5 (F := Ideal)) W (Proc.devRef .tc main_v335)
      = fun _ => HAdd.hAdd (α := EReal) (W (Proc.devRef .tc main_v279) ix0)
          (Ideal.div (∑ b : Fin 4096, Cert.Spec.rowLoss
              (fun b e => (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0)))))) (ix2 b e))
              (fun b e => (Host.gather gather_S50001x100_S4096x1_S4096x100_1_0_n_n_0_1_1100 (W (Proc.devRef .tc main_arg7))
            (broadcastInDim S4096x1 ![0] bcast_S4096_S4096x1_0 (Cert.Cols.norm 50001#32 (Cert.Cols.bcol 5 (W (Proc.devRef .tc main_arg0)))))) (ix2 b e))
              (fun e => W (Proc.devRef .tc main_arg8) (ix2 (5 : Fin 8) e))
              (fun b => (Host.gather gather_S50001_S4096x1_S4096_n_0_n_n_0_1_1 (W (Proc.devRef .tc main_arg14))
            (broadcastInDim S4096x1 ![0] bcast_S4096_S4096x1_0 (Cert.Cols.norm 50001#32 (Cert.Cols.bcol 5 (W (Proc.devRef .tc main_arg0)))))) (ix1 b))
              (fun n e => (Host.gather gather_S50001x100_S256x1_S256x100_1_0_n_n_0_1_1100 (W (Proc.devRef .tc main_arg7))
            (broadcastInDim S256x1 ![0] bcast_S256_S256x1_0 (Cert.Cols.norm 50001#32 (Cert.Cols.nrow 5 (W (Proc.devRef .tc main_arg1)))))) (ix2 n e)) b)
            (Ideal.ofBits .f32 0x45800000#32)) := by
  rw [rel5_term W, relT_val]
  funext j
  obtain rfl : j = ix0 := eq_ix0 j
  rw [addf_apply]
  simp only [rv5_apply] <;> rfl

end R5

end Cert.ReferenceIdeal.Hand

end
-- ==== Proof.RI.Rel6.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

section R6
variable (W : Valuation τ sig (Elt Ideal))

theorem rv6_apply (a8 : FVec Ideal S8x100 .f32) (e : Fin 100) :
    shapeCast S100 (extractStridedSlice S1x100 ![6, 0] a8 slices_S8x100_S1x100_6_0) shapeCasts_S1x100_S100 (ix1 e)
      = a8 (ix2 (6 : Fin 8) e) :=
  relRow_apply a8 (6 : Fin 8) slices_S8x100_S1x100_6_0 shapeCasts_S1x100_S100 e

set_option maxHeartbeats 1600000 in
theorem rel6_term :
    StableHlo.after (opsRel_6 (F := Ideal)) W (Proc.devRef .tc main_v391)
      = addf (W (Proc.devRef .tc main_v335))
          (relT
          (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0))))))
          (Host.gather gather_S50001x100_S4096x1_S4096x100_1_0_n_n_0_1_1100 (W (Proc.devRef .tc main_arg7))
            (broadcastInDim S4096x1 ![0] bcast_S4096_S4096x1_0 (Cert.Cols.norm 50001#32 (Cert.Cols.bcol 6 (W (Proc.devRef .tc main_arg0))))))
          (shapeCast S100 (extractStridedSlice S1x100 ![6, 0] (W (Proc.devRef .tc main_arg8)) slices_S8x100_S1x100_6_0) shapeCasts_S1x100_S100)
          (Host.gather gather_S50001_S4096x1_S4096_n_0_n_n_0_1_1 (W (Proc.devRef .tc main_arg15))
            (broadcastInDim S4096x1 ![0] bcast_S4096_S4096x1_0 (Cert.Cols.norm 50001#32 (Cert.Cols.bcol 6 (W (Proc.devRef .tc main_arg0))))))
          (Host.gather gather_S50001x100_S256x1_S256x100_1_0_n_n_0_1_1100 (W (Proc.devRef .tc main_arg7))
            (broadcastInDim S256x1 ![0] bcast_S256_S256x1_0 (Cert.Cols.norm 50001#32 (Cert.Cols.nrow 6 (W (Proc.devRef .tc main_arg1))))))) := by
  after_results_simp
  rfl

theorem rel6_val :
    StableHlo.after (opsRel_6 (F := Ideal)) W (Proc.devRef .tc main_v391)
      = fun _ => HAdd.hAdd (α := EReal) (W (Proc.devRef .tc main_v335) ix0)
          (Ideal.div (∑ b : Fin 4096, Cert.Spec.rowLoss
              (fun b e => (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0)))))) (ix2 b e))
              (fun b e => (Host.gather gather_S50001x100_S4096x1_S4096x100_1_0_n_n_0_1_1100 (W (Proc.devRef .tc main_arg7))
            (broadcastInDim S4096x1 ![0] bcast_S4096_S4096x1_0 (Cert.Cols.norm 50001#32 (Cert.Cols.bcol 6 (W (Proc.devRef .tc main_arg0)))))) (ix2 b e))
              (fun e => W (Proc.devRef .tc main_arg8) (ix2 (6 : Fin 8) e))
              (fun b => (Host.gather gather_S50001_S4096x1_S4096_n_0_n_n_0_1_1 (W (Proc.devRef .tc main_arg15))
            (broadcastInDim S4096x1 ![0] bcast_S4096_S4096x1_0 (Cert.Cols.norm 50001#32 (Cert.Cols.bcol 6 (W (Proc.devRef .tc main_arg0)))))) (ix1 b))
              (fun n e => (Host.gather gather_S50001x100_S256x1_S256x100_1_0_n_n_0_1_1100 (W (Proc.devRef .tc main_arg7))
            (broadcastInDim S256x1 ![0] bcast_S256_S256x1_0 (Cert.Cols.norm 50001#32 (Cert.Cols.nrow 6 (W (Proc.devRef .tc main_arg1)))))) (ix2 n e)) b)
            (Ideal.ofBits .f32 0x45800000#32)) := by
  rw [rel6_term W, relT_val]
  funext j
  obtain rfl : j = ix0 := eq_ix0 j
  rw [addf_apply]
  simp only [rv6_apply] <;> rfl

end R6

end Cert.ReferenceIdeal.Hand

end
-- ==== Proof.RI.Rel7.lean ====
import proofs.«400362_j8907762172017_2_alg».proof.Proof.RI.Ops
import proofs.«400362_j8907762172017_2_alg».proof.Proof.RI.TailF

set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

section R7
variable (W : Valuation τ sig (Elt Ideal))

theorem rv7_apply (a8 : FVec Ideal S8x100 .f32) (e : Fin 100) :
    shapeCast S100 (extractStridedSlice S1x100 ![7, 0] a8 slices_S8x100_S1x100_7_0) shapeCasts_S1x100_S100 (ix1 e)
      = a8 (ix2 (7 : Fin 8) e) :=
  relRow_apply a8 (7 : Fin 8) slices_S8x100_S1x100_7_0 shapeCasts_S1x100_S100 e

set_option maxHeartbeats 1600000 in
theorem rel7_term :
    StableHlo.after (opsRel_7 (F := Ideal)) W (Proc.devRef .tc main_v447)
      = addf (W (Proc.devRef .tc main_v391))
          (relT
          (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0))))))
          (Host.gather gather_S50001x100_S4096x1_S4096x100_1_0_n_n_0_1_1100 (W (Proc.devRef .tc main_arg7))
            (broadcastInDim S4096x1 ![0] bcast_S4096_S4096x1_0 (Cert.Cols.norm 50001#32 (Cert.Cols.bcol 7 (W (Proc.devRef .tc main_arg0))))))
          (shapeCast S100 (extractStridedSlice S1x100 ![7, 0] (W (Proc.devRef .tc main_arg8)) slices_S8x100_S1x100_7_0) shapeCasts_S1x100_S100)
          (Host.gather gather_S50001_S4096x1_S4096_n_0_n_n_0_1_1 (W (Proc.devRef .tc main_arg16))
            (broadcastInDim S4096x1 ![0] bcast_S4096_S4096x1_0 (Cert.Cols.norm 50001#32 (Cert.Cols.bcol 7 (W (Proc.devRef .tc main_arg0))))))
          (Host.gather gather_S50001x100_S256x1_S256x100_1_0_n_n_0_1_1100 (W (Proc.devRef .tc main_arg7))
            (broadcastInDim S256x1 ![0] bcast_S256_S256x1_0 (Cert.Cols.norm 50001#32 (Cert.Cols.nrow 7 (W (Proc.devRef .tc main_arg1))))))) := by
  after_results_simp
  rfl

theorem rel7_val :
    StableHlo.after (opsRel_7 (F := Ideal)) W (Proc.devRef .tc main_v447)
      = fun _ => HAdd.hAdd (α := EReal) (W (Proc.devRef .tc main_v391) ix0)
          (Ideal.div (∑ b : Fin 4096, Cert.Spec.rowLoss
              (fun b e => (Host.gather gather_S50001x100_S4096x1_S4096x100_1_0_n_n_0_1_1100 (W (Proc.devRef .tc main_arg3))
            (broadcastInDim S4096x1 ![0] bcast_S4096_S4096x1_0 (Cert.Cols.norm 50001#32 (Cert.Cols.bcol 1 (W (Proc.devRef .tc main_arg0)))))) (ix2 b e))
              (fun b e => (Host.gather gather_S50001x100_S4096x1_S4096x100_1_0_n_n_0_1_1100 (W (Proc.devRef .tc main_arg7))
            (broadcastInDim S4096x1 ![0] bcast_S4096_S4096x1_0 (Cert.Cols.norm 50001#32 (Cert.Cols.bcol 7 (W (Proc.devRef .tc main_arg0)))))) (ix2 b e))
              (fun e => W (Proc.devRef .tc main_arg8) (ix2 (7 : Fin 8) e))
              (fun b => (Host.gather gather_S50001_S4096x1_S4096_n_0_n_n_0_1_1 (W (Proc.devRef .tc main_arg16))
            (broadcastInDim S4096x1 ![0] bcast_S4096_S4096x1_0 (Cert.Cols.norm 50001#32 (Cert.Cols.bcol 7 (W (Proc.devRef .tc main_arg0)))))) (ix1 b))
              (fun n e => (Host.gather gather_S50001x100_S256x1_S256x100_1_0_n_n_0_1_1100 (W (Proc.devRef .tc main_arg7))
            (broadcastInDim S256x1 ![0] bcast_S256_S256x1_0 (Cert.Cols.norm 50001#32 (Cert.Cols.nrow 7 (W (Proc.devRef .tc main_arg1)))))) (ix2 n e)) b)
            (Ideal.ofBits .f32 0x45800000#32)) := by
  rw [rel7_term W, relT_val]
  funext j
  obtain rfl : j = ix0 := eq_ix0 j
  rw [addf_apply]
  simp only [rv7_apply] <;> rfl

end R7

end Cert.ReferenceIdeal.Hand

end
-- ==== Proof.RI.Result.lean ====
import proofs.«400362_j8907762172017_2_alg».proof.Proof.RI.Peel
import proofs.«400362_j8907762172017_2_alg».proof.Proof.RI.Rel0
import proofs.«400362_j8907762172017_2_alg».proof.Proof.RI.Rel1
import proofs.«400362_j8907762172017_2_alg».proof.Proof.RI.Rel2
import proofs.«400362_j8907762172017_2_alg».proof.Proof.RI.Rel3
import proofs.«400362_j8907762172017_2_alg».proof.Proof.RI.Rel4
import proofs.«400362_j8907762172017_2_alg».proof.Proof.RI.Rel5
import proofs.«400362_j8907762172017_2_alg».proof.Proof.RI.Rel6
import proofs.«400362_j8907762172017_2_alg».proof.Proof.RI.Rel7

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx
open scoped BigOperators

def relMean0 (V : Valuation τ sig (Elt Ideal)) : EReal :=
  Ideal.div
          (∑ b : Fin 4096, Cert.Spec.rowLoss
            (fun b e => Host.gather gather_S30001x100_S4096x1_S4096x100_1_0_n_n_0_1_1100 (V (Proc.devRef .tc main_arg2))
              (broadcastInDim S4096x1 ![0] bcast_S4096_S4096x1_0 (Cert.Cols.norm 30001#32 (Cert.Cols.bcol 0 (V (Proc.devRef .tc main_arg0))))) (ix2 b e))
            (fun b e => Host.gather gather_S50001x100_S4096x1_S4096x100_1_0_n_n_0_1_1100 (V (Proc.devRef .tc main_arg3))
              (broadcastInDim S4096x1 ![0] bcast_S4096_S4096x1_0 (Cert.Cols.norm 50001#32 (Cert.Cols.bcol 1 (V (Proc.devRef .tc main_arg0))))) (ix2 b e))
            (fun e => V (Proc.devRef .tc main_arg8) (ix2 0 e))
            (fun b => Host.gather gather_S50001_S4096x1_S4096_n_0_n_n_0_1_1 (V (Proc.devRef .tc main_arg9))
              (broadcastInDim S4096x1 ![0] bcast_S4096_S4096x1_0 (Cert.Cols.norm 50001#32 (Cert.Cols.bcol 1 (V (Proc.devRef .tc main_arg0))))) (ix1 b))
            (fun n e => Host.gather gather_S50001x100_S256x1_S256x100_1_0_n_n_0_1_1100 (V (Proc.devRef .tc main_arg3))
              (broadcastInDim S256x1 ![0] bcast_S256_S256x1_0 (Cert.Cols.norm 50001#32 (Cert.Cols.nrow 0 (V (Proc.devRef .tc main_arg1))))) (ix2 n e))
            b)
          (Ideal.ofBits .f32 0x45800000#32)

def relMean1 (V : Valuation τ sig (Elt Ideal)) : EReal :=
  Ideal.div
          (∑ b : Fin 4096, Cert.Spec.rowLoss
            (fun b e => Host.gather gather_S30001x100_S4096x1_S4096x100_1_0_n_n_0_1_1100 (V (Proc.devRef .tc main_arg2))
              (broadcastInDim S4096x1 ![0] bcast_S4096_S4096x1_0 (Cert.Cols.norm 30001#32 (Cert.Cols.bcol 0 (V (Proc.devRef .tc main_arg0))))) (ix2 b e))
            (fun b e => Host.gather gather_S100001x100_S4096x1_S4096x100_1_0_n_n_0_1_1100 (V (Proc.devRef .tc main_arg4))
              (broadcastInDim S4096x1 ![0] bcast_S4096_S4096x1_0 (Cert.Cols.norm 100001#32 (Cert.Cols.bcol 2 (V (Proc.devRef .tc main_arg0))))) (ix2 b e))
            (fun e => V (Proc.devRef .tc main_arg8) (ix2 1 e))
            (fun b => Host.gather gather_S100001_S4096x1_S4096_n_0_n_n_0_1_1 (V (Proc.devRef .tc main_arg10))
              (broadcastInDim S4096x1 ![0] bcast_S4096_S4096x1_0 (Cert.Cols.norm 100001#32 (Cert.Cols.bcol 2 (V (Proc.devRef .tc main_arg0))))) (ix1 b))
            (fun n e => Host.gather gather_S100001x100_S256x1_S256x100_1_0_n_n_0_1_1100 (V (Proc.devRef .tc main_arg4))
              (broadcastInDim S256x1 ![0] bcast_S256_S256x1_0 (Cert.Cols.norm 100001#32 (Cert.Cols.nrow 1 (V (Proc.devRef .tc main_arg1))))) (ix2 n e))
            b)
          (Ideal.ofBits .f32 0x45800000#32)

def relMean2 (V : Valuation τ sig (Elt Ideal)) : EReal :=
  Ideal.div
          (∑ b : Fin 4096, Cert.Spec.rowLoss
            (fun b e => Host.gather gather_S50001x100_S4096x1_S4096x100_1_0_n_n_0_1_1100 (V (Proc.devRef .tc main_arg3))
              (broadcastInDim S4096x1 ![0] bcast_S4096_S4096x1_0 (Cert.Cols.norm 50001#32 (Cert.Cols.bcol 1 (V (Proc.devRef .tc main_arg0))))) (ix2 b e))
            (fun b e => Host.gather gather_S100001x100_S4096x1_S4096x100_1_0_n_n_0_1_1100 (V (Proc.devRef .tc main_arg4))
              (broadcastInDim S4096x1 ![0] bcast_S4096_S4096x1_0 (Cert.Cols.norm 100001#32 (Cert.Cols.bcol 2 (V (Proc.devRef .tc main_arg0))))) (ix2 b e))
            (fun e => V (Proc.devRef .tc main_arg8) (ix2 2 e))
            (fun b => Host.gather gather_S100001_S4096x1_S4096_n_0_n_n_0_1_1 (V (Proc.devRef .tc main_arg11))
              (broadcastInDim S4096x1 ![0] bcast_S4096_S4096x1_0 (Cert.Cols.norm 100001#32 (Cert.Cols.bcol 2 (V (Proc.devRef .tc main_arg0))))) (ix1 b))
            (fun n e => Host.gather gather_S100001x100_S256x1_S256x100_1_0_n_n_0_1_1100 (V (Proc.devRef .tc main_arg4))
              (broadcastInDim S256x1 ![0] bcast_S256_S256x1_0 (Cert.Cols.norm 100001#32 (Cert.Cols.nrow 2 (V (Proc.devRef .tc main_arg1))))) (ix2 n e))
            b)
          (Ideal.ofBits .f32 0x45800000#32)

def relMean3 (V : Valuation τ sig (Elt Ideal)) : EReal :=
  Ideal.div
          (∑ b : Fin 4096, Cert.Spec.rowLoss
            (fun b e => Host.gather gather_S50001x100_S4096x1_S4096x100_1_0_n_n_0_1_1100 (V (Proc.devRef .tc main_arg3))
              (broadcastInDim S4096x1 ![0] bcast_S4096_S4096x1_0 (Cert.Cols.norm 50001#32 (Cert.Cols.bcol 1 (V (Proc.devRef .tc main_arg0))))) (ix2 b e))
            (fun b e => Host.gather gather_S5001x100_S4096x1_S4096x100_1_0_n_n_0_1_1100 (V (Proc.devRef .tc main_arg5))
              (broadcastInDim S4096x1 ![0] bcast_S4096_S4096x1_0 (Cert.Cols.norm 5001#32 (Cert.Cols.bcol 3 (V (Proc.devRef .tc main_arg0))))) (ix2 b e))
            (fun e => V (Proc.devRef .tc main_arg8) (ix2 3 e))
            (fun b => Host.gather gather_S5001_S4096x1_S4096_n_0_n_n_0_1_1 (V (Proc.devRef .tc main_arg12))
              (broadcastInDim S4096x1 ![0] bcast_S4096_S4096x1_0 (Cert.Cols.norm 5001#32 (Cert.Cols.bcol 3 (V (Proc.devRef .tc main_arg0))))) (ix1 b))
            (fun n e => Host.gather gather_S5001x100_S256x1_S256x100_1_0_n_n_0_1_1100 (V (Proc.devRef .tc main_arg5))
              (broadcastInDim S256x1 ![0] bcast_S256_S256x1_0 (Cert.Cols.norm 5001#32 (Cert.Cols.nrow 3 (V (Proc.devRef .tc main_arg1))))) (ix2 n e))
            b)
          (Ideal.ofBits .f32 0x45800000#32)

def relMean4 (V : Valuation τ sig (Elt Ideal)) : EReal :=
  Ideal.div (∑ b : Fin 4096, Cert.Spec.rowLoss
              (fun b e => (Host.gather gather_S50001x100_S4096x1_S4096x100_1_0_n_n_0_1_1100 (V (Proc.devRef .tc main_arg3))
            (broadcastInDim S4096x1 ![0] bcast_S4096_S4096x1_0 (Cert.Cols.norm 50001#32 (Cert.Cols.bcol 1 (V (Proc.devRef .tc main_arg0)))))) (ix2 b e))
              (fun b e => (Host.gather gather_S1001x100_S4096x1_S4096x100_1_0_n_n_0_1_1100 (V (Proc.devRef .tc main_arg6))
            (broadcastInDim S4096x1 ![0] bcast_S4096_S4096x1_0 (Cert.Cols.norm 1001#32 (Cert.Cols.bcol 4 (V (Proc.devRef .tc main_arg0)))))) (ix2 b e))
              (fun e => V (Proc.devRef .tc main_arg8) (ix2 (4 : Fin 8) e))
              (fun b => (Host.gather gather_S1001_S4096x1_S4096_n_0_n_n_0_1_1 (V (Proc.devRef .tc main_arg13))
            (broadcastInDim S4096x1 ![0] bcast_S4096_S4096x1_0 (Cert.Cols.norm 1001#32 (Cert.Cols.bcol 4 (V (Proc.devRef .tc main_arg0)))))) (ix1 b))
              (fun n e => (Host.gather gather_S1001x100_S256x1_S256x100_1_0_n_n_0_1_1100 (V (Proc.devRef .tc main_arg6))
            (broadcastInDim S256x1 ![0] bcast_S256_S256x1_0 (Cert.Cols.norm 1001#32 (Cert.Cols.nrow 4 (V (Proc.devRef .tc main_arg1)))))) (ix2 n e)) b)
            (Ideal.ofBits .f32 0x45800000#32)

def relMean5 (V : Valuation τ sig (Elt Ideal)) : EReal :=
  Ideal.div (∑ b : Fin 4096, Cert.Spec.rowLoss
              (fun b e => (Host.gather gather_S50001x100_S4096x1_S4096x100_1_0_n_n_0_1_1100 (V (Proc.devRef .tc main_arg3))
            (broadcastInDim S4096x1 ![0] bcast_S4096_S4096x1_0 (Cert.Cols.norm 50001#32 (Cert.Cols.bcol 1 (V (Proc.devRef .tc main_arg0)))))) (ix2 b e))
              (fun b e => (Host.gather gather_S50001x100_S4096x1_S4096x100_1_0_n_n_0_1_1100 (V (Proc.devRef .tc main_arg7))
            (broadcastInDim S4096x1 ![0] bcast_S4096_S4096x1_0 (Cert.Cols.norm 50001#32 (Cert.Cols.bcol 5 (V (Proc.devRef .tc main_arg0)))))) (ix2 b e))
              (fun e => V (Proc.devRef .tc main_arg8) (ix2 (5 : Fin 8) e))
              (fun b => (Host.gather gather_S50001_S4096x1_S4096_n_0_n_n_0_1_1 (V (Proc.devRef .tc main_arg14))
            (broadcastInDim S4096x1 ![0] bcast_S4096_S4096x1_0 (Cert.Cols.norm 50001#32 (Cert.Cols.bcol 5 (V (Proc.devRef .tc main_arg0)))))) (ix1 b))
              (fun n e => (Host.gather gather_S50001x100_S256x1_S256x100_1_0_n_n_0_1_1100 (V (Proc.devRef .tc main_arg7))
            (broadcastInDim S256x1 ![0] bcast_S256_S256x1_0 (Cert.Cols.norm 50001#32 (Cert.Cols.nrow 5 (V (Proc.devRef .tc main_arg1)))))) (ix2 n e)) b)
            (Ideal.ofBits .f32 0x45800000#32)

def relMean6 (V : Valuation τ sig (Elt Ideal)) : EReal :=
  Ideal.div (∑ b : Fin 4096, Cert.Spec.rowLoss
              (fun b e => (Host.gather gather_S50001x100_S4096x1_S4096x100_1_0_n_n_0_1_1100 (V (Proc.devRef .tc main_arg3))
            (broadcastInDim S4096x1 ![0] bcast_S4096_S4096x1_0 (Cert.Cols.norm 50001#32 (Cert.Cols.bcol 1 (V (Proc.devRef .tc main_arg0)))))) (ix2 b e))
              (fun b e => (Host.gather gather_S50001x100_S4096x1_S4096x100_1_0_n_n_0_1_1100 (V (Proc.devRef .tc main_arg7))
            (broadcastInDim S4096x1 ![0] bcast_S4096_S4096x1_0 (Cert.Cols.norm 50001#32 (Cert.Cols.bcol 6 (V (Proc.devRef .tc main_arg0)))))) (ix2 b e))
              (fun e => V (Proc.devRef .tc main_arg8) (ix2 (6 : Fin 8) e))
              (fun b => (Host.gather gather_S50001_S4096x1_S4096_n_0_n_n_0_1_1 (V (Proc.devRef .tc main_arg15))
            (broadcastInDim S4096x1 ![0] bcast_S4096_S4096x1_0 (Cert.Cols.norm 50001#32 (Cert.Cols.bcol 6 (V (Proc.devRef .tc main_arg0)))))) (ix1 b))
              (fun n e => (Host.gather gather_S50001x100_S256x1_S256x100_1_0_n_n_0_1_1100 (V (Proc.devRef .tc main_arg7))
            (broadcastInDim S256x1 ![0] bcast_S256_S256x1_0 (Cert.Cols.norm 50001#32 (Cert.Cols.nrow 6 (V (Proc.devRef .tc main_arg1)))))) (ix2 n e)) b)
            (Ideal.ofBits .f32 0x45800000#32)

def relMean7 (V : Valuation τ sig (Elt Ideal)) : EReal :=
  Ideal.div (∑ b : Fin 4096, Cert.Spec.rowLoss
              (fun b e => (Host.gather gather_S50001x100_S4096x1_S4096x100_1_0_n_n_0_1_1100 (V (Proc.devRef .tc main_arg3))
            (broadcastInDim S4096x1 ![0] bcast_S4096_S4096x1_0 (Cert.Cols.norm 50001#32 (Cert.Cols.bcol 1 (V (Proc.devRef .tc main_arg0)))))) (ix2 b e))
              (fun b e => (Host.gather gather_S50001x100_S4096x1_S4096x100_1_0_n_n_0_1_1100 (V (Proc.devRef .tc main_arg7))
            (broadcastInDim S4096x1 ![0] bcast_S4096_S4096x1_0 (Cert.Cols.norm 50001#32 (Cert.Cols.bcol 7 (V (Proc.devRef .tc main_arg0)))))) (ix2 b e))
              (fun e => V (Proc.devRef .tc main_arg8) (ix2 (7 : Fin 8) e))
              (fun b => (Host.gather gather_S50001_S4096x1_S4096_n_0_n_n_0_1_1 (V (Proc.devRef .tc main_arg16))
            (broadcastInDim S4096x1 ![0] bcast_S4096_S4096x1_0 (Cert.Cols.norm 50001#32 (Cert.Cols.bcol 7 (V (Proc.devRef .tc main_arg0)))))) (ix1 b))
              (fun n e => (Host.gather gather_S50001x100_S256x1_S256x100_1_0_n_n_0_1_1100 (V (Proc.devRef .tc main_arg7))
            (broadcastInDim S256x1 ![0] bcast_S256_S256x1_0 (Cert.Cols.norm 50001#32 (Cert.Cols.nrow 7 (V (Proc.devRef .tc main_arg1)))))) (ix2 n e)) b)
            (Ideal.ofBits .f32 0x45800000#32)

theorem relMean1_kept (V : Valuation τ sig (Elt Ideal)) : relMean1 (after opsRel_0 (V)) = relMean1 V := by
  unfold relMean1
  kept_blocks
theorem relMean2_kept (V : Valuation τ sig (Elt Ideal)) : relMean2 (after opsRel_1 (after opsRel_0 (V))) = relMean2 V := by
  unfold relMean2
  kept_blocks
theorem relMean3_kept (V : Valuation τ sig (Elt Ideal)) : relMean3 (after opsRel_2 (after opsRel_1 (after opsRel_0 (V)))) = relMean3 V := by
  unfold relMean3
  kept_blocks
theorem relMean4_kept (V : Valuation τ sig (Elt Ideal)) : relMean4 (after opsRel_3 (after opsRel_2 (after opsRel_1 (after opsRel_0 (V))))) = relMean4 V := by
  unfold relMean4
  kept_blocks
theorem relMean5_kept (V : Valuation τ sig (Elt Ideal)) : relMean5 (after opsRel_4 (after opsRel_3 (after opsRel_2 (after opsRel_1 (after opsRel_0 (V)))))) = relMean5 V := by
  unfold relMean5
  kept_blocks
theorem relMean6_kept (V : Valuation τ sig (Elt Ideal)) : relMean6 (after opsRel_5 (after opsRel_4 (after opsRel_3 (after opsRel_2 (after opsRel_1 (after opsRel_0 (V))))))) = relMean6 V := by
  unfold relMean6
  kept_blocks
theorem relMean7_kept (V : Valuation τ sig (Elt Ideal)) : relMean7 (after opsRel_6 (after opsRel_5 (after opsRel_4 (after opsRel_3 (after opsRel_2 (after opsRel_1 (after opsRel_0 (V)))))))) = relMean7 V := by
  unfold relMean7
  kept_blocks

theorem sum0 (V : Valuation τ sig (Elt Ideal)) :
    after opsRel_0 V (Proc.devRef .tc main_v55) = fun _ => (0 : EReal) + relMean0 V := rel0_val V
theorem sum1 (V : Valuation τ sig (Elt Ideal)) :
    after opsRel_1 (after opsRel_0 (V)) (Proc.devRef .tc main_v111) = fun _ => ((0 : EReal) + relMean0 V) + relMean1 V := by
  rw [rel1_val, sum0, ← relMean1_kept V]
  rfl
theorem sum2 (V : Valuation τ sig (Elt Ideal)) :
    after opsRel_2 (after opsRel_1 (after opsRel_0 (V))) (Proc.devRef .tc main_v167) = fun _ => (((0 : EReal) + relMean0 V) + relMean1 V) + relMean2 V := by
  rw [rel2_val, sum1, ← relMean2_kept V]
  rfl
theorem sum3 (V : Valuation τ sig (Elt Ideal)) :
    after opsRel_3 (after opsRel_2 (after opsRel_1 (after opsRel_0 (V)))) (Proc.devRef .tc main_v223) = fun _ => ((((0 : EReal) + relMean0 V) + relMean1 V) + relMean2 V) + relMean3 V := by
  rw [rel3_val, sum2, ← relMean3_kept V]
  rfl
theorem sum4 (V : Valuation τ sig (Elt Ideal)) :
    after opsRel_4 (after opsRel_3 (after opsRel_2 (after opsRel_1 (after opsRel_0 (V))))) (Proc.devRef .tc main_v279) = fun _ => (((((0 : EReal) + relMean0 V) + relMean1 V) + relMean2 V) + relMean3 V) + relMean4 V := by
  rw [rel4_val, sum3, ← relMean4_kept V]
  rfl
theorem sum5 (V : Valuation τ sig (Elt Ideal)) :
    after opsRel_5 (after opsRel_4 (after opsRel_3 (after opsRel_2 (after opsRel_1 (after opsRel_0 (V)))))) (Proc.devRef .tc main_v335) = fun _ => ((((((0 : EReal) + relMean0 V) + relMean1 V) + relMean2 V) + relMean3 V) + relMean4 V) + relMean5 V := by
  rw [rel5_val, sum4, ← relMean5_kept V]
  rfl
theorem sum6 (V : Valuation τ sig (Elt Ideal)) :
    after opsRel_6 (after opsRel_5 (after opsRel_4 (after opsRel_3 (after opsRel_2 (after opsRel_1 (after opsRel_0 (V))))))) (Proc.devRef .tc main_v391) = fun _ => (((((((0 : EReal) + relMean0 V) + relMean1 V) + relMean2 V) + relMean3 V) + relMean4 V) + relMean5 V) + relMean6 V := by
  rw [rel6_val, sum5, ← relMean6_kept V]
  rfl
theorem sum7 (V : Valuation τ sig (Elt Ideal)) :
    after opsRel_7 (after opsRel_6 (after opsRel_5 (after opsRel_4 (after opsRel_3 (after opsRel_2 (after opsRel_1 (after opsRel_0 (V)))))))) (Proc.devRef .tc main_v447) = fun _ => ((((((((0 : EReal) + relMean0 V) + relMean1 V) + relMean2 V) + relMean3 V) + relMean4 V) + relMean5 V) + relMean6 V) + relMean7 V := by
  rw [rel7_val, sum6, ← relMean7_kept V]
  rfl

/-- The result buffer holds the left-nested sum of the eight relations' means, each read at the launch contents. -/
theorem result_val (V : Valuation τ sig (Elt Ideal)) :
    after ops V (Proc.devRef .tc main_v447) = fun _ => ((((((((0 : EReal) + relMean0 V) + relMean1 V) + relMean2 V) + relMean3 V) + relMean4 V) + relMean5 V) + relMean6 V) + relMean7 V := by
  rw [after_ops]
  exact sum7 V

end Cert.ReferenceIdeal.Hand

end
-- ==== Proof.BridgeMeans.lean ====
import proofs.«400362_j8907762172017_2_alg».proof.Defs
import proofs.«400362_j8907762172017_2_alg».proof.Proof.KITotals
import proofs.«400362_j8907762172017_2_alg».proof.Proof.KIHost.Row0
import proofs.«400362_j8907762172017_2_alg».proof.Proof.KIHost.Row1
import proofs.«400362_j8907762172017_2_alg».proof.Proof.KIHost.Row2
import proofs.«400362_j8907762172017_2_alg».proof.Proof.KIHost.Row3
import proofs.«400362_j8907762172017_2_alg».proof.Proof.KIHost.Row4
import proofs.«400362_j8907762172017_2_alg».proof.Proof.KIHost.Row5
import proofs.«400362_j8907762172017_2_alg».proof.Proof.KIHost.Row6
import proofs.«400362_j8907762172017_2_alg».proof.Proof.KIHost.Row7
import proofs.«400362_j8907762172017_2_alg».proof.Proof.RI.Result

noncomputable section

open scoped BigOperators

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem mean0_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h2 : StableHlo.launchContents m' c (Proc.devRef .tc Cert.ReferenceIdeal.main_arg2) = m ((c : Thread Cert.KernelIdeal.nD Cert.KernelIdeal.τ).loc Cert.KernelIdeal.main_arg2))
    (h3 : StableHlo.launchContents m' c (Proc.devRef .tc Cert.ReferenceIdeal.main_arg3) = m ((c : Thread Cert.KernelIdeal.nD Cert.KernelIdeal.τ).loc Cert.KernelIdeal.main_arg3))
    (h8 : StableHlo.launchContents m' c (Proc.devRef .tc Cert.ReferenceIdeal.main_arg8) = m ((c : Thread Cert.KernelIdeal.nD Cert.KernelIdeal.τ).loc Cert.KernelIdeal.main_arg8))
    (h9 : StableHlo.launchContents m' c (Proc.devRef .tc Cert.ReferenceIdeal.main_arg9) = m ((c : Thread Cert.KernelIdeal.nD Cert.KernelIdeal.τ).loc Cert.KernelIdeal.main_arg9))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean0 (StableHlo.launchContents m' c)
      = Ideal.div (∑ b : Fin 4096, Cert.KernelIdeal.Fr.relRow m c (0 : Fin 8) b) (Ideal.ofBits .f32 0x45800000#32) := by
  unfold Cert.ReferenceIdeal.Hand.relMean0
  rw [h0, h1, h2, h3, h8, h9]
  refine congrArg (fun s => Ideal.div s (Ideal.ofBits .f32 0x45800000#32)) ?_
  refine Finset.sum_congr rfl (fun b _ => ?_)
  rw [Cert.KernelIdeal.HostVal.krow0 m c hok b]
  rfl

theorem mean1_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h2 : StableHlo.launchContents m' c (Proc.devRef .tc Cert.ReferenceIdeal.main_arg2) = m ((c : Thread Cert.KernelIdeal.nD Cert.KernelIdeal.τ).loc Cert.KernelIdeal.main_arg2))
    (h4 : StableHlo.launchContents m' c (Proc.devRef .tc Cert.ReferenceIdeal.main_arg4) = m ((c : Thread Cert.KernelIdeal.nD Cert.KernelIdeal.τ).loc Cert.KernelIdeal.main_arg4))
    (h8 : StableHlo.launchContents m' c (Proc.devRef .tc Cert.ReferenceIdeal.main_arg8) = m ((c : Thread Cert.KernelIdeal.nD Cert.KernelIdeal.τ).loc Cert.KernelIdeal.main_arg8))
    (h10 : StableHlo.launchContents m' c (Proc.devRef .tc Cert.ReferenceIdeal.main_arg10) = m ((c : Thread Cert.KernelIdeal.nD Cert.KernelIdeal.τ).loc Cert.KernelIdeal.main_arg10))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean1 (StableHlo.launchContents m' c)
      = Ideal.div (∑ b : Fin 4096, Cert.KernelIdeal.Fr.relRow m c (1 : Fin 8) b) (Ideal.ofBits .f32 0x45800000#32) := by
  unfold Cert.ReferenceIdeal.Hand.relMean1
  rw [h0, h1, h2, h4, h8, h10]
  refine congrArg (fun s => Ideal.div s (Ideal.ofBits .f32 0x45800000#32)) ?_
  refine Finset.sum_congr rfl (fun b _ => ?_)
  rw [Cert.KernelIdeal.HostVal.krow1 m c hok b]
  rfl

theorem mean2_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h3 : StableHlo.launchContents m' c (Proc.devRef .tc Cert.ReferenceIdeal.main_arg3) = m ((c : Thread Cert.KernelIdeal.nD Cert.KernelIdeal.τ).loc Cert.KernelIdeal.main_arg3))
    (h4 : StableHlo.launchContents m' c (Proc.devRef .tc Cert.ReferenceIdeal.main_arg4) = m ((c : Thread Cert.KernelIdeal.nD Cert.KernelIdeal.τ).loc Cert.KernelIdeal.main_arg4))
    (h8 : StableHlo.launchContents m' c (Proc.devRef .tc Cert.ReferenceIdeal.main_arg8) = m ((c : Thread Cert.KernelIdeal.nD Cert.KernelIdeal.τ).loc Cert.KernelIdeal.main_arg8))
    (h11 : StableHlo.launchContents m' c (Proc.devRef .tc Cert.ReferenceIdeal.main_arg11) = m ((c : Thread Cert.KernelIdeal.nD Cert.KernelIdeal.τ).loc Cert.KernelIdeal.main_arg11))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean2 (StableHlo.launchContents m' c)
      = Ideal.div (∑ b : Fin 4096, Cert.KernelIdeal.Fr.relRow m c (2 : Fin 8) b) (Ideal.ofBits .f32 0x45800000#32) := by
  unfold Cert.ReferenceIdeal.Hand.relMean2
  rw [h0, h1, h3, h4, h8, h11]
  refine congrArg (fun s => Ideal.div s (Ideal.ofBits .f32 0x45800000#32)) ?_
  refine Finset.sum_congr rfl (fun b _ => ?_)
  rw [Cert.KernelIdeal.HostVal.krow2 m c hok b]
  rfl

theorem mean3_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h3 : StableHlo.launchContents m' c (Proc.devRef .tc Cert.ReferenceIdeal.main_arg3) = m ((c : Thread Cert.KernelIdeal.nD Cert.KernelIdeal.τ).loc Cert.KernelIdeal.main_arg3))
    (h5 : StableHlo.launchContents m' c (Proc.devRef .tc Cert.ReferenceIdeal.main_arg5) = m ((c : Thread Cert.KernelIdeal.nD Cert.KernelIdeal.τ).loc Cert.KernelIdeal.main_arg5))
    (h8 : StableHlo.launchContents m' c (Proc.devRef .tc Cert.ReferenceIdeal.main_arg8) = m ((c : Thread Cert.KernelIdeal.nD Cert.KernelIdeal.τ).loc Cert.KernelIdeal.main_arg8))
    (h12 : StableHlo.launchContents m' c (Proc.devRef .tc Cert.ReferenceIdeal.main_arg12) = m ((c : Thread Cert.KernelIdeal.nD Cert.KernelIdeal.τ).loc Cert.KernelIdeal.main_arg12))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean3 (StableHlo.launchContents m' c)
      = Ideal.div (∑ b : Fin 4096, Cert.KernelIdeal.Fr.relRow m c (3 : Fin 8) b) (Ideal.ofBits .f32 0x45800000#32) := by
  unfold Cert.ReferenceIdeal.Hand.relMean3
  rw [h0, h1, h3, h5, h8, h12]
  refine congrArg (fun s => Ideal.div s (Ideal.ofBits .f32 0x45800000#32)) ?_
  refine Finset.sum_congr rfl (fun b _ => ?_)
  rw [Cert.KernelIdeal.HostVal.krow3 m c hok b]
  rfl

theorem mean4_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h3 : StableHlo.launchContents m' c (Proc.devRef .tc Cert.ReferenceIdeal.main_arg3) = m ((c : Thread Cert.KernelIdeal.nD Cert.KernelIdeal.τ).loc Cert.KernelIdeal.main_arg3))
    (h6 : StableHlo.launchContents m' c (Proc.devRef .tc Cert.ReferenceIdeal.main_arg6) = m ((c : Thread Cert.KernelIdeal.nD Cert.KernelIdeal.τ).loc Cert.KernelIdeal.main_arg6))
    (h8 : StableHlo.launchContents m' c (Proc.devRef .tc Cert.ReferenceIdeal.main_arg8) = m ((c : Thread Cert.KernelIdeal.nD Cert.KernelIdeal.τ).loc Cert.KernelIdeal.main_arg8))
    (h13 : StableHlo.launchContents m' c (Proc.devRef .tc Cert.ReferenceIdeal.main_arg13) = m ((c : Thread Cert.KernelIdeal.nD Cert.KernelIdeal.τ).loc Cert.KernelIdeal.main_arg13))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean4 (StableHlo.launchContents m' c)
      = Ideal.div (∑ b : Fin 4096, Cert.KernelIdeal.Fr.relRow m c (4 : Fin 8) b) (Ideal.ofBits .f32 0x45800000#32) := by
  unfold Cert.ReferenceIdeal.Hand.relMean4
  rw [h0, h1, h3, h6, h8, h13]
  refine congrArg (fun s => Ideal.div s (Ideal.ofBits .f32 0x45800000#32)) ?_
  refine Finset.sum_congr rfl (fun b _ => ?_)
  rw [Cert.KernelIdeal.HostVal.krow4 m c hok b]
  rfl

theorem mean5_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h3 : StableHlo.launchContents m' c (Proc.devRef .tc Cert.ReferenceIdeal.main_arg3) = m ((c : Thread Cert.KernelIdeal.nD Cert.KernelIdeal.τ).loc Cert.KernelIdeal.main_arg3))
    (h7 : StableHlo.launchContents m' c (Proc.devRef .tc Cert.ReferenceIdeal.main_arg7) = m ((c : Thread Cert.KernelIdeal.nD Cert.KernelIdeal.τ).loc Cert.KernelIdeal.main_arg7))
    (h8 : StableHlo.launchContents m' c (Proc.devRef .tc Cert.ReferenceIdeal.main_arg8) = m ((c : Thread Cert.KernelIdeal.nD Cert.KernelIdeal.τ).loc Cert.KernelIdeal.main_arg8))
    (h14 : StableHlo.launchContents m' c (Proc.devRef .tc Cert.ReferenceIdeal.main_arg14) = m ((c : Thread Cert.KernelIdeal.nD Cert.KernelIdeal.τ).loc Cert.KernelIdeal.main_arg14))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean5 (StableHlo.launchContents m' c)
      = Ideal.div (∑ b : Fin 4096, Cert.KernelIdeal.Fr.relRow m c (5 : Fin 8) b) (Ideal.ofBits .f32 0x45800000#32) := by
  unfold Cert.ReferenceIdeal.Hand.relMean5
  rw [h0, h1, h3, h7, h8, h14]
  refine congrArg (fun s => Ideal.div s (Ideal.ofBits .f32 0x45800000#32)) ?_
  refine Finset.sum_congr rfl (fun b _ => ?_)
  rw [Cert.KernelIdeal.HostVal.krow5 m c hok b]
  rfl

theorem mean6_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h3 : StableHlo.launchContents m' c (Proc.devRef .tc Cert.ReferenceIdeal.main_arg3) = m ((c : Thread Cert.KernelIdeal.nD Cert.KernelIdeal.τ).loc Cert.KernelIdeal.main_arg3))
    (h7 : StableHlo.launchContents m' c (Proc.devRef .tc Cert.ReferenceIdeal.main_arg7) = m ((c : Thread Cert.KernelIdeal.nD Cert.KernelIdeal.τ).loc Cert.KernelIdeal.main_arg7))
    (h8 : StableHlo.launchContents m' c (Proc.devRef .tc Cert.ReferenceIdeal.main_arg8) = m ((c : Thread Cert.KernelIdeal.nD Cert.KernelIdeal.τ).loc Cert.KernelIdeal.main_arg8))
    (h15 : StableHlo.launchContents m' c (Proc.devRef .tc Cert.ReferenceIdeal.main_arg15) = m ((c : Thread Cert.KernelIdeal.nD Cert.KernelIdeal.τ).loc Cert.KernelIdeal.main_arg15))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean6 (StableHlo.launchContents m' c)
      = Ideal.div (∑ b : Fin 4096, Cert.KernelIdeal.Fr.relRow m c (6 : Fin 8) b) (Ideal.ofBits .f32 0x45800000#32) := by
  unfold Cert.ReferenceIdeal.Hand.relMean6
  rw [h0, h1, h3, h7, h8, h15]
  refine congrArg (fun s => Ideal.div s (Ideal.ofBits .f32 0x45800000#32)) ?_
  refine Finset.sum_congr rfl (fun b _ => ?_)
  rw [Cert.KernelIdeal.HostVal.krow6 m c hok b]
  rfl

theorem mean7_eq (c : Dev Cert.KernelIdeal.nD)
    (h0 : StableHlo.launchContents m' c (Proc.devRef .tc Cert.ReferenceIdeal.main_arg0) = m ((c : Thread Cert.KernelIdeal.nD Cert.KernelIdeal.τ).loc Cert.KernelIdeal.main_arg0))
    (h1 : StableHlo.launchContents m' c (Proc.devRef .tc Cert.ReferenceIdeal.main_arg1) = m ((c : Thread Cert.KernelIdeal.nD Cert.KernelIdeal.τ).loc Cert.KernelIdeal.main_arg1))
    (h3 : StableHlo.launchContents m' c (Proc.devRef .tc Cert.ReferenceIdeal.main_arg3) = m ((c : Thread Cert.KernelIdeal.nD Cert.KernelIdeal.τ).loc Cert.KernelIdeal.main_arg3))
    (h7 : StableHlo.launchContents m' c (Proc.devRef .tc Cert.ReferenceIdeal.main_arg7) = m ((c : Thread Cert.KernelIdeal.nD Cert.KernelIdeal.τ).loc Cert.KernelIdeal.main_arg7))
    (h8 : StableHlo.launchContents m' c (Proc.devRef .tc Cert.ReferenceIdeal.main_arg8) = m ((c : Thread Cert.KernelIdeal.nD Cert.KernelIdeal.τ).loc Cert.KernelIdeal.main_arg8))
    (h16 : StableHlo.launchContents m' c (Proc.devRef .tc Cert.ReferenceIdeal.main_arg16) = m ((c : Thread Cert.KernelIdeal.nD Cert.KernelIdeal.τ).loc Cert.KernelIdeal.main_arg16))
    (hok : Cert.Cols.IdxOK (m ((c : Thread Cert.KernelIdeal.nD Cert.KernelIdeal.τ).loc Cert.KernelIdeal.main_arg0)) (m ((c : Thread Cert.KernelIdeal.nD Cert.KernelIdeal.τ).loc Cert.KernelIdeal.main_arg1))) :
    Cert.ReferenceIdeal.Hand.relMean7 (StableHlo.launchContents m' c)
      = Ideal.div (∑ b : Fin 4096, Cert.KernelIdeal.Fr.relRow m c (7 : Fin 8) b) (Ideal.ofBits .f32 0x45800000#32) := by
  unfold Cert.ReferenceIdeal.Hand.relMean7
  rw [h0, h1, h3, h7, h8, h16]
  refine congrArg (fun s => Ideal.div s (Ideal.ofBits .f32 0x45800000#32)) ?_
  refine Finset.sum_congr rfl (fun b _ => ?_)
  rw [Cert.KernelIdeal.HostVal.krow7 m c hok b]
  rfl

end Cert.Proof

end
-- ==== Proof.PreDecode.lean ====
import proofs.«400362_j8907762172017_2_alg».proof.Pre_finite_inputs
import proofs.«400362_j8907762172017_2_alg».proof.Proof.Gen.Pre_finite_inputs
import proofs.«400362_j8907762172017_2_alg».proof.Proof.Cols
import Idealize.ShloMosaic.Lib.ReduceAll
import Idealize.ShloMosaic.Lib.StableHlo.Predicate

set_option maxRecDepth 16384

noncomputable section

namespace Cert.PreDecode

open Idealize.ShloMosaic Cert.Pre_finite_inputs

instance : Subsingleton S_.Idx := ⟨fun a b => funext fun d => d.elim0⟩

theorem andi_apply_eq_one (x y : IVec S_ 1) (j : S_.Idx) : andi x y j = 1#1 ↔ x j = 1#1 ∧ y j = 1#1 :=
  IntOp.andi_eq_one

/-- If the conjunction over all entries of 0 ≤ x and x < n is one, every entry lies in [0, n). -/
theorem range_of_all {s : Shape} {axes : List (Fin s.rank)} (x : IVec s 32) (c : BitVec 32) (n : Nat) (hc : c.toInt = (n : Int))
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 0#32)))
            (cmpi .slt x (broadcastInDim s ![] hb (constantI S_ 32 c))))
          (constantI S_ 1 1#1) hr h0 ValueIdx.ix0 = 1#1) (j : s.Idx) :
    0 ≤ (x j).toInt ∧ (x j).toInt < (n : Int) := by
  have hj := Host.reduce_andi_all _ _ hr h0 _ e j
  have hj' : IntOp.andi (IntOp.cmpi .sge (x j) 0#32) (IntOp.cmpi .slt (x j) c) = 1#1 := hj
  obtain ⟨h1, h2⟩ := IntOp.andi_eq_one.1 hj'
  have h1' := IntOp.cmpi_sge.1 h1
  have h2' := IntOp.cmpi_slt.1 h2
  rw [hc] at h2'
  exact ⟨h1', h2'⟩

/-- The precondition's sixteen range conjuncts bound every index column and row. -/
theorem idxOK_of_pre {F : FTy → Type} [FloatOps F] [Cert.Pre_finite_inputs.Facts]
    (a0 : IVec S4096x8 32) (a1 : IVec S8x256 32)
    (a2 : FVec F S30001x100 .f32) (a3 : FVec F S50001x100 .f32) (a4 : FVec F S100001x100 .f32)
    (a5 : FVec F S5001x100 .f32) (a6 : FVec F S1001x100 .f32) (a7 : FVec F S50001x100 .f32) (a8 : FVec F S8x100 .f32)
    (a9 : FVec F S50001 .f32) (a10 : FVec F S100001 .f32) (a11 : FVec F S100001 .f32) (a12 : FVec F S5001 .f32)
    (a13 : FVec F S1001 .f32) (a14 : FVec F S50001 .f32) (a15 : FVec F S50001 .f32) (a16 : FVec F S50001 .f32)
    (h : Cert.Pre_finite_inputs.fn (F := F) a0 a1 a2 a3 a4 a5 a6 a7 a8 a9 a10 a11 a12 a13 a14 a15 a16 = fun _ => 1#1) :
    Cert.Cols.IdxOK a0 a1 := by
  have e := congrFun h ValueIdx.ix0
  dsimp only [fn, fn_part1, fn_part2, fn_part3, fn_part4, fn_part5, fn_part6, fn_part7, fn_part8, fn_part9, fn_part10,
    fn_part11, fn_part12, fn_part13] at e
  simp only [andi_apply_eq_one] at e
  obtain ⟨⟨⟨⟨⟨⟨⟨⟨⟨⟨⟨⟨⟨⟨⟨⟨-, b0⟩, b1⟩, b2⟩, b3⟩, b4⟩, b5⟩, b6⟩, b7⟩, n0⟩, n1⟩, n2⟩, n3⟩, n4⟩, n5⟩, n6⟩, n7⟩ := e
  refine ⟨fun k j => ?_, fun r j => ?_⟩
  · match k with
    | 0 => exact range_of_all _ _ 30001 (by decide) _ _ _ b0 j
    | 1 => exact range_of_all _ _ 50001 (by decide) _ _ _ b1 j
    | 2 => exact range_of_all _ _ 100001 (by decide) _ _ _ b2 j
    | 3 => exact range_of_all _ _ 5001 (by decide) _ _ _ b3 j
    | 4 => exact range_of_all _ _ 1001 (by decide) _ _ _ b4 j
    | 5 => exact range_of_all _ _ 50001 (by decide) _ _ _ b5 j
    | 6 => exact range_of_all _ _ 50001 (by decide) _ _ _ b6 j
    | 7 => exact range_of_all _ _ 50001 (by decide) _ _ _ b7 j
  · match r with
    | 0 => exact range_of_all _ _ 50001 (by decide) _ _ _ n0 j
    | 1 => exact range_of_all _ _ 100001 (by decide) _ _ _ n1 j
    | 2 => exact range_of_all _ _ 100001 (by decide) _ _ _ n2 j
    | 3 => exact range_of_all _ _ 5001 (by decide) _ _ _ n3 j
    | 4 => exact range_of_all _ _ 1001 (by decide) _ _ _ n4 j
    | 5 => exact range_of_all _ _ 50001 (by decide) _ _ _ n5 j
    | 6 => exact range_of_all _ _ 50001 (by decide) _ _ _ n6 j
    | 7 => exact range_of_all _ _ 50001 (by decide) _ _ _ n7 j

end Cert.PreDecode

end
-- ==== Proof.Consts.lean ====
import Idealize.ShloMosaic.PureOps.Ideal

noncomputable section

namespace Cert.Consts

open Idealize.ShloMosaic

theorem ofBits_zero : Ideal.ofBits .f32 0#32 = 0 := by
  simp [Ideal.ofBits, Ideal.ieee]

/-- The word 0x45800000 denotes the real 4096. -/
theorem ofBits_4096 : Ideal.ofBits .f32 0x45800000#32 = ((4096 : ℝ) : EReal) := by
  simp [Ideal.ofBits, Ideal.ieee, -EReal.coe_mul]; norm_num

/-- Dividing an extended real by 4096 is multiplying it by the real 1/4096. -/
theorem div_4096 (x : EReal) :
    Ideal.div x (Ideal.ofBits .f32 0x45800000#32) = x * (((1 / 4096 : ℝ)) : EReal) := by
  rw [ofBits_4096]
  exact Ideal.div_coe (by norm_num) x

theorem scale_nonneg : (0 : EReal) ≤ (((1 / 4096 : ℝ)) : EReal) := by
  exact_mod_cast (by norm_num : (0 : ℝ) ≤ 1 / 4096)

theorem scale_ne_top : (((1 / 4096 : ℝ)) : EReal) ≠ ⊤ := EReal.coe_ne_top _

end Cert.Consts

end
-- ==== Proof.Bridge.lean ====
import proofs.«400362_j8907762172017_2_alg».proof.Defs
import proofs.«400362_j8907762172017_2_alg».proof.Proof.Gen.Kernel
import proofs.«400362_j8907762172017_2_alg».proof.Proof.Gen.KernelIdeal
import proofs.«400362_j8907762172017_2_alg».proof.Proof.Gen.ReferenceIdeal
import proofs.«400362_j8907762172017_2_alg».proof.Proof.Gen.Pre_finite_inputs
import proofs.«400362_j8907762172017_2_alg».proof.Proof.KIValueRun
import proofs.«400362_j8907762172017_2_alg».proof.Proof.KITotals
import proofs.«400362_j8907762172017_2_alg».proof.Proof.BridgeMeans
import proofs.«400362_j8907762172017_2_alg».proof.Proof.RI.Run
import proofs.«400362_j8907762172017_2_alg».proof.Proof.RI.Result
import proofs.«400362_j8907762172017_2_alg».proof.Proof.PreDecode
import proofs.«400362_j8907762172017_2_alg».proof.Proof.Algebra
import proofs.«400362_j8907762172017_2_alg».proof.Proof.Consts

noncomputable section

open scoped BigOperators

namespace Cert.Proof

open Idealize.ShloMosaic Idealize.ShloMosaic.TcCoe Idealize.SL.Sem

/-- The kernel's result is the sum over relations and rows of the row losses, from zero, divided by 4096. -/
theorem kernel_result (m : (ℓ : Loc Cert.KernelIdeal.nD Cert.KernelIdeal.τ Cert.KernelIdeal.sig) → Buf (Elt Ideal) ℓ) (c : Dev Cert.KernelIdeal.nD) :
    Cert.KernelIdeal.Fr.result m c
      = Ideal.div (0 + ∑ r : Fin 8, ∑ b : Fin 4096, Cert.KernelIdeal.Fr.relRow m c r b) (Ideal.ofBits .f32 0x45800000#32) := by
  unfold Cert.KernelIdeal.Fr.result
  refine congrArg (fun s => Ideal.div (0 + s) (Ideal.ofBits .f32 0x45800000#32)) ?_
  exact Finset.sum_congr rfl (fun r _ => Cert.KernelIdeal.Fr.pair_total m c r)

/-- Both programs gather the same rows, so each mean is the matching total times 1/4096, and that factor distributes over the eight totals. -/
theorem algebraic : Cert.algebraic_KernelIdeal_ReferenceIdeal := by
  intro m g m' g' hpre hagree
  have hok : ∀ c : Dev Cert.KernelIdeal.nD, Cert.Cols.IdxOK
      (m ((c : Thread Cert.KernelIdeal.nD Cert.KernelIdeal.τ).loc Cert.KernelIdeal.main_arg0))
      (m ((c : Thread Cert.KernelIdeal.nD Cert.KernelIdeal.τ).loc Cert.KernelIdeal.main_arg1)) := fun c =>
    Cert.PreDecode.idxOK_of_pre _ _ _ _ _ _ _ _ _ _ _ _ _ _ _ _ _ (hpre c)
  refine ⟨fun c => (fun _ => Cert.KernelIdeal.Fr.result m c), Cert.KernelIdeal.Fr.run_value m g, ?_⟩
  refine (θ_run (Cert.ReferenceIdeal.defs (F := Ideal)) _ _).mono (fun r h c => ⟨?_,
      (h c _).trans (Cert.ReferenceIdeal.Hand.kept_arg0 _),
      (h c _).trans (Cert.ReferenceIdeal.Hand.kept_arg1 _),
      (h c _).trans (Cert.ReferenceIdeal.Hand.kept_arg2 _),
      (h c _).trans (Cert.ReferenceIdeal.Hand.kept_arg3 _),
      (h c _).trans (Cert.ReferenceIdeal.Hand.kept_arg4 _),
      (h c _).trans (Cert.ReferenceIdeal.Hand.kept_arg5 _),
      (h c _).trans (Cert.ReferenceIdeal.Hand.kept_arg6 _),
      (h c _).trans (Cert.ReferenceIdeal.Hand.kept_arg7 _),
      (h c _).trans (Cert.ReferenceIdeal.Hand.kept_arg8 _),
      (h c _).trans (Cert.ReferenceIdeal.Hand.kept_arg9 _),
      (h c _).trans (Cert.ReferenceIdeal.Hand.kept_arg10 _),
      (h c _).trans (Cert.ReferenceIdeal.Hand.kept_arg11 _),
      (h c _).trans (Cert.ReferenceIdeal.Hand.kept_arg12 _),
      (h c _).trans (Cert.ReferenceIdeal.Hand.kept_arg13 _),
      (h c _).trans (Cert.ReferenceIdeal.Hand.kept_arg14 _),
      (h c _).trans (Cert.ReferenceIdeal.Hand.kept_arg15 _),
      (h c _).trans (Cert.ReferenceIdeal.Hand.kept_arg16 _)⟩)
    (Cert.ReferenceIdeal.Hand.run m' g')
  rw [h c Cert.ReferenceIdeal.main_v447, Cert.ReferenceIdeal.Hand.result_val]
  funext _
  show (_ : EReal) = Cert.KernelIdeal.Fr.result m c
  rw [kernel_result m c, Cert.Consts.div_4096,
    Cert.Algebra.scaled_total _ _ Cert.Consts.scale_nonneg Cert.Consts.scale_ne_top]
  rw [mean0_eq m m' c (hagree c).1 (hagree c).2.1 (hagree c).2.2.1 (hagree c).2.2.2.1 (hagree c).2.2.2.2.2.2.2.2.1 (hagree c).2.2.2.2.2.2.2.2.2.1 (hok c), Cert.Consts.div_4096]
  rw [mean1_eq m m' c (hagree c).1 (hagree c).2.1 (hagree c).2.2.1 (hagree c).2.2.2.2.1 (hagree c).2.2.2.2.2.2.2.2.1 (hagree c).2.2.2.2.2.2.2.2.2.2.1 (hok c), Cert.Consts.div_4096]
  rw [mean2_eq m m' c (hagree c).1 (hagree c).2.1 (hagree c).2.2.2.1 (hagree c).2.2.2.2.1 (hagree c).2.2.2.2.2.2.2.2.1 (hagree c).2.2.2.2.2.2.2.2.2.2.2.1 (hok c), Cert.Consts.div_4096]
  rw [mean3_eq m m' c (hagree c).1 (hagree c).2.1 (hagree c).2.2.2.1 (hagree c).2.2.2.2.2.1 (hagree c).2.2.2.2.2.2.2.2.1 (hagree c).2.2.2.2.2.2.2.2.2.2.2.2.1 (hok c), Cert.Consts.div_4096]
  rw [mean4_eq m m' c (hagree c).1 (hagree c).2.1 (hagree c).2.2.2.1 (hagree c).2.2.2.2.2.2.1 (hagree c).2.2.2.2.2.2.2.2.1 (hagree c).2.2.2.2.2.2.2.2.2.2.2.2.2.1 (hok c), Cert.Consts.div_4096]
  rw [mean5_eq m m' c (hagree c).1 (hagree c).2.1 (hagree c).2.2.2.1 (hagree c).2.2.2.2.2.2.2.1 (hagree c).2.2.2.2.2.2.2.2.1 (hagree c).2.2.2.2.2.2.2.2.2.2.2.2.2.2.1 (hok c), Cert.Consts.div_4096]
  rw [mean6_eq m m' c (hagree c).1 (hagree c).2.1 (hagree c).2.2.2.1 (hagree c).2.2.2.2.2.2.2.1 (hagree c).2.2.2.2.2.2.2.2.1 (hagree c).2.2.2.2.2.2.2.2.2.2.2.2.2.2.2.1 (hok c), Cert.Consts.div_4096]
  rw [mean7_eq m m' c (hagree c).1 (hagree c).2.1 (hagree c).2.2.2.1 (hagree c).2.2.2.2.2.2.2.1 (hagree c).2.2.2.2.2.2.2.2.1 (hagree c).2.2.2.2.2.2.2.2.2.2.2.2.2.2.2.2 (hok c), Cert.Consts.div_4096]

end Cert.Proof

end
-- ==== Proof.lean ====
import proofs.«400362_j8907762172017_2_alg».proof.Defs
import proofs.«400362_j8907762172017_2_alg».proof.Proof.Gen.Kernel
import proofs.«400362_j8907762172017_2_alg».proof.Proof.Gen.KernelIdeal
import proofs.«400362_j8907762172017_2_alg».proof.Proof.Gen.ReferenceIdeal
import proofs.«400362_j8907762172017_2_alg».proof.Proof.Gen.Pre_finite_inputs
import proofs.«400362_j8907762172017_2_alg».proof.Proof.KFrame.Frame
import proofs.«400362_j8907762172017_2_alg».proof.Proof.KIFrame.Frame
import proofs.«400362_j8907762172017_2_alg».proof.Proof.RI.Run
import proofs.«400362_j8907762172017_2_alg».proof.Proof.Bridge

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m g _ => Cert.ReferenceIdeal.Hand.frame m g

/-- The five conjuncts: three frames, the empty idealization ledger, and the value equality on the extended reals. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
